-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![48, 48, 48]⟩ ⟨3, ![96, 96, 192]⟩ (Layout.meshBlock [2, 2, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![48, 48, 48]⟩ ⟨3, ![96, 96, 192]⟩ (Layout.meshBlock [2, 2, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S48x48x48 : Shape := ⟨3, ![48, 48, 48]⟩
abbrev S_ : Shape := ⟨0, ![]⟩

class Facts : Prop where
  bcast_S_S48x48x48 : S_.BroadcastsInDim S48x48x48 (![] : Fin 0 → Fin S48x48x48.rank)
  reducesTo_S48x48x48_S_d0_1_2 : S48x48x48.ReducesTo [0, 1, 2] S_
  h_S_ : 0 < S_.numel

variable [Facts]

def fn {F : FTy → Type} [FloatOps F] (main_arg0 : FVec F S48x48x48 .f32) : IVec S_ 1 :=
  let main_v0 : FVec F S48x48x48 .f32 := Host.absf main_arg0
  let main_cst : FVec F S_ .f32 := constant S_ .f32 0x7F800000#32
  let main_v1 : FVec F S48x48x48 .f32 := broadcastInDim S48x48x48 ![] bcast_S_S48x48x48 main_cst
  let main_v2 : IVec S48x48x48 1 := cmpf .olt main_v0 main_v1
  let main_c : IVec S_ 1 := constantI S_ 1 1#1
  let main_v3 : IVec S_ 1 := (fun x v => Host.reduce IntOp.andi x v reducesTo_S48x48x48_S_d0_1_2 h_S_) main_v2 main_c
  main_v3
-- ==== Pre_finite_inputs_ReferenceIdeal.lean ====
abbrev S96x96x192 : Shape := ⟨3, ![96, 96, 192]⟩
abbrev S_ : Shape := ⟨0, ![]⟩

class Facts : Prop where
  bcast_S_S96x96x192 : S_.BroadcastsInDim S96x96x192 (![] : Fin 0 → Fin S96x96x192.rank)
  reducesTo_S96x96x192_S_d0_1_2 : S96x96x192.ReducesTo [0, 1, 2] S_
  h_S_ : 0 < S_.numel

variable [Facts]

def fn {F : FTy → Type} [FloatOps F] (main_arg0 : FVec F S96x96x192 .f32) : IVec S_ 1 :=
  let main_v0 : FVec F S96x96x192 .f32 := Host.absf main_arg0
  let main_cst : FVec F S_ .f32 := constant S_ .f32 0x7F800000#32
  let main_v1 : FVec F S96x96x192 .f32 := broadcastInDim S96x96x192 ![] bcast_S_S96x96x192 main_cst
  let main_v2 : IVec S96x96x192 1 := cmpf .olt main_v0 main_v1
  let main_c : IVec S_ 1 := constantI S_ 1 1#1
  let main_v3 : IVec S_ 1 := (fun x v => Host.reduce IntOp.andi x v reducesTo_S96x96x192_S_d0_1_2 h_S_) main_v2 main_c
  main_v3
-- ==== Kernel.lean ====
abbrev S48x48x48 : Shape := ⟨3, ![48, 48, 48]⟩
abbrev S6x48x48 : Shape := ⟨3, ![6, 48, 48]⟩
abbrev S6 : Shape := ⟨1, ![6]⟩
abbrev S_ : Shape := ⟨0, ![]⟩
abbrev S1x48x48 : Shape := ⟨3, ![1, 48, 48]⟩
abbrev S48x48 : Shape := ⟨2, ![48, 48]⟩
abbrev S48x1x48 : Shape := ⟨3, ![48, 1, 48]⟩
abbrev S48x48x1 : Shape := ⟨3, ![48, 48, 1]⟩
abbrev S1 : Shape := ⟨1, ![1]⟩
abbrev S47x48x48 : Shape := ⟨3, ![47, 48, 48]⟩
abbrev S48x47x48 : Shape := ⟨3, ![48, 47, 48]⟩
abbrev S48x48x47 : Shape := ⟨3, ![48, 48, 47]⟩
abbrev S48x2x48 : Shape := ⟨3, ![48, 2, 48]⟩

abbrev nBuf : Space → Nat
  | .hbm => 2
  | .vmem => 4
  | .smem => 0
  | _ => 0

abbrev bufTy : (tb : Table) → Fin (tcTables nBuf tb) → BufTy
  | .hbm, ⟨0, _⟩ => ⟨S48x48x48, .f32⟩
  | .hbm, ⟨1, _⟩ => ⟨S48x48x48, .bf16⟩
  | .local _ .vmem, ⟨0, _⟩ => ⟨S48x48x48, .f32⟩
  | .local _ .vmem, ⟨1, _⟩ => ⟨S48x48x48, .bf16⟩
  | .local _ .vmem, ⟨2, _⟩ => ⟨S6x48x48, .bf16⟩
  | .local _ .vmem, ⟨3, _⟩ => ⟨S6x48x48, .bf16⟩
  | _, _ => ⟨S48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_2 v2
  let c8_i32_4 : BitVec 32 := 8#32
  let v11 : BitVec 32 := Scalar.muli v10 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v17 : BitVec 32 := Scalar.subi c1_i32_7 v5
  let c4_i32_11 : BitVec 32 := 4#32
  let v20 : BitVec 32 := Scalar.muli v17 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_13 : BitVec 32 := 0#32
  let v24 : BitVec 1 := Scalar.cmpi .sgt v8 c0_i32_13
  let v25 : BitVec 32 := Scalar.extui v24
  let c0_i32_14 : BitVec 32 := 0#32
  let v26 : BitVec 1 := Scalar.cmpi .ne v25 c0_i32_14
  v26

def k0_dev3 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v194 : BitVec 32 := Scalar.muli v2 c8_i32_109
  let v195 : BitVec 32 := Scalar.addi c0_i32_110 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v196 : BitVec 32 := Scalar.muli v5 c4_i32_111
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v193 : BitVec 32 := Scalar.subi v8 c1_i32_107
  let c1_i32_112 : BitVec 32 := 1#32
  let v198 : BitVec 32 := Scalar.muli v193 c1_i32_112
  let v199 : BitVec 32 := Scalar.addi v197 v198
  v199.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v30 : BitVec 1 := Scalar.cmpi .slt v8 c3_i32
  let v31 : BitVec 32 := Scalar.extui v30
  let c0_i32_17 : BitVec 32 := 0#32
  let v32 : BitVec 1 := Scalar.cmpi .ne v31 c0_i32_17
  v32

def k0_dev4 (d0 : Dev nD) : Nat :=
  let c0_i32_110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_109 : BitVec 32 := 8#32
  let v194 : BitVec 32 := Scalar.muli v2 c8_i32_109
  let v195 : BitVec 32 := Scalar.addi c0_i32_110 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_111 : BitVec 32 := 4#32
  let v196 : BitVec 32 := Scalar.muli v5 c4_i32_111
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v193 : BitVec 32 := Scalar.addi v8 c1_i32_107
  let c1_i32_112 : BitVec 32 := 1#32
  let v198 : BitVec 32 := Scalar.muli v193 c1_i32_112
  let v199 : BitVec 32 := Scalar.addi v197 v198
  v199.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_50 : BitVec 32 := 0#32
  let v72 : BitVec 1 := Scalar.cmpi .eq v2 c0_i32_50
  let v73 : BitVec 32 := Scalar.extui v72
  let c0_i32_51 : BitVec 32 := 0#32
  let v74 : BitVec 1 := Scalar.cmpi .ne v73 c0_i32_51
  v74

def k0_dev5 (d0 : Dev nD) : Nat :=
  let c0_i32_113 : BitVec 32 := 0#32
  let c1_i32_111 : BitVec 32 := 1#32
  let c8_i32_112 : BitVec 32 := 8#32
  let v193 : BitVec 32 := Scalar.muli c1_i32_111 c8_i32_112
  let v194 : BitVec 32 := Scalar.addi c0_i32_113 v193
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v195 : BitVec 32 := Scalar.muli v5 c4_i32_114
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v197 : BitVec 32 := Scalar.muli v8 c1_i32_115
  let v198 : BitVec 32 := Scalar.addi v196 v197
  v198.toNat
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_52 : BitVec 32 := 1#32
  let v75 : BitVec 1 := Scalar.cmpi .eq v2 c1_i32_52
  let v76 : BitVec 32 := Scalar.extui v75
  let c0_i32_53 : BitVec 32 := 0#32
  let v77 : BitVec 1 := Scalar.cmpi .ne v76 c0_i32_53
  v77

def k0_dev6 (d0 : Dev nD) : Nat :=
  let c0_i32_113 : BitVec 32 := 0#32
  let c0_i32_111 : BitVec 32 := 0#32
  let c8_i32_112 : BitVec 32 := 8#32
  let v193 : BitVec 32 := Scalar.muli c0_i32_111 c8_i32_112
  let v194 : BitVec 32 := Scalar.addi c0_i32_113 v193
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_114 : BitVec 32 := 4#32
  let v195 : BitVec 32 := Scalar.muli v5 c4_i32_114
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v197 : BitVec 32 := Scalar.muli v8 c1_i32_115
  let v198 : BitVec 32 := Scalar.addi v196 v197
  v198.toNat
def k0_cond7 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_54 : BitVec 32 := 0#32
  let v78 : BitVec 1 := Scalar.cmpi .eq v5 c0_i32_54
  let v79 : BitVec 32 := Scalar.extui v78
  let c0_i32_55 : BitVec 32 := 0#32
  let v80 : BitVec 1 := Scalar.cmpi .ne v79 c0_i32_55
  v80

def k0_dev7 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v193 : BitVec 32 := Scalar.muli v2 c8_i32_112
  let v194 : BitVec 32 := Scalar.addi c0_i32_113 v193
  let c1_i32_111 : BitVec 32 := 1#32
  let c4_i32_114 : BitVec 32 := 4#32
  let v195 : BitVec 32 := Scalar.muli c1_i32_111 c4_i32_114
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v197 : BitVec 32 := Scalar.muli v8 c1_i32_115
  let v198 : BitVec 32 := Scalar.addi v196 v197
  v198.toNat
def k0_cond8 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_56 : BitVec 32 := 1#32
  let v81 : BitVec 1 := Scalar.cmpi .eq v5 c1_i32_56
  let v82 : BitVec 32 := Scalar.extui v81
  let c0_i32_57 : BitVec 32 := 0#32
  let v83 : BitVec 1 := Scalar.cmpi .ne v82 c0_i32_57
  v83

def k0_dev8 (d0 : Dev nD) : Nat :=
  let c0_i32_113 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_112 : BitVec 32 := 8#32
  let v193 : BitVec 32 := Scalar.muli v2 c8_i32_112
  let v194 : BitVec 32 := Scalar.addi c0_i32_113 v193
  let c0_i32_111 : BitVec 32 := 0#32
  let c4_i32_114 : BitVec 32 := 4#32
  let v195 : BitVec 32 := Scalar.muli c0_i32_111 c4_i32_114
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v197 : BitVec 32 := Scalar.muli v8 c1_i32_115
  let v198 : BitVec 32 := Scalar.addi v196 v197
  v198.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_58 : BitVec 32 := 0#32
  let v84 : BitVec 1 := Scalar.cmpi .sgt v8 c0_i32_58
  let v85 : BitVec 32 := Scalar.extui v84
  let c0_i32_59 : BitVec 32 := 0#32
  let v86 : BitVec 1 := Scalar.cmpi .ne v85 c0_i32_59
  v86

def k0_dev9 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v194 : BitVec 32 := Scalar.muli v2 c8_i32_111
  let v195 : BitVec 32 := Scalar.addi c0_i32_112 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v196 : BitVec 32 := Scalar.muli v5 c4_i32_113
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v193 : BitVec 32 := Scalar.subi v8 c1_i32_107
  let c1_i32_114 : BitVec 32 := 1#32
  let v198 : BitVec 32 := Scalar.muli v193 c1_i32_114
  let v199 : BitVec 32 := Scalar.addi v197 v198
  v199.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_60 : BitVec 32 := 3#32
  let v87 : BitVec 1 := Scalar.cmpi .slt v8 c3_i32_60
  let v88 : BitVec 32 := Scalar.extui v87
  let c0_i32_61 : BitVec 32 := 0#32
  let v89 : BitVec 1 := Scalar.cmpi .ne v88 c0_i32_61
  v89

def k0_dev10 (d0 : Dev nD) : Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_111 : BitVec 32 := 8#32
  let v194 : BitVec 32 := Scalar.muli v2 c8_i32_111
  let v195 : BitVec 32 := Scalar.addi c0_i32_112 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v196 : BitVec 32 := Scalar.muli v5 c4_i32_113
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v193 : BitVec 32 := Scalar.addi v8 c1_i32_107
  let c1_i32_114 : BitVec 32 := 1#32
  let v198 : BitVec 32 := Scalar.muli v193 c1_i32_114
  let v199 : BitVec 32 := Scalar.addi v197 v198
  v199.toNat
abbrev stage0_0 : Fin 1 → Memref sig .tc .vmem S48x48x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x48x48 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S48x48x48_S1x48x48_0_0_0 : ∀ a, (![0, 0, 0] : Fin 3 → Nat) a + S1x48x48.size a ≤ S48x48x48.size a
  h_S1x48x48 : 0 < S1x48x48.numel
  shapeCasts_S1x48x48_S48x48 : S1x48x48.ShapeCasts S48x48
  bitsLt_bf16_f32 : FTy.bits .bf16 < FTy.bits .f32
  inb_S6x48x48_S1x48x48_0_0_0 : ∀ a, (![0, 0, 0] : Fin 3 → Nat) a + S1x48x48.size a ≤ S6x48x48.size a
  shapeCasts_S48x48_S1x48x48 : S48x48.ShapeCasts S1x48x48
  packedbf16_S6x48x48_S1x48x48_0_0_0 : (Rect.unit (s := S6x48x48) ![0, 0, 0] S1x48x48.size inb_S6x48x48_S1x48x48_0_0_0).PackedRows (EltTy.packing .bf16)
  inb_S48x48x48_S1x48x48_47_0_0 : ∀ a, (![47, 0, 0] : Fin 3 → Nat) a + S1x48x48.size a ≤ S48x48x48.size a
  inb_S6x48x48_S1x48x48_1_0_0 : ∀ a, (![1, 0, 0] : Fin 3 → Nat) a + S1x48x48.size a ≤ S6x48x48.size a
  packedbf16_S6x48x48_S1x48x48_1_0_0 : (Rect.unit (s := S6x48x48) ![1, 0, 0] S1x48x48.size inb_S6x48x48_S1x48x48_1_0_0).PackedRows (EltTy.packing .bf16)
  inb_S48x48x48_S48x1x48_0_0_0 : ∀ a, (![0, 0, 0] : Fin 3 → Nat) a + S48x1x48.size a ≤ S48x48x48.size a
  h_S48x1x48 : 0 < S48x1x48.numel
  shapeCasts_S48x1x48_S48x48 : S48x1x48.ShapeCasts S48x48
  inb_S6x48x48_S1x48x48_2_0_0 : ∀ a, (![2, 0, 0] : Fin 3 → Nat) a + S1x48x48.size a ≤ S6x48x48.size a
  packedbf16_S6x48x48_S1x48x48_2_0_0 : (Rect.unit (s := S6x48x48) ![2, 0, 0] S1x48x48.size inb_S6x48x48_S1x48x48_2_0_0).PackedRows (EltTy.packing .bf16)
  inb_S48x48x48_S48x1x48_0_47_0 : ∀ a, (![0, 47, 0] : Fin 3 → Nat) a + S48x1x48.size a ≤ S48x48x48.size a
  inb_S6x48x48_S1x48x48_3_0_0 : ∀ a, (![3, 0, 0] : Fin 3 → Nat) a + S1x48x48.size a ≤ S6x48x48.size a
  packedbf16_S6x48x48_S1x48x48_3_0_0 : (Rect.unit (s := S6x48x48) ![3, 0, 0] S1x48x48.size inb_S6x48x48_S1x48x48_3_0_0).PackedRows (EltTy.packing .bf16)
  inb_S48x48x48_S48x48x1_0_0_0 : ∀ a, (![0, 0, 0] : Fin 3 → Nat) a + S48x48x1.size a ≤ S48x48x48.size a
  h_S48x48x1 : 0 < S48x48x1.numel
  shapeCasts_S48x48x1_S48x48 : S48x48x1.ShapeCasts S48x48
  inb_S6x48x48_S1x48x48_4_0_0 : ∀ a, (![4, 0, 0] : Fin 3 → Nat) a + S1x48x48.size a ≤ S6x48x48.size a
  packedbf16_S6x48x48_S1x48x48_4_0_0 : (Rect.unit (s := S6x48x48) ![4, 0, 0] S1x48x48.size inb_S6x48x48_S1x48x48_4_0_0).PackedRows (EltTy.packing .bf16)
  inb_S48x48x48_S48x48x1_0_0_47 : ∀ a, (![0, 0, 47] : Fin 3 → Nat) a + S48x48x1.size a ≤ S48x48x48.size a
  inb_S6x48x48_S1x48x48_5_0_0 : ∀ a, (![5, 0, 0] : Fin 3 → Nat) a + S1x48x48.size a ≤ S6x48x48.size a
  packedbf16_S6x48x48_S1x48x48_5_0_0 : (Rect.unit (s := S6x48x48) ![5, 0, 0] S1x48x48.size inb_S6x48x48_S1x48x48_5_0_0).PackedRows (EltTy.packing .bf16)
  hamt_4 : (4#32 : BitVec 32).msb = false
  inb_S6_S1_1 : ∀ a, (![1] : Fin 1 → Nat) a + S1.size a ≤ S6.size a
  squeezes_S1_S_ : S1.Squeezes S_
  inb_S6_S1_0 : ∀ a, (![0] : Fin 1 → Nat) a + S1.size a ≤ S6.size a
  squeezes_S1x48x48_S48x48 : S1x48x48.Squeezes S48x48
  wordsbf16_S6x48x48_S1x48x48_1_0_0 : (Rect.unit (s := S6x48x48) ![1, 0, 0] S1x48x48.size inb_S6x48x48_S1x48x48_1_0_0).WholeWords (EltTy.packing .bf16)
  wordsbf16_S6x48x48_S1x48x48_0_0_0 : (Rect.unit (s := S6x48x48) ![0, 0, 0] S1x48x48.size inb_S6x48x48_S1x48x48_0_0_0).WholeWords (EltTy.packing .bf16)
  inb_S6_S1_3 : ∀ a, (![3] : Fin 1 → Nat) a + S1.size a ≤ S6.size a
  inb_S6_S1_2 : ∀ a, (![2] : Fin 1 → Nat) a + S1.size a ≤ S6.size a
  wordsbf16_S6x48x48_S1x48x48_3_0_0 : (Rect.unit (s := S6x48x48) ![3, 0, 0] S1x48x48.size inb_S6x48x48_S1x48x48_3_0_0).WholeWords (EltTy.packing .bf16)
  wordsbf16_S6x48x48_S1x48x48_2_0_0 : (Rect.unit (s := S6x48x48) ![2, 0, 0] S1x48x48.size inb_S6x48x48_S1x48x48_2_0_0).WholeWords (EltTy.packing .bf16)
  inb_S6_S1_4 : ∀ a, (![4] : Fin 1 → Nat) a + S1.size a ≤ S6.size a
  inb_S6_S1_5 : ∀ a, (![5] : Fin 1 → Nat) a + S1.size a ≤ S6.size a
  wordsbf16_S6x48x48_S1x48x48_4_0_0 : (Rect.unit (s := S6x48x48) ![4, 0, 0] S1x48x48.size inb_S6x48x48_S1x48x48_4_0_0).WholeWords (EltTy.packing .bf16)
  wordsbf16_S6x48x48_S1x48x48_5_0_0 : (Rect.unit (s := S6x48x48) ![5, 0, 0] S1x48x48.size inb_S6x48x48_S1x48x48_5_0_0).WholeWords (EltTy.packing .bf16)
  inb_S48x48x48_S48x48x48_0_0_0 : ∀ a, (![0, 0, 0] : Fin 3 → Nat) a + S48x48x48.size a ≤ S48x48x48.size a
  h_S48x48x48 : 0 < S48x48x48.numel
  shapeCasts_S48x48x48_S48x48x48 : S48x48x48.ShapeCasts S48x48x48
  slices_S48x48x48_o0_0_0_S47x48x48 : S48x48x48.Slices ![0, 0, 0] S47x48x48
  concatenates_S1x48x48_S47x48x48_S48x48x48_d0 : Shape.Concatenates [S1x48x48, S47x48x48] S48x48x48 0
  slices_S48x48x48_o1_0_0_S47x48x48 : S48x48x48.Slices ![1, 0, 0] S47x48x48
  concatenates_S47x48x48_S1x48x48_S48x48x48_d0 : Shape.Concatenates [S47x48x48, S1x48x48] S48x48x48 0
  slices_S48x48x48_o0_0_0_S48x47x48 : S48x48x48.Slices ![0, 0, 0] S48x47x48
  concatenates_S48x1x48_S48x47x48_S48x48x48_d1 : Shape.Concatenates [S48x1x48, S48x47x48] S48x48x48 1
  slices_S48x48x48_o0_1_0_S48x47x48 : S48x48x48.Slices ![0, 1, 0] S48x47x48
  concatenates_S48x47x48_S48x1x48_S48x48x48_d1 : Shape.Concatenates [S48x47x48, S48x1x48] S48x48x48 1
  slices_S48x48x48_o0_0_0_S48x48x47 : S48x48x48.Slices ![0, 0, 0] S48x48x47
  concatenates_S48x48x1_S48x48x47_S48x48x48_d2 : Shape.Concatenates [S48x48x1, S48x48x47] S48x48x48 2
  slices_S48x48x48_o0_0_1_S48x48x47 : S48x48x48.Slices ![0, 0, 1] S48x48x47
  concatenates_S48x48x47_S48x48x1_S48x48x48_d2 : Shape.Concatenates [S48x48x47, S48x48x1] S48x48x48 2
  iota_S48x48x48_d0_w32 : S48x48x48.Iotas .tc 32 [0]
  iota_S48x48x48_d1_w32 : S48x48x48.Iotas .tc 32 [1]
  iota_S48x48x48_d2_w32 : S48x48x48.Iotas .tc 32 [2]
  packedbf16_S48x48x48_S48x48x48_0_0_0 : (Rect.unit (s := S48x48x48) ![0, 0, 0] S48x48x48.size inb_S48x48x48_S48x48x48_0_0_0).PackedRows (EltTy.packing .bf16)
  iota_S48x48_d0_w32 : S48x48.Iotas .tc 32 [0]
  iota_S48x48_d1_w32 : S48x48.Iotas .tc 32 [1]
  packedbf16_S48x48x48_S1x48x48_0_0_0 : (Rect.unit (s := S48x48x48) ![0, 0, 0] S1x48x48.size inb_S48x48x48_S1x48x48_0_0_0).PackedRows (EltTy.packing .bf16)
  packedbf16_S48x48x48_S1x48x48_47_0_0 : (Rect.unit (s := S48x48x48) ![47, 0, 0] S1x48x48.size inb_S48x48x48_S1x48x48_47_0_0).PackedRows (EltTy.packing .bf16)
  shapeCasts_S48x48_S48x1x48 : S48x48.ShapeCasts S48x1x48
  inb_S48x48x48_S48x2x48_0_0_0 : ∀ a, (![0, 0, 0] : Fin 3 → Nat) a + S48x2x48.size a ≤ S48x48x48.size a
  h_S48x2x48 : 0 < S48x2x48.numel
  slices_S48x2x48_S48x1x48_0_0_0 : S48x2x48.Slices ![0, 0, 0] S48x1x48
  packedbf16_S48x48x48_S48x2x48_0_0_0 : (Rect.unit (s := S48x48x48) ![0, 0, 0] S48x2x48.size inb_S48x48x48_S48x2x48_0_0_0).PackedRows (EltTy.packing .bf16)
  inb_S48x48x48_S48x2x48_0_46_0 : ∀ a, (![0, 46, 0] : Fin 3 → Nat) a + S48x2x48.size a ≤ S48x48x48.size a
  slices_S48x2x48_S48x1x48_0_1_0 : S48x2x48.Slices ![0, 1, 0] S48x1x48
  packedbf16_S48x48x48_S48x2x48_0_46_0 : (Rect.unit (s := S48x48x48) ![0, 46, 0] S48x2x48.size inb_S48x48x48_S48x2x48_0_46_0).PackedRows (EltTy.packing .bf16)
  shapeCasts_S48x48_S48x48x1 : S48x48.ShapeCasts S48x48x1
  packedbf16_S48x48x48_S48x48x1_0_0_0 : (Rect.unit (s := S48x48x48) ![0, 0, 0] S48x48x1.size inb_S48x48x48_S48x48x1_0_0_0).PackedRows (EltTy.packing .bf16)
  packedbf16_S48x48x48_S48x48x1_0_0_47 : (Rect.unit (s := S48x48x48) ![0, 0, 47] S48x48x1.size inb_S48x48x48_S48x48x1_0_0_47).PackedRows (EltTy.packing .bf16)
  hcc0_scratch2 : 2 + S6.numel ≤ 14
  hcc0_scratch3 : 8 + S6.numel ≤ 14
  k0_dev1_lt : ∀ d0 : Dev nD, (k0_dev1 d0) < nD
  k0_dev2_lt : ∀ d0 : Dev nD, (k0_dev2 d0) < nD
  k0_dev3_lt : ∀ d0 : Dev nD, ∀ (k0_h1 : k0_cond1 d0 = 1#1), (k0_dev3 d0) < nD
  k0_dev4_lt : ∀ d0 : Dev nD, ∀ (k0_h3 : k0_cond3 d0 = 1#1), (k0_dev4 d0) < nD
  k0_dev5_lt : ∀ d0 : Dev nD, ∀ (k0_h5 : k0_cond5 d0 = 1#1), (k0_dev5 d0) < nD
  k0_dev6_lt : ∀ d0 : Dev nD, ∀ (k0_h6 : k0_cond6 d0 = 1#1), (k0_dev6 d0) < nD
  k0_dev7_lt : ∀ d0 : Dev nD, ∀ (k0_h7 : k0_cond7 d0 = 1#1), (k0_dev7 d0) < nD
  k0_dev8_lt : ∀ d0 : Dev nD, ∀ (k0_h8 : k0_cond8 d0 = 1#1), (k0_dev8 d0) < nD
  k0_dev9_lt : ∀ d0 : Dev nD, ∀ (k0_h9 : k0_cond9 d0 = 1#1), (k0_dev9 d0) < nD
  k0_dev10_lt : ∀ d0 : Dev nD, ∀ (k0_h10 : k0_cond10 d0 = 1#1), (k0_dev10 d0) < nD
  hstage0_0 : ∀ j, (stage0_0 j).IsWhole
  hstage0_1 : ∀ j, (stage0_1 j).IsWhole

variable [Facts₀]

abbrev cc0_scratch2 : DmaSems sig S6 := SemArray.consecutive 2 S6 hcc0_scratch2
abbrev cc0_scratch3 : DmaSems sig S6 := SemArray.consecutive 8 S6 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S96x96x192 : Shape := ⟨3, ![96, 96, 192]⟩
abbrev S_ : Shape := ⟨0, ![]⟩
abbrev S94x94x190 : Shape := ⟨3, ![94, 94, 190]⟩
abbrev S1 : Shape := ⟨1, ![1]⟩
abbrev S3 : Shape := ⟨1, ![3]⟩

abbrev nBuf : Space → Nat
  | .hbm => 28
  | .vmem => 0
  | .smem => 0
  | _ => 0

abbrev bufTy : (tb : Table) → Fin (tcTables nBuf tb) → BufTy
  | .hbm, ⟨0, _⟩ => ⟨S96x96x192, .f32⟩
  | .hbm, ⟨1, _⟩ => ⟨S_, .f32⟩
  | .hbm, ⟨2, _⟩ => ⟨S96x96x192, .f32⟩
  | .hbm, ⟨3, _⟩ => ⟨S94x94x190, .f32⟩
  | .hbm, ⟨4, _⟩ => ⟨S94x94x190, .f32⟩
  | .hbm, ⟨5, _⟩ => ⟨S94x94x190, .f32⟩
  | .hbm, ⟨6, _⟩ => ⟨S94x94x190, .f32⟩
  | .hbm, ⟨7, _⟩ => ⟨S94x94x190, .f32⟩
  | .hbm, ⟨8, _⟩ => ⟨S94x94x190, .f32⟩
  | .hbm, ⟨9, _⟩ => ⟨S94x94x190, .f32⟩
  | .hbm, ⟨10, _⟩ => ⟨S94x94x190, .f32⟩
  | .hbm, ⟨11, _⟩ => ⟨S94x94x190, .f32⟩
  | .hbm, ⟨12, _⟩ => ⟨S94x94x190, .f32⟩
  | .hbm, ⟨13, _⟩ => ⟨S94x94x190, .f32⟩
  | .hbm, ⟨14, _⟩ => ⟨S94x94x190, .f32⟩
  | .hbm, ⟨15, _⟩ => ⟨S_, .f32⟩
  | .hbm, ⟨16, _⟩ => ⟨S94x94x190, .f32⟩
  | .hbm, ⟨17, _⟩ => ⟨S94x94x190, .f32⟩
  | .hbm, ⟨18, _⟩ => ⟨S94x94x190, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S96x96x192, .f32⟩
  | .hbm, ⟨27, _⟩ => ⟨S96x96x192, .bf16⟩
  | _, _ => ⟨S96x96x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S_S96x96x192 : S_.BroadcastsInDim S96x96x192 (![] : Fin 0 → Fin S96x96x192.rank)
  slices_S96x96x192_S94x94x190_0_1_1 : S96x96x192.Slices ![0, 1, 1] S94x94x190
  slices_S96x96x192_S94x94x190_2_1_1 : S96x96x192.Slices ![2, 1, 1] S94x94x190
  slices_S96x96x192_S94x94x190_1_0_1 : S96x96x192.Slices ![1, 0, 1] S94x94x190
  slices_S96x96x192_S94x94x190_1_2_1 : S96x96x192.Slices ![1, 2, 1] S94x94x190
  slices_S96x96x192_S94x94x190_1_1_0 : S96x96x192.Slices ![1, 1, 0] S94x94x190
  slices_S96x96x192_S94x94x190_1_1_2 : S96x96x192.Slices ![1, 1, 2] S94x94x190
  slices_S96x96x192_S94x94x190_1_1_1 : S96x96x192.Slices ![1, 1, 1] S94x94x190
  bcast_S_S94x94x190 : S_.BroadcastsInDim S94x94x190 (![] : Fin 0 → Fin S94x94x190.rank)
  bcast_S_S1 : S_.BroadcastsInDim S1 (![] : Fin 0 → Fin S1.rank)
  concatenates_S1_S1_S1_S3_d0 : Shape.Concatenates [S1, S1, S1] S3 0
  bitsLt_bf16_f32 : FTy.bits .bf16 < FTy.bits .f32
  scatter_S96x96x192_S3_S94x94x190_012_n_012_0_wf : ScatterDims.WF S96x96x192 S3 S94x94x190 [0, 1, 2] [] [0, 1, 2] 0

variable [Facts₀]

def scatter_S96x96x192_S3_S94x94x190_012_n_012_0 : ScatterDims S96x96x192 S3 S94x94x190 where
  updateWindowDims := [0, 1, 2]
  insertedWindowDims := []
  scatterDimsToOperandDims := [0, 1, 2]
  indexVectorDim := 0
  wf := scatter_S96x96x192_S3_S94x94x190_012_n_012_0_wf

class Facts : Prop extends Facts₀ where

variable [Facts]
-- ==== Proof.Mesh.lean ====
import proofs.«900536_g7700000000000537_dist_halo3d_v7x_xyz2x2x4_s48_bf16_1_alg».proof.Proof.Gen.KernelIdeal

namespace Cert.KernelIdeal.Halo

open Cert.KernelIdeal Cert.KernelIdeal.Gen
open Idealize.ShloMosaic Idealize.SL.Sem

def X (c : Dev nD) : Nat := c.val / 8
def Y (c : Dev nD) : Nat := c.val / 4 % 2
def Z (c : Dev nD) : Nat := c.val % 4

def fx (c : Dev nD) : Dev nD := ⟨(c.val + 8) % 16, Nat.mod_lt _ (by decide)⟩
def fy (c : Dev nD) : Dev nD := ⟨c.val / 8 * 8 + (c.val % 8 + 4) % 8, by have := c.isLt; simp only [nD] at this ⊢; omega⟩
def zup (c : Dev nD) : Dev nD := ⟨c.val / 4 * 4 + (c.val % 4 + 1) % 4, by have := c.isLt; simp only [nD] at this ⊢; omega⟩
def zdn (c : Dev nD) : Dev nD := ⟨c.val / 4 * 4 + (c.val % 4 + 3) % 4, by have := c.isLt; simp only [nD] at this ⊢; omega⟩

theorem fx_fx (c : Dev nD) : fx (fx c) = c := by revert c; decide
theorem fy_fy (c : Dev nD) : fy (fy c) = c := by revert c; decide
theorem zup_zdn (c : Dev nD) : zup (zdn c) = c := by revert c; decide
theorem zdn_zup (c : Dev nD) : zdn (zup c) = c := by revert c; decide

def fxE : Dev nD ≃ Dev nD := ⟨fx, fx, fx_fx, fx_fx⟩
def fyE : Dev nD ≃ Dev nD := ⟨fy, fy, fy_fy, fy_fy⟩
def zupE : Dev nD ≃ Dev nD := ⟨zup, zdn, zdn_zup, zup_zdn⟩

theorem X_fx (c : Dev nD) : X (fx c) = 1 - X c := by revert c; decide
theorem Y_fx (c : Dev nD) : Y (fx c) = Y c := by revert c; decide
theorem Z_fx (c : Dev nD) : Z (fx c) = Z c := by revert c; decide
theorem X_fy (c : Dev nD) : X (fy c) = X c := by revert c; decide
theorem Y_fy (c : Dev nD) : Y (fy c) = 1 - Y c := by revert c; decide
theorem Z_fy (c : Dev nD) : Z (fy c) = Z c := by revert c; decide
theorem X_zup (c : Dev nD) : X (zup c) = X c := by revert c; decide
theorem Y_zup (c : Dev nD) : Y (zup c) = Y c := by revert c; decide
theorem Z_zup (c : Dev nD) (h : Z c < 3) : Z (zup c) = Z c + 1 := by revert c; decide
theorem X_zdn (c : Dev nD) : X (zdn c) = X c := by revert c; decide
theorem Y_zdn (c : Dev nD) : Y (zdn c) = Y c := by revert c; decide
theorem Z_zdn (c : Dev nD) (h : 0 < Z c) : Z (zdn c) = Z c - 1 := by revert c; decide
theorem X_lt (c : Dev nD) : X c < 2 := by revert c; decide
theorem Y_lt (c : Dev nD) : Y c < 2 := by revert c; decide
theorem Z_lt (c : Dev nD) : Z c < 4 := by revert c; decide

end Cert.KernelIdeal.Halo
-- ==== Proof.MeshFacts.lean ====
import proofs.«900536_g7700000000000537_dist_halo3d_v7x_xyz2x2x4_s48_bf16_1_alg».proof.Proof.Mesh
import Idealize.ShloMosaic.Lib.Decide

namespace Cert.KernelIdeal.Halo

open Cert.KernelIdeal Cert.KernelIdeal.Gen
open Idealize.ShloMosaic Idealize.SL.Sem

theorem bv1_eq_zero_iff (b : BitVec 1) : b = 0#1 ↔ ¬ b = 1#1 := by revert b; decide

theorem bv1_zero_of_one_iff {b : BitVec 1} {p : Prop} (h : b = 1#1 ↔ p) : b = 0#1 ↔ ¬ p :=
  (bv1_eq_zero_iff b).trans (not_congr h)

theorem dev1_eq (c : Dev nD) : (⟨k0_dev1 c, k0_dev1_lt c⟩ : Dev nD) = fx c := by
  revert c; decide +kernel
theorem dev2_eq (c : Dev nD) : (⟨k0_dev2 c, k0_dev2_lt c⟩ : Dev nD) = fy c := by
  revert c; decide +kernel
theorem dev3_eq (c : Dev nD) (h : k0_cond1 c = 1#1) : (⟨k0_dev3 c, k0_dev3_lt c h⟩ : Dev nD) = zdn c := by
  revert c; decide +kernel
theorem dev4_eq (c : Dev nD) (h : k0_cond3 c = 1#1) : (⟨k0_dev4 c, k0_dev4_lt c h⟩ : Dev nD) = zup c := by
  revert c; decide +kernel
theorem dev5_eq (c : Dev nD) (h : k0_cond5 c = 1#1) : (⟨k0_dev5 c, k0_dev5_lt c h⟩ : Dev nD) = fx c := by
  revert c; decide +kernel
theorem dev6_eq (c : Dev nD) (h : k0_cond6 c = 1#1) : (⟨k0_dev6 c, k0_dev6_lt c h⟩ : Dev nD) = fx c := by
  revert c; decide +kernel
theorem dev7_eq (c : Dev nD) (h : k0_cond7 c = 1#1) : (⟨k0_dev7 c, k0_dev7_lt c h⟩ : Dev nD) = fy c := by
  revert c; decide +kernel
theorem dev8_eq (c : Dev nD) (h : k0_cond8 c = 1#1) : (⟨k0_dev8 c, k0_dev8_lt c h⟩ : Dev nD) = fy c := by
  revert c; decide +kernel
theorem dev9_eq (c : Dev nD) (h : k0_cond9 c = 1#1) : (⟨k0_dev9 c, k0_dev9_lt c h⟩ : Dev nD) = zdn c := by
  revert c; decide +kernel
theorem dev10_eq (c : Dev nD) (h : k0_cond10 c = 1#1) : (⟨k0_dev10 c, k0_dev10_lt c h⟩ : Dev nD) = zup c := by
  revert c; decide +kernel

theorem cond1_iff (c : Dev nD) : k0_cond1 c = 1#1 ↔ 0 < Z c := by revert c; decide +kernel
theorem cond3_iff (c : Dev nD) : k0_cond3 c = 1#1 ↔ Z c < 3 := by revert c; decide +kernel
theorem cond5_iff (c : Dev nD) : k0_cond5 c = 1#1 ↔ X c = 0 := by revert c; decide +kernel
theorem cond6_iff (c : Dev nD) : k0_cond6 c = 1#1 ↔ X c = 1 := by revert c; decide +kernel
theorem cond7_iff (c : Dev nD) : k0_cond7 c = 1#1 ↔ Y c = 0 := by revert c; decide +kernel
theorem cond8_iff (c : Dev nD) : k0_cond8 c = 1#1 ↔ Y c = 1 := by revert c; decide +kernel
theorem cond9_iff (c : Dev nD) : k0_cond9 c = 1#1 ↔ 0 < Z c := by revert c; decide +kernel
theorem cond10_iff (c : Dev nD) : k0_cond10 c = 1#1 ↔ Z c < 3 := by revert c; decide +kernel

theorem cond3_niff (c : Dev nD) : k0_cond3 c = 0#1 ↔ ¬ Z c < 3 := bv1_zero_of_one_iff (cond3_iff c)
def xw (c : Dev nD) : BitVec 32 := Scalar.remsi (Scalar.divsi (Dev.word c) 8#32) 2#32

def yw (c : Dev nD) : BitVec 32 := Scalar.remsi (Scalar.divsi (Dev.word c) 4#32) 2#32

def zw (c : Dev nD) : BitVec 32 := Scalar.remsi (Scalar.divsi (Dev.word c) 1#32) 4#32

theorem zw_eq0_iff (c : Dev nD) : Scalar.cmpi .ne (Scalar.extui (Scalar.cmpi .eq (zw c) 0#32)) 0#32 = 1#1 ↔ Z c = 0 := by
  revert c; decide +kernel
theorem zw_eq3_iff (c : Dev nD) : Scalar.cmpi .ne (Scalar.extui (Scalar.cmpi .eq (zw c) 3#32)) 0#32 = 1#1 ↔ Z c = 3 := by
  revert c; decide +kernel
theorem zw_eq3_niff (c : Dev nD) : Scalar.cmpi .ne (Scalar.extui (Scalar.cmpi .eq (zw c) 3#32)) 0#32 = 0#1 ↔ ¬ Z c = 3 :=
  bv1_zero_of_one_iff (zw_eq3_iff c)
theorem zw_sgt0_iff (c : Dev nD) : Scalar.cmpi .ne (Scalar.extui (Scalar.cmpi .sgt (zw c) 0#32)) 0#32 = 1#1 ↔ 0 < Z c := by
  revert c; decide +kernel
theorem zw_slt3_iff (c : Dev nD) : Scalar.cmpi .ne (Scalar.extui (Scalar.cmpi .slt (zw c) 3#32)) 0#32 = 1#1 ↔ Z c < 3 := by
  revert c; decide +kernel
theorem xw_eq0_iff (c : Dev nD) : Scalar.cmpi .ne (Scalar.extui (Scalar.cmpi .eq (xw c) 0#32)) 0#32 = 1#1 ↔ X c = 0 := by
  revert c; decide +kernel
theorem xw_eq1_iff (c : Dev nD) : Scalar.cmpi .ne (Scalar.extui (Scalar.cmpi .eq (xw c) 1#32)) 0#32 = 1#1 ↔ X c = 1 := by
  revert c; decide +kernel
theorem yw_eq0_iff (c : Dev nD) : Scalar.cmpi .ne (Scalar.extui (Scalar.cmpi .eq (yw c) 0#32)) 0#32 = 1#1 ↔ Y c = 0 := by
  revert c; decide +kernel
theorem yw_eq1_iff (c : Dev nD) : Scalar.cmpi .ne (Scalar.extui (Scalar.cmpi .eq (yw c) 1#32)) 0#32 = 1#1 ↔ Y c = 1 := by
  revert c; decide +kernel
theorem xflag0_iff (c : Dev nD) : Scalar.cmpi .eq (xw c) 0#32 = 1#1 ↔ X c = 0 := by
  revert c; decide +kernel
theorem xflag1_iff (c : Dev nD) : Scalar.cmpi .eq (xw c) 1#32 = 1#1 ↔ X c = 1 := by
  revert c; decide +kernel
theorem yflag0_iff (c : Dev nD) : Scalar.cmpi .eq (yw c) 0#32 = 1#1 ↔ Y c = 0 := by
  revert c; decide +kernel
theorem yflag1_iff (c : Dev nD) : Scalar.cmpi .eq (yw c) 1#32 = 1#1 ↔ Y c = 1 := by
  revert c; decide +kernel
theorem zflag0_iff (c : Dev nD) : Scalar.cmpi .eq (zw c) 0#32 = 1#1 ↔ Z c = 0 := by
  revert c; decide +kernel
theorem zflag3_iff (c : Dev nD) : Scalar.cmpi .eq (zw c) 3#32 = 1#1 ↔ Z c = 3 := by
  revert c; decide +kernel
end Cert.KernelIdeal.Halo
-- ==== Proof.Proto.lean ====
import proofs.«900536_g7700000000000537_dist_halo3d_v7x_xyz2x2x4_s48_bf16_1_alg».proof.Proof.Gen.KernelIdeal.Skeleton
import proofs.«900536_g7700000000000537_dist_halo3d_v7x_xyz2x2x4_s48_bf16_1_alg».proof.Proof.Gen.KernelIdeal.Launch
import proofs.«900536_g7700000000000537_dist_halo3d_v7x_xyz2x2x4_s48_bf16_1_alg».proof.Proof.Gen.KernelIdeal.Points
import proofs.«900536_g7700000000000537_dist_halo3d_v7x_xyz2x2x4_s48_bf16_1_alg».proof.Proof.Mesh
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem

abbrev sendSem (s : Fin 6) : DmaSem sig := ⟨2 + s.val, by have := s.isLt; show 2 + s.val < 14; omega⟩
abbrev recvSem (s : Fin 6) : DmaSem sig := ⟨8 + s.val, by have := s.isLt; show 8 + s.val < 14; omega⟩

abbrev barCell (c : Dev nD) : GSem nD τ sig := ((c : Thread nD τ), .reg barS)
abbrev sendCell (c : Dev nD) (s : Fin 6) : GSem nD τ sig := ((c : Thread nD τ), .dma (sendSem s))
abbrev recvCell (c : Dev nD) (s : Fin 6) : GSem nD τ sig := ((c : Thread nD τ), .dma (recvSem s))

abbrev csem (k : Fin 13) : SemLoc sig :=
  if h0 : k.val = 0 then .reg barS
  else if h1 : k.val < 7 then .dma (sendSem ⟨k.val - 1, by omega⟩)
  else .dma (recvSem ⟨k.val - 7, by have := k.isLt; omega⟩)
abbrev kcell (ck : Dev nD × Fin 13) : GSem nD τ sig := ((ck.1 : Thread nD τ), csem ck.2)

abbrev uM : Memref sig .tc .vmem S48x48x48 .f32 := Memref.whole cc0_stg0_0
abbrev oM : Memref sig .tc .vmem S48x48x48 .bf16 := Memref.whole cc0_stg1_0
abbrev hM : Memref sig .tc .vmem S6x48x48 .bf16 := Memref.whole cc0_scratch0
abbrev sM : Memref sig .tc .vmem S6x48x48 .bf16 := Memref.whole cc0_scratch1

abbrev hSlot : Fin 6 → Memref sig .tc .vmem S48x48 .bf16
  | ⟨0, _⟩ => ((Memref.whole cc0_scratch0 : Memref sig .tc .vmem S6x48x48 .bf16).slice (Rect.unit (s := S6x48x48) ![0, 0, 0] S1x48x48.size inb_S6x48x48_S1x48x48_0_0_0) (fun _ => rfl)).squeeze S48x48 squeezes_S1x48x48_S48x48
  | ⟨1, _⟩ => ((Memref.whole cc0_scratch0 : Memref sig .tc .vmem S6x48x48 .bf16).slice (Rect.unit (s := S6x48x48) ![1, 0, 0] S1x48x48.size inb_S6x48x48_S1x48x48_1_0_0) (fun _ => rfl)).squeeze S48x48 squeezes_S1x48x48_S48x48
  | ⟨2, _⟩ => ((Memref.whole cc0_scratch0 : Memref sig .tc .vmem S6x48x48 .bf16).slice (Rect.unit (s := S6x48x48) ![2, 0, 0] S1x48x48.size inb_S6x48x48_S1x48x48_2_0_0) (fun _ => rfl)).squeeze S48x48 squeezes_S1x48x48_S48x48
  | ⟨3, _⟩ => ((Memref.whole cc0_scratch0 : Memref sig .tc .vmem S6x48x48 .bf16).slice (Rect.unit (s := S6x48x48) ![3, 0, 0] S1x48x48.size inb_S6x48x48_S1x48x48_3_0_0) (fun _ => rfl)).squeeze S48x48 squeezes_S1x48x48_S48x48
  | ⟨4, _⟩ => ((Memref.whole cc0_scratch0 : Memref sig .tc .vmem S6x48x48 .bf16).slice (Rect.unit (s := S6x48x48) ![4, 0, 0] S1x48x48.size inb_S6x48x48_S1x48x48_4_0_0) (fun _ => rfl)).squeeze S48x48 squeezes_S1x48x48_S48x48
  | ⟨5, _⟩ => ((Memref.whole cc0_scratch0 : Memref sig .tc .vmem S6x48x48 .bf16).slice (Rect.unit (s := S6x48x48) ![5, 0, 0] S1x48x48.size inb_S6x48x48_S1x48x48_5_0_0) (fun _ => rfl)).squeeze S48x48 squeezes_S1x48x48_S48x48
  | ⟨_ + 6, h⟩ => absurd h (by omega)
abbrev sSlot : Fin 6 → Memref sig .tc .vmem S48x48 .bf16
  | ⟨0, _⟩ => ((Memref.whole cc0_scratch1 : Memref sig .tc .vmem S6x48x48 .bf16).slice (Rect.unit (s := S6x48x48) ![0, 0, 0] S1x48x48.size inb_S6x48x48_S1x48x48_0_0_0) (fun _ => rfl)).squeeze S48x48 squeezes_S1x48x48_S48x48
  | ⟨1, _⟩ => ((Memref.whole cc0_scratch1 : Memref sig .tc .vmem S6x48x48 .bf16).slice (Rect.unit (s := S6x48x48) ![1, 0, 0] S1x48x48.size inb_S6x48x48_S1x48x48_1_0_0) (fun _ => rfl)).squeeze S48x48 squeezes_S1x48x48_S48x48
  | ⟨2, _⟩ => ((Memref.whole cc0_scratch1 : Memref sig .tc .vmem S6x48x48 .bf16).slice (Rect.unit (s := S6x48x48) ![2, 0, 0] S1x48x48.size inb_S6x48x48_S1x48x48_2_0_0) (fun _ => rfl)).squeeze S48x48 squeezes_S1x48x48_S48x48
  | ⟨3, _⟩ => ((Memref.whole cc0_scratch1 : Memref sig .tc .vmem S6x48x48 .bf16).slice (Rect.unit (s := S6x48x48) ![3, 0, 0] S1x48x48.size inb_S6x48x48_S1x48x48_3_0_0) (fun _ => rfl)).squeeze S48x48 squeezes_S1x48x48_S48x48
  | ⟨4, _⟩ => ((Memref.whole cc0_scratch1 : Memref sig .tc .vmem S6x48x48 .bf16).slice (Rect.unit (s := S6x48x48) ![4, 0, 0] S1x48x48.size inb_S6x48x48_S1x48x48_4_0_0) (fun _ => rfl)).squeeze S48x48 squeezes_S1x48x48_S48x48
  | ⟨5, _⟩ => ((Memref.whole cc0_scratch1 : Memref sig .tc .vmem S6x48x48 .bf16).slice (Rect.unit (s := S6x48x48) ![5, 0, 0] S1x48x48.size inb_S6x48x48_S1x48x48_5_0_0) (fun _ => rfl)).squeeze S48x48 squeezes_S1x48x48_S48x48
  | ⟨_ + 6, h⟩ => absurd h (by omega)

abbrev HIdx : Type := (hM : Memref sig .tc .vmem S6x48x48 .bf16).view.ty.Idx
abbrev SIdx : Type := (sM : Memref sig .tc .vmem S6x48x48 .bf16).view.ty.Idx
def hSet : Fin 6 → Finset HIdx
  | ⟨0, _⟩ => (hSlot 0).view.set
  | ⟨1, _⟩ => (hSlot 1).view.set
  | ⟨2, _⟩ => (hSlot 2).view.set
  | ⟨3, _⟩ => (hSlot 3).view.set
  | ⟨4, _⟩ => (hSlot 4).view.set
  | ⟨5, _⟩ => (hSlot 5).view.set
  | ⟨_ + 6, h⟩ => absurd h (by omega)
def sSet : Fin 6 → Finset SIdx
  | ⟨0, _⟩ => (sSlot 0).view.set
  | ⟨1, _⟩ => (sSlot 1).view.set
  | ⟨2, _⟩ => (sSlot 2).view.set
  | ⟨3, _⟩ => (sSlot 3).view.set
  | ⟨4, _⟩ => (sSlot 4).view.set
  | ⟨5, _⟩ => (sSlot 5).view.set
  | ⟨_ + 6, h⟩ => absurd h (by omega)

abbrev N : ℕ := (hSlot 0).view.dmaCredit

def hPts (c : Dev nD) (s : Fin 6) (f : Buf (Elt F) ((c : Thread nD τ).loc cc0_scratch0)) : sProp 𝕄 :=
  ((c : Thread nD τ).loc cc0_scratch0) ↦[hSet s]{fullShare} f
def sPts (c : Dev nD) (s : Fin 6) (f : Buf (Elt F) ((c : Thread nD τ).loc cc0_scratch1)) : sProp 𝕄 :=
  ((c : Thread nD τ).loc cc0_scratch1) ↦[sSet s]{fullShare} f

def ublk (c : Dev nD) : (cc0_stg0_0 : Ref sig .tc).ty.Contents (Elt F) :=
  (win0_0.blk (0 : Fin 1)).view.read (Elt F) (m ((c : Thread nD τ).loc main_arg0))

def sendC (c : Dev nD) : Buf (Elt F) ((c : Thread nD τ).loc cc0_scratch1) := fun idx =>
  let p : Fin 48 := ⟨(idx 1).val, (idx 1).isLt⟩
  let q : Fin 48 := ⟨(idx 2).val, (idx 2).isLt⟩
  match (idx 0).val with
  | 0 => k0_pay22 (uM.view.readAt (Elt F) (Rect.unit (s := S48x48x48) ![0, 0, 0] S1x48x48.size inb_S48x48x48_S1x48x48_0_0_0).toLoadRect (ublk m c)) (ValueIdx.ix3 0 p q)
  | 1 => k0_pay23 (uM.view.readAt (Elt F) (Rect.unit (s := S48x48x48) ![47, 0, 0] S1x48x48.size inb_S48x48x48_S1x48x48_47_0_0).toLoadRect (ublk m c)) (ValueIdx.ix3 0 p q)
  | 2 => k0_pay24 (uM.view.readAt (Elt F) (Rect.unit (s := S48x48x48) ![0, 0, 0] S48x1x48.size inb_S48x48x48_S48x1x48_0_0_0).toLoadRect (ublk m c)) (ValueIdx.ix3 0 p q)
  | 3 => k0_pay25 (uM.view.readAt (Elt F) (Rect.unit (s := S48x48x48) ![0, 47, 0] S48x1x48.size inb_S48x48x48_S48x1x48_0_47_0).toLoadRect (ublk m c)) (ValueIdx.ix3 0 p q)
  | 4 => k0_pay26 (uM.view.readAt (Elt F) (Rect.unit (s := S48x48x48) ![0, 0, 0] S48x48x1.size inb_S48x48x48_S48x48x1_0_0_0).toLoadRect (ublk m c)) (ValueIdx.ix3 0 p q)
  | _ => k0_pay27 (uM.view.readAt (Elt F) (Rect.unit (s := S48x48x48) ![0, 0, 47] S48x48x1.size inb_S48x48x48_S48x48x1_0_0_47).toLoadRect (ublk m c)) (ValueIdx.ix3 0 p q)

def srcSlot : Fin 6 → Fin 6 | ⟨0, _⟩ => 1 | ⟨1, _⟩ => 0 | ⟨2, _⟩ => 3 | ⟨3, _⟩ => 2 | ⟨4, _⟩ => 5 | _ => 4
def sender (c : Dev nD) : Fin 6 → Dev nD | ⟨0, _⟩ => fx c | ⟨1, _⟩ => fx c | ⟨2, _⟩ => fy c | ⟨3, _⟩ => fy c | ⟨4, _⟩ => zdn c | _ => zup c

def haloC (c : Dev nD) : Buf (Elt F) ((c : Thread nD τ).loc cc0_scratch0) := fun idx =>
  let s : Fin 6 := ⟨(idx 0).val, (idx 0).isLt⟩
  sendC m (sender c s) (ValueIdx.ix3 (srcSlot s) ⟨(idx 1).val, (idx 1).isLt⟩ ⟨(idx 2).val, (idx 2).isLt⟩)

def recvAct (c : Dev nD) : Fin 6 → Prop
  | ⟨0, _⟩ => X c = 1 | ⟨1, _⟩ => X c = 0 | ⟨2, _⟩ => Y c = 1 | ⟨3, _⟩ => Y c = 0 | ⟨4, _⟩ => 0 < Z c | _ => Z c < 3

def sendAct (c : Dev nD) : Fin 6 → Prop
  | ⟨0, _⟩ => X c = 1 | ⟨1, _⟩ => X c = 0 | ⟨2, _⟩ => Y c = 1 | ⟨3, _⟩ => Y c = 0 | ⟨4, _⟩ => 0 < Z c | _ => Z c < 3
instance (c : Dev nD) (s : Fin 6) : Decidable (recvAct c s) := by
  unfold recvAct; split <;> infer_instance
instance (c : Dev nD) (s : Fin 6) : Decidable (sendAct c s) := by
  unfold sendAct; split <;> infer_instance

def barDuties (c : Dev nD) : Finset (Fin 5) :=
  {0, 1} ∪ (if Z c < 3 then {2} else ∅) ∪ (if 0 < Z c then {3} else ∅) ∪ (if Z c = 0 ∨ Z c = 3 then {4} else ∅)

def nbrPay (p : Dev nD) (s : Fin 6) : sProp 𝕄 := iprop((∃ f, hPts p s f) ∗ reached ER (recvCell p s) 0)

def barPay (c : Dev nD) (d : Fin 5) : sProp 𝕄 :=
  match d with
  | ⟨0, _⟩ => nbrPay (fx c) (if X c = 0 then 0 else 1)
  | ⟨1, _⟩ => nbrPay (fy c) (if Y c = 0 then 2 else 3)
  | ⟨2, _⟩ => nbrPay (zup c) 4
  | ⟨3, _⟩ => nbrPay (zdn c) 5
  | _ => iprop(emp)
def recvPay (c : Dev nD) (s : Fin 6) : sProp 𝕄 := hPts c s (haloC m c)
def sendPay (c : Dev nD) (s : Fin 6) : sProp 𝕄 := sPts c s (sendC m c)

def slotOf (q : DmaSem sig) : Option (Bool × Fin 6) :=
  if h : 2 ≤ q.val ∧ q.val < 8 then some (false, ⟨q.val - 2, by omega⟩)
  else if h' : 8 ≤ q.val then some (true, ⟨q.val - 8, by have := q.isLt; have : sig.nDmaSem = 14 := rfl; omega⟩)
  else none

def haloRd : Rounds.Schedule (GSem nD τ sig) (Fin 5) 𝕄 where
  duties g r :=
    if r = 0 ∧ g.1.2 = .tc then
      match g.2 with
      | .reg _ => barDuties g.1.1
      | .dma q => match slotOf q with
        | some (false, s) => if sendAct g.1.1 s then {0} else ∅
        | some (true, s) => if recvAct g.1.1 s then {0} else ∅
        | none => ∅
    else ∅
  unitless _ := False
  amount g _ _ := match g.2 with | .reg _ => 1 | .dma _ => N
  payload g _ d :=
    match g.2 with
    | .reg _ => barPay g.1.1 d
    | .dma q => match slotOf q with
      | some (false, s) => sendPay m g.1.1 s
      | some (true, s) => recvPay m g.1.1 s
      | none => iprop(emp)
  amount_pos g _ _ _ := by
    cases g.2 with
    | reg _ => exact Nat.one_pos
    | dma _ => exact View.dmaCredit_pos _ (by decide)

def L (g : GSem nD τ sig) : Finset Unit := if g.1.2 = .tc then {()} else ∅

def lv (g : GSem nD τ sig) (_ : Unit) : ℕ :=
  match g.2 with
  | .reg _ => 1
  | .dma q => match slotOf q with | some (true, _) => 2 | _ => 0

def Osend (c : Dev nD) : CellTallies nD τ sig Unit :=
  tallyAt (recvCell (zup c) 4) () (if Z c < 3 then N else 0) + tallyAt (recvCell (zdn c) 5) () (if 0 < Z c then N else 0)
    + tallyAt (recvCell (fy c) (if Y c = 0 then 2 else 3)) () N + tallyAt (recvCell (fx c) (if X c = 0 then 0 else 1)) () N

def O₄ (c : Dev nD) : CellTallies nD τ sig Unit := Osend c
def O₃ (c : Dev nD) : CellTallies nD τ sig Unit := O₄ c + tallyAt (barCell (if Z c < 3 then zup c else c)) () 1
def O₂ (c : Dev nD) : CellTallies nD τ sig Unit := O₃ c + tallyAt (barCell (if 0 < Z c then zdn c else c)) () 1
def O₁ (c : Dev nD) : CellTallies nD τ sig Unit := O₂ c + tallyAt (barCell (fy c)) () 1
def O₀ (c : Dev nD) : CellTallies nD τ sig Unit := O₁ c + tallyAt (barCell (fx c)) () 1

end Cert.KernelIdeal.Halo

end
-- ==== Proof.State.lean ====
import proofs.«900536_g7700000000000537_dist_halo3d_v7x_xyz2x2x4_s48_bf16_1_alg».proof.Proof.MeshFacts
import proofs.«900536_g7700000000000537_dist_halo3d_v7x_xyz2x2x4_s48_bf16_1_alg».proof.Proof.Proto

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def condP (p : Prop) [Decidable p] (R : sProp 𝕄) : sProp 𝕄 := if p then R else iprop(emp)

abbrev OC : Type := (cc0_stg1_0 : Ref sig .tc).ty.Contents (Elt F)

abbrev f90 (c : Dev nD) : BitVec 1 := Scalar.cmpi .eq (xw c) 0#32
abbrev f91 (c : Dev nD) : BitVec 1 := Scalar.cmpi .eq (xw c) 1#32
abbrev f92 (c : Dev nD) : BitVec 1 := Scalar.cmpi .eq (yw c) 0#32
abbrev f93 (c : Dev nD) : BitVec 1 := Scalar.cmpi .eq (yw c) 1#32
abbrev f94 (c : Dev nD) : BitVec 1 := Scalar.cmpi .eq (zw c) 0#32
abbrev f95 (c : Dev nD) : BitVec 1 := Scalar.cmpi .eq (zw c) 3#32

def out0 (c : Dev nD) : OC (F := F) :=
  k0_pay30 (f91 c) (f92 c) (f93 c) (f94 c) (f95 c) (k0_pay28 (ublk m c))
    (iota .tc S48x48x48 32 [0] iota_S48x48x48_d0_w32) (iota .tc S48x48x48 32 [1] iota_S48x48x48_d1_w32) (iota .tc S48x48x48 32 [2] iota_S48x48x48_d2_w32)
    (k0_pay29 (xw c)) 47#32

def hRow0 (c : Dev nD) : Vec F S1x48x48 .bf16 := hM.view.readAt (Elt F) (Rect.unit (s := S6x48x48) ![0, 0, 0] S1x48x48.size inb_S6x48x48_S1x48x48_0_0_0).toLoadRect (haloC m c)
def hRow1 (c : Dev nD) : Vec F S1x48x48 .bf16 := hM.view.readAt (Elt F) (Rect.unit (s := S6x48x48) ![1, 0, 0] S1x48x48.size inb_S6x48x48_S1x48x48_1_0_0).toLoadRect (haloC m c)
def hRow2 (c : Dev nD) : Vec F S1x48x48 .bf16 := hM.view.readAt (Elt F) (Rect.unit (s := S6x48x48) ![2, 0, 0] S1x48x48.size inb_S6x48x48_S1x48x48_2_0_0).toLoadRect (haloC m c)
def hRow3 (c : Dev nD) : Vec F S1x48x48 .bf16 := hM.view.readAt (Elt F) (Rect.unit (s := S6x48x48) ![3, 0, 0] S1x48x48.size inb_S6x48x48_S1x48x48_3_0_0).toLoadRect (haloC m c)
def hRow4 (c : Dev nD) : Vec F S1x48x48 .bf16 := hM.view.readAt (Elt F) (Rect.unit (s := S6x48x48) ![4, 0, 0] S1x48x48.size inb_S6x48x48_S1x48x48_4_0_0).toLoadRect (haloC m c)
def hRow5 (c : Dev nD) : Vec F S1x48x48 .bf16 := hM.view.readAt (Elt F) (Rect.unit (s := S6x48x48) ![5, 0, 0] S1x48x48.size inb_S6x48x48_S1x48x48_5_0_0).toLoadRect (haloC m c)

def upd0 (c : Dev nD) (o : OC (F := F)) : OC (F := F) :=
  (oM.access (Rect.unit (s := S48x48x48) ![0, 0, 0] S1x48x48.size inb_S48x48x48_S1x48x48_0_0_0)).write (Elt F) o
    (k0_pay31 (k0_pay4 (oM.view.readAt (Elt F) (Rect.unit (s := S48x48x48) ![0, 0, 0] S1x48x48.size inb_S48x48x48_S1x48x48_0_0_0).toLoadRect o)) (k0_pay5 (f92 c) (f93 c) (f94 c) (f95 c)) (k0_pay6 (hRow0 m c))) Finset.univ
def upd1 (c : Dev nD) (o : OC (F := F)) : OC (F := F) :=
  (oM.access (Rect.unit (s := S48x48x48) ![47, 0, 0] S1x48x48.size inb_S48x48x48_S1x48x48_47_0_0)).write (Elt F) o
    (k0_pay32 (k0_pay7 (oM.view.readAt (Elt F) (Rect.unit (s := S48x48x48) ![47, 0, 0] S1x48x48.size inb_S48x48x48_S1x48x48_47_0_0).toLoadRect o)) (k0_pay8 (f92 c) (f93 c) (f94 c) (f95 c)) (k0_pay9 (hRow1 m c))) Finset.univ
def upd2 (c : Dev nD) (o : OC (F := F)) : OC (F := F) :=
  (oM.access (Rect.unit (s := S48x48x48) ![0, 0, 0] S48x2x48.size inb_S48x48x48_S48x2x48_0_0_0)).write (Elt F) o
    (updateSlice (oM.view.readAt (Elt F) (Rect.unit (s := S48x48x48) ![0, 0, 0] S48x2x48.size inb_S48x48x48_S48x2x48_0_0_0).toLoadRect o)
      (k0_pay33 (k0_pay10 (oM.view.readAt (Elt F) (Rect.unit (s := S48x48x48) ![0, 0, 0] S48x1x48.size inb_S48x48x48_S48x1x48_0_0_0).toLoadRect o)) (k0_pay11 (f90 c) (f91 c) (f94 c) (f95 c)) (k0_pay12 (hRow2 m c)))
      ![0, 0, 0] slices_S48x2x48_S48x1x48_0_0_0) Finset.univ
def upd3 (c : Dev nD) (o : OC (F := F)) : OC (F := F) :=
  (oM.access (Rect.unit (s := S48x48x48) ![0, 46, 0] S48x2x48.size inb_S48x48x48_S48x2x48_0_46_0)).write (Elt F) o
    (updateSlice (oM.view.readAt (Elt F) (Rect.unit (s := S48x48x48) ![0, 46, 0] S48x2x48.size inb_S48x48x48_S48x2x48_0_46_0).toLoadRect o)
      (k0_pay1 (k0_pay13 (oM.view.readAt (Elt F) (Rect.unit (s := S48x48x48) ![0, 47, 0] S48x1x48.size inb_S48x48x48_S48x1x48_0_47_0).toLoadRect o)) (k0_pay14 (f90 c) (f91 c) (f94 c) (f95 c)) (k0_pay15 (hRow3 m c)))
      ![0, 1, 0] slices_S48x2x48_S48x1x48_0_1_0) Finset.univ
def upd4 (c : Dev nD) (o : OC (F := F)) : OC (F := F) :=
  (oM.access (Rect.unit (s := S48x48x48) ![0, 0, 0] S48x48x1.size inb_S48x48x48_S48x48x1_0_0_0)).write (Elt F) o
    (k0_pay2 (k0_pay16 (oM.view.readAt (Elt F) (Rect.unit (s := S48x48x48) ![0, 0, 0] S48x48x1.size inb_S48x48x48_S48x48x1_0_0_0).toLoadRect o)) (k0_pay17 (f90 c) (f91 c) (f92 c) (f93 c)) (k0_pay18 (hRow4 m c))) Finset.univ
def upd5 (c : Dev nD) (o : OC (F := F)) : OC (F := F) :=
  (oM.access (Rect.unit (s := S48x48x48) ![0, 0, 47] S48x48x1.size inb_S48x48x48_S48x48x1_0_0_47)).write (Elt F) o
    (k0_pay3 (k0_pay19 (oM.view.readAt (Elt F) (Rect.unit (s := S48x48x48) ![0, 0, 47] S48x48x1.size inb_S48x48x48_S48x48x1_0_0_47).toLoadRect o)) (k0_pay20 (f90 c) (f91 c) (f92 c) (f93 c)) (k0_pay21 (hRow5 m c))) Finset.univ

def out1 (c : Dev nD) : OC (F := F) := if X c = 1 then upd0 m c (out0 m c) else out0 m c
def out2 (c : Dev nD) : OC (F := F) := if X c = 0 then upd1 m c (out1 m c) else out1 m c
def out3 (c : Dev nD) : OC (F := F) := if Y c = 1 then upd2 m c (out2 m c) else out2 m c
def out4 (c : Dev nD) : OC (F := F) := if Y c = 0 then upd3 m c (out3 m c) else out3 m c
def out5 (c : Dev nD) : OC (F := F) := if 0 < Z c then upd4 m c (out4 m c) else out4 m c

def outAt (c : Dev nD) : OC (F := F) := if Z c < 3 then upd5 m c (out5 m c) else out5 m c

def records (K : Dev nD × Fin 13 → ℕ) : sProp 𝕄 :=
  iprop((bigSep Finset.univ fun ck : Dev nD × Fin 13 => cellInv ER (haloRd m) (K ck) (kcell ck))
    ∗ bigSep Finset.univ fun ck : Dev nD × Fin 13 => reached ER (kcell ck) 0)

instance records_persistent (K : Dev nD × Fin 13 → ℕ) : BI.Persistent (records m K) := by unfold records; infer_instance

def payToks (c : Dev nD) : sProp 𝕄 :=
  iprop(dutyTok ER (barCell (fx c)) 0 (0 : Fin 5) ∗ dutyTok ER (barCell (fy c)) 0 (1 : Fin 5)
    ∗ (if 0 < Z c then dutyTok ER (barCell (zdn c)) 0 (2 : Fin 5) else dutyTok ER (barCell c) 0 (4 : Fin 5))
    ∗ (if Z c < 3 then dutyTok ER (barCell (zup c)) 0 (3 : Fin 5) else dutyTok ER (barCell c) 0 (4 : Fin 5))
    ∗ dutyTok ER (recvCell (fx c) (if X c = 0 then 0 else 1)) 0 (0 : Fin 5) ∗ dutyTok ER (recvCell (fy c) (if Y c = 0 then 2 else 3)) 0 (0 : Fin 5)
    ∗ condP (0 < Z c) (dutyTok ER (recvCell (zdn c) 5) 0 (0 : Fin 5)) ∗ condP (Z c < 3) (dutyTok ER (recvCell (zup c) 4) 0 (0 : Fin 5))
    ∗ bigSep Finset.univ fun s : Fin 6 => condP (sendAct c s) (dutyTok ER (sendCell c s) 0 (0 : Fin 5)))

def positions (c : Dev nD) : sProp 𝕄 := bigSep Finset.univ fun k : Fin 13 => atPos ER (kcell (c, k)) 0 ∅ 0

def ghost (K : Dev nD × Fin 13 → ℕ) (c : Dev nD) : sProp 𝕄 := iprop(records m K ∗ positions c ∗ payToks c)

def startCred (c : Dev nD) : sProp 𝕄 :=
  iprop(cred (tallyAt (barCell c) () 4) ∗ bigSep Finset.univ fun s : Fin 6 => condP (recvAct c s) (cred (tallyAt (recvCell c s) () N)))

def start (c : Dev nD) : sProp 𝕄 := iprop((∃ K, ghost m K c) ∗ startCred c ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun s : Fin 6 => semVal (sendCell c s) 0) ∗ (bigSep Finset.univ fun s : Fin 6 => semVal (recvCell c s) 0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => ublk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (ublk m c) ∗ stg c cc0_stg1_0 (outAt m c))

def BodySound (c : Dev nD) : Prop :=
  ∀ Kt : PUnit → sProp 𝕄, iprop(bodyPre m c ∗ (bodyPost m c -∗ Kt ⟨⟩))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3) Kt

end Cert.KernelIdeal.Halo

end
-- ==== Proof.Tables.lean ====
import proofs.«900536_g7700000000000537_dist_halo3d_v7x_xyz2x2x4_s48_bf16_1_alg».proof.Proof.State

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem slotOf_send (s : Fin 6) : slotOf (sendSem s) = some (false, s) := by revert s; decide
theorem slotOf_recv (s : Fin 6) : slotOf (recvSem s) = some (true, s) := by revert s; decide
theorem sendSem_0 : ((cc0_scratch2.slice (Rect.unit (s := S6) ![0] S1.size inb_S6_S1_0)).squeeze S_ squeezes_S1_S_).sem = sendSem 0 := by decide
theorem recvSem_0 : ((cc0_scratch3.slice (Rect.unit (s := S6) ![0] S1.size inb_S6_S1_0)).squeeze S_ squeezes_S1_S_).sem = recvSem 0 := by decide
theorem sendSem_1 : ((cc0_scratch2.slice (Rect.unit (s := S6) ![1] S1.size inb_S6_S1_1)).squeeze S_ squeezes_S1_S_).sem = sendSem 1 := by decide
theorem recvSem_1 : ((cc0_scratch3.slice (Rect.unit (s := S6) ![1] S1.size inb_S6_S1_1)).squeeze S_ squeezes_S1_S_).sem = recvSem 1 := by decide
theorem sendSem_2 : ((cc0_scratch2.slice (Rect.unit (s := S6) ![2] S1.size inb_S6_S1_2)).squeeze S_ squeezes_S1_S_).sem = sendSem 2 := by decide
theorem recvSem_2 : ((cc0_scratch3.slice (Rect.unit (s := S6) ![2] S1.size inb_S6_S1_2)).squeeze S_ squeezes_S1_S_).sem = recvSem 2 := by decide
theorem sendSem_3 : ((cc0_scratch2.slice (Rect.unit (s := S6) ![3] S1.size inb_S6_S1_3)).squeeze S_ squeezes_S1_S_).sem = sendSem 3 := by decide
theorem recvSem_3 : ((cc0_scratch3.slice (Rect.unit (s := S6) ![3] S1.size inb_S6_S1_3)).squeeze S_ squeezes_S1_S_).sem = recvSem 3 := by decide
theorem sendSem_4 : ((cc0_scratch2.slice (Rect.unit (s := S6) ![4] S1.size inb_S6_S1_4)).squeeze S_ squeezes_S1_S_).sem = sendSem 4 := by decide
theorem recvSem_4 : ((cc0_scratch3.slice (Rect.unit (s := S6) ![4] S1.size inb_S6_S1_4)).squeeze S_ squeezes_S1_S_).sem = recvSem 4 := by decide
theorem sendSem_5 : ((cc0_scratch2.slice (Rect.unit (s := S6) ![5] S1.size inb_S6_S1_5)).squeeze S_ squeezes_S1_S_).sem = sendSem 5 := by decide
theorem recvSem_5 : ((cc0_scratch3.slice (Rect.unit (s := S6) ![5] S1.size inb_S6_S1_5)).squeeze S_ squeezes_S1_S_).sem = recvSem 5 := by decide
theorem csem_send (s : Fin 6) : csem ⟨1 + s.val, by have := s.isLt; omega⟩ = .dma (sendSem s) := by revert s; decide
theorem csem_recv (s : Fin 6) : csem ⟨7 + s.val, by have := s.isLt; omega⟩ = .dma (recvSem s) := by revert s; decide
theorem csem_injective : Function.Injective csem := by
  intro a b; revert a b; decide

theorem kcell_send (c : Dev nD) (s : Fin 6) : kcell (c, ⟨1 + s.val, by have := s.isLt; omega⟩) = sendCell c s :=
  congrArg (Prod.mk (c : Thread nD τ)) (csem_send s)
theorem kcell_recv (c : Dev nD) (s : Fin 6) : kcell (c, ⟨7 + s.val, by have := s.isLt; omega⟩) = recvCell c s :=
  congrArg (Prod.mk (c : Thread nD τ)) (csem_recv s)

theorem kcell_injective : Function.Injective (kcell : Dev nD × Fin 13 → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem send_ne_bar (s : Fin 6) : (SemLoc.dma (sendSem s) : SemLoc sig) ≠ .reg barS := fun h => by cases h
theorem recv_ne_bar (s : Fin 6) : (SemLoc.dma (recvSem s) : SemLoc sig) ≠ .reg barS := fun h => by cases h
theorem sendSem_ne_recvSem (s s' : Fin 6) : sendSem s ≠ recvSem s' := by revert s s'; decide
theorem send_ne_recv (s s' : Fin 6) : (SemLoc.dma (sendSem s) : SemLoc sig) ≠ .dma (recvSem s') :=
  fun h => sendSem_ne_recvSem s s' (SemLoc.dma.inj h)
theorem sendSem_injective : Function.Injective sendSem := by intro a b; revert a b; decide
theorem recvSem_injective : Function.Injective recvSem := by intro a b; revert a b; decide

theorem bar_eq_iff {a b : Dev nD} : barCell a = barCell b ↔ a = b :=
  ⟨fun h => congrArg (fun g : GSem nD τ sig => g.1.1) h, fun h => h ▸ rfl⟩
theorem recv_eq_iff {a b : Dev nD} {s s' : Fin 6} : recvCell a s = recvCell b s' ↔ a = b ∧ s = s' :=
  ⟨fun h => ⟨congrArg (fun g : GSem nD τ sig => g.1.1) h, recvSem_injective (SemLoc.dma.inj (congrArg (fun g : GSem nD τ sig => g.2) h))⟩,
    fun h => by rw [h.1, h.2]⟩
theorem recv_ne_barCell (a b : Dev nD) (s : Fin 6) : recvCell a s ≠ barCell b :=
  fun h => recv_ne_bar s (congrArg (fun g : GSem nD τ sig => g.2) h)
section Sched
variable (c : Dev nD)

theorem duties_bar : (haloRd (F := F) m).duties (barCell c) 0 = barDuties c := by
  dsimp only [haloRd]; exact if_pos ⟨rfl, rfl⟩
theorem duties_send (s : Fin 6) : (haloRd (F := F) m).duties (sendCell c s) 0 = if sendAct c s then {0} else ∅ := by
  dsimp only [haloRd]; rw [if_pos ⟨rfl, rfl⟩, slotOf_send]
theorem duties_recv (s : Fin 6) : (haloRd (F := F) m).duties (recvCell c s) 0 = if recvAct c s then {0} else ∅ := by
  dsimp only [haloRd]; rw [if_pos ⟨rfl, rfl⟩, slotOf_recv]
theorem duties_later (g : GSem nD τ sig) : ∀ r, 1 ≤ r → (haloRd (F := F) m).duties g r = ∅ :=
  fun r hr => by dsimp only [haloRd]; rw [if_neg fun h => by have := h.1; omega]

theorem duties_send_dormant (s : Fin 6) (h : ¬ sendAct c s) : ∀ r, 0 ≤ r → (haloRd (F := F) m).duties (sendCell c s) r = ∅ := fun r _ => by
  rcases Nat.eq_zero_or_pos r with rfl | hr
  · rw [duties_send, if_neg h]
  · exact duties_later m _ r hr

theorem duties_recv_dormant (s : Fin 6) (h : ¬ recvAct c s) : ∀ r, 0 ≤ r → (haloRd (F := F) m).duties (recvCell c s) r = ∅ := fun r _ => by
  rcases Nat.eq_zero_or_pos r with rfl | hr
  · rw [duties_recv, if_neg h]
  · exact duties_later m _ r hr

theorem amount_bar (d : Fin 5) : (haloRd (F := F) m).amount (barCell c) 0 d = 1 := rfl
theorem amount_send (s : Fin 6) (d : Fin 5) : (haloRd (F := F) m).amount (sendCell c s) 0 d = N := rfl
theorem amount_recv (s : Fin 6) (d : Fin 5) : (haloRd (F := F) m).amount (recvCell c s) 0 d = N := rfl
theorem barDuties_z0 (h : Z c = 0) : barDuties c = ([0, 1, 2, 4] : List (Fin 5)).toFinset := by revert c; decide
theorem barDuties_zmid (h0 : 0 < Z c) (h3 : Z c < 3) : barDuties c = ([0, 1, 2, 3] : List (Fin 5)).toFinset := by revert c; decide
theorem barDuties_z3 (h : Z c = 3) : barDuties c = ([0, 1, 3, 4] : List (Fin 5)).toFinset := by revert c; decide
theorem barDuties_card : (barDuties c).card = 4 := by revert c; decide

theorem expect_bar : (haloRd (F := F) m).expect (barCell c) 0 = 4 := by
  unfold Schedule.expect Schedule.amountOf
  rw [duties_bar, Finset.sum_congr rfl fun d _ => amount_bar m c d, Finset.sum_const, barDuties_card, smul_eq_mul]
theorem expect_send (s : Fin 6) (h : sendAct c s) : (haloRd (F := F) m).expect (sendCell c s) 0 = N := by
  unfold Schedule.expect Schedule.amountOf; rw [duties_send, if_pos h, Finset.sum_singleton, amount_send]
theorem expect_recv (s : Fin 6) (h : recvAct c s) : (haloRd (F := F) m).expect (recvCell c s) 0 = N := by
  unfold Schedule.expect Schedule.amountOf; rw [duties_recv, if_pos h, Finset.sum_singleton, amount_recv]

theorem payload_bar (d : Fin 5) : (haloRd (F := F) m).payload (barCell c) 0 d = barPay c d := rfl
theorem payload_send (s : Fin 6) (d : Fin 5) : (haloRd (F := F) m).payload (sendCell c s) 0 d = sendPay m c s := by
  dsimp only [haloRd]; rw [slotOf_send]
theorem payload_recv (s : Fin 6) (d : Fin 5) : (haloRd (F := F) m).payload (recvCell c s) 0 d = recvPay m c s := by
  dsimp only [haloRd]; rw [slotOf_recv]

theorem barPay_0 : barPay (F := F) c 0 = nbrPay (fx c) (if X c = 0 then 0 else 1) := rfl
theorem barPay_1 : barPay (F := F) c 1 = nbrPay (fy c) (if Y c = 0 then 2 else 3) := rfl
theorem barPay_2 : barPay (F := F) c 2 = nbrPay (zup c) 4 := rfl
theorem barPay_3 : barPay (F := F) c 3 = nbrPay (zdn c) 5 := rfl
theorem rest_bar_z0 (h : Z c = 0) :
    bigSep ((haloRd (F := F) m).duties (barCell c) 0 \ ∅) (fun d => (haloRd (F := F) m).payload (barCell c) 0 d)
      = iprop(nbrPay (fx c) (if X c = 0 then 0 else 1) ∗ nbrPay (fy c) (if Y c = 0 then 2 else 3) ∗ nbrPay (zup c) 4 ∗ emp) := by
  rw [Finset.sdiff_empty, duties_bar, bigSep_eq_bigSepL_of_eq [0, 1, 2, 4] (barDuties_z0 c h) (by decide)]
  rfl

theorem rest_bar_zmid (h0 : 0 < Z c) (h3 : Z c < 3) :
    bigSep ((haloRd (F := F) m).duties (barCell c) 0 \ ∅) (fun d => (haloRd (F := F) m).payload (barCell c) 0 d)
      = iprop(nbrPay (fx c) (if X c = 0 then 0 else 1) ∗ nbrPay (fy c) (if Y c = 0 then 2 else 3) ∗ nbrPay (zup c) 4 ∗ nbrPay (zdn c) 5) := by
  rw [Finset.sdiff_empty, duties_bar, bigSep_eq_bigSepL_of_eq [0, 1, 2, 3] (barDuties_zmid c h0 h3) (by decide)]
  rfl

theorem rest_bar_z3 (h : Z c = 3) :
    bigSep ((haloRd (F := F) m).duties (barCell c) 0 \ ∅) (fun d => (haloRd (F := F) m).payload (barCell c) 0 d)
      = iprop(nbrPay (fx c) (if X c = 0 then 0 else 1) ∗ nbrPay (fy c) (if Y c = 0 then 2 else 3) ∗ nbrPay (zdn c) 5 ∗ emp) := by
  rw [Finset.sdiff_empty, duties_bar, bigSep_eq_bigSepL_of_eq [0, 1, 3, 4] (barDuties_z3 c h) (by decide)]
  rfl
theorem rest_send (s : Fin 6) (h : sendAct c s) :
    bigSep ((haloRd (F := F) m).duties (sendCell c s) 0 \ ∅) (fun d => (haloRd (F := F) m).payload (sendCell c s) 0 d) = sendPay m c s := by
  rw [Finset.sdiff_empty, duties_send, if_pos h, bigSep_singleton, payload_send]
theorem rest_recv (s : Fin 6) (h : recvAct c s) :
    bigSep ((haloRd (F := F) m).duties (recvCell c s) 0 \ ∅) (fun d => (haloRd (F := F) m).payload (recvCell c s) 0 d) = recvPay m c s := by
  rw [Finset.sdiff_empty, duties_recv, if_pos h, bigSep_singleton, payload_recv]

end Sched

instance haloRd_payload_storable (g : GSem nD τ sig) (r : ℕ) (d : Fin 5) :
    BI.Storable (upEmb : UEmb _ 𝕄) ((haloRd (F := F) m).payload g r d) := by
  dsimp only [haloRd]
  unfold barPay nbrPay sendPay recvPay hPts sPts
  (repeat' split) <;> infer_instance

section Payer
variable (c : Dev nD)

theorem duties_send_act (s : Fin 6) (h : sendAct c s) : (haloRd (F := F) m).duties (sendCell c s) 0 = {0} := by rw [duties_send, if_pos h]
theorem duties_recv_act (s : Fin 6) (h : recvAct c s) : (haloRd (F := F) m).duties (recvCell c s) 0 = {0} := by rw [duties_recv, if_pos h]

theorem recvAct_zup (h : Z c < 3) : recvAct (zup c) 4 := by revert c; decide

theorem mem_barDuties_fx : (0 : Fin 5) ∈ barDuties (fx c) := by revert c; decide
theorem mem_barDuties_fy : (1 : Fin 5) ∈ barDuties (fy c) := by revert c; decide
theorem mem_barDuties_zdn (h : 0 < Z c) : (2 : Fin 5) ∈ barDuties (zdn c) := by revert c; decide
theorem mem_barDuties_zup (h : Z c < 3) : (3 : Fin 5) ∈ barDuties (zup c) := by revert c; decide
theorem mem_barDuties_self_lo (h : ¬ 0 < Z c) : (4 : Fin 5) ∈ barDuties c := by revert c; decide
theorem mem_barDuties_self_hi (h : ¬ Z c < 3) : (4 : Fin 5) ∈ barDuties c := by revert c; decide

theorem slot_fx : (if X (fx c) = 0 then (0 : Fin 6) else 1) = if X c = 0 then 1 else 0 := by revert c; decide
theorem slot_fy : (if Y (fy c) = 0 then (2 : Fin 6) else 3) = if Y c = 0 then 3 else 2 := by revert c; decide

theorem payload_bar_fx : (haloRd (F := F) m).payload (barCell (fx c)) 0 0 = nbrPay c (if X c = 0 then 1 else 0) := by
  rw [payload_bar, barPay_0, fx_fx, slot_fx]
theorem payload_bar_fy : (haloRd (F := F) m).payload (barCell (fy c)) 0 1 = nbrPay c (if Y c = 0 then 3 else 2) := by
  rw [payload_bar, barPay_1, fy_fy, slot_fy]
theorem payload_bar_zdn : (haloRd (F := F) m).payload (barCell (zdn c)) 0 2 = nbrPay c 4 := by
  rw [payload_bar, barPay_2, zup_zdn]
theorem payload_bar_zup : (haloRd (F := F) m).payload (barCell (zup c)) 0 3 = nbrPay c 5 := by
  rw [payload_bar, barPay_3, zdn_zup]
theorem payload_bar_self : (haloRd (F := F) m).payload (barCell c) 0 4 = iprop(emp) := rfl

end Payer

theorem tallyAt_zero' (g : GSem nD τ sig) : (tallyAt g () 0 : CellTallies nD τ sig Unit) = 0 := tallyAt_zero g ()

theorem tallyAt_pos {g g' : GSem nD τ sig} {u : Unit} {k : ℕ} (h : 0 < (tallyAt g () k : CellTallies nD τ sig Unit) g' u) : g' = g ∧ 0 < k := by
  rw [tallyAt_apply] at h
  by_cases hg : g' = g ∧ u = ()
  · rw [if_pos hg] at h; exact ⟨hg.1, h⟩
  · rw [if_neg hg] at h; exact absurd h (Nat.lt_irrefl 0)

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by
  rw [L_tc]; exact Finset.mem_singleton_self _

theorem Osend_pos {c : Dev nD} {g : GSem nD τ sig} {u : Unit} (h : 0 < Osend c g u) :
    (g = recvCell (zup c) 4 ∧ Z c < 3) ∨ (g = recvCell (zdn c) 5 ∧ 0 < Z c)
      ∨ g = recvCell (fy c) (if Y c = 0 then 2 else 3) ∨ g = recvCell (fx c) (if X c = 0 then 0 else 1) := by
  unfold Osend at h
  rcases Pipeline.add_pos_cases h with h | h
  · rcases Pipeline.add_pos_cases h with h | h
    · rcases Pipeline.add_pos_cases h with h | h
      · obtain ⟨hg, hk⟩ := tallyAt_pos h
        refine .inl ⟨hg, ?_⟩
        by_contra hz; rw [if_neg hz] at hk; exact Nat.lt_irrefl 0 hk
      · obtain ⟨hg, hk⟩ := tallyAt_pos h
        refine .inr (.inl ⟨hg, ?_⟩)
        by_contra hz; rw [if_neg hz] at hk; exact Nat.lt_irrefl 0 hk
    · exact .inr (.inr (.inl (tallyAt_pos h).1))
  · exact .inr (.inr (.inr (tallyAt_pos h).1))

theorem Osend_pos_kind {c : Dev nD} {g : GSem nD τ sig} {u : Unit} (h : 0 < Osend c g u) : ∃ p s, g = recvCell p s := by
  rcases Osend_pos h with ⟨rfl, _⟩ | ⟨rfl, _⟩ | rfl | rfl <;> exact ⟨_, _, rfl⟩

theorem O₀_pos {c : Dev nD} {g : GSem nD τ sig} {u : Unit} (h : 0 < O₀ c g u) :
    ((g = recvCell (zup c) 4 ∧ Z c < 3) ∨ (g = recvCell (zdn c) 5 ∧ 0 < Z c)
      ∨ g = recvCell (fy c) (if Y c = 0 then 2 else 3) ∨ g = recvCell (fx c) (if X c = 0 then 0 else 1))
    ∨ g = barCell (if Z c < 3 then zup c else c) ∨ g = barCell (if 0 < Z c then zdn c else c) ∨ g = barCell (fy c) ∨ g = barCell (fx c) := by
  unfold O₀ at h
  rcases Pipeline.add_pos_cases h with h | h
  · unfold O₁ at h
    rcases Pipeline.add_pos_cases h with h | h
    · unfold O₂ at h
      rcases Pipeline.add_pos_cases h with h | h
      · unfold O₃ at h
        rcases Pipeline.add_pos_cases h with h | h
        · exact .inl (Osend_pos h)
        · exact .inr (.inl (tallyAt_pos h).1)
      · exact .inr (.inr (.inl (tallyAt_pos h).1))
    · exact .inr (.inr (.inr (.inl (tallyAt_pos h).1)))
  · exact .inr (.inr (.inr (.inr (tallyAt_pos h).1)))

theorem O₀_pos_kind {c : Dev nD} {g : GSem nD τ sig} {u : Unit} (h : 0 < O₀ c g u) : (∃ p s, g = recvCell p s) ∨ ∃ p, g = barCell p := by
  rcases O₀_pos h with h | rfl | rfl | rfl | rfl
  · rcases h with ⟨rfl, _⟩ | ⟨rfl, _⟩ | rfl | rfl <;> exact .inl ⟨_, _, rfl⟩
  all_goals exact .inr ⟨_, rfl⟩

theorem lv_bar (c : Dev nD) (u : Unit) : lv (barCell c) u = 1 := rfl
theorem lv_recv (c : Dev nD) (s : Fin 6) (u : Unit) : lv (recvCell c s) u = 2 := by dsimp only [lv]; rw [slotOf_recv]
theorem mayWait_stage (c : Dev nD) (q : DmaSem sig) (hq : slotOf q = none ∨ ∃ s, slotOf q = some (false, s)) (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), .dma q) () = 0 := by
      dsimp only [lv]; rcases hq with hq | ⟨s, hq⟩ <;> rw [hq]
    refine Pipeline.mayWait_of_levAts (mem_L_tc c _ _) fun g u hg => ?_
    rcases O₀_pos_kind hg with ⟨p, s, rfl⟩ | ⟨p, rfl⟩
    · exact ⟨mem_L_tc p _ u, by rw [hlv, lv_recv]; decide⟩
    · exact ⟨mem_L_tc p _ u, by rw [hlv, lv_bar]; decide⟩
  · rw [MayWait_zero]; iintro -; iempintro

theorem mayWait_bar (c : Dev nD) :
    (levAts L lv : sProp 𝕄) ⊢ MayWait (c : Thread nD τ) (.reg barS) () (Osend c) :=
  Pipeline.mayWait_of_levAts (mem_L_tc c _ _) fun g u hg => by
    obtain ⟨p, s, rfl⟩ := Osend_pos_kind hg
    exact ⟨mem_L_tc p _ u, by rw [lv_recv]; exact (show (1 : ℕ) < 2 by decide)⟩

end Cert.KernelIdeal.Halo

end
-- ==== Proof.Launch.lean ====
import proofs.«900536_g7700000000000537_dist_halo3d_v7x_xyz2x2x4_s48_bf16_1_alg».proof.Proof.Tables

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 12 → SemLoc sig := fun k =>
  if h : k.val < 6 then .dma (sendSem ⟨k.val, h⟩) else .dma (recvSem ⟨k.val - 6, by have := k.isLt; omega⟩)

theorem ownSemFacts : Pipeline.OwnSemFacts cfg0.spec osem := by decide

theorem share_eq (c : Dev nD) (w : Fin cfg0.W) : (dats m 0 c).share w = fullShare := by unfold Dat.share; split <;> rfl

def haloCells : Finset (GSem nD τ sig) := Finset.univ.map ⟨kcell, kcell_injective⟩

abbrev TIx : Type := Fin 5 ⊕ (Fin 6 ⊕ Fin 6)

def tokOf (cj : Dev nD × TIx) : GSem nD τ sig × ℕ × Fin 5 :=
  match cj with
  | (c, .inl d) => (barCell c, 0, d)
  | (c, .inr (.inl s)) => (sendCell c s, 0, 0)
  | (c, .inr (.inr s)) => (recvCell c s, 0, 0)

def tokAct (cj : Dev nD × TIx) : Prop :=
  match cj with
  | (c, .inl d) => d ∈ barDuties c
  | (c, .inr (.inl s)) => sendAct c s
  | (c, .inr (.inr s)) => recvAct c s

instance tokAct_dec : DecidablePred tokAct := fun cj =>
  match cj with
  | (c, .inl d) => inferInstanceAs (Decidable (d ∈ barDuties c))
  | (c, .inr (.inl s)) => inferInstanceAs (Decidable (sendAct c s))
  | (c, .inr (.inr s)) => inferInstanceAs (Decidable (recvAct c s))

theorem tokOf_injective : Function.Injective (tokOf : Dev nD × TIx → GSem nD τ sig × ℕ × Fin 5) := by
  rintro ⟨c, j⟩ ⟨c', j'⟩ h
  have h1 : c = c' := by
    have := congrArg (fun x : GSem nD τ sig × ℕ × Fin 5 => x.1.1.1) h
    rcases j with d | s | s <;> rcases j' with d' | s' | s' <;> exact this
  subst h1
  have hs := congrArg (fun x : GSem nD τ sig × ℕ × Fin 5 => x.1.2) h
  have hd := congrArg (fun x : GSem nD τ sig × ℕ × Fin 5 => x.2.2) h
  rcases j with d | s | s <;> rcases j' with d' | s' | s'
  · exact congrArg (fun d => (c, Sum.inl d)) hd
  · exact absurd hs.symm (send_ne_bar s')
  · exact absurd hs.symm (recv_ne_bar s')
  · exact absurd hs (send_ne_bar s)
  · exact congrArg (fun s => (c, Sum.inr (Sum.inl s))) (sendSem_injective (SemLoc.dma.inj hs))
  · exact absurd hs (send_ne_recv s s')
  · exact absurd hs (recv_ne_bar s)
  · exact absurd hs.symm (send_ne_recv s' s)
  · exact congrArg (fun s => (c, Sum.inr (Sum.inr s))) (recvSem_injective (SemLoc.dma.inj hs))

def haloToks : Finset (GSem nD τ sig × ℕ × Fin 5) := (Finset.univ.filter tokAct).map ⟨tokOf, tokOf_injective⟩

def u₀ : UU :=
  (initOf (Pipeline.cells cfgs cellOf_inj) (Pipeline.launchToks cfgs cellOf_inj), initOf haloCells haloToks)

def toks (c : Dev nD) : sProp 𝕄 :=
  iprop((bigSep Finset.univ fun d : Fin 5 => condP (d ∈ barDuties c) (dutyTok ER (barCell c) 0 d))
    ∗ (bigSep Finset.univ fun s : Fin 6 => condP (sendAct c s) (dutyTok ER (sendCell c s) 0 (0 : Fin 5)))
    ∗ (bigSep Finset.univ fun s : Fin 6 => condP (recvAct c s) (dutyTok ER (recvCell c s) 0 (0 : Fin 5))))

def G (c : Dev nD) : sProp 𝕄 :=
  iprop((bigSep Finset.univ fun k : Fin 13 => roundState ER (haloRd m) (kcell (c, k)) 0)
    ∗ (bigSep Finset.univ fun k : Fin 13 => iprop(atPos ER (kcell (c, k)) 0 ∅ 0 ∗ reached ER (kcell (c, k)) 0)) ∗ toks c)

def G' (c : Dev nD) : sProp 𝕄 := iprop(∃ K, ghost m K c)

theorem toks_eq : bigSep haloToks (fun x => (dutyTok ER x.1 x.2.1 x.2.2 : sProp 𝕄)) = bigSep Finset.univ fun c : Dev nD => toks c := by
  unfold haloToks
  rw [bigSep_map, bigSep_filter, bigSep_univ_prod]
  refine bigSep_congr fun c _ => ?_
  rw [bigSep_univ_sum, bigSep_univ_sum]
  rfl

theorem fund : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 13 => Φ (kcell (c, k)) := by
    unfold haloCells; rw [bigSep_map, bigSep_univ_prod]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

private theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
        ∗ semVal (recvCell c 0) 0 ∗ semVal (recvCell c 1) 0 ∗ semVal (recvCell c 2) 0 ∗ semVal (recvCell c 3) 0 ∗ semVal (recvCell c 4) 0 ∗ semVal (recvCell c 5) 0) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  iframe Hinv Hat Htok

private theorem condP_pos {p : Prop} [Decidable p] (h : p) (R : sProp 𝕄) : condP p R = R := if_pos h
private theorem condP_neg {p : Prop} [Decidable p] (h : ¬ p) (R : sProp 𝕄) : condP p R = iprop(emp) := if_neg h
private theorem condP_congr {p q : Prop} [Decidable p] [Decidable q] (h : p ↔ q) (R : sProp 𝕄) : condP p R = condP q R := by
  by_cases hp : p
  · rw [condP_pos hp, condP_pos (h.mp hp)]
  · rw [condP_neg hp, condP_neg (mt h.mpr hp)]

private theorem Z_zup_pos_iff (c : Dev nD) : 0 < Z (zup c) ↔ Z c < 3 := by revert c; decide
private theorem Z_zdn_lt_iff (c : Dev nD) : Z (zdn c) < 3 ↔ 0 < Z c := by revert c; decide
private theorem mem_bar0 (c : Dev nD) : (0 : Fin 5) ∈ barDuties c := by revert c; decide
private theorem mem_bar1 (c : Dev nD) : (1 : Fin 5) ∈ barDuties c := by revert c; decide
private theorem mem_bar2 (c : Dev nD) : (2 : Fin 5) ∈ barDuties c ↔ Z c < 3 := by revert c; decide
private theorem mem_bar3 (c : Dev nD) : (3 : Fin 5) ∈ barDuties c ↔ 0 < Z c := by revert c; decide
private theorem mem_bar4 (c : Dev nD) : (4 : Fin 5) ∈ barDuties c ↔ (Z c = 0 ∨ Z c = 3) := by revert c; decide

private theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
private theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

def minted (c : Dev nD) : sProp 𝕄 :=
  iprop(dutyTok ER (barCell c) 0 (0 : Fin 5) ∗ dutyTok ER (barCell c) 0 (1 : Fin 5)
    ∗ condP (Z c < 3) (dutyTok ER (barCell c) 0 (2 : Fin 5)) ∗ condP (0 < Z c) (dutyTok ER (barCell c) 0 (3 : Fin 5))
    ∗ condP (Z c = 0) (dutyTok ER (barCell c) 0 (4 : Fin 5)) ∗ condP (Z c = 3) (dutyTok ER (barCell c) 0 (4 : Fin 5))
    ∗ iprop(condP (X c = 1) (dutyTok ER (recvCell c 0) 0 (0 : Fin 5)) ∗ condP (X c = 0) (dutyTok ER (recvCell c 1) 0 (0 : Fin 5)))
    ∗ iprop(condP (Y c = 1) (dutyTok ER (recvCell c 2) 0 (0 : Fin 5)) ∗ condP (Y c = 0) (dutyTok ER (recvCell c 3) 0 (0 : Fin 5)))
    ∗ condP (0 < Z c) (dutyTok ER (recvCell c 4) 0 (0 : Fin 5)) ∗ condP (Z c < 3) (dutyTok ER (recvCell c 5) 0 (0 : Fin 5))
    ∗ bigSep Finset.univ fun s : Fin 6 => condP (sendAct c s) (dutyTok ER (sendCell c s) 0 (0 : Fin 5)))

def routed (c : Dev nD) : sProp 𝕄 :=
  iprop(dutyTok ER (barCell (fx c)) 0 (0 : Fin 5) ∗ dutyTok ER (barCell (fy c)) 0 (1 : Fin 5)
    ∗ condP (0 < Z c) (dutyTok ER (barCell (zdn c)) 0 (2 : Fin 5)) ∗ condP (Z c < 3) (dutyTok ER (barCell (zup c)) 0 (3 : Fin 5))
    ∗ condP (Z c = 0) (dutyTok ER (barCell c) 0 (4 : Fin 5)) ∗ condP (Z c = 3) (dutyTok ER (barCell c) 0 (4 : Fin 5))
    ∗ dutyTok ER (recvCell (fx c) (if X c = 0 then 0 else 1)) 0 (0 : Fin 5)
    ∗ dutyTok ER (recvCell (fy c) (if Y c = 0 then 2 else 3)) 0 (0 : Fin 5)
    ∗ condP (Z c < 3) (dutyTok ER (recvCell (zup c) 4) 0 (0 : Fin 5)) ∗ condP (0 < Z c) (dutyTok ER (recvCell (zdn c) 5) 0 (0 : Fin 5))
    ∗ bigSep Finset.univ fun s : Fin 6 => condP (sendAct c s) (dutyTok ER (sendCell c s) 0 (0 : Fin 5)))

private theorem or_split (c : Dev nD) (R : sProp 𝕄) : condP (Z c = 0 ∨ Z c = 3) R ⊢ iprop(condP (Z c = 0) R ∗ condP (Z c = 3) R) := by
  by_cases h0 : Z c = 0
  · rw [condP_pos (Or.inl h0), condP_pos h0, condP_neg (by omega)]
    iintro H; isplitl [H]; · iexact H
    iempintro
  · by_cases h3 : Z c = 3
    · rw [condP_pos (Or.inr h3), condP_neg h0, condP_pos h3]
      iintro H; isplitr; · iempintro
      iexact H
    · rw [condP_neg (by omega), condP_neg h0, condP_neg h3]
      iintro -; isplitl <;> iempintro

theorem toks_minted (c : Dev nD) : (toks c : sProp 𝕄) ⊢ minted c := by
  unfold toks minted
  rw [bigSep_fin5, bigSep_fin6 (fun s : Fin 6 => condP (recvAct c s) (dutyTok ER (recvCell c s) 0 (0 : Fin 5))),
    condP_pos (mem_bar0 c), condP_pos (mem_bar1 c), condP_congr (mem_bar2 c), condP_congr (mem_bar3 c), condP_congr (mem_bar4 c)]
  iintro ⟨⟨H0, H1, H2, H3, H4⟩, HS, ⟨R0, R1, R2, R3, R4, R5⟩⟩
  ihave H4' := (or_split c _) $$ H4
  icases H4' with ⟨H4a, H4b⟩
  iframe H0 H1 H2 H3 H4a H4b
  isplitl [R0 R1]
  · isplitl [R0]
    · iapply (Entails.of_eq (condP_congr (p := recvAct c 0) (q := X c = 1) Iff.rfl _)); iexact R0
    · iapply (Entails.of_eq (condP_congr (p := recvAct c 1) (q := X c = 0) Iff.rfl _)); iexact R1
  isplitl [R2 R3]
  · isplitl [R2]
    · iapply (Entails.of_eq (condP_congr (p := recvAct c 2) (q := Y c = 1) Iff.rfl _)); iexact R2
    · iapply (Entails.of_eq (condP_congr (p := recvAct c 3) (q := Y c = 0) Iff.rfl _)); iexact R3
  isplitl [R4]
  · iapply (Entails.of_eq (condP_congr (p := recvAct c 4) (q := 0 < Z c) Iff.rfl _)); iexact R4
  isplitl [R5]
  · iapply (Entails.of_eq (condP_congr (p := recvAct c 5) (q := Z c < 3) Iff.rfl _)); iexact R5
  iexact HS

private theorem route (e : Dev nD ≃ Dev nD) {Φ Ψ : Dev nD → sProp 𝕄} (h : ∀ c, Φ (e c) ⊢ Ψ c) :
    bigSep Finset.univ Φ ⊢ bigSep Finset.univ Ψ := by
  rw [bigSep_univ_equiv e Φ]; exact bigSep_mono fun c _ => h c

private theorem sep_route {A A' B B' : Dev nD → sProp 𝕄} (hA : bigSep Finset.univ A ⊢ bigSep Finset.univ A') (hB : bigSep Finset.univ B ⊢ bigSep Finset.univ B') :
    (bigSep Finset.univ fun c => iprop(A c ∗ B c)) ⊢ bigSep Finset.univ fun c => iprop(A' c ∗ B' c) := by
  rw [bigSep_sep', bigSep_sep']
  iintro ⟨HA, HB⟩
  isplitl [HA]
  · iapply hA; iexact HA
  · iapply hB; iexact HB

private theorem x_route (c : Dev nD) :
    iprop(condP (X (fx c) = 1) (dutyTok ER (recvCell (fx c) 0) 0 (0 : Fin 5)) ∗ condP (X (fx c) = 0) (dutyTok ER (recvCell (fx c) 1) 0 (0 : Fin 5)))
      ⊢ (dutyTok ER (recvCell (fx c) (if X c = 0 then 0 else 1)) 0 (0 : Fin 5) : sProp 𝕄) := by
  have hx := X_lt c; have hfx := X_fx c
  by_cases h : X c = 0
  · rw [condP_pos (by omega), condP_neg (by omega), if_pos h]; iintro ⟨H, -⟩; iexact H
  · rw [condP_neg (by omega), condP_pos (by omega), if_neg h]; iintro ⟨-, H⟩; iexact H

private theorem y_route (c : Dev nD) :
    iprop(condP (Y (fy c) = 1) (dutyTok ER (recvCell (fy c) 2) 0 (0 : Fin 5)) ∗ condP (Y (fy c) = 0) (dutyTok ER (recvCell (fy c) 3) 0 (0 : Fin 5)))
      ⊢ (dutyTok ER (recvCell (fy c) (if Y c = 0 then 2 else 3)) 0 (0 : Fin 5) : sProp 𝕄) := by
  have hy := Y_lt c; have hfy := Y_fy c
  by_cases h : Y c = 0
  · rw [condP_pos (by omega), condP_neg (by omega), if_pos h]; iintro ⟨H, -⟩; iexact H
  · rw [condP_neg (by omega), condP_pos (by omega), if_neg h]; iintro ⟨-, H⟩; iexact H

theorem minted_routed : (bigSep Finset.univ fun c : Dev nD => (minted c : sProp 𝕄)) ⊢ bigSep Finset.univ fun c : Dev nD => routed c := by
  unfold minted routed
  refine sep_route (route fxE fun c => .rfl) ?_
  refine sep_route (route fyE fun c => .rfl) ?_
  refine sep_route (route zupE.symm fun c => Entails.of_eq (condP_congr (Z_zdn_lt_iff c) _)) ?_
  refine sep_route (route zupE fun c => Entails.of_eq (condP_congr (Z_zup_pos_iff c) _)) ?_
  refine sep_route .rfl ?_
  refine sep_route .rfl ?_
  refine sep_route (route fxE fun c => x_route c) ?_
  refine sep_route (route fyE fun c => y_route c) ?_
  refine sep_route (route zupE fun c => Entails.of_eq (condP_congr (Z_zup_pos_iff c) _)) ?_
  refine sep_route (route zupE.symm fun c => Entails.of_eq (condP_congr (Z_zdn_lt_iff c) _)) ?_
  exact .rfl

private theorem low_pay (c : Dev nD) (A B : sProp 𝕄) : iprop(condP (0 < Z c) A ∗ condP (Z c = 0) B) ⊢ if 0 < Z c then A else B := by
  by_cases h : 0 < Z c
  · rw [condP_pos h, if_pos h]; iintro ⟨H, -⟩; iexact H
  · rw [condP_neg h, condP_pos (by omega), if_neg h]; iintro ⟨-, H⟩; iexact H
private theorem high_pay (c : Dev nD) (A B : sProp 𝕄) : iprop(condP (Z c < 3) A ∗ condP (Z c = 3) B) ⊢ if Z c < 3 then A else B := by
  have hz := Z_lt c
  by_cases h : Z c < 3
  · rw [condP_pos h, if_pos h]; iintro ⟨H, -⟩; iexact H
  · rw [condP_neg h, condP_pos (by omega), if_neg h]; iintro ⟨-, H⟩; iexact H

theorem routed_pay (c : Dev nD) : (routed c : sProp 𝕄) ⊢ payToks c := by
  unfold routed payToks
  iintro ⟨H0, H1, H2, H3, H4a, H4b, Hx, Hy, Hr4, Hr5, HS⟩
  iframe H0 H1
  isplitl [H2 H4a]
  · iapply (low_pay c _ _); isplitl [H2] <;> iassumption
  isplitl [H3 H4b]
  · iapply (high_pay c _ _); isplitl [H3] <;> iassumption
  iframe Hx Hy Hr5 Hr4 HS

theorem toks_around : (bigSep Finset.univ fun c : Dev nD => (toks c : sProp 𝕄)) ⊢ bigSep Finset.univ fun c : Dev nD => payToks c :=
  ((bigSep_mono fun c _ => toks_minted (F := F) c).trans (minted_routed (F := F))).trans (bigSep_mono fun c _ => routed_pay (F := F) c)

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) : iprop(records m K ∗ iprop(positions c ∗ payToks c)) ⊢ G' m c := by
  unfold G' ghost
  iintro ⟨HR, Hp, Ht⟩
  iexists K
  isplitl [HR]; · iexact HR
  isplitl [Hp] <;> iassumption

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (haloRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · unfold positions; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

private theorem barCell_ne_recv (a b : Dev nD) (s : Fin 6) : barCell a ≠ recvCell b s := fun h => recv_ne_barCell b a s h.symm

def kb (d c : Dev nD) : ℕ :=
  (if c = (if Z d < 3 then zup d else d) then 1 else 0) + (if c = (if 0 < Z d then zdn d else d) then 1 else 0)
    + (if c = fy d then 1 else 0) + (if c = fx d then 1 else 0)

def kr (d c : Dev nD) (s : Fin 6) : ℕ :=
  (if c = zup d ∧ s = 4 then (if Z d < 3 then 1 else 0) else 0) + (if c = zdn d ∧ s = 5 then (if 0 < Z d then 1 else 0) else 0)
    + (if c = fy d ∧ s = (if Y d = 0 then 2 else 3) then 1 else 0) + (if c = fx d ∧ s = (if X d = 0 then 0 else 1) then 1 else 0)

theorem kb_sum (c : Dev nD) : ∑ d : Dev nD, kb d c = 4 := by revert c; decide

theorem kr_sum (c : Dev nD) (s : Fin 6) : ∑ d : Dev nD, kr d c s = if recvAct c s then 1 else 0 := by revert c s; decide

theorem owed_bar (d c : Dev nD) : O₀ d (barCell c) () = kb d c := by
  unfold O₀ O₁ O₂ O₃ O₄ Osend kb
  simp only [Pi.add_apply, Finsupp.add_apply, tallyAt_apply, bar_eq_iff, barCell_ne_recv, false_and, and_true, if_false, Nat.zero_add]

theorem owed_recv (d c : Dev nD) (s : Fin 6) : O₀ d (recvCell c s) () = N * kr d c s := by
  unfold O₀ O₁ O₂ O₃ O₄ Osend kr
  generalize N = n
  simp only [Pi.add_apply, Finsupp.add_apply, tallyAt_apply, recv_eq_iff, recv_ne_barCell, false_and, and_true, if_false, Nat.add_zero,
    Nat.mul_add, mul_ite, mul_one, mul_zero]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, kb_sum]

theorem launch_recv (c : Dev nD) (s : Fin 6) :
    tallyOn (recvCell c s) (launchCredit (Pipeline.owing O₀) 0 (recvCell c s)) = (tallyAt (recvCell c s) () (if recvAct c s then N else 0) : CellTallies nD τ sig Unit) := by
  unfold tallyAt; refine congrArg _ (Finsupp.ext fun u => ?_); cases u
  rw [Pipeline.launchCredit_owing, Finsupp.single_eq_same, Finset.sum_congr rfl fun d _ => owed_recv d c s, ← Finset.mul_sum, kr_sum]
  split <;> simp

private theorem recvLoc_injective : Function.Injective (fun s : Fin 6 => (SemLoc.dma (recvSem s) : SemLoc sig)) :=
  fun a b h => recvSem_injective (SemLoc.dma.inj h)

private theorem bigSep_mono' {I : Type} {S : Finset I} {Φ Ψ : I → sProp 𝕄} (h : ∀ i ∈ S, Φ i ⊢ Ψ i) : bigSep S Φ ⊢ bigSep S Ψ := bigSep_mono h

theorem creds (c : Dev nD) : (Pipeline.launchCred O₀ c : sProp 𝕄) ⊢ startCred c := by
  unfold Pipeline.launchCred startCred
  refine (bigSep_subset (t := insert (SemLoc.reg barS) (Finset.univ.map ⟨_, recvLoc_injective⟩)) (Finset.subset_univ _)).trans ?_
  rw [bigSep_insert (fun h => by obtain ⟨s, -, hs⟩ := Finset.mem_map.mp h; exact recv_ne_bar s hs), bigSep_map, launch_bar]
  show iprop(cred (tallyAt (barCell c) () 4) ∗ bigSep Finset.univ fun s : Fin 6 => cred (tallyOn (recvCell c s) (launchCredit (Pipeline.owing O₀) 0 (recvCell c s))))
    ⊢ iprop(cred (tallyAt (barCell c) () 4) ∗ bigSep Finset.univ fun s : Fin 6 => condP (recvAct c s) (cred (tallyAt (recvCell c s) () N)))
  iintro ⟨H1, H2⟩
  isplitl [H1]; · iexact H1
  iapply (bigSep_mono' (S := Finset.univ) fun (s : Fin 6) _ => show
      (cred (tallyOn (recvCell c s) (launchCredit (Pipeline.owing O₀) 0 (recvCell c s))) : sProp 𝕄) ⊢ condP (recvAct c s) (cred (tallyAt (recvCell c s) () N)) from by
    rw [launch_recv]
    by_cases h : recvAct c s
    · rw [if_pos h, condP_pos h]
    · rw [condP_neg h]; iintro -; iempintro)
  iexact H2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  rw [bigSep_fin6, bigSep_fin6]
  iintro ⟨H0, H1, ⟨S0, S1, S2, S3, S4, S5⟩, ⟨R0, R1, R2, R3, R4, R5⟩⟩
  isplitr; · iempintro
  isplitr [H0 H1]
  · isplitl [S0]; · iexact S0
    iframe S1 S2 S3 S4 S5 R0 R1 R2 R3 R4 R5
  isplitl [H0] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> exact Or.inl (by decide)) _ (by
      rcases t with ⟨_ | _, ht⟩
      · exact Or.inl rfl
      · exact Or.inr rfl)

private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
theorem body_obligation (hbody : ∀ c : Dev nD, BodySound (F := F) m c) (c : Dev nD) :
    BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  iintro H
  iapply (hbody c fun _ => bodyPost m c)
  isplitl [H]; · iexact H
  iintro H; iexact H

set_option maxRecDepth 8000 in

theorem run_arrays (hbody : ∀ c : Dev nD, BodySound (F := F) m c) :
    θ_run defs (onTc (τ := τ) (main (F := F))) ⟨m, fun _ => 0, ρ⟩ (fun r =>
      ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem final_in (c : Dev nD) : (dats m 0 c).arrAt (0 : Fin 2) cfg0.N = m ((c : Thread nD τ).loc main_arg0) :=
  (dats (F := F) m 0 c).arrAt_in (0 : Fin 2) rfl _

theorem final_out (c : Dev nD) : (dats m 0 c).arrAt (1 : Fin 2) cfg0.N = outAt m c := by
  have h := (dats (F := F) m 0 c).arrAt_succ (1 : Fin 2) t₀
  rw [flush0_1 t₀, if_pos rfl] at h
  refine (show (dats m 0 c).arrAt (1 : Fin 2) cfg0.N = (dats m 0 c).arrAt (1 : Fin 2) (t₀.val + 1) from rfl).trans (h.trans ?_)
  exact Memref.write_access_unit_zero_univ (Elt F) main_v1 (off := fun a => (cfg0.win 1).index t₀ a * (cfg0.win 1).size a)
    (funext fun a => by fin_cases a <;> rfl) _ _ _

/-- From each device's body: every fair run ends, device `c` at `outAt m c`, its input block unchanged. -/
theorem run_main (hbody : ∀ c : Dev nD, BodySound (F := F) m c) :
    θ_run defs (onTc (τ := τ) (main (F := F))) ⟨m, fun _ => 0, ρ⟩ (fun r => ∀ c : Dev nD,
      r.2.mem ((c.tc : Thread nD τ).loc main_v1) = outAt m c ∧ r.2.mem ((c.tc : Thread nD τ).loc main_arg0) = m ((c.tc : Thread nD τ).loc main_arg0)) :=
  (θ_run defs _ _).mono (fun _ h c => ⟨((h c) (1 : Fin 2)).trans (final_out m c), ((h c) (0 : Fin 2)).trans (final_in m c)⟩) (run_arrays m ρ hbody)

end Cert.KernelIdeal.Halo

end
-- ==== Proof.BodyInv.lean ====
import proofs.«900536_g7700000000000537_dist_halo3d_v7x_xyz2x2x4_s48_bf16_1_alg».proof.Proof.Tables

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def six (Φ : Fin 6 → sProp 𝕄) : sProp 𝕄 := iprop(Φ 0 ∗ Φ 1 ∗ Φ 2 ∗ Φ 3 ∗ Φ 4 ∗ Φ 5)

abbrev pt0 (c : Dev nD) (f : Buf (Elt F) ((c : Thread nD τ).loc cc0_stg0_0)) : sProp 𝕄 := ((c : Thread nD τ).loc cc0_stg0_0) ↦{fullShare} f
abbrev pt1 (c : Dev nD) (f : Buf (Elt F) ((c : Thread nD τ).loc cc0_stg1_0)) : sProp 𝕄 := ((c : Thread nD τ).loc cc0_stg1_0) ↦{fullShare} f
abbrev ptH (c : Dev nD) (f : Buf (Elt F) ((c : Thread nD τ).loc cc0_scratch0)) : sProp 𝕄 := ((c : Thread nD τ).loc cc0_scratch0) ↦{fullShare} f
abbrev ptS (c : Dev nD) (f : Buf (Elt F) ((c : Thread nD τ).loc cc0_scratch1)) : sProp 𝕄 := ((c : Thread nD τ).loc cc0_scratch1) ↦{fullShare} f

abbrev WP {α : Type} (c : Dev nD) (p : Prog (TpuEff nD τ sig (Elt F) Λ₀ .tc) α) (Q : α → sProp 𝕄) : sProp 𝕄 :=
  wp frame (wpE (defs₀ (F := F)) 𝒱₀ c none) Set.univ p Q

def sTok (c : Dev nD) (s : Fin 6) : sProp 𝕄 := condP (sendAct c s) (dutyTok ER (sendCell c s) 0 (0 : Fin 5))

def rCred (c : Dev nD) (s : Fin 6) : sProp 𝕄 := condP (recvAct c s) (cred (tallyAt (recvCell c s) () N))
def sCred (c : Dev nD) (s : Fin 6) : sProp 𝕄 := condP (sendAct c s) (cred (tallyAt (sendCell c s) () N))

def hGive (c : Dev nD) (s : Fin 6) : sProp 𝕄 := condP (recvAct c s) iprop(∃ f, hPts c s f)
def hBack (c : Dev nD) (s : Fin 6) : sProp 𝕄 := condP (recvAct c s) (hPts c s (haloC m c))

def sKeep (c : Dev nD) (s : Fin 6) : sProp 𝕄 := condP (¬ sendAct c s) (sPts c s (sendC m c))
def sBack (c : Dev nD) (s : Fin 6) : sProp 𝕄 := condP (sendAct c s) (sPts c s (sendC m c))

def rPos0 (c : Dev nD) (s : Fin 6) : sProp 𝕄 := atPos ER (recvCell c s) 0 ∅ 0
def rPos1 (c : Dev nD) (s : Fin 6) : sProp 𝕄 := atPos ER (recvCell c s) (if recvAct c s then 1 else 0) ∅ 0
def sPos0 (c : Dev nD) (s : Fin 6) : sProp 𝕄 := atPos ER (sendCell c s) 0 ∅ 0
def sPos1 (c : Dev nD) (s : Fin 6) : sProp 𝕄 := atPos ER (sendCell c s) (if sendAct c s then 1 else 0) ∅ 0

def pre7 (K : Dev nD × Fin 13 → ℕ) (W : Waits sig Unit) (c : Dev nD) : sProp 𝕄 :=
  iprop(records m K ∗ owes (c : Thread nD τ) (O₀ c) W
    ∗ dutyTok ER (barCell (fx c)) 0 (0 : Fin 5) ∗ dutyTok ER (barCell (fy c)) 0 (1 : Fin 5)
    ∗ (if 0 < Z c then dutyTok ER (barCell (zdn c)) 0 (2 : Fin 5) else dutyTok ER (barCell c) 0 (4 : Fin 5))
    ∗ hGive c 0 ∗ hGive c 1 ∗ hGive c 2 ∗ hGive c 3 ∗ hGive c 4)
def post7 (W : Waits sig Unit) (c : Dev nD) : sProp 𝕄 := owes (c : Thread nD τ) (O₃ c) W

def Part7Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre7 m K W c ∗ (post7 (F := F) W c -∗
        WP c (k ⟨c, xw c, yw c, zw c, SemArray.scalar (sig.barrier 0 rfl), Scalar.extui (Scalar.cmpi .slt (zw c) 3#32)⟩) Q))
      ⊢ WP c (k0_part7 (F := F) uM (Memref.isWhole_whole _) oM (Memref.isWhole_whole _) hM (Memref.isWhole_whole _) sM (Memref.isWhole_whole _) cc0_scratch2 cc0_scratch3 >>= k) Q

def filledTo (n : ℕ) (c : Dev nD) (f : Buf (Elt F) ((c : Thread nD τ).loc cc0_scratch1)) : Prop :=
  ∀ idx, (idx 0).val < n → f idx = sendC m c idx

def pre8 (K : Dev nD × Fin 13 → ℕ) (W : Waits sig Unit) (c : Dev nD) : sProp 𝕄 :=
  iprop(records m K ∗ owes (c : Thread nD τ) (O₃ c) W
    ∗ (if Z c < 3 then dutyTok ER (barCell (zup c)) 0 (3 : Fin 5) else dutyTok ER (barCell c) 0 (4 : Fin 5))
    ∗ hGive c 5
    ∗ pt0 c (ublk m c) ∗ (∃ f, ptS c f))
def post8 (W : Waits sig Unit) (c : Dev nD) : sProp 𝕄 :=
  iprop(owes (c : Thread nD τ) (Osend c) W ∗ pt0 c (ublk m c) ∗ (∃ f, ⌜filledTo m 3 c f⌝ ∗ ptS c f))

def Part8Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre8 m K W c ∗ (post8 m W c -∗
        WP c (k (k0_pay25 (uM.view.readAt (Elt F) (Rect.unit (s := S48x48x48) ![0, 47, 0] S48x1x48.size inb_S48x48x48_S48x1x48_0_47_0).toLoadRect (ublk m c)))) Q))
      ⊢ WP c (k0_part8 (F := F) uM (Memref.isWhole_whole _) oM (Memref.isWhole_whole _) hM (Memref.isWhole_whole _) sM (Memref.isWhole_whole _) cc0_scratch2 cc0_scratch3 c (xw c) (yw c) (zw c) (SemArray.scalar (sig.barrier 0 rfl)) (Scalar.extui (Scalar.cmpi .slt (zw c) 3#32)) >>= k) Q

def pre9 (K : Dev nD × Fin 13 → ℕ) (W : Waits sig Unit) (c : Dev nD) : sProp 𝕄 :=
  iprop(records m K ∗ levAts L lv ∗ owes (c : Thread nD τ) (Osend c) W
    ∗ pt0 c (ublk m c) ∗ (∃ f, ⌜filledTo m 3 c f⌝ ∗ ptS c f)
    ∗ cred (tallyAt (barCell c) () 4) ∗ atPos ER (barCell c) 0 ∅ 0
    ∗ sTok c 0 ∗ sTok c 1 ∗ sTok c 2 ∗ sTok c 3 ∗ sTok c 4
    ∗ dutyTok ER (recvCell (fx c) (if X c = 0 then 0 else 1)) 0 (0 : Fin 5) ∗ dutyTok ER (recvCell (fy c) (if Y c = 0 then 2 else 3)) 0 (0 : Fin 5)
    ∗ condP (0 < Z c) (dutyTok ER (recvCell (zdn c) 5) 0 (0 : Fin 5)))
def post9 (c : Dev nD) : sProp 𝕄 :=
  iprop((∃ W, owes (c : Thread nD τ) (tallyAt (recvCell (zup c) 4) () (if Z c < 3 then N else 0)) W)
    ∗ pt0 c (ublk m c)
    ∗ sKeep m c 0 ∗ sKeep m c 1 ∗ sKeep m c 2 ∗ sKeep m c 3 ∗ sKeep m c 4 ∗ sPts c 5 (sendC m c)
    ∗ sCred c 0 ∗ sCred c 1 ∗ sCred c 2 ∗ sCred c 3 ∗ sCred c 4
    ∗ condP (Z c < 3) (nbrPay (zup c) 4))

def Part9Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre9 m K W c ∗ (post9 m c -∗ WP c (k ⟨⟩) Q))
      ⊢ WP c (k0_part9 (F := F) uM (Memref.isWhole_whole _) oM (Memref.isWhole_whole _) hM (Memref.isWhole_whole _) sM (Memref.isWhole_whole _) cc0_scratch2 cc0_scratch3 c (xw c) (yw c) (zw c) (SemArray.scalar (sig.barrier 0 rfl))
          (k0_pay25 (uM.view.readAt (Elt F) (Rect.unit (s := S48x48x48) ![0, 47, 0] S48x1x48.size inb_S48x48x48_S48x1x48_0_47_0).toLoadRect (ublk m c))) >>= k) Q

def pre10 (K : Dev nD × Fin 13 → ℕ) (W : Waits sig Unit) (c : Dev nD) : sProp 𝕄 :=
  iprop(records m K ∗ owes (c : Thread nD τ) (tallyAt (recvCell (zup c) 4) () (if Z c < 3 then N else 0)) W
    ∗ condP (Z c < 3) (nbrPay (zup c) 4) ∗ sPts c 5 (sendC m c)
    ∗ sTok c 5 ∗ condP (Z c < 3) (dutyTok ER (recvCell (zup c) 4) 0 (0 : Fin 5))
    ∗ pt0 c (ublk m c))
def post10 (W : Waits sig Unit) (c : Dev nD) : sProp 𝕄 :=
  iprop(owes (c : Thread nD τ) 0 W ∗ sKeep m c 5 ∗ sCred c 5 ∗ pt0 c (ublk m c))

def Part10Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre10 m K W c ∗ (post10 m W c -∗
        WP c (k ⟨f90 c, f91 c, f92 c, f93 c, f94 c, f95 c, k0_pay28 (ublk m c),
          iota .tc S48x48x48 32 [0] iota_S48x48x48_d0_w32, iota .tc S48x48x48 32 [1] iota_S48x48x48_d1_w32, iota .tc S48x48x48 32 [2] iota_S48x48x48_d2_w32,
          k0_pay29 (xw c), 47#32⟩) Q))
      ⊢ WP c (k0_part10 (F := F) uM (Memref.isWhole_whole _) oM (Memref.isWhole_whole _) hM (Memref.isWhole_whole _) sM (Memref.isWhole_whole _) cc0_scratch2 cc0_scratch3 c (xw c) (yw c) (zw c) >>= k) Q

def pre11 (K : Dev nD × Fin 13 → ℕ) (W : Waits sig Unit) (c : Dev nD) : sProp 𝕄 :=
  iprop(records m K ∗ owes (c : Thread nD τ) 0 W ∗ (∃ g, pt1 c g)
    ∗ rCred c 0 ∗ rCred c 1 ∗ rCred c 2 ∗ rPos0 c 0 ∗ rPos0 c 1 ∗ rPos0 c 2)
def post11 (c : Dev nD) : sProp 𝕄 :=
  iprop((∃ W, owes (c : Thread nD τ) 0 W) ∗ pt1 c (out3 m c)
    ∗ hBack m c 0 ∗ hBack m c 1 ∗ hBack m c 2 ∗ rPos1 c 0 ∗ rPos1 c 1 ∗ rPos1 c 2)

def Part11Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre11 m K W c ∗ (post11 m c -∗ WP c (k (Scalar.cmpi .ne (Scalar.extui (Scalar.cmpi .eq (yw c) 0#32)) 0#32)) Q))
      ⊢ WP c (k0_part11 (F := F) uM (Memref.isWhole_whole _) oM (Memref.isWhole_whole _) hM (Memref.isWhole_whole _) sM (Memref.isWhole_whole _) cc0_scratch2 cc0_scratch3 (xw c) (yw c) (zw c) (f90 c) (f91 c) (f92 c) (f93 c) (f94 c) (f95 c) (k0_pay28 (ublk m c))
          (iota .tc S48x48x48 32 [0] iota_S48x48x48_d0_w32) (iota .tc S48x48x48 32 [1] iota_S48x48x48_d1_w32) (iota .tc S48x48x48 32 [2] iota_S48x48x48_d2_w32)
          (k0_pay29 (xw c)) 47#32 >>= k) Q

def tailProg (arg0 : Memref sig .tc .vmem S48x48x48 .f32) (harg0 : arg0.IsWhole) (arg1 : Memref sig .tc .vmem S48x48x48 .bf16) (harg1 : arg1.IsWhole) (arg2 : Memref sig .tc .vmem S6x48x48 .bf16) (harg2 : arg2.IsWhole) (arg3 : Memref sig .tc .vmem S6x48x48 .bf16) (harg3 : arg3.IsWhole) (arg4 : DmaSems sig S6) (arg5 : DmaSems sig S6)
    (v2 v5 v8 : BitVec 32) (v90 v91 v92 v93 v94 v95 v168 : BitVec 1) : Prog (TpuEff nD τ sig (Elt F) Λ₀ .tc) PUnit := do
  if k0_h14 : v168 = 1#1 then do
    let ⟨v206, v227, v229⟩ : Σ' (v206 : FVec F S48x48 .bf16) (v227 : IVec S48x48 1), FVec F S48x48 .bf16 ← k0_part4 arg0 harg0 arg1 harg1 arg2 harg2 arg3 harg3 arg4 arg5 v2 v5 v8 v90 v91 v94 v95
    let v233 : Vec F S48x1x48 .bf16 ← Prog.lift (.load arg1 (Rect.unit (s := S48x48x48) ![0, 47, 0] S48x1x48.size inb_S48x48x48_S48x1x48_0_47_0).toLoadRect (View.loadsAt_vmem h_S48x1x48))
    storeSubelements arg1 (Rect.unit (s := S48x48x48) ![0, 46, 0] S48x2x48.size inb_S48x48x48_S48x2x48_0_46_0) (fun old => updateSlice old (k0_pay1 v206 v227 v229) ![0, 1, 0] slices_S48x2x48_S48x1x48_0_1_0) (View.loadsAt_vmem h_S48x2x48) (View.stores_vmem h_S48x2x48 (harg1.storeExact_slice rfl _ packedbf16_S48x48x48_S48x2x48_0_46_0) (fun _ => rfl))
    pure ⟨⟩
  else do
    pure ⟨⟩
  let v169 : BitVec 1 := Scalar.cmpi .sgt v8 0#32
  let v170 : BitVec 32 := Scalar.extui v169
  let v171 : BitVec 1 := Scalar.cmpi .ne v170 0#32
  if k0_h15 : v171 = 1#1 then do
    let ⟨v206, v227, v229⟩ : Σ' (v206 : FVec F S48x48 .bf16) (v227 : IVec S48x48 1), FVec F S48x48 .bf16 ← k0_part5 arg0 harg0 arg1 harg1 arg2 harg2 arg3 harg3 arg4 arg5 v2 v5 v8 v90 v91 v92 v93
    let v233 : Vec F S48x48x1 .bf16 ← Prog.lift (.load arg1 (Rect.unit (s := S48x48x48) ![0, 0, 0] S48x48x1.size inb_S48x48x48_S48x48x1_0_0_0).toLoadRect (View.loadsAt_vmem h_S48x48x1))
    Prog.lift (.store arg1 (Rect.unit (s := S48x48x48) ![0, 0, 0] S48x48x1.size inb_S48x48x48_S48x48x1_0_0_0) (k0_pay2 v206 v227 v229) Finset.univ (View.stores_vmem h_S48x48x1 (harg1.storeExact_slice rfl _ packedbf16_S48x48x48_S48x48x1_0_0_0) (fun _ => rfl)) (.inl rfl))
    pure ⟨⟩
  else do
    pure ⟨⟩
  let v172 : BitVec 1 := Scalar.cmpi .slt v8 3#32
  let v173 : BitVec 32 := Scalar.extui v172
  let v174 : BitVec 1 := Scalar.cmpi .ne v173 0#32
  if k0_h16 : v174 = 1#1 then do
    let ⟨v206, v227, v229⟩ : Σ' (v206 : FVec F S48x48 .bf16) (v227 : IVec S48x48 1), FVec F S48x48 .bf16 ← k0_part6 arg0 harg0 arg1 harg1 arg2 harg2 arg3 harg3 arg4 arg5 v2 v5 v8 v90 v91 v92 v93
    let v233 : Vec F S48x48x1 .bf16 ← Prog.lift (.load arg1 (Rect.unit (s := S48x48x48) ![0, 0, 47] S48x48x1.size inb_S48x48x48_S48x48x1_0_0_47).toLoadRect (View.loadsAt_vmem h_S48x48x1))
    Prog.lift (.store arg1 (Rect.unit (s := S48x48x48) ![0, 0, 47] S48x48x1.size inb_S48x48x48_S48x48x1_0_0_47) (k0_pay3 v206 v227 v229) Finset.univ (View.stores_vmem h_S48x48x1 (harg1.storeExact_slice rfl _ packedbf16_S48x48x48_S48x48x1_0_0_47) (fun _ => rfl)) (.inl rfl))
    pure ⟨⟩
  else do
    pure ⟨⟩
  let v175 : BitVec 1 := Scalar.cmpi .eq v2 0#32
  let v176 : BitVec 32 := Scalar.extui v175
  let v177 : BitVec 1 := Scalar.cmpi .ne v176 0#32
  if k0_h17 : v177 = 1#1 then do
    let v193 : DmaSems sig S1 := arg4.slice (Rect.unit (s := S6) ![1] S1.size inb_S6_S1_1)
    let v194 : DmaSems sig S_ := v193.squeeze S_ squeezes_S1_S_
    let v195 : Memref sig .tc .vmem S1x48x48 .bf16 := arg3.slice (Rect.unit (s := S6x48x48) ![1, 0, 0] S1x48x48.size inb_S6x48x48_S1x48x48_1_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![1, 0, 0] S1x48x48.size inb_S6x48x48_S1x48x48_1_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_1_0_0).reshape _ _) ((harg3.wordExact_slice rfl _ wordsbf16_S6x48x48_S1x48x48_1_0_0).reshape _ _))
    pure ⟨⟩
  else do
    pure ⟨⟩
  let v178 : BitVec 1 := Scalar.cmpi .eq v2 1#32
  let v179 : BitVec 32 := Scalar.extui v178
  let v180 : BitVec 1 := Scalar.cmpi .ne v179 0#32
  if k0_h18 : v180 = 1#1 then do
    let v193 : DmaSems sig S1 := arg4.slice (Rect.unit (s := S6) ![0] S1.size inb_S6_S1_0)
    let v194 : DmaSems sig S_ := v193.squeeze S_ squeezes_S1_S_
    let v195 : Memref sig .tc .vmem S1x48x48 .bf16 := arg3.slice (Rect.unit (s := S6x48x48) ![0, 0, 0] S1x48x48.size inb_S6x48x48_S1x48x48_0_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![0, 0, 0] S1x48x48.size inb_S6x48x48_S1x48x48_0_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_0_0_0).reshape _ _) ((harg3.wordExact_slice rfl _ wordsbf16_S6x48x48_S1x48x48_0_0_0).reshape _ _))
    pure ⟨⟩
  else do
    pure ⟨⟩
  let v181 : BitVec 1 := Scalar.cmpi .eq v5 0#32
  let v182 : BitVec 32 := Scalar.extui v181
  let v183 : BitVec 1 := Scalar.cmpi .ne v182 0#32
  if k0_h19 : v183 = 1#1 then do
    let v193 : DmaSems sig S1 := arg4.slice (Rect.unit (s := S6) ![3] S1.size inb_S6_S1_3)
    let v194 : DmaSems sig S_ := v193.squeeze S_ squeezes_S1_S_
    let v195 : Memref sig .tc .vmem S1x48x48 .bf16 := arg3.slice (Rect.unit (s := S6x48x48) ![3, 0, 0] S1x48x48.size inb_S6x48x48_S1x48x48_3_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![3, 0, 0] S1x48x48.size inb_S6x48x48_S1x48x48_3_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_3_0_0).reshape _ _) ((harg3.wordExact_slice rfl _ wordsbf16_S6x48x48_S1x48x48_3_0_0).reshape _ _))
    pure ⟨⟩
  else do
    pure ⟨⟩
  let v184 : BitVec 1 := Scalar.cmpi .eq v5 1#32
  let v185 : BitVec 32 := Scalar.extui v184
  let v186 : BitVec 1 := Scalar.cmpi .ne v185 0#32
  if k0_h20 : v186 = 1#1 then do
    let v193 : DmaSems sig S1 := arg4.slice (Rect.unit (s := S6) ![2] S1.size inb_S6_S1_2)
    let v194 : DmaSems sig S_ := v193.squeeze S_ squeezes_S1_S_
    let v195 : Memref sig .tc .vmem S1x48x48 .bf16 := arg3.slice (Rect.unit (s := S6x48x48) ![2, 0, 0] S1x48x48.size inb_S6x48x48_S1x48x48_2_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![2, 0, 0] S1x48x48.size inb_S6x48x48_S1x48x48_2_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_2_0_0).reshape _ _) ((harg3.wordExact_slice rfl _ wordsbf16_S6x48x48_S1x48x48_2_0_0).reshape _ _))
    pure ⟨⟩
  else do
    pure ⟨⟩
  let v187 : BitVec 1 := Scalar.cmpi .sgt v8 0#32
  let v188 : BitVec 32 := Scalar.extui v187
  let v189 : BitVec 1 := Scalar.cmpi .ne v188 0#32
  if k0_h21 : v189 = 1#1 then do
    let v193 : DmaSems sig S1 := arg4.slice (Rect.unit (s := S6) ![4] S1.size inb_S6_S1_4)
    let v194 : DmaSems sig S_ := v193.squeeze S_ squeezes_S1_S_
    let v195 : Memref sig .tc .vmem S1x48x48 .bf16 := arg3.slice (Rect.unit (s := S6x48x48) ![4, 0, 0] S1x48x48.size inb_S6x48x48_S1x48x48_4_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![4, 0, 0] S1x48x48.size inb_S6x48x48_S1x48x48_4_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_4_0_0).reshape _ _) ((harg3.wordExact_slice rfl _ wordsbf16_S6x48x48_S1x48x48_4_0_0).reshape _ _))
    pure ⟨⟩
  else do
    pure ⟨⟩
  let v190 : BitVec 1 := Scalar.cmpi .slt v8 3#32
  let v191 : BitVec 32 := Scalar.extui v190
  let v192 : BitVec 1 := Scalar.cmpi .ne v191 0#32
  if k0_h22 : v192 = 1#1 then do
    let v193 : DmaSems sig S1 := arg4.slice (Rect.unit (s := S6) ![5] S1.size inb_S6_S1_5)
    let v194 : DmaSems sig S_ := v193.squeeze S_ squeezes_S1_S_
    let v195 : Memref sig .tc .vmem S1x48x48 .bf16 := arg3.slice (Rect.unit (s := S6x48x48) ![5, 0, 0] S1x48x48.size inb_S6x48x48_S1x48x48_5_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![5, 0, 0] S1x48x48.size inb_S6x48x48_S1x48x48_5_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_5_0_0).reshape _ _) ((harg3.wordExact_slice rfl _ wordsbf16_S6x48x48_S1x48x48_5_0_0).reshape _ _))
    pure ⟨⟩
  else do
    pure ⟨⟩
  pure ⟨⟩

def preT (K : Dev nD × Fin 13 → ℕ) (W : Waits sig Unit) (c : Dev nD) : sProp 𝕄 :=
  iprop(records m K ∗ owes (c : Thread nD τ) 0 W ∗ pt1 c (out3 m c)
    ∗ rCred c 3 ∗ rCred c 4 ∗ rCred c 5 ∗ rPos0 c 3 ∗ rPos0 c 4 ∗ rPos0 c 5
    ∗ six (sCred c) ∗ six (sPos0 c))
def postT (c : Dev nD) : sProp 𝕄 :=
  iprop((∃ W, owes (c : Thread nD τ) 0 W) ∗ pt1 c (outAt m c)
    ∗ hBack m c 3 ∗ hBack m c 4 ∗ hBack m c 5 ∗ rPos1 c 3 ∗ rPos1 c 4 ∗ rPos1 c 5
    ∗ six (sBack m c) ∗ six (sPos1 c))

def TailSpec (c : Dev nD) : Prop :=
  ∀ (K : Dev nD × Fin 13 → ℕ) (W : Waits sig Unit) (Q : PUnit → sProp 𝕄),
    iprop(preT m K W c ∗ (postT m c -∗ Q ⟨⟩))
      ⊢ WP c (tailProg (F := F) uM (Memref.isWhole_whole _) oM (Memref.isWhole_whole _) hM (Memref.isWhole_whole _) sM (Memref.isWhole_whole _) cc0_scratch2 cc0_scratch3 (xw c) (yw c) (zw c) (f90 c) (f91 c) (f92 c) (f93 c) (f94 c) (f95 c)
          (Scalar.cmpi .ne (Scalar.extui (Scalar.cmpi .eq (yw c) 0#32)) 0#32)) Q

theorem cc0_body_eq_parts :
    cc0_body (F := F) uM (Memref.isWhole_whole _) oM (Memref.isWhole_whole _) hM (Memref.isWhole_whole _) sM (Memref.isWhole_whole _) cc0_scratch2 cc0_scratch3 = (do
      let ⟨d0, v2, v5, v8, v9, v31⟩ ← k0_part7 (F := F) uM (Memref.isWhole_whole _) oM (Memref.isWhole_whole _) hM (Memref.isWhole_whole _) sM (Memref.isWhole_whole _) cc0_scratch2 cc0_scratch3
      let v59 ← k0_part8 uM (Memref.isWhole_whole _) oM (Memref.isWhole_whole _) hM (Memref.isWhole_whole _) sM (Memref.isWhole_whole _) cc0_scratch2 cc0_scratch3 d0 v2 v5 v8 v9 v31
      k0_part9 uM (Memref.isWhole_whole _) oM (Memref.isWhole_whole _) hM (Memref.isWhole_whole _) sM (Memref.isWhole_whole _) cc0_scratch2 cc0_scratch3 d0 v2 v5 v8 v9 v59
      let ⟨v90, v91, v92, v93, v94, v95, v121, v122, v123, v124, v128, c47_i32⟩ ← k0_part10 uM (Memref.isWhole_whole _) oM (Memref.isWhole_whole _) hM (Memref.isWhole_whole _) sM (Memref.isWhole_whole _) cc0_scratch2 cc0_scratch3 d0 v2 v5 v8
      let v168 ← k0_part11 uM (Memref.isWhole_whole _) oM (Memref.isWhole_whole _) hM (Memref.isWhole_whole _) sM (Memref.isWhole_whole _) cc0_scratch2 cc0_scratch3 v2 v5 v8 v90 v91 v92 v93 v94 v95 v121 v122 v123 v124 v128 c47_i32
      tailProg uM (Memref.isWhole_whole _) oM (Memref.isWhole_whole _) hM (Memref.isWhole_whole _) sM (Memref.isWhole_whole _) cc0_scratch2 cc0_scratch3 v2 v5 v8 v90 v91 v92 v93 v94 v95 v168) := rfl

end Cert.KernelIdeal.Halo

end
-- ==== Proof.BodyAsm.lean ====
import proofs.«900536_g7700000000000537_dist_halo3d_v7x_xyz2x2x4_s48_bf16_1_alg».proof.Proof.BodyInv

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem kc0 (c : Dev nD) : kcell (c, 0) = barCell c := rfl
theorem kcs0 (c : Dev nD) : kcell (c, 1) = sendCell c 0 := rfl
theorem kcs1 (c : Dev nD) : kcell (c, 2) = sendCell c 1 := rfl
theorem kcs2 (c : Dev nD) : kcell (c, 3) = sendCell c 2 := rfl
theorem kcs3 (c : Dev nD) : kcell (c, 4) = sendCell c 3 := rfl
theorem kcs4 (c : Dev nD) : kcell (c, 5) = sendCell c 4 := rfl
theorem kcs5 (c : Dev nD) : kcell (c, 6) = sendCell c 5 := rfl
theorem kcr0 (c : Dev nD) : kcell (c, 7) = recvCell c 0 := rfl
theorem kcr1 (c : Dev nD) : kcell (c, 8) = recvCell c 1 := rfl
theorem kcr2 (c : Dev nD) : kcell (c, 9) = recvCell c 2 := rfl
theorem kcr3 (c : Dev nD) : kcell (c, 10) = recvCell c 3 := rfl
theorem kcr4 (c : Dev nD) : kcell (c, 11) = recvCell c 4 := rfl
theorem kcr5 (c : Dev nD) : kcell (c, 12) = recvCell c 5 := rfl

theorem condP_split (p : Prop) [Decidable p] (R : sProp 𝕄) : R ⊢ iprop(condP p R ∗ condP (¬ p) R) := by
  unfold condP
  by_cases h : p
  · rw [if_pos h, if_neg (not_not.mpr h)]; exact (sep_emp (PROP := sProp 𝕄)).2
  · rw [if_neg h, if_pos h]; exact (emp_sep (PROP := sProp 𝕄)).2

theorem condP_join (p : Prop) [Decidable p] (R R' T : sProp 𝕄) (h1 : R ⊢ T) (h2 : R' ⊢ T) : iprop(condP p R ∗ condP (¬ p) R') ⊢ T := by
  unfold condP
  by_cases h : p
  · rw [if_pos h, if_neg (not_not.mpr h)]; exact (sep_emp (PROP := sProp 𝕄)).1.trans h1
  · rw [if_neg h, if_pos h]; exact (emp_sep (PROP := sProp 𝕄)).1.trans h2

theorem fetch_0 (t : Fin cfg0.N) : (cfg0.win (0 : Fin 2)).fetch t = true := by rw [fin_N t]; rfl

theorem inv_send (K : Dev nD × Fin 13 → ℕ) (c : Dev nD) (s : Fin 6) :
    records (F := F) m K ⊢ cellInv ER (haloRd m) (K (c, ⟨1 + s.val, by have := s.isLt; omega⟩)) (sendCell c s) := by
  unfold records; rw [← kcell_send c s]; exact sep_elim_left.trans (bigSep_elim (Finset.mem_univ _))
theorem inv_recv (K : Dev nD × Fin 13 → ℕ) (c : Dev nD) (s : Fin 6) :
    records (F := F) m K ⊢ cellInv ER (haloRd m) (K (c, ⟨7 + s.val, by have := s.isLt; omega⟩)) (recvCell c s) := by
  unfold records; rw [← kcell_recv c s]; exact sep_elim_left.trans (bigSep_elim (Finset.mem_univ _))

theorem close_send (K : Dev nD × Fin 13 → ℕ) (c : Dev nD) (s : Fin 6) :
    iprop(records (F := F) m K ∗ sPos1 c s) ⊢ iprop(|={Set.univ}=> semVal (sendCell c s) 0) := by
  unfold sPos1
  by_cases h : sendAct c s
  · rw [if_pos h]
    iintro ⟨#Hrec, Hat⟩
    ihave #HI := (inv_send m K c s) $$ Hrec
    iapply (Rounds.cell_close ER (haloRd m) (Set.mem_univ _) (fun h => h) (R := 1) (duties_later m (sendCell c s)))
    isplitr; · iexact HI
    iexact Hat
  · rw [if_neg h]
    iintro ⟨#Hrec, Hat⟩
    ihave #HI := (inv_send m K c s) $$ Hrec
    iapply (Rounds.cell_close ER (haloRd m) (Set.mem_univ _) (fun h => h) (R := 0) (duties_send_dormant m c s h))
    isplitr; · iexact HI
    iexact Hat

theorem close_recv (K : Dev nD × Fin 13 → ℕ) (c : Dev nD) (s : Fin 6) :
    iprop(records (F := F) m K ∗ rPos1 c s) ⊢ iprop(|={Set.univ}=> semVal (recvCell c s) 0) := by
  unfold rPos1
  by_cases h : recvAct c s
  · rw [if_pos h]
    iintro ⟨#Hrec, Hat⟩
    ihave #HI := (inv_recv m K c s) $$ Hrec
    iapply (Rounds.cell_close ER (haloRd m) (Set.mem_univ _) (fun h => h) (R := 1) (duties_later m (recvCell c s)))
    isplitr; · iexact HI
    iexact Hat
  · rw [if_neg h]
    iintro ⟨#Hrec, Hat⟩
    ihave #HI := (inv_recv m K c s) $$ Hrec
    iapply (Rounds.cell_close ER (haloRd m) (Set.mem_univ _) (fun h => h) (R := 0) (duties_recv_dormant m c s h))
    isplitr; · iexact HI
    iexact Hat

theorem reached_send (K : Dev nD × Fin 13 → ℕ) (c : Dev nD) (s : Fin 6) : records (F := F) m K ⊢ reached ER (sendCell c s) 0 := by
  unfold records; rw [← kcell_send c s]; exact sep_elim_right.trans (bigSep_elim (Finset.mem_univ (c, (⟨1 + s.val, by have := s.isLt; omega⟩ : Fin 13))) (Φ := fun ck => reached ER (kcell ck) 0))
theorem reached_recv (K : Dev nD × Fin 13 → ℕ) (c : Dev nD) (s : Fin 6) : records (F := F) m K ⊢ reached ER (recvCell c s) 0 := by
  unfold records; rw [← kcell_recv c s]; exact sep_elim_right.trans (bigSep_elim (Finset.mem_univ (c, (⟨7 + s.val, by have := s.isLt; omega⟩ : Fin 13))) (Φ := fun ck => reached ER (kcell ck) 0))
theorem inv_bar (K : Dev nD × Fin 13 → ℕ) (c : Dev nD) : records (F := F) m K ⊢ cellInv ER (haloRd m) (K (c, 0)) (barCell c) := by
  unfold records; exact sep_elim_left.trans (bigSep_elim (Finset.mem_univ (c, (0 : Fin 13))) (Φ := fun ck => cellInv ER (haloRd m) (K ck) (kcell ck)))
theorem reached_bar (K : Dev nD × Fin 13 → ℕ) (c : Dev nD) : records (F := F) m K ⊢ reached ER (barCell c) 0 := by
  unfold records; exact sep_elim_right.trans (bigSep_elim (Finset.mem_univ (c, (0 : Fin 13))) (Φ := fun ck => reached ER (kcell ck) 0))

set_option maxHeartbeats 1600000 in
theorem body_sound_of (c : Dev nD)
    (h7 : Part7Spec (F := F) m c) (h8 : Part8Spec (F := F) m c) (h9 : Part9Spec (F := F) m c) (h10 : Part10Spec (F := F) m c)
    (h11 : Part11Spec (F := F) m c) (hT : TailSpec (F := F) m c)
    (hHs : ∀ f, ptH c f ⊢ six (fun s => hPts (F := F) c s f))
    (hHj : six (fun s => iprop(∃ f, hPts (F := F) c s f)) ⊢ iprop(∃ f, ptH c f))
    (hSj : ∀ f, six (fun s => sPts (F := F) c s f) ⊢ ptS c f) : BodySound (F := F) m c := by
  intro Kt
  rw [cc0_body_eq_parts]
  unfold bodyPre bodyPost Φ₀ Φ₁ start ghost payToks positions startCred Dat.owesAt Pipeline.owesWithin
  rw [bigSep_fin13]
  simp only [bigSep_fin6, kc0, kcs0, kcs1, kcs2, kcs3, kcs4, kcs5, kcr0, kcr1, kcr2, kcr3, kcr4, kcr5]
  rw [show (dats m 0 c).owed t₀.castSucc = O₀ c from rfl, show (dats m 0 c).owed t₀.succ = 0 from rfl]
  iintro ⟨⟨⟨⟨⟨%K, #Hrec, ⟨Pb, Ps0, Ps1, Ps2, Ps3, Ps4, Ps5, Pr0, Pr1, Pr2, Pr3, Pr4, Pr5⟩, ⟨Tbx, Tby, Tbd, Tbu, Trx, Try, Trd, Tru, Ts0, Ts1, Ts2, Ts3, Ts4, Ts5⟩⟩, ⟨Cb, Cr0, Cr1, Cr2, Cr3, Cr4, Cr5⟩, #Hlev⟩, ⟨%f0, HH⟩, ⟨%f1, HS⟩⟩, ⟨%W, %hW, HO⟩, ⟨%d0, %g0, %hg0, Hx⟩, ⟨%d1, %g1, %hg1, Hout⟩⟩, Hk⟩
  have hx : g0 = ublk m c := by rw [hg0]; unfold Dat.before; rw [if_pos (fetch_0 t₀)]; rfl
  subst hx

  ihave HH6 := (hHs f0) $$ HH
  unfold six
  icases HH6 with ⟨Hh0, Hh1, Hh2, Hh3, Hh4, Hh5⟩
  ihave Hh0' := (condP_split (recvAct c 0) iprop(∃ f, hPts (F := F) c 0 f)) $$ [Hh0]
  · iexists f0; iexact Hh0
  icases Hh0' with ⟨Hg0, Hk0⟩
  ihave Hh1' := (condP_split (recvAct c 1) iprop(∃ f, hPts (F := F) c 1 f)) $$ [Hh1]
  · iexists f0; iexact Hh1
  icases Hh1' with ⟨Hg1, Hk1⟩
  ihave Hh2' := (condP_split (recvAct c 2) iprop(∃ f, hPts (F := F) c 2 f)) $$ [Hh2]
  · iexists f0; iexact Hh2
  icases Hh2' with ⟨Hg2, Hk2⟩
  ihave Hh3' := (condP_split (recvAct c 3) iprop(∃ f, hPts (F := F) c 3 f)) $$ [Hh3]
  · iexists f0; iexact Hh3
  icases Hh3' with ⟨Hg3, Hk3⟩
  ihave Hh4' := (condP_split (recvAct c 4) iprop(∃ f, hPts (F := F) c 4 f)) $$ [Hh4]
  · iexists f0; iexact Hh4
  icases Hh4' with ⟨Hg4, Hk4⟩
  ihave Hh5' := (condP_split (recvAct c 5) iprop(∃ f, hPts (F := F) c 5 f)) $$ [Hh5]
  · iexists f0; iexact Hh5
  icases Hh5' with ⟨Hg5, Hk5⟩

  iapply (h7 K W _ _)
  isplitl [HO Tbx Tby Tbd Hg0 Hg1 Hg2 Hg3 Hg4]
  · unfold pre7 hGive
    isplitl []; · iexact Hrec
    iframe HO Tbx Tby Tbd Hg0 Hg1 Hg2 Hg3 Hg4
  unfold post7
  iintro HO

  iapply (h8 K W _ _)
  isplitl [HO Tbu Hg5 Hx HS]
  · unfold pre8 hGive
    isplitl []; · iexact Hrec
    iframe HO Tbu Hg5 Hx
    iexists f1; iexact HS
  unfold post8
  iintro ⟨HO, Hx, HS⟩

  iapply (h9 K W _ _)
  isplitl [HO Hx HS Cb Pb Ts0 Ts1 Ts2 Ts3 Ts4 Trx Try Trd]
  · unfold pre9 sTok
    isplitl []; · iexact Hrec
    isplitl []; · iexact Hlev
    iframe HO Hx HS Cb Pb Ts0 Ts1 Ts2 Ts3 Ts4 Trx Try Trd
  unfold post9
  iintro ⟨⟨%W9, HO⟩, Hx, Sk0, Sk1, Sk2, Sk3, Sk4, S5, Sc0, Sc1, Sc2, Sc3, Sc4, Hzup⟩

  iapply (h10 K W9 _ _)
  isplitl [HO Hzup S5 Ts5 Tru Hx]
  · unfold pre10 sTok
    isplitl []; · iexact Hrec
    iframe HO Hzup S5 Ts5 Tru Hx
  unfold post10
  iintro ⟨HO, Sk5, Sc5, Hx⟩

  iapply (h11 K W9 _ _)
  isplitl [HO Hout Cr0 Cr1 Cr2 Pr0 Pr1 Pr2]
  · unfold pre11 rCred rPos0
    isplitl []; · iexact Hrec
    isplitl [HO]; · iexact HO
    isplitl [Hout]; · iexists g1; iexact Hout
    iframe Cr0 Cr1 Cr2 Pr0 Pr1 Pr2
  unfold post11
  iintro ⟨⟨%W11, HO⟩, Hout, Hb0, Hb1, Hb2, Pr0, Pr1, Pr2⟩

  iapply (wp_fupd _ _ _ _ Kt)
  iapply (hT K W11 _)
  isplitl [HO Hout Cr3 Cr4 Cr5 Pr3 Pr4 Pr5 Sc0 Sc1 Sc2 Sc3 Sc4 Sc5 Ps0 Ps1 Ps2 Ps3 Ps4 Ps5]
  · unfold preT rCred rPos0 sCred sPos0 six
    isplitl []; · iexact Hrec
    iframe HO Hout Cr3 Cr4 Cr5 Pr3 Pr4 Pr5
    isplitl [Sc0 Sc1 Sc2 Sc3 Sc4 Sc5]
    ·
      iframe Sc0 Sc1 Sc2 Sc3 Sc4 Sc5
    iframe Ps0 Ps1 Ps2 Ps3 Ps4 Ps5
  unfold postT six
  iintro ⟨⟨%WT, HO⟩, Hout, Hb3, Hb4, Hb5, Pr3, Pr4, Pr5, ⟨Sb0, Sb1, Sb2, Sb3, Sb4, Sb5⟩, ⟨Ps0, Ps1, Ps2, Ps3, Ps4, Ps5⟩⟩

  imod (close_send m K c 0) $$ [Ps0] with Zs0
  · isplitr; · iexact Hrec
    iexact Ps0
  imod (close_send m K c 1) $$ [Ps1] with Zs1
  · isplitr; · iexact Hrec
    iexact Ps1
  imod (close_send m K c 2) $$ [Ps2] with Zs2
  · isplitr; · iexact Hrec
    iexact Ps2
  imod (close_send m K c 3) $$ [Ps3] with Zs3
  · isplitr; · iexact Hrec
    iexact Ps3
  imod (close_send m K c 4) $$ [Ps4] with Zs4
  · isplitr; · iexact Hrec
    iexact Ps4
  imod (close_send m K c 5) $$ [Ps5] with Zs5
  · isplitr; · iexact Hrec
    iexact Ps5
  imod (close_recv m K c 0) $$ [Pr0] with Zr0
  · isplitr; · iexact Hrec
    iexact Pr0
  imod (close_recv m K c 1) $$ [Pr1] with Zr1
  · isplitr; · iexact Hrec
    iexact Pr1
  imod (close_recv m K c 2) $$ [Pr2] with Zr2
  · isplitr; · iexact Hrec
    iexact Pr2
  imod (close_recv m K c 3) $$ [Pr3] with Zr3
  · isplitr; · iexact Hrec
    iexact Pr3
  imod (close_recv m K c 4) $$ [Pr4] with Zr4
  · isplitr; · iexact Hrec
    iexact Pr4
  imod (close_recv m K c 5) $$ [Pr5] with Zr5
  · isplitr; · iexact Hrec
    iexact Pr5

  unfold hBack sBack sKeep
  ihave Hj0 := (condP_join (recvAct c 0) (hPts c 0 (haloC m c)) iprop(∃ f, hPts (F := F) c 0 f) iprop(∃ f, hPts (F := F) c 0 f)
      (by iintro H; iexists _; iexact H) (BI.Entails.refl _)) $$ [Hb0 Hk0]
  · isplitl [Hb0]; · iexact Hb0
    iexact Hk0
  ihave Hj1 := (condP_join (recvAct c 1) (hPts c 1 (haloC m c)) iprop(∃ f, hPts (F := F) c 1 f) iprop(∃ f, hPts (F := F) c 1 f)
      (by iintro H; iexists _; iexact H) (BI.Entails.refl _)) $$ [Hb1 Hk1]
  · isplitl [Hb1]; · iexact Hb1
    iexact Hk1
  ihave Hj2 := (condP_join (recvAct c 2) (hPts c 2 (haloC m c)) iprop(∃ f, hPts (F := F) c 2 f) iprop(∃ f, hPts (F := F) c 2 f)
      (by iintro H; iexists _; iexact H) (BI.Entails.refl _)) $$ [Hb2 Hk2]
  · isplitl [Hb2]; · iexact Hb2
    iexact Hk2
  ihave Hj3 := (condP_join (recvAct c 3) (hPts c 3 (haloC m c)) iprop(∃ f, hPts (F := F) c 3 f) iprop(∃ f, hPts (F := F) c 3 f)
      (by iintro H; iexists _; iexact H) (BI.Entails.refl _)) $$ [Hb3 Hk3]
  · isplitl [Hb3]; · iexact Hb3
    iexact Hk3
  ihave Hj4 := (condP_join (recvAct c 4) (hPts c 4 (haloC m c)) iprop(∃ f, hPts (F := F) c 4 f) iprop(∃ f, hPts (F := F) c 4 f)
      (by iintro H; iexists _; iexact H) (BI.Entails.refl _)) $$ [Hb4 Hk4]
  · isplitl [Hb4]; · iexact Hb4
    iexact Hk4
  ihave Hj5 := (condP_join (recvAct c 5) (hPts c 5 (haloC m c)) iprop(∃ f, hPts (F := F) c 5 f) iprop(∃ f, hPts (F := F) c 5 f)
      (by iintro H; iexists _; iexact H) (BI.Entails.refl _)) $$ [Hb5 Hk5]
  · isplitl [Hb5]; · iexact Hb5
    iexact Hk5
  ihave HH := hHj $$ [Hj0 Hj1 Hj2 Hj3 Hj4 Hj5]
  · unfold six
    iframe Hj0 Hj1 Hj2 Hj3 Hj4 Hj5

  ihave Sj0 := (condP_join (sendAct c 0) (sPts c 0 (sendC m c)) (sPts c 0 (sendC m c)) (sPts c 0 (sendC m c))
      (BI.Entails.refl _) (BI.Entails.refl _)) $$ [Sb0 Sk0]
  · isplitl [Sb0]; · iexact Sb0
    iexact Sk0
  ihave Sj1 := (condP_join (sendAct c 1) (sPts c 1 (sendC m c)) (sPts c 1 (sendC m c)) (sPts c 1 (sendC m c))
      (BI.Entails.refl _) (BI.Entails.refl _)) $$ [Sb1 Sk1]
  · isplitl [Sb1]; · iexact Sb1
    iexact Sk1
  ihave Sj2 := (condP_join (sendAct c 2) (sPts c 2 (sendC m c)) (sPts c 2 (sendC m c)) (sPts c 2 (sendC m c))
      (BI.Entails.refl _) (BI.Entails.refl _)) $$ [Sb2 Sk2]
  · isplitl [Sb2]; · iexact Sb2
    iexact Sk2
  ihave Sj3 := (condP_join (sendAct c 3) (sPts c 3 (sendC m c)) (sPts c 3 (sendC m c)) (sPts c 3 (sendC m c))
      (BI.Entails.refl _) (BI.Entails.refl _)) $$ [Sb3 Sk3]
  · isplitl [Sb3]; · iexact Sb3
    iexact Sk3
  ihave Sj4 := (condP_join (sendAct c 4) (sPts c 4 (sendC m c)) (sPts c 4 (sendC m c)) (sPts c 4 (sendC m c))
      (BI.Entails.refl _) (BI.Entails.refl _)) $$ [Sb4 Sk4]
  · isplitl [Sb4]; · iexact Sb4
    iexact Sk4
  ihave Sj5 := (condP_join (sendAct c 5) (sPts c 5 (sendC m c)) (sPts c 5 (sendC m c)) (sPts c 5 (sendC m c))
      (BI.Entails.refl _) (BI.Entails.refl _)) $$ [Sb5 Sk5]
  · isplitl [Sb5]; · iexact Sb5
    iexact Sk5
  ihave HS := (hSj (sendC m c)) $$ [Sj0 Sj1 Sj2 Sj3 Sj4 Sj5]
  · unfold six
    iframe Sj0 Sj1 Sj2 Sj3 Sj4 Sj5
  imodintro
  iapply Hk
  isplitl [HH HS Zs0 Zs1 Zs2 Zs3 Zs4 Zs5 Zr0 Zr1 Zr2 Zr3 Zr4 Zr5]
  · isplitl [HH]; · iexact HH
    isplitl [HS]; · iexists _; iexact HS
    isplitl [Zs0 Zs1 Zs2 Zs3 Zs4 Zs5]
    ·
      iframe Zs0 Zs1 Zs2 Zs3 Zs4 Zs5
    iframe Zr0 Zr1 Zr2 Zr3 Zr4 Zr5
  isplitl [HO]
  · iexists WT
    isplitr; · ipureintro; exact fun x _ => Set.mem_union_left _ (Set.mem_univ x)
    iexact HO
  isplitl [Hx]
  · iexists _; isplitr; · (ipureintro; rfl)
    iexact Hx
  iexists _; isplitr; · (ipureintro; rfl)
  iexact Hout

end Cert.KernelIdeal.Halo

end
-- ==== Proof.BodyP7.lean ====
import proofs.«900536_g7700000000000537_dist_halo3d_v7x_xyz2x2x4_s48_bf16_1_alg».proof.Proof.BodyAsm

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem p7_give_x (K : Dev nD × Fin 13 → ℕ) (c : Dev nD) :
    iprop(records m K ∗ hGive c 0 ∗ hGive c 1) ⊢ nbrPay (F := F) c (if X c = 0 then 1 else 0) := by
  unfold hGive nbrPay condP
  rcases (show X c = 0 ∨ X c = 1 by have := X_lt c; omega) with h | h
  · rw [if_pos h, if_neg (show ¬ recvAct c 0 from fun h' => by have h'' : X c = 1 := h'; omega), if_pos (show recvAct c 1 from h)]
    iintro ⟨#Hrec, -, Hs⟩
    isplitl [Hs]; · iexact Hs
    iapply (reached_recv m K c 1); iexact Hrec
  · rw [if_neg (by omega : ¬ X c = 0), if_pos (show recvAct c 0 from h), if_neg (show ¬ recvAct c 1 from fun h' => by have h'' : X c = 0 := h'; omega)]
    iintro ⟨#Hrec, Hs, -⟩
    isplitl [Hs]; · iexact Hs
    iapply (reached_recv m K c 0); iexact Hrec

private theorem p7_give_y (K : Dev nD × Fin 13 → ℕ) (c : Dev nD) :
    iprop(records m K ∗ hGive c 2 ∗ hGive c 3) ⊢ nbrPay (F := F) c (if Y c = 0 then 3 else 2) := by
  unfold hGive nbrPay condP
  rcases (show Y c = 0 ∨ Y c = 1 by have := Y_lt c; omega) with h | h
  · rw [if_pos h, if_neg (show ¬ recvAct c 2 from fun h' => by have h'' : Y c = 1 := h'; omega), if_pos (show recvAct c 3 from h)]
    iintro ⟨#Hrec, -, Hs⟩
    isplitl [Hs]; · iexact Hs
    iapply (reached_recv m K c 3); iexact Hrec
  · rw [if_neg (by omega : ¬ Y c = 0), if_pos (show recvAct c 2 from h), if_neg (show ¬ recvAct c 3 from fun h' => by have h'' : Y c = 0 := h'; omega)]
    iintro ⟨#Hrec, Hs, -⟩
    isplitl [Hs]; · iexact Hs
    iapply (reached_recv m K c 2); iexact Hrec

private theorem p7_give_zdn (K : Dev nD × Fin 13 → ℕ) (c : Dev nD) (hz : 0 < Z c) :
    iprop(records m K ∗ hGive c 4) ⊢ nbrPay (F := F) c 4 := by
  unfold hGive nbrPay condP
  rw [if_pos (show recvAct c 4 from hz)]
  iintro ⟨#Hrec, Hs⟩
  isplitl [Hs]; · iexact Hs
  iapply (reached_recv m K c 4); iexact Hrec

set_option maxHeartbeats 800000 in

theorem part7_sound (c : Dev nD) : Part7Spec (F := F) m c := by
  intro K W α k Q
  simp only [WP, wp_bind]
  simp only [k0_part7_eq_skeleton]; unfold k0_part7_skel
  unfold pre7 post7
  by_cases hz : 0 < Z c
  · have h1 : k0_cond1 c = 1#1 := (cond1_iff c).2 hz
    have h2 : ¬ (Scalar.cmpi .ne (Scalar.extui (Scalar.cmpi .eq (zw c) 0#32)) 0#32 = 1#1) :=
      fun h => absurd ((zw_eq0_iff c).1 h) (by omega)
    unfold zw at h2
    simp only [semSignalWord, semSignalHereWord, Prog.lift, Prog.bind_op, Prog.bind_ret, Prog.pure_eq_ret, wp_deviceId,
      h1, h2, ↓reduceDIte]
    simp only [dev1_eq c, dev2_eq c, dev3_eq c h1]
    rw [if_pos hz]
    iintro ⟨⟨#Hrec, HO, Ht0, Ht1, Ht2, Hg0, Hg1, Hg2, Hg3, Hg4⟩, Hk⟩

    iapply (Rounds.wp_signal 𝒱₀ ER (haloRd m) (c : Thread nD τ) none (dst := (fx c : Thread nD τ)) (sem := barS) (κ := K (fx c, 0))
        (r := 0) (d := (0 : Fin 5)) (k' := (1#32).toNat)
        (by rw [duties_bar]; exact mem_barDuties_fx c) (amount_bar m (fx c) 0) () (O₁ c) rfl) $$ [HO Ht0 Hg0 Hg1]
    · isplitr; · iapply (inv_bar m K (fx c)); iexact Hrec
      isplitl [HO]; · iexact HO
      isplitl [Ht0]; · iexact Ht0
      isplitl [Hg0 Hg1]
      · rw [payload_bar_fx]
        iapply (p7_give_x m K c)
        iframe Hrec Hg0 Hg1
      · iapply (reached_bar m K (fx c)); iexact Hrec
    iintro HO

    iapply (Rounds.wp_signal 𝒱₀ ER (haloRd m) (c : Thread nD τ) none (dst := (fy c : Thread nD τ)) (sem := barS) (κ := K (fy c, 0))
        (r := 0) (d := (1 : Fin 5)) (k' := (1#32).toNat)
        (by rw [duties_bar]; exact mem_barDuties_fy c) (amount_bar m (fy c) 1) () (O₂ c) rfl) $$ [HO Ht1 Hg2 Hg3]
    · isplitr; · iapply (inv_bar m K (fy c)); iexact Hrec
      isplitl [HO]; · iexact HO
      isplitl [Ht1]; · iexact Ht1
      isplitl [Hg2 Hg3]
      · rw [payload_bar_fy]
        iapply (p7_give_y m K c)
        iframe Hrec Hg2 Hg3
      · iapply (reached_bar m K (fy c)); iexact Hrec
    iintro HO

    iapply (Rounds.wp_signal 𝒱₀ ER (haloRd m) (c : Thread nD τ) none (dst := (zdn c : Thread nD τ)) (sem := barS) (κ := K (zdn c, 0))
        (r := 0) (d := (2 : Fin 5)) (k' := (1#32).toNat)
        (by rw [duties_bar]; exact mem_barDuties_zdn c hz) (amount_bar m (zdn c) 2) () (O₃ c)
        (by show O₂ c = _; unfold O₂; rw [if_pos hz]; rfl)) $$ [HO Ht2 Hg4]
    · isplitr; · iapply (inv_bar m K (zdn c)); iexact Hrec
      isplitl [HO]; · iexact HO
      isplitl [Ht2]; · iexact Ht2
      isplitl [Hg4]
      · rw [payload_bar_zdn]
        iapply (p7_give_zdn m K c hz)
        isplitr; · iexact Hrec
        iexact Hg4
      · iapply (reached_bar m K (zdn c)); iexact Hrec
    iintro HO
    rw [wp_ret]; imodintro
    iapply Hk; iexact HO
  · have h1 : ¬ (k0_cond1 c = 1#1) := fun h => hz ((cond1_iff c).1 h)
    have h2 : Scalar.cmpi .ne (Scalar.extui (Scalar.cmpi .eq (zw c) 0#32)) 0#32 = 1#1 := (zw_eq0_iff c).2 (by omega)
    unfold zw at h2
    simp only [semSignalWord, semSignalHereWord, Prog.lift, Prog.bind_op, Prog.bind_ret, Prog.pure_eq_ret, wp_deviceId,
      h1, h2, ↓reduceDIte]
    simp only [dev1_eq c, dev2_eq c]
    rw [if_neg hz]
    iintro ⟨⟨#Hrec, HO, Ht0, Ht1, Ht2, Hg0, Hg1, Hg2, Hg3, -⟩, Hk⟩

    iapply (Rounds.wp_signal 𝒱₀ ER (haloRd m) (c : Thread nD τ) none (dst := (fx c : Thread nD τ)) (sem := barS) (κ := K (fx c, 0))
        (r := 0) (d := (0 : Fin 5)) (k' := (1#32).toNat)
        (by rw [duties_bar]; exact mem_barDuties_fx c) (amount_bar m (fx c) 0) () (O₁ c) rfl) $$ [HO Ht0 Hg0 Hg1]
    · isplitr; · iapply (inv_bar m K (fx c)); iexact Hrec
      isplitl [HO]; · iexact HO
      isplitl [Ht0]; · iexact Ht0
      isplitl [Hg0 Hg1]
      · rw [payload_bar_fx]
        iapply (p7_give_x m K c)
        iframe Hrec Hg0 Hg1
      · iapply (reached_bar m K (fx c)); iexact Hrec
    iintro HO

    iapply (Rounds.wp_signal 𝒱₀ ER (haloRd m) (c : Thread nD τ) none (dst := (fy c : Thread nD τ)) (sem := barS) (κ := K (fy c, 0))
        (r := 0) (d := (1 : Fin 5)) (k' := (1#32).toNat)
        (by rw [duties_bar]; exact mem_barDuties_fy c) (amount_bar m (fy c) 1) () (O₂ c) rfl) $$ [HO Ht1 Hg2 Hg3]
    · isplitr; · iapply (inv_bar m K (fy c)); iexact Hrec
      isplitl [HO]; · iexact HO
      isplitl [Ht1]; · iexact Ht1
      isplitl [Hg2 Hg3]
      · rw [payload_bar_fy]
        iapply (p7_give_y m K c)
        iframe Hrec Hg2 Hg3
      · iapply (reached_bar m K (fy c)); iexact Hrec
    iintro HO

    simp only [wp_deviceId]
    iapply (Rounds.wp_signal 𝒱₀ ER (haloRd m) (c : Thread nD τ) none (dst := (c : Thread nD τ)) (sem := barS) (κ := K (c, 0))
        (r := 0) (d := (4 : Fin 5)) (k' := (1#32).toNat)
        (by rw [duties_bar]; exact mem_barDuties_self_lo c hz) (amount_bar m c 4) () (O₃ c)
        (by show O₂ c = _; unfold O₂; rw [if_neg hz]; rfl)) $$ [HO Ht2]
    · isplitr; · iapply (inv_bar m K c); iexact Hrec
      isplitl [HO]; · iexact HO
      isplitl [Ht2]; · iexact Ht2
      isplitr
      · rw [payload_bar_self]; iempintro
      · iapply (reached_bar m K c); iexact Hrec
    iintro HO
    rw [wp_ret]; imodintro
    iapply Hk; iexact HO

end Cert.KernelIdeal.Halo

end
-- ==== Proof.BodyP8.lean ====
import Idealize.ShloMosaic.Lib.Pipeline.Value
import proofs.«900536_g7700000000000537_dist_halo3d_v7x_xyz2x2x4_s48_bf16_1_alg».proof.Proof.BodyInv

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p8_inv_at (K : Dev nD × Fin 13 → ℕ) (ck : Dev nD × Fin 13) :
    (bigSep Finset.univ fun ck : Dev nD × Fin 13 => (cellInv ER (haloRd m) (K ck) (kcell ck) : sProp 𝕄)) ⊢ cellInv ER (haloRd m) (K ck) (kcell ck) :=
  bigSep_elim (Finset.mem_univ ck)
theorem p8_reached_at (ck : Dev nD × Fin 13) :
    (bigSep Finset.univ fun ck : Dev nD × Fin 13 => (reached ER (kcell ck) 0 : sProp 𝕄)) ⊢ reached ER (kcell ck) 0 :=
  bigSep_elim (Finset.mem_univ ck)

theorem p8_inv (K : Dev nD × Fin 13 → ℕ) (ck : Dev nD × Fin 13) : records m K ⊢ cellInv ER (haloRd m) (K ck) (kcell ck) := by
  unfold records; iintro ⟨H, -⟩; iapply (p8_inv_at m K ck); iexact H
theorem p8_reached (K : Dev nD × Fin 13 → ℕ) (ck : Dev nD × Fin 13) : records m K ⊢ reached ER (kcell ck) 0 := by
  unfold records; iintro ⟨-, H⟩; iapply (p8_reached_at ck); iexact H
theorem p8_inv_bar (K : Dev nD × Fin 13 → ℕ) (p : Dev nD) : records m K ⊢ cellInv ER (haloRd m) (K (p, 0)) (barCell p) := p8_inv m K (p, 0)
theorem p8_reached_bar (K : Dev nD × Fin 13 → ℕ) (p : Dev nD) : records m K ⊢ reached ER (barCell p) 0 := p8_reached m K (p, 0)
theorem p8_reached_recv (K : Dev nD × Fin 13 → ℕ) (p : Dev nD) (s : Fin 6) : records m K ⊢ reached ER (recvCell p s) 0 := by
  rw [← kcell_recv p s]; exact p8_reached m K _

theorem p8_write_at (c : Dev nD) (a : ℕ) (inb : ∀ i, (![a, 0, 0] : Fin 3 → ℕ) i + S1x48x48.size i ≤ S6x48x48.size i)
    (f : Buf (Elt F) ((c : Thread nD τ).loc cc0_scratch1)) (w : S1x48x48.Idx → Elt F .bf16) (idx : Idx ((c : Thread nD τ).loc cc0_scratch1)) :
    (sM.access (Rect.unit (s := S6x48x48) ![a, 0, 0] S1x48x48.size inb)).write (Elt F) f w Finset.univ idx
      = if (idx 0).val = a then w (ValueIdx.ix3 0 ⟨(idx 1).val, (idx 1).isLt⟩ ⟨(idx 2).val, (idx 2).isLt⟩) else f idx := by
  have h : (sM.access (Rect.unit (s := S6x48x48) ![a, 0, 0] S1x48x48.size inb)).write (Elt F) f w Finset.univ = updateSlice f w ![a, 0, 0] ⟨rfl, inb⟩ :=
    View.write_whole_slice_unit (Val := Elt F) (cc0_scratch1 : Ref sig .tc) ![a, 0, 0] S1x48x48.size inb f w
  rw [h]; unfold updateSlice
  have h1 : (idx 1).val < 48 := (idx 1).isLt
  have h2 : (idx 2).val < 48 := (idx 2).isLt
  split
  · next hin =>
    have hin0 : a ≤ (idx 0).val ∧ (idx 0).val < a + 1 := hin 0
    rw [if_pos (by omega)]
    congr 1
    funext b
    match b with
    | ⟨0, _⟩ => exact Fin.ext (by show (idx 0).val - a = 0; omega)
    | ⟨1, _⟩ => exact Fin.ext (by show (idx 1).val - 0 = (idx 1).val; omega)
    | ⟨2, _⟩ => exact Fin.ext (by show (idx 2).val - 0 = (idx 2).val; omega)
  · next hout =>
    rw [if_neg]
    intro h0
    refine hout fun a' => ?_
    match a' with
    | ⟨0, _⟩ => exact ⟨by show a ≤ (idx 0).val; omega, by show (idx 0).val < a + 1; omega⟩
    | ⟨1, _⟩ => exact ⟨Nat.zero_le _, by show (idx 1).val < 0 + 48; omega⟩
    | ⟨2, _⟩ => exact ⟨Nat.zero_le _, by show (idx 2).val < 0 + 48; omega⟩

theorem p8_filled (c : Dev nD) (fs : Buf (Elt F) ((c : Thread nD τ).loc cc0_scratch1)) :
    filledTo m 3 c
      ((sM.access (Rect.unit (s := S6x48x48) ![2, 0, 0] S1x48x48.size inb_S6x48x48_S1x48x48_2_0_0)).write (Elt F)
        ((sM.access (Rect.unit (s := S6x48x48) ![1, 0, 0] S1x48x48.size inb_S6x48x48_S1x48x48_1_0_0)).write (Elt F)
          ((sM.access (Rect.unit (s := S6x48x48) ![0, 0, 0] S1x48x48.size inb_S6x48x48_S1x48x48_0_0_0)).write (Elt F) fs
            (k0_pay22 (uM.view.readAt (Elt F) (Rect.unit (s := S48x48x48) ![0, 0, 0] S1x48x48.size inb_S48x48x48_S1x48x48_0_0_0).toLoadRect (ublk m c))) Finset.univ)
          (k0_pay23 (uM.view.readAt (Elt F) (Rect.unit (s := S48x48x48) ![47, 0, 0] S1x48x48.size inb_S48x48x48_S1x48x48_47_0_0).toLoadRect (ublk m c))) Finset.univ)
        (k0_pay24 (uM.view.readAt (Elt F) (Rect.unit (s := S48x48x48) ![0, 0, 0] S48x1x48.size inb_S48x48x48_S48x1x48_0_0_0).toLoadRect (ublk m c))) Finset.univ) := by
  intro idx hlt
  have h012 : (idx 0).val = 0 ∨ (idx 0).val = 1 ∨ (idx 0).val = 2 := by omega
  rcases h012 with h | h | h
  · rw [p8_write_at c 2, if_neg (by omega), p8_write_at c 1, if_neg (by omega), p8_write_at c 0, if_pos h]
    simp only [sendC, h]
  · rw [p8_write_at c 2, if_neg (by omega), p8_write_at c 1, if_pos h]
    simp only [sendC, h]
  · rw [p8_write_at c 2, if_pos h]
    simp only [sendC, h]

theorem part8_sound (c : Dev nD) : Part8Spec (F := F) m c := by
  intro K W α k Q
  simp only [WP, wp_bind]
  simp only [k0_part8_eq_skeleton]
  unfold k0_part8_skel
  have h01 : ¬ ((0#1 : BitVec 1) = 1#1) := by decide
  by_cases hz : Z c < 3
  ·
    have h3 : k0_cond3 c = 1#1 := (cond3_iff c).mpr hz
    have h35 : Scalar.cmpi .ne (Scalar.extui (Scalar.cmpi .eq (zw c) 3#32)) 0#32 = 0#1 := (zw_eq3_niff c).mpr (by omega)
    simp only [h3, h35, ↓reduceDIte, dif_neg h01]
    simp only [semSignalWord, semSignalHereWord, Prog.lift, Prog.bind_op, Prog.bind_ret, Prog.pure_eq_ret, wp_deviceId]
    unfold pre8 hGive
    have hr5 : recvAct c 5 := hz
    unfold condP
    rw [if_pos hz, if_pos hr5]
    iintro ⟨⟨#Hrec, HO, Htok, ⟨%fh, Hh⟩, Hu, ⟨%fs, Hs⟩⟩, Hk⟩
    rw [dev4_eq c h3]
    iapply (Rounds.wp_signal 𝒱₀ ER (haloRd m) (c : Thread nD τ) none (dst := (zup c : Thread nD τ)) (sem := barS) (κ := K (zup c, 0))
      (d := (3 : Fin 5)) (r := 0) (by rw [duties_bar]; exact mem_barDuties_zup c hz) (amount_bar m (zup c) 3) () (Osend c)
      (by show O₃ c = _; unfold O₃ O₄; rw [if_pos hz])) $$ [HO Htok Hh]
    · isplitr; · iapply (p8_inv_bar m K (zup c)); iexact Hrec
      iframe HO Htok
      isplitl [Hh]
      · rw [payload_bar_zup]; unfold nbrPay
        isplitl [Hh]; · iexists fh; iexact Hh
        iapply (p8_reached_recv m K c 5); iexact Hrec
      · iapply (p8_reached_bar m K (zup c)); iexact Hrec
    iintro HO
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![0, 0, 0] S1x48x48.size inb_S6x48x48_S1x48x48_0_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![1, 0, 0] S1x48x48.size inb_S6x48x48_S1x48x48_1_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![2, 0, 0] S1x48x48.size inb_S6x48x48_S1x48x48_2_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs

    rw [wp_ret]; imodintro
    iapply Hk
    unfold post8
    iframe HO Hu
    iexists _
    isplitr; · ipureintro; exact p8_filled m c fs
    iexact Hs
  ·
    have h3 : k0_cond3 c = 0#1 := (cond3_niff c).mpr hz
    have h35 : Scalar.cmpi .ne (Scalar.extui (Scalar.cmpi .eq (zw c) 3#32)) 0#32 = 1#1 := (zw_eq3_iff c).mpr (by have := Z_lt c; omega)
    simp only [h3, h35, ↓reduceDIte, dif_neg h01]
    simp only [semSignalWord, semSignalHereWord, Prog.lift, Prog.bind_op, Prog.bind_ret, Prog.pure_eq_ret, wp_deviceId]
    unfold pre8 hGive
    have hr5 : ¬ recvAct c 5 := hz
    unfold condP
    rw [if_neg hz, if_neg hr5]
    iintro ⟨⟨#Hrec, HO, Htok, -, Hu, ⟨%fs, Hs⟩⟩, Hk⟩
    iapply (Rounds.wp_signal 𝒱₀ ER (haloRd m) (c : Thread nD τ) none (dst := (c : Thread nD τ)) (sem := barS) (κ := K (c, 0))
      (d := (4 : Fin 5)) (r := 0) (by rw [duties_bar]; exact mem_barDuties_self_hi c hz) (amount_bar m (c) 4) () (Osend c)
      (by show O₃ c = _; unfold O₃ O₄; rw [if_neg hz])) $$ [HO Htok]
    · isplitr; · iapply (p8_inv_bar m K c); iexact Hrec
      iframe HO Htok
      isplitr
      · rw [payload_bar_self]; iempintro
      · iapply (p8_reached_bar m K c); iexact Hrec
    iintro HO
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![0, 0, 0] S1x48x48.size inb_S6x48x48_S1x48x48_0_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![1, 0, 0] S1x48x48.size inb_S6x48x48_S1x48x48_1_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![2, 0, 0] S1x48x48.size inb_S6x48x48_S1x48x48_2_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs

    rw [wp_ret]; imodintro
    iapply Hk
    unfold post8
    iframe HO Hu
    iexists _
    isplitr; · ipureintro; exact p8_filled m c fs
    iexact Hs

end Cert.KernelIdeal.Halo

end
-- ==== Proof.BodyP9W.lean ====
import Idealize.ShloMosaic.Lib.Pipeline.Value
import proofs.«900536_g7700000000000537_dist_halo3d_v7x_xyz2x2x4_s48_bf16_1_alg».proof.Proof.BodyInv

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p9w_inv_bar (K : Dev nD × Fin 13 → ℕ) (p : Dev nD) : records m K ⊢ cellInv ER (haloRd m) (K (p, 0)) (barCell p) := by
  unfold records; iintro ⟨H, -⟩
  iapply (show (bigSep Finset.univ fun ck : Dev nD × Fin 13 => (cellInv ER (haloRd m) (K ck) (kcell ck) : sProp 𝕄)) ⊢ cellInv ER (haloRd m) (K (p, 0)) (kcell (p, 0)) from bigSep_elim (Finset.mem_univ (p, 0)))
  iexact H

theorem p9w_wait (c : Dev nD) (K : Dev nD × Fin 13 → ℕ) (W : Waits sig Unit) {α : Type}
    (k' : PUnit → Prog (TpuEff nD τ sig (Elt F) Λ₀ .tc) α) (Q : α → sProp 𝕄) :
    iprop(records m K ∗ levAts L lv ∗ owes (c : Thread nD τ) (Osend c) W ∗ cred (tallyAt (barCell c) () 4) ∗ atPos ER (barCell c) 0 ∅ 0
      ∗ ((owes (c : Thread nD τ) (Osend c) (insert (SemLoc.reg barS, ()) W) ∗ atPos ER (barCell c) 1 ∅ 0 ∗ reached ER (barCell c) 1
            ∗ nbrPay (F := F) (fx c) (if X c = 0 then 0 else 1) ∗ nbrPay (F := F) (fy c) (if Y c = 0 then 2 else 3)
            ∗ condP (Z c < 3) (nbrPay (F := F) (zup c) 4) ∗ condP (0 < Z c) (nbrPay (F := F) (zdn c) 5))
          -∗ WP c (k' ⟨⟩) Q))
      ⊢ WP c (Prog.op (TpuEff.semWait barS (4#32).toNat) k') Q := by
  simp only [WP]
  iintro ⟨#Hrec, #Hlev, HO, Hcr, Hat, Hk⟩
  iapply (Rounds.wp_wait_rest_token 𝒱₀ ER (haloRd m) (c : Thread nD τ) none (κ := K (c, 0))
      (wpE_semWait_eq 𝒱₀ (c : Thread nD τ) none Set.univ) (Set.mem_univ _) () (O := Osend c) (W := W) (R := 0) (m := 0) (T := ∅)
      (by rw [expect_bar]; decide)) $$ [Hcr HO Hat]
  · isplitr; · iapply (p9w_inv_bar m K c); iexact Hrec
    isplitl [Hcr]; · iexact Hcr
    isplitl [HO]; · iexact HO
    isplitr; · iapply (mayWait_bar c); iexact Hlev
    iexact Hat
  iintro ⟨HO, Hat, Hr, Hpay⟩
  iapply Hk
  iframe HO Hat Hr
  have hzc : Z c = 0 ∨ (0 < Z c ∧ Z c < 3) ∨ Z c = 3 := by have := Z_lt c; omega
  rcases hzc with hz | ⟨h0, h3⟩ | hz
  · ihave Hp := (Entails.of_eq (rest_bar_z0 m c hz)) $$ Hpay
    icases Hp with ⟨Hx, Hy, Hu, -⟩
    unfold condP; rw [if_pos (by omega : Z c < 3), if_neg (by omega : ¬ 0 < Z c)]
    isplitl [Hx]; · iexact Hx
    isplitl [Hy]; · iexact Hy
    isplitl [Hu]; · iexact Hu
    iempintro
  · ihave Hp := (Entails.of_eq (rest_bar_zmid m c h0 h3)) $$ Hpay
    icases Hp with ⟨Hx, Hy, Hu, Hd⟩
    unfold condP; rw [if_pos h3, if_pos h0]
    iframe Hx Hy Hu Hd
  · ihave Hp := (Entails.of_eq (rest_bar_z3 m c hz)) $$ Hpay
    icases Hp with ⟨Hx, Hy, Hd, -⟩
    unfold condP; rw [if_neg (by omega : ¬ Z c < 3), if_pos (by omega : 0 < Z c)]
    iframe Hx Hy
    isplitr; · iempintro
    iexact Hd

end Cert.KernelIdeal.Halo

end
-- ==== Proof.BodyBuf.lean ====
import proofs.«900536_g7700000000000537_dist_halo3d_v7x_xyz2x2x4_s48_bf16_1_alg».proof.Proof.BodyInv
import Idealize.ShloMosaic.Lib.ValueLayout

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem inb_row (k : Fin 6) : ∀ a, (![k.val, 0, 0] : Fin 3 → ℕ) a + S1x48x48.size a ≤ S6x48x48.size a := by
  intro a
  have := k.isLt
  match a with
  | ⟨0, _⟩ => show k.val + 1 ≤ 6; omega
  | ⟨1, _⟩ => show 0 + 48 ≤ 48; omega
  | ⟨2, _⟩ => show 0 + 48 ≤ 48; omega

theorem mem_row (k : ℕ) (inb : ∀ a, (![k, 0, 0] : Fin 3 → ℕ) a + S1x48x48.size a ≤ S6x48x48.size a) (i : S6x48x48.Idx) :
    i ∈ (Rect.unit (s := S6x48x48) ![k, 0, 0] S1x48x48.size inb).set ↔ (i 0).val = k := by
  rw [Rect.mem_set_unit]
  constructor
  · intro h
    have h0 : k ≤ (i 0).val ∧ (i 0).val < k + 1 := h 0
    omega
  · intro h a
    have h1 : (i 1).val < 48 := (i 1).isLt
    have h2 : (i 2).val < 48 := (i 2).isLt
    match a with
    | ⟨0, _⟩ => exact ⟨by show k ≤ (i 0).val; omega, by show (i 0).val < k + 1; omega⟩
    | ⟨1, _⟩ => exact ⟨Nat.zero_le _, by show (i 1).val < 0 + 48; omega⟩
    | ⟨2, _⟩ => exact ⟨Nat.zero_le _, by show (i 2).val < 0 + 48; omega⟩

theorem set_squeezed_row {κ : Kind} (b : Ref sig κ) (r : Rect b.ty.shape) (s' : Shape) (h : s'.numel = r.shape.numel) :
    (((View.whole b).slice r).reshape s' h).set = r.set :=
  (View.set_reshape _ _).trans (View.set_slice_whole b r)

theorem hSet_eq (k : Fin 6) : hSet k = (Rect.unit (s := S6x48x48) ![k.val, 0, 0] S1x48x48.size (inb_row k)).set :=
  match k with
  | ⟨0, _⟩ => set_squeezed_row cc0_scratch0 _ _ _
  | ⟨1, _⟩ => set_squeezed_row cc0_scratch0 _ _ _
  | ⟨2, _⟩ => set_squeezed_row cc0_scratch0 _ _ _
  | ⟨3, _⟩ => set_squeezed_row cc0_scratch0 _ _ _
  | ⟨4, _⟩ => set_squeezed_row cc0_scratch0 _ _ _
  | ⟨5, _⟩ => set_squeezed_row cc0_scratch0 _ _ _

theorem sSet_eq (k : Fin 6) : sSet k = (Rect.unit (s := S6x48x48) ![k.val, 0, 0] S1x48x48.size (inb_row k)).set :=
  match k with
  | ⟨0, _⟩ => set_squeezed_row cc0_scratch1 _ _ _
  | ⟨1, _⟩ => set_squeezed_row cc0_scratch1 _ _ _
  | ⟨2, _⟩ => set_squeezed_row cc0_scratch1 _ _ _
  | ⟨3, _⟩ => set_squeezed_row cc0_scratch1 _ _ _
  | ⟨4, _⟩ => set_squeezed_row cc0_scratch1 _ _ _
  | ⟨5, _⟩ => set_squeezed_row cc0_scratch1 _ _ _

theorem mem_hSet (k : Fin 6) (i : HIdx) : i ∈ hSet k ↔ (i 0).val = k.val := by
  rw [hSet_eq]; exact mem_row _ _ i

theorem mem_sSet (k : Fin 6) (i : SIdx) : i ∈ sSet k ↔ (i 0).val = k.val := by
  rw [sSet_eq]; exact mem_row _ _ i

theorem hSet_disjoint (b b' : Fin 6) (h : b ≠ b') : Disjoint (hSet b) (hSet b') := by
  rw [Finset.disjoint_left]
  intro i hi hi'
  rw [mem_hSet] at hi hi'
  exact h (Fin.ext (hi.symm.trans hi'))

theorem sSet_disjoint (b b' : Fin 6) (h : b ≠ b') : Disjoint (sSet b) (sSet b') := by
  rw [Finset.disjoint_left]
  intro i hi hi'
  rw [mem_sSet] at hi hi'
  exact h (Fin.ext (hi.symm.trans hi'))

theorem hSet_cover : Finset.univ.biUnion hSet = Finset.univ := by
  ext i
  simp only [Finset.mem_biUnion, Finset.mem_univ, true_and, iff_true]
  exact ⟨⟨(i 0).val, (i 0).isLt⟩, (mem_hSet _ i).mpr rfl⟩

theorem sSet_cover : Finset.univ.biUnion sSet = Finset.univ := by
  ext i
  simp only [Finset.mem_biUnion, Finset.mem_univ, true_and, iff_true]
  exact ⟨⟨(i 0).val, (i 0).isLt⟩, (mem_sSet _ i).mpr rfl⟩

theorem bigSep_fin_six {M : Type} [URA M] (Φ : Fin 6 → sProp M) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

theorem hPts_whole (c : Dev nD) (f : Buf (Elt F) ((c : Thread nD τ).loc cc0_scratch0)) :
    ((((c : Thread nD τ).loc cc0_scratch0) ↦{fullShare} f) : sProp 𝕄) = bigSep Finset.univ fun s : Fin 6 => hPts c s f := by
  have h := pointsTo_biUnion (ℓ := ((c : Thread nD τ).loc cc0_scratch0)) (q := fullShare) (f := f) (Val := Elt F) (Ix := Unit) (Name := ℕ) (U := UU) (Lvl := ℕ)
    Finset.univ hSet (fun b _ b' _ h => hSet_disjoint b b' h)
  rw [hSet_cover] at h
  exact h

theorem sPts_whole (c : Dev nD) (f : Buf (Elt F) ((c : Thread nD τ).loc cc0_scratch1)) :
    ((((c : Thread nD τ).loc cc0_scratch1) ↦{fullShare} f) : sProp 𝕄) = bigSep Finset.univ fun s : Fin 6 => sPts c s f := by
  have h := pointsTo_biUnion (ℓ := ((c : Thread nD τ).loc cc0_scratch1)) (q := fullShare) (f := f) (Val := Elt F) (Ix := Unit) (Name := ℕ) (U := UU) (Lvl := ℕ)
    Finset.univ sSet (fun b _ b' _ h => sSet_disjoint b b' h)
  rw [sSet_cover] at h
  exact h

theorem hPts_whole6 (c : Dev nD) (f : Buf (Elt F) ((c : Thread nD τ).loc cc0_scratch0)) :
    ((((c : Thread nD τ).loc cc0_scratch0) ↦{fullShare} f) : sProp 𝕄)
      = iprop(hPts c 0 f ∗ hPts c 1 f ∗ hPts c 2 f ∗ hPts c 3 f ∗ hPts c 4 f ∗ hPts c 5 f) := by
  rw [hPts_whole, bigSep_fin_six]

theorem sPts_whole6 (c : Dev nD) (f : Buf (Elt F) ((c : Thread nD τ).loc cc0_scratch1)) :
    ((((c : Thread nD τ).loc cc0_scratch1) ↦{fullShare} f) : sProp 𝕄)
      = iprop(sPts c 0 f ∗ sPts c 1 f ∗ sPts c 2 f ∗ sPts c 3 f ∗ sPts c 4 f ∗ sPts c 5 f) := by
  rw [sPts_whole, bigSep_fin_six]

theorem hPts_join (c : Dev nD) (fs : Fin 6 → Buf (Elt F) ((c : Thread nD τ).loc cc0_scratch0)) :
    (bigSep Finset.univ fun s : Fin 6 => hPts c s (fs s))
      ⊢ (iprop(∃ g, ⌜∀ s : Fin 6, ∀ i ∈ hSet s, g i = fs s i⌝ ∗ (((c : Thread nD τ).loc cc0_scratch0) ↦{fullShare} g)) : sProp 𝕄) := by
  have h := pointsTo_biUnion_join (ℓ := ((c : Thread nD τ).loc cc0_scratch0)) (q := fullShare) (Val := Elt F) (Ix := Unit) (Name := ℕ) (U := UU) (Lvl := ℕ)
    Finset.univ hSet fs (fs 0) (fun b _ b' _ h => hSet_disjoint b b' h)
  rw [hSet_cover] at h
  refine h.trans ?_
  iintro ⟨%g, %hg, H⟩
  iexists g
  isplitr
  · ipureintro; exact fun s => hg s (Finset.mem_univ s)
  · iexact H

theorem row_emb (v : View sig .tc .vmem S6x48x48 .bf16) (k : Fin 6)
    (inb : ∀ a, (![k.val, 0, 0] : Fin 3 → ℕ) a + S1x48x48.size a ≤ S6x48x48.size a)
    (h : S48x48.numel = (Rect.unit (s := S6x48x48) ![k.val, 0, 0] S1x48x48.size inb).shape.numel) (p q : Fin 48) :
    ((v.slice (Rect.unit (s := S6x48x48) ![k.val, 0, 0] S1x48x48.size inb)).reshape S48x48 h).emb (ix2 p q)
      = v.emb (ix3 k p q) := by
  rw [View.emb_reshape, Function.Embedding.trans_apply, Equiv.toEmbedding_apply, View.emb_slice, Function.Embedding.trans_apply]
  refine congrArg v.emb ?_
  have e : Shape.reshapeEquiv h (ix2 p q) = ix3 (⟨0, Nat.one_pos⟩ : Fin 1) p q := reshapeEquiv_ix2_1ab h p q
  rw [e]
  funext a
  apply Fin.ext
  rw [Rect.emb_apply]
  match a with
  | ⟨0, _⟩ => show k.val + 1 * 0 = k.val; omega
  | ⟨1, _⟩ => show 0 + 1 * p.val = p.val; omega
  | ⟨2, _⟩ => show 0 + 1 * q.val = q.val; omega

theorem row_slice_emb (v : View sig .tc .vmem S6x48x48 .bf16) (k : Fin 6)
    (inb : ∀ a, (![k.val, 0, 0] : Fin 3 → ℕ) a + S1x48x48.size a ≤ S6x48x48.size a) (u : Fin 1) (p q : Fin 48) :
    (v.slice (Rect.unit (s := S6x48x48) ![k.val, 0, 0] S1x48x48.size inb)).emb (ix3 u p q) = v.emb (ix3 k p q) := by
  rw [View.emb_slice, Function.Embedding.trans_apply]
  refine congrArg v.emb ?_
  have hu : u.val = 0 := by omega
  funext a
  apply Fin.ext
  rw [Rect.emb_apply]
  match a with
  | ⟨0, _⟩ => show k.val + 1 * u.val = k.val; omega
  | ⟨1, _⟩ => show 0 + 1 * p.val = p.val; omega
  | ⟨2, _⟩ => show 0 + 1 * q.val = q.val; omega

theorem idx_eq_of_row (i : S6x48x48.Idx) (k : Fin 6) (h : (i 0).val = k.val) :
    i = ix3 k (⟨(i 1).val, (i 1).isLt⟩ : Fin 48) (⟨(i 2).val, (i 2).isLt⟩ : Fin 48) := by
  funext a
  match a with
  | ⟨0, _⟩ => exact Fin.ext h
  | ⟨1, _⟩ => rfl
  | ⟨2, _⟩ => rfl

abbrev hRowV (k : Fin 6) : View sig .tc .vmem S48x48 .bf16 :=
  ((View.whole cc0_scratch0 : View sig .tc .vmem S6x48x48 .bf16).slice (Rect.unit (s := S6x48x48) ![k.val, 0, 0] S1x48x48.size (inb_row k))).reshape S48x48
    squeezes_S1x48x48_S48x48.numel_eq
abbrev sRowV (k : Fin 6) : View sig .tc .vmem S48x48 .bf16 :=
  ((View.whole cc0_scratch1 : View sig .tc .vmem S6x48x48 .bf16).slice (Rect.unit (s := S6x48x48) ![k.val, 0, 0] S1x48x48.size (inb_row k))).reshape S48x48
    squeezes_S1x48x48_S48x48.numel_eq

theorem hRowV_emb (k : Fin 6) (p q : Fin 48) : (hRowV k).emb (ix2 p q) = (ix3 k p q : HIdx) :=
  row_emb (View.whole cc0_scratch0) k _ _ p q

theorem sRowV_emb (k : Fin 6) (p q : Fin 48) : (sRowV k).emb (ix2 p q) = (ix3 k p q : SIdx) :=
  row_emb (View.whole cc0_scratch1) k _ _ p q

theorem sRowV_read (k : Fin 6) (g : (sM : Memref sig .tc .vmem S6x48x48 .bf16).view.ty.Contents (Elt F)) (p q : Fin 48) :
    (sRowV k).read (Elt F) g (ix2 p q) = g (ix3 k p q) := by
  rw [View.read_apply, sRowV_emb]; rfl

theorem hRowV_write (k : Fin 6) (g : (hM : Memref sig .tc .vmem S6x48x48 .bf16).view.ty.Contents (Elt F))
    (w : S48x48.Idx → Elt F .bf16) (p q : Fin 48) :
    (hRowV k).write (Elt F) g w Finset.univ (ix3 k p q) = w (ix2 p q) := by
  rw [← hRowV_emb k p q, View.write_emb_of_mem _ _ (Finset.mem_univ _)]; rfl

theorem landed (p : Dev nD) (k : Fin 6) (fd : Buf (Elt F) ((p : Thread nD τ).loc cc0_scratch0)) :
    hPts p k ((hRowV k).write (Elt F) fd ((sRowV (srcSlot k)).read (Elt F) (sendC m (sender p k))) Finset.univ)
      = hPts p k (haloC m p) := by
  unfold hPts
  refine BI.Region.is_congr (fun i hi => ?_)
  rw [mem_hSet] at hi
  rw [idx_eq_of_row i k hi, hRowV_write, sRowV_read]
  rfl

/-- The face device `c` sent lands in halo slot `k` of the device `p` that expects `c` there. -/
theorem land (k : Fin 6) (c p : Dev nD) (hc : sender p k = c) (fd : Buf (Elt F) ((p : Thread nD τ).loc cc0_scratch0)) :
    hPts p k ((hRowV k).write (Elt F) fd ((sRowV (srcSlot k)).read (Elt F) (sendC m c)) Finset.univ) ⊢ hPts p k (haloC m p) := by
  subst hc; exact Entails.of_eq (landed m p k fd)

theorem sRow_store_eq (k : Fin 6) (inb : ∀ a, (![k.val, 0, 0] : Fin 3 → ℕ) a + S1x48x48.size a ≤ S6x48x48.size a)
    (g : (sM : Memref sig .tc .vmem S6x48x48 .bf16).view.ty.Contents (Elt F)) (w : S1x48x48.Idx → Elt F .bf16) (p q : Fin 48) :
    ((sM : Memref sig .tc .vmem S6x48x48 .bf16).access (Rect.unit (s := S6x48x48) ![k.val, 0, 0] S1x48x48.size inb)).write (Elt F) g w Finset.univ
        (ix3 k p q : SIdx) = w (ix3 (0 : Fin 1) p q) := by
  have e := row_slice_emb (View.whole cc0_scratch1) k inb (0 : Fin 1) p q
  have key := View.write_emb_of_mem (v := (sM : Memref sig .tc .vmem S6x48x48 .bf16).access (Rect.unit (s := S6x48x48) ![k.val, 0, 0] S1x48x48.size inb))
    (Val := Elt F) g w (M := Finset.univ) (x := ix3 (0 : Fin 1) p q) (Finset.mem_univ _)
  rw [e] at key
  exact key

theorem sRow_store_ne (k s : Fin 6) (hs : s.val ≠ k.val) (inb : ∀ a, (![k.val, 0, 0] : Fin 3 → ℕ) a + S1x48x48.size a ≤ S6x48x48.size a)
    (g : (sM : Memref sig .tc .vmem S6x48x48 .bf16).view.ty.Contents (Elt F)) (w : S1x48x48.Idx → Elt F .bf16) (p q : Fin 48) :
    ((sM : Memref sig .tc .vmem S6x48x48 .bf16).access (Rect.unit (s := S6x48x48) ![k.val, 0, 0] S1x48x48.size inb)).write (Elt F) g w Finset.univ
        (ix3 s p q : SIdx) = g (ix3 s p q) := by
  refine View.write_of_not_mem _ _ _ (fun hm => hs ?_)
  rw [View.setOn_univ, View.set_slice_whole] at hm
  exact (mem_row _ _ _).mp hm

theorem halo_split (c : Dev nD) (f : Buf (Elt F) ((c : Thread nD τ).loc cc0_scratch0)) :
    ptH c f ⊢ six (fun s => hPts c s f) :=
  Entails.of_eq (hPts_whole6 c f)

theorem halo_join (c : Dev nD) :
    six (fun s => (iprop(∃ f, hPts c s f) : sProp 𝕄)) ⊢ (iprop(∃ f, ptH c f) : sProp 𝕄) := by
  have : Nonempty (Buf (Elt F) ((c : Thread nD τ).loc cc0_scratch0)) := ⟨fun _ => Classical.choice inferInstance⟩
  refine (Entails.of_eq (bigSep_fin_six (fun s : Fin 6 => (iprop(∃ f, hPts c s f) : sProp 𝕄))).symm).trans ?_
  refine (Idealize.SL.BI.bigSep_exists_pi Finset.univ (fun (s : Fin 6) (f : Buf (Elt F) ((c : Thread nD τ).loc cc0_scratch0)) => (hPts c s f : sProp 𝕄))).trans ?_
  iintro ⟨%fs, H⟩
  ihave H' := (hPts_join c fs) $$ H
  icases H' with ⟨%g, -, H'⟩
  iexists g
  iexact H'

theorem send_split (c : Dev nD) (f : Buf (Elt F) ((c : Thread nD τ).loc cc0_scratch1)) :
    ptS c f ⊢ six (fun s => sPts c s f) :=
  Entails.of_eq (sPts_whole6 c f)

theorem send_join (c : Dev nD) (f : Buf (Elt F) ((c : Thread nD τ).loc cc0_scratch1)) :
    six (fun s => sPts c s f) ⊢ ptS c f :=
  Entails.of_eq (sPts_whole6 c f).symm

theorem hSlot_amount (b : Fin 6) (q : DmaSem sig) : (hSlot b).view.amount (.dma q) = N :=
  match b with
  | ⟨0, _⟩ => rfl | ⟨1, _⟩ => rfl | ⟨2, _⟩ => rfl | ⟨3, _⟩ => rfl | ⟨4, _⟩ => rfl | ⟨5, _⟩ => rfl

theorem fill_345 (c : Dev nD) (f : Buf (Elt F) ((c : Thread nD τ).loc cc0_scratch1)) (hf : filledTo m 3 c f) :
    (sM.access (Rect.unit (s := S6x48x48) ![5, 0, 0] S1x48x48.size inb_S6x48x48_S1x48x48_5_0_0)).write (Elt F)
      ((sM.access (Rect.unit (s := S6x48x48) ![4, 0, 0] S1x48x48.size inb_S6x48x48_S1x48x48_4_0_0)).write (Elt F)
        ((sM.access (Rect.unit (s := S6x48x48) ![3, 0, 0] S1x48x48.size inb_S6x48x48_S1x48x48_3_0_0)).write (Elt F) f
          (k0_pay25 (uM.view.readAt (Elt F) (Rect.unit (s := S48x48x48) ![0, 47, 0] S48x1x48.size inb_S48x48x48_S48x1x48_0_47_0).toLoadRect (ublk m c))) Finset.univ)
        (k0_pay26 (uM.view.readAt (Elt F) (Rect.unit (s := S48x48x48) ![0, 0, 0] S48x48x1.size inb_S48x48x48_S48x48x1_0_0_0).toLoadRect (ublk m c))) Finset.univ)
      (k0_pay27 (uM.view.readAt (Elt F) (Rect.unit (s := S48x48x48) ![0, 0, 47] S48x48x1.size inb_S48x48x48_S48x48x1_0_0_47).toLoadRect (ublk m c))) Finset.univ
      = sendC m c := by
  funext i
  obtain ⟨s, p, q, rfl⟩ : ∃ (s : Fin 6) (p q : Fin 48), i = (ix3 s p q : SIdx) := ⟨_, _, _, eq_ix3 (n0 := 6) (n1 := 48) (n2 := 48) i⟩
  match s with
  | ⟨0, h0⟩ =>
    exact (sRow_store_ne (F := F) ⟨5, by decide⟩ ⟨0, h0⟩ (show (0 : ℕ) ≠ 5 by decide) _ _ _ p q).trans
      ((sRow_store_ne (F := F) ⟨4, by decide⟩ ⟨0, h0⟩ (show (0 : ℕ) ≠ 4 by decide) _ _ _ p q).trans
      ((sRow_store_ne (F := F) ⟨3, by decide⟩ ⟨0, h0⟩ (show (0 : ℕ) ≠ 3 by decide) _ _ _ p q).trans (hf _ (show (0 : ℕ) < 3 by decide))))
  | ⟨1, h1⟩ =>
    exact (sRow_store_ne (F := F) ⟨5, by decide⟩ ⟨1, h1⟩ (show (1 : ℕ) ≠ 5 by decide) _ _ _ p q).trans
      ((sRow_store_ne (F := F) ⟨4, by decide⟩ ⟨1, h1⟩ (show (1 : ℕ) ≠ 4 by decide) _ _ _ p q).trans
      ((sRow_store_ne (F := F) ⟨3, by decide⟩ ⟨1, h1⟩ (show (1 : ℕ) ≠ 3 by decide) _ _ _ p q).trans (hf _ (show (1 : ℕ) < 3 by decide))))
  | ⟨2, h2⟩ =>
    exact (sRow_store_ne (F := F) ⟨5, by decide⟩ ⟨2, h2⟩ (show (2 : ℕ) ≠ 5 by decide) _ _ _ p q).trans
      ((sRow_store_ne (F := F) ⟨4, by decide⟩ ⟨2, h2⟩ (show (2 : ℕ) ≠ 4 by decide) _ _ _ p q).trans
      ((sRow_store_ne (F := F) ⟨3, by decide⟩ ⟨2, h2⟩ (show (2 : ℕ) ≠ 3 by decide) _ _ _ p q).trans (hf _ (show (2 : ℕ) < 3 by decide))))
  | ⟨3, h3⟩ =>
    exact (sRow_store_ne (F := F) ⟨5, by decide⟩ ⟨3, h3⟩ (show (3 : ℕ) ≠ 5 by decide) _ _ _ p q).trans
      ((sRow_store_ne (F := F) ⟨4, by decide⟩ ⟨3, h3⟩ (show (3 : ℕ) ≠ 4 by decide) _ _ _ p q).trans (sRow_store_eq (F := F) ⟨3, by decide⟩ _ _ _ p q))
  | ⟨4, h4⟩ =>
    exact (sRow_store_ne (F := F) ⟨5, by decide⟩ ⟨4, h4⟩ (show (4 : ℕ) ≠ 5 by decide) _ _ _ p q).trans (sRow_store_eq (F := F) ⟨4, by decide⟩ _ _ _ p q)
  | ⟨5, h5⟩ => exact sRow_store_eq (F := F) ⟨5, by decide⟩ _ _ _ p q

end Cert.KernelIdeal.Halo

end
-- ==== Proof.BodySend.lean ====
import proofs.«900536_g7700000000000537_dist_halo3d_v7x_xyz2x2x4_s48_bf16_1_alg».proof.Proof.BodyAsm

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c` copies the face in `src` (its send slot `a`) into `dst` (halo slot `b` of device `p`). -/
theorem send_any (a b : Fin 6) {src dst : Memref sig .tc .vmem S48x48 .bf16} (K : Dev nD × Fin 13 → ℕ) (c p : Dev nD)
    (hact : sendAct c a) (hract : recvAct p b) (hamt : dst.view.amount (.dma (recvSem b)) = N)
    (fs : Buf (Elt F) (src.view.loc (c : Thread nD τ))) (fd : Buf (Elt F) ((p : Thread nD τ).loc cc0_scratch0))
    (fd' : Buf (Elt F) (dst.view.loc (p : Thread nD τ)))
    (hs : (sPts c a (sendC m c) : sProp 𝕄) = ((src.view.loc (c : Thread nD τ)) ↦[src.view.set]{fullShare} fs))
    (hd : (hPts p b fd : sProp 𝕄) = ((dst.view.loc (p : Thread nD τ)) ↦[dst.view.set]{fullShare} fd'))
    (hland : ((dst.view.loc (p : Thread nD τ)) ↦[dst.view.set]{fullShare}
        (dst.view.write (Elt F) fd' (src.view.read (Elt F) fs) Finset.univ) : sProp 𝕄) ⊢ hPts p b (haloC m p))
    {hsc : (dst : Memref sig (Dev.tc p : Thread nD τ).2.kind .vmem S48x48 .bf16).view.ref.isScScratch = false}
    {hsrc : src.view.WordExact} {hdst : dst.view.WordExact}
    {hsem : DmaTarget.Typed .vmem (.dma (recvSem b)) (.remote (Dev.tc p : Thread nD τ) dst (.dma (sendSem a)) hsc)}
    {α : Type} {Q : α → sProp 𝕄} {k : PUnit → Prog (TpuEff nD τ sig (Elt F) Λ₀ .tc) α}
    (O : CellTallies nD τ sig Unit) (W : Waits sig Unit) :
    iprop(records m K ∗ sPts c a (sendC m c) ∗ hPts p b fd ∗ owes (c : Thread nD τ) (O + tallyAt (recvCell p b) () N) W
        ∗ dutyTok ER (sendCell c a) 0 (0 : Fin 5) ∗ dutyTok ER (recvCell p b) 0 (0 : Fin 5))
      ⊢ iprop(((cred (tallyAt (sendCell c a) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma (sendSem a)) hsc) (.dma (recvSem b)) hsrc hdst hsem) k) Q) := by
  rw [hs, hd]
  iintro ⟨#Hrec, Hs, Hd, HO, Ts, Tr⟩
  ihave #HIs := (inv_send m K c a) $$ Hrec
  ihave #HIr := (inv_recv m K p b) $$ Hrec
  ihave #HRs := (reached_send m K c a) $$ Hrec
  ihave #HRr := (reached_recv m K p b) $$ Hrec
  iapply (Rounds.wp_send_pointsTo 𝒱₀ ER (haloRd m) (c : Thread nD τ) none (c' := (p : Thread nD τ)) (src := src) (dst := dst) (q := fullShare)
      (fs := fs) (fd := fd') (r₁ := 0) (r₂ := 0) (d₁ := (0 : Fin 5)) (d₂ := (0 : Fin 5))
      (by rw [duties_send, if_pos hact]; exact Finset.mem_singleton_self _) (by rw [duties_recv, if_pos hract]; exact Finset.mem_singleton_self _)
      () () N hamt (amount_send m c a 0) (amount_recv m p b 0) O rfl (W := W)
      (by rw [payload_send, ← hs]; exact BI.Entails.refl _)
      (by rw [payload_recv]; exact hland))
  iframe HIs HIr Hs Hd HO Ts HRs Tr HRr

end Cert.KernelIdeal.Halo

end
-- ==== Proof.BodyP9C.lean ====
import proofs.«900536_g7700000000000537_dist_halo3d_v7x_xyz2x2x4_s48_bf16_1_alg».proof.Proof.BodyBuf
import proofs.«900536_g7700000000000537_dist_halo3d_v7x_xyz2x2x4_s48_bf16_1_alg».proof.Proof.BodySend

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A send under a device-dependent branch: where the branch is taken it is `send_any`; elsewhere the slot and the tally stay. -/
theorem send_if (a b : Fin 6) {src dst : Memref sig .tc .vmem S48x48 .bf16} (c nb : Dev nD) (P : Prop) [Decidable P]
    (hact : P ↔ sendAct c a) (hract : P → recvAct nb b) {cnd : BitVec 1} (hiff : cnd = 1#1 ↔ P)
    {dev : ℕ} {dev_lt : cnd = 1#1 → dev < nD} (hdev : ∀ h, (⟨dev, dev_lt h⟩ : Dev nD) = nb)
    (hamt : dst.view.amount (.dma (recvSem b)) = N)
    (fs : Buf (Elt F) (src.view.loc (c : Thread nD τ)))
    (cv : Buf (Elt F) ((nb : Thread nD τ).loc cc0_scratch0) → Buf (Elt F) (dst.view.loc (nb : Thread nD τ)))
    (hs : (sPts c a (sendC m c) : sProp 𝕄) = ((src.view.loc (c : Thread nD τ)) ↦[src.view.set]{fullShare} fs))
    (hd : ∀ fd, (hPts nb b fd : sProp 𝕄) = ((dst.view.loc (nb : Thread nD τ)) ↦[dst.view.set]{fullShare} cv fd))
    (hland : ∀ fd, ((dst.view.loc (nb : Thread nD τ)) ↦[dst.view.set]{fullShare}
        (dst.view.write (Elt F) (cv fd) (src.view.read (Elt F) fs) Finset.univ) : sProp 𝕄) ⊢ hPts nb b (haloC m nb))
    {hsc : ∀ h, (dst : Memref sig (Dev.tc (⟨dev, dev_lt h⟩ : Dev nD) : Thread nD τ).2.kind .vmem S48x48 .bf16).view.ref.isScScratch = false}
    {hsrc : src.view.WordExact} {hdst : dst.view.WordExact}
    {hsem : ∀ h, DmaTarget.Typed .vmem (.dma (recvSem b)) (.remote (Dev.tc (⟨dev, dev_lt h⟩ : Dev nD) : Thread nD τ) dst (.dma (sendSem a)) (hsc h))}
    (K : Dev nD × Fin 13 → ℕ) (W : Waits sig Unit) (O : CellTallies nD τ sig Unit) {α : Type}
    (J : Prog (TpuEff nD τ sig (Elt F) Λ₀ .tc) α) (Q : α → sProp 𝕄) :
    iprop(records m K ∗ sPts c a (sendC m c) ∗ sTok c a ∗ condP P (nbrPay nb b)
        ∗ condP P (dutyTok ER (recvCell nb b) 0 (0 : Fin 5))
        ∗ owes (c : Thread nD τ) (O + tallyAt (recvCell nb b) () (if P then N else 0)) W
        ∗ ((sKeep m c a ∗ sCred c a ∗ owes (c : Thread nD τ) O W) -∗ WP c J Q))
      ⊢ WP c (if h : cnd = 1#1 then
          Prog.op (TpuEff.enqueueDma src (.remote (Dev.tc (⟨dev, dev_lt h⟩ : Dev nD)) dst (.dma (sendSem a)) (hsc h)) (.dma (recvSem b)) hsrc hdst (hsem h)) (fun _ => J)
        else J) Q := by
  by_cases hP : P
  · have hcN : cnd = 1#1 := hiff.mpr hP
    rw [dif_pos hcN]
    have e1 : sTok (F := F) c a = dutyTok ER (sendCell c a) 0 (0 : Fin 5) := by unfold sTok condP; exact if_pos (hact.mp hP)
    have e2 : sKeep m c a = iprop(emp) := by unfold sKeep condP; exact if_neg (not_not.mpr (hact.mp hP))
    have e3 : sCred (F := F) c a = cred (tallyAt (sendCell c a) () N) := by unfold sCred condP; exact if_pos (hact.mp hP)
    rw [e1, e2, e3]
    simp only [condP, if_pos hP]
    iintro ⟨#Hrec, Hs, Ts, Hn, Tr, HO, Hk⟩
    unfold nbrPay
    icases Hn with ⟨⟨%fd, Hd⟩, -⟩
    obtain rfl := hdev hcN
    iapply (send_any m a b (src := src) (dst := dst) K c ⟨dev, dev_lt hcN⟩ (hact.mp hP) (hract hP) hamt fs fd (cv fd) hs (hd fd) (hland fd) O W) $$ [Hs Hd HO Ts Tr]
    · isplitr; · iexact Hrec
      iframe Hs Hd HO Ts Tr
    iintro ⟨Hc, HO⟩
    iapply Hk
    isplitr; · iempintro
    isplitl [Hc]; · iexact Hc
    iexact HO
  · have hcN : ¬ cnd = 1#1 := fun h => hP (hiff.mp h)
    rw [dif_neg hcN]
    have e2 : sKeep m c a = sPts c a (sendC m c) := by unfold sKeep condP; exact if_pos (mt hact.mpr hP)
    have e3 : sCred (F := F) c a = iprop(emp) := by unfold sCred condP; exact if_neg (mt hact.mpr hP)
    rw [e2, e3]
    simp only [if_neg hP]
    rw [tallyAt_zero', add_zero]
    iintro ⟨-, Hs, -, -, -, HO, Hk⟩
    iapply Hk
    isplitl [Hs]; · iexact Hs
    isplitr; · iempintro
    iexact HO

end Cert.KernelIdeal.Halo

end
-- ==== Proof.BodyP9.lean ====
import proofs.«900536_g7700000000000537_dist_halo3d_v7x_xyz2x2x4_s48_bf16_1_alg».proof.Proof.BodyP9W
import proofs.«900536_g7700000000000537_dist_halo3d_v7x_xyz2x2x4_s48_bf16_1_alg».proof.Proof.BodyP9C

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem p9_fill (c : Dev nD) (f : Buf (Elt F) ((c : Thread nD τ).loc cc0_scratch1)) (hf : filledTo m 3 c f) :
    ((sM.access (Rect.unit (s := S6x48x48) ![5, 0, 0] S1x48x48.size inb_S6x48x48_S1x48x48_5_0_0)).loc (c : Thread nD τ) ↦{fullShare}
      ((sM.access (Rect.unit (s := S6x48x48) ![5, 0, 0] S1x48x48.size inb_S6x48x48_S1x48x48_5_0_0)).write (Elt F)
        ((sM.access (Rect.unit (s := S6x48x48) ![4, 0, 0] S1x48x48.size inb_S6x48x48_S1x48x48_4_0_0)).write (Elt F)
          ((sM.access (Rect.unit (s := S6x48x48) ![3, 0, 0] S1x48x48.size inb_S6x48x48_S1x48x48_3_0_0)).write (Elt F) f
            (k0_pay25 (uM.view.readAt (Elt F) (Rect.unit (s := S48x48x48) ![0, 47, 0] S48x1x48.size inb_S48x48x48_S48x1x48_0_47_0).toLoadRect (ublk m c))) Finset.univ)
          (k0_pay26 (uM.view.readAt (Elt F) (Rect.unit (s := S48x48x48) ![0, 0, 0] S48x48x1.size inb_S48x48x48_S48x48x1_0_0_0).toLoadRect (ublk m c))) Finset.univ)
        (k0_pay27 (uM.view.readAt (Elt F) (Rect.unit (s := S48x48x48) ![0, 0, 47] S48x48x1.size inb_S48x48x48_S48x48x1_0_0_47).toLoadRect (ublk m c))) Finset.univ) : sProp 𝕄)
      ⊢ iprop(sPts c 0 (sendC m c) ∗ sPts c 1 (sendC m c) ∗ sPts c 2 (sendC m c) ∗ sPts c 3 (sendC m c) ∗ sPts c 4 (sendC m c) ∗ sPts c 5 (sendC m c)) := by
  rw [fill_345 m c f hf]
  exact send_split c (sendC m c)

private theorem p9_split2 (p q : Prop) [Decidable p] [Decidable q] (hpq : p ↔ ¬ q) (Φ : Fin 6 → sProp 𝕄) (s0 s1 : Fin 6) :
    Φ (if p then s0 else s1) ⊢ iprop(condP p (Φ s0) ∗ condP q (Φ s1)) := by
  unfold condP
  by_cases hp : p
  · rw [if_pos hp, if_pos hp, if_neg (hpq.mp hp)]; exact (sep_emp (PROP := sProp 𝕄)).2
  · have hq : q := by by_contra hq; exact hp (hpq.mpr hq)
    rw [if_neg hp, if_neg hp, if_pos hq]; exact (emp_sep (PROP := sProp 𝕄)).2

private theorem p9_tally2 (p q : Prop) [Decidable p] [Decidable q] (hpq : p ↔ ¬ q) (g : Fin 6 → GSem nD τ sig) (s0 s1 : Fin 6) :
    (tallyAt (g (if p then s0 else s1)) () N : CellTallies nD τ sig Unit)
      = tallyAt (g s1) () (if q then N else 0) + tallyAt (g s0) () (if p then N else 0) := by
  by_cases hp : p
  · rw [if_pos hp, if_pos hp, if_neg (hpq.mp hp), tallyAt_zero, zero_add]
  · have hq : q := by by_contra hq; exact hp (hpq.mpr hq)
    rw [if_neg hp, if_neg hp, if_pos hq, tallyAt_zero, add_zero]

private theorem p9_x01 (c : Dev nD) : X c = 0 ↔ ¬ X c = 1 := by have := X_lt c; omega
private theorem p9_y01 (c : Dev nD) : Y c = 0 ↔ ¬ Y c = 1 := by have := Y_lt c; omega

private theorem p9_pay_x (c : Dev nD) :
    nbrPay (F := F) (fx c) (if X c = 0 then 0 else 1) ⊢ iprop(condP (X c = 0) (nbrPay (fx c) 0) ∗ condP (X c = 1) (nbrPay (fx c) 1)) :=
  p9_split2 (X c = 0) (X c = 1) (p9_x01 c) (fun s => nbrPay (F := F) (fx c) s) 0 1
private theorem p9_pay_y (c : Dev nD) :
    nbrPay (F := F) (fy c) (if Y c = 0 then 2 else 3) ⊢ iprop(condP (Y c = 0) (nbrPay (fy c) 2) ∗ condP (Y c = 1) (nbrPay (fy c) 3)) :=
  p9_split2 (Y c = 0) (Y c = 1) (p9_y01 c) (fun s => nbrPay (F := F) (fy c) s) 2 3
private theorem p9_tok_x (c : Dev nD) :
    (dutyTok ER (recvCell (fx c) (if X c = 0 then 0 else 1)) 0 (0 : Fin 5) : sProp 𝕄)
      ⊢ iprop(condP (X c = 0) (dutyTok ER (recvCell (fx c) 0) 0 (0 : Fin 5)) ∗ condP (X c = 1) (dutyTok ER (recvCell (fx c) 1) 0 (0 : Fin 5))) :=
  p9_split2 (X c = 0) (X c = 1) (p9_x01 c) (fun s => (dutyTok ER (recvCell (fx c) s) 0 (0 : Fin 5) : sProp 𝕄)) 0 1
private theorem p9_tok_y (c : Dev nD) :
    (dutyTok ER (recvCell (fy c) (if Y c = 0 then 2 else 3)) 0 (0 : Fin 5) : sProp 𝕄)
      ⊢ iprop(condP (Y c = 0) (dutyTok ER (recvCell (fy c) 2) 0 (0 : Fin 5)) ∗ condP (Y c = 1) (dutyTok ER (recvCell (fy c) 3) 0 (0 : Fin 5))) :=
  p9_split2 (Y c = 0) (Y c = 1) (p9_y01 c) (fun s => (dutyTok ER (recvCell (fy c) s) 0 (0 : Fin 5) : sProp 𝕄)) 2 3

private theorem p9_Osend (c : Dev nD) :
    Osend c = tallyAt (recvCell (zup c) 4) () (if Z c < 3 then N else 0) + tallyAt (recvCell (zdn c) 5) () (if 0 < Z c then N else 0)
      + tallyAt (recvCell (fy c) 3) () (if Y c = 1 then N else 0) + tallyAt (recvCell (fy c) 2) () (if Y c = 0 then N else 0)
      + tallyAt (recvCell (fx c) 1) () (if X c = 1 then N else 0) + tallyAt (recvCell (fx c) 0) () (if X c = 0 then N else 0) := by
  unfold Osend
  have hx : (tallyAt (recvCell (fx c) (if X c = 0 then 0 else 1)) () N : CellTallies nD τ sig Unit)
      = tallyAt (recvCell (fx c) 1) () (if X c = 1 then N else 0) + tallyAt (recvCell (fx c) 0) () (if X c = 0 then N else 0) :=
    p9_tally2 (X c = 0) (X c = 1) (p9_x01 c) (fun s => recvCell (fx c) s) 0 1
  have hy : (tallyAt (recvCell (fy c) (if Y c = 0 then 2 else 3)) () N : CellTallies nD τ sig Unit)
      = tallyAt (recvCell (fy c) 3) () (if Y c = 1 then N else 0) + tallyAt (recvCell (fy c) 2) () (if Y c = 0 then N else 0) :=
    p9_tally2 (Y c = 0) (Y c = 1) (p9_y01 c) (fun s => recvCell (fy c) s) 2 3
  rw [hx, hy]
  simp only [add_assoc]

theorem part9_sound (c : Dev nD) : Part9Spec (F := F) m c := by
  intro K W α k Q
  simp only [WP, wp_bind]
  simp only [k0_part9_eq_skeleton]
  unfold k0_part9_skel
  simp only [semWaitWord, Prog.lift, Prog.bind_op, Prog.bind_ret, Prog.pure_eq_ret]
  unfold pre9
  iintro ⟨⟨#Hrec, #Hlev, HO, Hu, ⟨%f, %hf, Hs⟩, Hcr, Hat, Ht0, Ht1, Ht2, Ht3, Ht4, Hrx, Hry, Hrz⟩, Hk⟩

  iapply (wp_store 𝒱₀ (c : Thread nD τ) none Set.univ (m := sM) (r := (Rect.unit (s := S6x48x48) ![3, 0, 0] S1x48x48.size inb_S6x48x48_S1x48x48_3_0_0)) (Mk := Finset.univ) (Finset.subset_univ _)) $$ Hs; iintro Hs
  iapply (wp_load 𝒱₀ (c : Thread nD τ) none Set.univ (m := uM) (Finset.subset_univ _)) $$ Hu; iintro Hu
  iapply (wp_load 𝒱₀ (c : Thread nD τ) none Set.univ (m := sM) (Finset.subset_univ _)) $$ Hs; iintro Hs
  iapply (wp_store 𝒱₀ (c : Thread nD τ) none Set.univ (m := sM) (r := (Rect.unit (s := S6x48x48) ![4, 0, 0] S1x48x48.size inb_S6x48x48_S1x48x48_4_0_0)) (Mk := Finset.univ) (Finset.subset_univ _)) $$ Hs; iintro Hs
  iapply (wp_load 𝒱₀ (c : Thread nD τ) none Set.univ (m := uM) (Finset.subset_univ _)) $$ Hu; iintro Hu
  iapply (wp_load 𝒱₀ (c : Thread nD τ) none Set.univ (m := sM) (Finset.subset_univ _)) $$ Hs; iintro Hs
  iapply (wp_store 𝒱₀ (c : Thread nD τ) none Set.univ (m := sM) (r := (Rect.unit (s := S6x48x48) ![5, 0, 0] S1x48x48.size inb_S6x48x48_S1x48x48_5_0_0)) (Mk := Finset.univ) (Finset.subset_univ _)) $$ Hs; iintro Hs
  ihave Hs6 := (p9_fill m c f hf) $$ Hs
  icases Hs6 with ⟨S0, S1, S2, S3, S4, S5⟩

  iapply (p9w_wait m c K W _ _)
  iframe Hrec Hlev HO Hcr Hat
  iintro ⟨HO, -, -, Px, Py, Pzu, Pzd⟩

  ihave Px2 := (p9_pay_x (F := F) c) $$ Px
  icases Px2 with ⟨Px0, Px1⟩
  ihave Py2 := (p9_pay_y (F := F) c) $$ Py
  icases Py2 with ⟨Py0, Py1⟩
  ihave Rx2 := (p9_tok_x (F := F) c) $$ Hrx
  icases Rx2 with ⟨Rx0, Rx1⟩
  ihave Ry2 := (p9_tok_y (F := F) c) $$ Hry
  icases Ry2 with ⟨Ry0, Ry1⟩
  rw [p9_Osend c]

  iapply (send_if m 1 0 (src := sSlot 1) (dst := hSlot 0) c (fx c) (X c = 0) Iff.rfl (fun hP => by show X (fx c) = 1; rw [X_fx]; omega) (cond5_iff c) (dev5_eq c)
      (hSlot_amount 0 (recvSem 0)) (sendC m c) (fun fd => fd) rfl (fun _ => rfl) (fun fd => land m 0 c (fx c) (fx_fx c) fd) K _ _ _ _)
  iframe Hrec S1 Ht1 Px0 Rx0 HO
  iintro ⟨K1, C1, HO⟩
  iapply (send_if m 0 1 (src := sSlot 0) (dst := hSlot 1) c (fx c) (X c = 1) Iff.rfl (fun hP => by show X (fx c) = 0; rw [X_fx]; omega) (cond6_iff c) (dev6_eq c)
      (hSlot_amount 1 (recvSem 1)) (sendC m c) (fun fd => fd) rfl (fun _ => rfl) (fun fd => land m 1 c (fx c) (fx_fx c) fd) K _ _ _ _)
  iframe Hrec S0 Ht0 Px1 Rx1 HO
  iintro ⟨K0, C0, HO⟩

  iapply (send_if m 3 2 (src := sSlot 3) (dst := hSlot 2) c (fy c) (Y c = 0) Iff.rfl (fun hP => by show Y (fy c) = 1; rw [Y_fy]; omega) (cond7_iff c) (dev7_eq c)
      (hSlot_amount 2 (recvSem 2)) (sendC m c) (fun fd => fd) rfl (fun _ => rfl) (fun fd => land m 2 c (fy c) (fy_fy c) fd) K _ _ _ _)
  iframe Hrec S3 Ht3 Py0 Ry0 HO
  iintro ⟨K3, C3, HO⟩
  iapply (send_if m 2 3 (src := sSlot 2) (dst := hSlot 3) c (fy c) (Y c = 1) Iff.rfl (fun hP => by show Y (fy c) = 0; rw [Y_fy]; omega) (cond8_iff c) (dev8_eq c)
      (hSlot_amount 3 (recvSem 3)) (sendC m c) (fun fd => fd) rfl (fun _ => rfl) (fun fd => land m 3 c (fy c) (fy_fy c) fd) K _ _ _ _)
  iframe Hrec S2 Ht2 Py1 Ry1 HO
  iintro ⟨K2, C2, HO⟩

  iapply (send_if m 4 5 (src := sSlot 4) (dst := hSlot 5) c (zdn c) (0 < Z c) Iff.rfl (fun hP => by show Z (zdn c) < 3; rw [Z_zdn c hP]; have := Z_lt c; omega) (cond9_iff c) (dev9_eq c)
      (hSlot_amount 5 (recvSem 5)) (sendC m c) (fun fd => fd) rfl (fun _ => rfl) (fun fd => land m 5 c (zdn c) (zup_zdn c) fd) K _ _ _ _)
  iframe Hrec S4 Ht4 Pzd Hrz HO
  iintro ⟨K4, C4, HO⟩

  unfold WP
  rw [wp_ret]; imodintro
  iapply Hk
  unfold post9
  isplitl [HO]; · iexists _; iexact HO
  iframe Hu K0 K1 K2 K3 K4 S5 C0 C1 C2 C3 C4 Pzu

end Cert.KernelIdeal.Halo

end
-- ==== Proof.BodyP10.lean ====
import proofs.«900536_g7700000000000537_dist_halo3d_v7x_xyz2x2x4_s48_bf16_1_alg».proof.Proof.BodyP9C

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem p10_hz3 : (![0, 0, 0] : Fin 3 → Nat) = fun _ => 0 := funext fun a => by fin_cases a <;> rfl

private theorem p10_read_u (f : (cc0_stg0_0 : Ref sig .tc).ty.Contents (Elt F)) :
    (uM : Memref sig .tc .vmem S48x48x48 .f32).view.readAt (Elt F)
      (Rect.unit (s := S48x48x48) ![0, 0, 0] S48x48x48.size inb_S48x48x48_S48x48x48_0_0_0).toLoadRect f = f :=
  Memref.readAt_unit_zero (Elt F) cc0_stg0_0 p10_hz3 _ f

theorem part10_sound (c : Dev nD) : Part10Spec (F := F) m c := by
  intro K W α k Q
  simp only [WP, wp_bind]
  simp only [k0_part10_eq_skeleton]; unfold k0_part10_skel
  unfold pre10 post10
  simp only [Prog.lift, Prog.bind_op, Prog.bind_ret, Prog.pure_eq_ret]
  rw [← zero_add (tallyAt (recvCell (zup c) 4) () (if Z c < 3 then N else 0))]
  iintro ⟨⟨#Hrec, HO, Hn, Hs5, Htok, Htr, Hu⟩, Hk⟩
  iapply (send_if m 5 4 (src := sSlot 5) (dst := hSlot 4) c (zup c) (Z c < 3) Iff.rfl (fun h => recvAct_zup c h) (cond10_iff c) (dev10_eq c)
      (hSlot_amount 4 (recvSem 4)) (sendC m c) (fun fd => fd) rfl (fun _ => rfl) (fun fd => land m 4 c (zup c) (zdn_zup c) fd) K W 0 _ _)
  iframe Hrec Hs5 Htok Hn Htr HO
  iintro ⟨Hkp, HcS, HO⟩
  iapply (wp_load 𝒱₀ (c : Thread nD τ) none Set.univ (m := uM) (Finset.subset_univ _)) $$ Hu; iintro Hu
  rw [p10_read_u, wp_ret]; imodintro
  iapply Hk
  iframe HO Hkp HcS Hu

end Cert.KernelIdeal.Halo

end
-- ==== Proof.BodyP11.lean ====
import proofs.«900536_g7700000000000537_dist_halo3d_v7x_xyz2x2x4_s48_bf16_1_alg».proof.Proof.BodyInv

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p11_write_whole (g w : OC (F := F)) :
    (oM.access (Rect.unit (s := S48x48x48) ![0, 0, 0] S48x48x48.size inb_S48x48x48_S48x48x48_0_0_0)).write (Elt F) g w Finset.univ = w :=
  Memref.write_access_unit_zero_univ (Elt F) cc0_stg1_0 (by funext a; fin_cases a <;> rfl) _ g w

theorem p11_records_recv (K : Dev nD × Fin 13 → ℕ) (c : Dev nD) (s : Fin 6) :
    records m K ⊢ cellInv ER (haloRd m) (K (c, ⟨7 + s.val, by have := s.isLt; omega⟩)) (recvCell c s) := by
  unfold records
  refine sep_elim_left.trans ?_
  have h := bigSep_elim (M := 𝕄) (Finset.mem_univ ((c, ⟨7 + s.val, by have := s.isLt; omega⟩) : Dev nD × Fin 13))
    (Φ := fun ck : Dev nD × Fin 13 => cellInv ER (haloRd m) (K ck) (kcell ck))
  simp only [kcell_recv] at h
  exact h

theorem p11_rest (c : Dev nD) (s : Fin 6) (h : recvAct c s) :
    bigSep ((haloRd (F := F) m).duties (recvCell c s) 0 \ ∅) (fun d => (haloRd (F := F) m).payload (recvCell c s) 0 d)
      ⊢ (((c : Thread nD τ).loc cc0_scratch0) ↦[hSet s]{fullShare} haloC m c) :=
  (rest_recv m c s h) ▸ .rfl

theorem p11_halo_row0 : hM.view.setOn ((Rect.unit (s := S6x48x48) ![0, 0, 0] S1x48x48.size inb_S6x48x48_S1x48x48_0_0_0).toLoadRect).set ⊆ hSet 0 := by
  have h : hSet 0 = (hM.view.slice (Rect.unit (s := S6x48x48) ![0, 0, 0] S1x48x48.size inb_S6x48x48_S1x48x48_0_0_0)).set :=
    View.set_reshape (v := hM.view.slice (Rect.unit (s := S6x48x48) ![0, 0, 0] S1x48x48.size inb_S6x48x48_S1x48x48_0_0_0)) squeezes_S1x48x48_S48x48.numel_eq
  rw [h, View.set_slice]
  exact Finset.Subset.refl _
theorem p11_halo_row1 : hM.view.setOn ((Rect.unit (s := S6x48x48) ![1, 0, 0] S1x48x48.size inb_S6x48x48_S1x48x48_1_0_0).toLoadRect).set ⊆ hSet 1 := by
  have h : hSet 1 = (hM.view.slice (Rect.unit (s := S6x48x48) ![1, 0, 0] S1x48x48.size inb_S6x48x48_S1x48x48_1_0_0)).set :=
    View.set_reshape (v := hM.view.slice (Rect.unit (s := S6x48x48) ![1, 0, 0] S1x48x48.size inb_S6x48x48_S1x48x48_1_0_0)) squeezes_S1x48x48_S48x48.numel_eq
  rw [h, View.set_slice]
  exact Finset.Subset.refl _
theorem p11_halo_row2 : hM.view.setOn ((Rect.unit (s := S6x48x48) ![2, 0, 0] S1x48x48.size inb_S6x48x48_S1x48x48_2_0_0).toLoadRect).set ⊆ hSet 2 := by
  have h : hSet 2 = (hM.view.slice (Rect.unit (s := S6x48x48) ![2, 0, 0] S1x48x48.size inb_S6x48x48_S1x48x48_2_0_0)).set :=
    View.set_reshape (v := hM.view.slice (Rect.unit (s := S6x48x48) ![2, 0, 0] S1x48x48.size inb_S6x48x48_S1x48x48_2_0_0)) squeezes_S1x48x48_S48x48.numel_eq
  rw [h, View.set_slice]
  exact Finset.Subset.refl _

theorem p11_part1 (c : Dev nD) (h : X c = 1) (K : Dev nD × Fin 13 → ℕ) (W : Waits sig Unit) (o : OC (F := F))
    (Φ : (Σ' (v206 : FVec F S48x48 .bf16) (v227 : IVec S48x48 1), FVec F S48x48 .bf16) → sProp 𝕄) :
    iprop(records m K ∗ owes (c : Thread nD τ) 0 W ∗ pt1 c o ∗ cred (tallyAt (recvCell c 0) () N) ∗ atPos ER (recvCell c 0) 0 ∅ 0
      ∗ ((owes (c : Thread nD τ) 0 (insert (SemLoc.dma (recvSem 0), ()) W) ∗ pt1 c o ∗ hPts c 0 (haloC m c) ∗ atPos ER (recvCell c 0) 1 ∅ 0)
          -∗ Φ ⟨k0_pay4 (oM.view.readAt (Elt F) (Rect.unit (s := S48x48x48) ![0, 0, 0] S1x48x48.size inb_S48x48x48_S1x48x48_0_0_0).toLoadRect o),
                k0_pay5 (f92 c) (f93 c) (f94 c) (f95 c), k0_pay6 (hRow0 m c)⟩))
    ⊢ WP c (k0_part1 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)) Φ := by
  unfold hRow0 hPts
  iintro ⟨#Hrec, HO, Ho, Hcr, Hat, Hk⟩
  ihave #Hci := (p11_records_recv m K c 0) $$ Hrec
  rw [k0_part1_eq_skeleton]; unfold k0_part1_skel
  dsimp only [WP]
  have e : ((SemArray.slice cc0_scratch3 (Rect.unit (s := S6) ![0] ![1] inb_S6_S1_0)).squeeze S_ squeezes_S1_S_).sem = recvSem 0 := recvSem_0
  rw [e]
  iapply (wp_wait_rest_token 𝒱₀ ER (haloRd m) (c : Thread nD τ) none (κ := K (c, ⟨7 + (0 : Fin 6).val, by decide⟩)) (sm := .dma (recvSem 0)) (k' := (hSlot 0).view.dmaCredit)
      (wpE_waitDma2_eq 𝒱₀ (c : Thread nD τ) none Set.univ (dst := hSlot 0)) (Set.mem_univ _) () (O := 0) (W := W) (R := 0) (m := 0) (T := ∅)
      (by rw [Nat.zero_add, expect_recv m c 0 h] <;> rfl)) $$ [Hcr HO Hat]
  · isplitr; · iexact Hci
    iframe Hcr HO
    isplitr; · rw [MayWait_zero]; iempintro
    iexact Hat
  iintro ⟨HO, Hat, -, Hpay⟩
  ihave Hpay := (p11_rest m c 0 h) $$ Hpay
  iapply (wp_load 𝒱₀ (c : Thread nD τ) none Set.univ (m := oM) (S := Finset.univ) (Finset.subset_univ _)) $$ Ho; iintro Ho
  iapply (wp_load 𝒱₀ (c : Thread nD τ) none Set.univ (m := hM) p11_halo_row0) $$ Hpay; iintro Hpay
  iapply (le_wp_ret _ _ _)
  iapply Hk
  iframe HO Ho Hpay Hat

theorem p11_part2 (c : Dev nD) (h : X c = 0) (K : Dev nD × Fin 13 → ℕ) (W : Waits sig Unit) (o : OC (F := F))
    (Φ : (Σ' (v206 : FVec F S48x48 .bf16) (v227 : IVec S48x48 1), FVec F S48x48 .bf16) → sProp 𝕄) :
    iprop(records m K ∗ owes (c : Thread nD τ) 0 W ∗ pt1 c o ∗ cred (tallyAt (recvCell c 1) () N) ∗ atPos ER (recvCell c 1) 0 ∅ 0
      ∗ ((owes (c : Thread nD τ) 0 (insert (SemLoc.dma (recvSem 1), ()) W) ∗ pt1 c o ∗ hPts c 1 (haloC m c) ∗ atPos ER (recvCell c 1) 1 ∅ 0)
          -∗ Φ ⟨k0_pay7 (oM.view.readAt (Elt F) (Rect.unit (s := S48x48x48) ![47, 0, 0] S1x48x48.size inb_S48x48x48_S1x48x48_47_0_0).toLoadRect o),
                k0_pay8 (f92 c) (f93 c) (f94 c) (f95 c), k0_pay9 (hRow1 m c)⟩))
    ⊢ WP c (k0_part2 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)) Φ := by
  unfold hRow1 hPts
  iintro ⟨#Hrec, HO, Ho, Hcr, Hat, Hk⟩
  ihave #Hci := (p11_records_recv m K c 1) $$ Hrec
  rw [k0_part2_eq_skeleton]; unfold k0_part2_skel
  dsimp only [WP]
  have e : ((SemArray.slice cc0_scratch3 (Rect.unit (s := S6) ![1] ![1] inb_S6_S1_1)).squeeze S_ squeezes_S1_S_).sem = recvSem 1 := recvSem_1
  rw [e]
  iapply (wp_wait_rest_token 𝒱₀ ER (haloRd m) (c : Thread nD τ) none (κ := K (c, ⟨7 + (1 : Fin 6).val, by decide⟩)) (sm := .dma (recvSem 1)) (k' := (hSlot 1).view.dmaCredit)
      (wpE_waitDma2_eq 𝒱₀ (c : Thread nD τ) none Set.univ (dst := hSlot 1)) (Set.mem_univ _) () (O := 0) (W := W) (R := 0) (m := 0) (T := ∅)
      (by rw [Nat.zero_add, expect_recv m c 1 h] <;> rfl)) $$ [Hcr HO Hat]
  · isplitr; · iexact Hci
    iframe Hcr HO
    isplitr; · rw [MayWait_zero]; iempintro
    iexact Hat
  iintro ⟨HO, Hat, -, Hpay⟩
  ihave Hpay := (p11_rest m c 1 h) $$ Hpay
  iapply (wp_load 𝒱₀ (c : Thread nD τ) none Set.univ (m := oM) (S := Finset.univ) (Finset.subset_univ _)) $$ Ho; iintro Ho
  iapply (wp_load 𝒱₀ (c : Thread nD τ) none Set.univ (m := hM) p11_halo_row1) $$ Hpay; iintro Hpay
  iapply (le_wp_ret _ _ _)
  iapply Hk
  iframe HO Ho Hpay Hat

theorem p11_part3 (c : Dev nD) (h : Y c = 1) (K : Dev nD × Fin 13 → ℕ) (W : Waits sig Unit) (o : OC (F := F))
    (Φ : (Σ' (v206 : FVec F S48x48 .bf16) (v227 : IVec S48x48 1), FVec F S48x48 .bf16) → sProp 𝕄) :
    iprop(records m K ∗ owes (c : Thread nD τ) 0 W ∗ pt1 c o ∗ cred (tallyAt (recvCell c 2) () N) ∗ atPos ER (recvCell c 2) 0 ∅ 0
      ∗ ((owes (c : Thread nD τ) 0 (insert (SemLoc.dma (recvSem 2), ()) W) ∗ pt1 c o ∗ hPts c 2 (haloC m c) ∗ atPos ER (recvCell c 2) 1 ∅ 0)
          -∗ Φ ⟨k0_pay10 (oM.view.readAt (Elt F) (Rect.unit (s := S48x48x48) ![0, 0, 0] S48x1x48.size inb_S48x48x48_S48x1x48_0_0_0).toLoadRect o),
                k0_pay11 (f90 c) (f91 c) (f94 c) (f95 c), k0_pay12 (hRow2 m c)⟩))
    ⊢ WP c (k0_part3 (F := F) uM (Memref.isWhole_whole _) oM (Memref.isWhole_whole _) hM (Memref.isWhole_whole _) sM (Memref.isWhole_whole _) cc0_scratch2 cc0_scratch3 (xw c) (yw c) (zw c) (f90 c) (f91 c) (f94 c) (f95 c)) Φ := by
  unfold hRow2 hPts
  iintro ⟨#Hrec, HO, Ho, Hcr, Hat, Hk⟩
  ihave #Hci := (p11_records_recv m K c 2) $$ Hrec
  rw [k0_part3_eq_skeleton]; unfold k0_part3_skel
  dsimp only [WP]
  have e : ((SemArray.slice cc0_scratch3 (Rect.unit (s := S6) ![2] ![1] inb_S6_S1_2)).squeeze S_ squeezes_S1_S_).sem = recvSem 2 := recvSem_2
  rw [e]
  iapply (wp_wait_rest_token 𝒱₀ ER (haloRd m) (c : Thread nD τ) none (κ := K (c, ⟨7 + (2 : Fin 6).val, by decide⟩)) (sm := .dma (recvSem 2)) (k' := (hSlot 2).view.dmaCredit)
      (wpE_waitDma2_eq 𝒱₀ (c : Thread nD τ) none Set.univ (dst := hSlot 2)) (Set.mem_univ _) () (O := 0) (W := W) (R := 0) (m := 0) (T := ∅)
      (by rw [Nat.zero_add, expect_recv m c 2 h] <;> rfl)) $$ [Hcr HO Hat]
  · isplitr; · iexact Hci
    iframe Hcr HO
    isplitr; · rw [MayWait_zero]; iempintro
    iexact Hat
  iintro ⟨HO, Hat, -, Hpay⟩
  ihave Hpay := (p11_rest m c 2 h) $$ Hpay
  iapply (wp_load 𝒱₀ (c : Thread nD τ) none Set.univ (m := oM) (S := Finset.univ) (Finset.subset_univ _)) $$ Ho; iintro Ho
  iapply (wp_load 𝒱₀ (c : Thread nD τ) none Set.univ (m := hM) p11_halo_row2) $$ Hpay; iintro Hpay
  iapply (le_wp_ret _ _ _)
  iapply Hk
  iframe HO Ho Hpay Hat

theorem p11_pt1_whole (c : Dev nD) (g w : OC (F := F)) :
    pt1 c ((oM.access (Rect.unit (s := S48x48x48) ![0, 0, 0] S48x48x48.size inb_S48x48x48_S48x48x48_0_0_0)).write (Elt F) g w Finset.univ) ⊢ pt1 c w := by
  rw [p11_write_whole]

theorem p11_store0 (c : Dev nD) (g : OC (F := F)) {α : Type} (rest : Prog (TpuEff nD τ sig (Elt F) Λ₀ .tc) α) (Q : α → sProp 𝕄) :
    iprop(pt1 c g ∗ (pt1 c (out0 m c) -∗ WP c rest Q))
      ⊢ WP c (do
          let _ ← Prog.lift (.load oM (Rect.unit (s := S48x48x48) ![0, 0, 0] S48x48x48.size inb_S48x48x48_S48x48x48_0_0_0).toLoadRect (View.loadsAt_vmem h_S48x48x48))
          Prog.lift (.store oM (Rect.unit (s := S48x48x48) ![0, 0, 0] S48x48x48.size inb_S48x48x48_S48x48x48_0_0_0) (out0 m c) Finset.univ (View.stores_vmem h_S48x48x48 ((Memref.isWhole_whole _).storeExact_slice rfl _ packedbf16_S48x48x48_S48x48x48_0_0_0) (fun _ => rfl)) (.inl rfl))
          rest) Q := by
  iintro ⟨Ho, Hk⟩
  dsimp only [WP]
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![0, 0, 0] S48x48x48.size inb_S48x48x48_S48x48x48_0_0_0) (S := Finset.univ) (Finset.subset_univ _)) $$ Ho; iintro Ho
  ihave Ho := (p11_pt1_whole c g (out0 m c)) $$ Ho
  iapply Hk; iexact Ho

theorem p11_face0 (c : Dev nD) (h : X c = 1) (K : Dev nD × Fin 13 → ℕ) (W : Waits sig Unit) (o : OC (F := F)) {α : Type}
    (rest : Prog (TpuEff nD τ sig (Elt F) Λ₀ .tc) α) (Q : α → sProp 𝕄) :
    iprop(records m K ∗ owes (c : Thread nD τ) 0 W ∗ pt1 c o ∗ cred (tallyAt (recvCell c 0) () N) ∗ atPos ER (recvCell c 0) 0 ∅ 0
      ∗ ((owes (c : Thread nD τ) 0 (insert (SemLoc.dma (recvSem 0), ()) W) ∗ pt1 c (upd0 m c o) ∗ hPts c 0 (haloC m c) ∗ atPos ER (recvCell c 0) 1 ∅ 0)
          -∗ WP c rest Q))
    ⊢ WP c (do
        let x ← k0_part1 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)
        let _ ← Prog.lift (.load oM (Rect.unit (s := S48x48x48) ![0, 0, 0] S1x48x48.size inb_S48x48x48_S1x48x48_0_0_0).toLoadRect (View.loadsAt_vmem h_S1x48x48))
        Prog.lift (.store oM (Rect.unit (s := S48x48x48) ![0, 0, 0] S1x48x48.size inb_S48x48x48_S1x48x48_0_0_0) (k0_pay31 x.1 x.2.1 x.2.2) Finset.univ (View.stores_vmem h_S1x48x48 ((Memref.isWhole_whole _).storeExact_slice rfl _ packedbf16_S48x48x48_S1x48x48_0_0_0) (fun _ => rfl)) (.inl rfl))
        rest) Q := by
  iintro ⟨#Hrec, HO, Ho, Hcr, Hat, Hk⟩
  dsimp only [WP]
  rw [wp_bind]
  iapply (p11_part1 m c h K W o _)
  iframe Hrec HO Ho Hcr Hat
  iintro ⟨HO, Ho, Hh, Hat⟩
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![0, 0, 0] S1x48x48.size inb_S48x48x48_S1x48x48_0_0_0) (S := Finset.univ) (Finset.subset_univ _)) $$ Ho; iintro Ho
  iapply Hk
  isplitl [HO]; · iexact HO
  isplitl [Ho]; · iexact Ho
  isplitl [Hh]; · iexact Hh
  iexact Hat

theorem p11_face1 (c : Dev nD) (h : X c = 0) (K : Dev nD × Fin 13 → ℕ) (W : Waits sig Unit) (o : OC (F := F)) {α : Type}
    (rest : Prog (TpuEff nD τ sig (Elt F) Λ₀ .tc) α) (Q : α → sProp 𝕄) :
    iprop(records m K ∗ owes (c : Thread nD τ) 0 W ∗ pt1 c o ∗ cred (tallyAt (recvCell c 1) () N) ∗ atPos ER (recvCell c 1) 0 ∅ 0
      ∗ ((owes (c : Thread nD τ) 0 (insert (SemLoc.dma (recvSem 1), ()) W) ∗ pt1 c (upd1 m c o) ∗ hPts c 1 (haloC m c) ∗ atPos ER (recvCell c 1) 1 ∅ 0)
          -∗ WP c rest Q))
    ⊢ WP c (do
        let x ← k0_part2 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)
        let _ ← Prog.lift (.load oM (Rect.unit (s := S48x48x48) ![47, 0, 0] S1x48x48.size inb_S48x48x48_S1x48x48_47_0_0).toLoadRect (View.loadsAt_vmem h_S1x48x48))
        Prog.lift (.store oM (Rect.unit (s := S48x48x48) ![47, 0, 0] S1x48x48.size inb_S48x48x48_S1x48x48_47_0_0) (k0_pay32 x.1 x.2.1 x.2.2) Finset.univ (View.stores_vmem h_S1x48x48 ((Memref.isWhole_whole _).storeExact_slice rfl _ packedbf16_S48x48x48_S1x48x48_47_0_0) (fun _ => rfl)) (.inl rfl))
        rest) Q := by
  iintro ⟨#Hrec, HO, Ho, Hcr, Hat, Hk⟩
  dsimp only [WP]
  rw [wp_bind]
  iapply (p11_part2 m c h K W o _)
  iframe Hrec HO Ho Hcr Hat
  iintro ⟨HO, Ho, Hh, Hat⟩
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![47, 0, 0] S1x48x48.size inb_S48x48x48_S1x48x48_47_0_0) (S := Finset.univ) (Finset.subset_univ _)) $$ Ho; iintro Ho
  iapply Hk
  isplitl [HO]; · iexact HO
  isplitl [Ho]; · iexact Ho
  isplitl [Hh]; · iexact Hh
  iexact Hat

theorem p11_face2 (c : Dev nD) (h : Y c = 1) (K : Dev nD × Fin 13 → ℕ) (W : Waits sig Unit) (o : OC (F := F)) {α : Type}
    (rest : Prog (TpuEff nD τ sig (Elt F) Λ₀ .tc) α) (Q : α → sProp 𝕄) :
    iprop(records m K ∗ owes (c : Thread nD τ) 0 W ∗ pt1 c o ∗ cred (tallyAt (recvCell c 2) () N) ∗ atPos ER (recvCell c 2) 0 ∅ 0
      ∗ ((owes (c : Thread nD τ) 0 (insert (SemLoc.dma (recvSem 2), ()) W) ∗ pt1 c (upd2 m c o) ∗ hPts c 2 (haloC m c) ∗ atPos ER (recvCell c 2) 1 ∅ 0)
          -∗ WP c rest Q))
    ⊢ WP c (do
        let x ← k0_part3 (F := F) uM (Memref.isWhole_whole _) oM (Memref.isWhole_whole _) hM (Memref.isWhole_whole _) sM (Memref.isWhole_whole _) cc0_scratch2 cc0_scratch3 (xw c) (yw c) (zw c) (f90 c) (f91 c) (f94 c) (f95 c)
        let _ ← Prog.lift (.load oM (Rect.unit (s := S48x48x48) ![0, 0, 0] S48x1x48.size inb_S48x48x48_S48x1x48_0_0_0).toLoadRect (View.loadsAt_vmem h_S48x1x48))
        storeSubelements oM (Rect.unit (s := S48x48x48) ![0, 0, 0] S48x2x48.size inb_S48x48x48_S48x2x48_0_0_0) (fun old => updateSlice old (k0_pay33 x.1 x.2.1 x.2.2) ![0, 0, 0] slices_S48x2x48_S48x1x48_0_0_0) (View.loadsAt_vmem h_S48x2x48) (View.stores_vmem h_S48x2x48 ((Memref.isWhole_whole _).storeExact_slice rfl _ packedbf16_S48x48x48_S48x2x48_0_0_0) (fun _ => rfl))
        rest) Q := by
  iintro ⟨#Hrec, HO, Ho, Hcr, Hat, Hk⟩
  dsimp only [WP]
  rw [wp_bind]
  iapply (p11_part3 m c h K W o _)
  iframe Hrec HO Ho Hcr Hat
  iintro ⟨HO, Ho, Hh, Hat⟩
  iapply (wp_load 𝒱₀ (c : Thread nD τ) none Set.univ (m := oM) (S := Finset.univ) (Finset.subset_univ _)) $$ Ho; iintro Ho
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![0, 0, 0] S48x2x48.size inb_S48x48x48_S48x2x48_0_0_0) (S := Finset.univ) (Finset.subset_univ _)) $$ Ho; iintro Ho
  iapply Hk
  isplitl [HO]; · iexact HO
  isplitl [Ho]; · iexact Ho
  isplitl [Hh]; · iexact Hh
  iexact Hat

theorem part11_sound (c : Dev nD) : Part11Spec (F := F) m c := by
  intro K W α k Q
  simp only [WP, wp_bind]
  simp only [k0_part11_eq_skeleton]
  unfold k0_part11_skel
  have hX := X_lt c
  have hY := Y_lt c
  by_cases hX1 : X c = 1 <;> by_cases hY1 : Y c = 1
  ·
    have hX0 : ¬ X c = 0 := by omega
    have h11 := (xw_eq1_iff c).mpr hX1
    have h12 : ¬ _ := (xw_eq0_iff c).not.mpr hX0
    have r0 : recvAct c 0 := hX1
    have r1 : ¬ recvAct c 1 := hX0
    have h13 := (yw_eq1_iff c).mpr hY1
    have r2 : recvAct c 2 := hY1
    have e3 : out3 m c = upd2 m c (upd0 m c (out0 m c)) := by
      unfold out3 out2 out1; rw [if_pos hY1, if_neg hX0, if_pos hX1]
    simp only [h11, h12, h13, ↓reduceDIte]
    simp only [pre11, post11, rCred, rPos0, hBack, rPos1, condP, r0, r1, r2, e3, ↓reduceIte]
    iintro ⟨⟨#Hrec, HO, ⟨%g, Ho⟩, Hc0, -, Hc2, Hp0, Hp1, Hp2⟩, Hk⟩
    iapply (p11_store0 m c g _ _)
    isplitl [Ho]; · iexact Ho
    iintro Ho
    iapply (p11_face0 m c hX1 K W _ _ _)
    iframe Hrec HO Ho Hc0 Hp0
    iintro ⟨HO, Ho, Hh0, Hp0⟩
    iapply (p11_face2 m c hY1 K _ _ _ _)
    iframe Hrec HO Ho Hc2 Hp2
    iintro ⟨HO, Ho, Hh2, Hp2⟩
    iapply (le_wp_ret _ _ _)
    iapply Hk
    isplitl [HO]; · iexists _; iexact HO
    iframe Ho Hh0
    isplitr; · iempintro
    iframe Hh2 Hp0 Hp1 Hp2
  ·
    have hX0 : ¬ X c = 0 := by omega
    have h11 := (xw_eq1_iff c).mpr hX1
    have h12 : ¬ _ := (xw_eq0_iff c).not.mpr hX0
    have r0 : recvAct c 0 := hX1
    have r1 : ¬ recvAct c 1 := hX0
    have h13 : ¬ _ := (yw_eq1_iff c).not.mpr hY1
    have r2 : ¬ recvAct c 2 := hY1
    have e3 : out3 m c = upd0 m c (out0 m c) := by
      unfold out3 out2 out1; rw [if_neg hY1, if_neg hX0, if_pos hX1]
    simp only [h11, h12, h13, ↓reduceDIte]
    simp only [pre11, post11, rCred, rPos0, hBack, rPos1, condP, r0, r1, r2, e3, ↓reduceIte]
    iintro ⟨⟨#Hrec, HO, ⟨%g, Ho⟩, Hc0, -, -, Hp0, Hp1, Hp2⟩, Hk⟩
    iapply (p11_store0 m c g _ _)
    isplitl [Ho]; · iexact Ho
    iintro Ho
    iapply (p11_face0 m c hX1 K W _ _ _)
    iframe Hrec HO Ho Hc0 Hp0
    iintro ⟨HO, Ho, Hh0, Hp0⟩
    iapply (le_wp_ret _ _ _)
    iapply Hk
    isplitl [HO]; · iexists _; iexact HO
    iframe Ho Hh0
    isplitr; · iempintro
    isplitr; · iempintro
    iframe Hp0 Hp1 Hp2
  ·
    have hX0 : X c = 0 := by omega
    have h11 : ¬ _ := (xw_eq1_iff c).not.mpr hX1
    have h12 := (xw_eq0_iff c).mpr hX0
    have r0 : ¬ recvAct c 0 := hX1
    have r1 : recvAct c 1 := hX0
    have h13 := (yw_eq1_iff c).mpr hY1
    have r2 : recvAct c 2 := hY1
    have e3 : out3 m c = upd2 m c (upd1 m c (out0 m c)) := by
      unfold out3 out2 out1; rw [if_pos hY1, if_pos hX0, if_neg hX1]
    simp only [h11, h12, h13, ↓reduceDIte]
    simp only [pre11, post11, rCred, rPos0, hBack, rPos1, condP, r0, r1, r2, e3, ↓reduceIte]
    iintro ⟨⟨#Hrec, HO, ⟨%g, Ho⟩, -, Hc1, Hc2, Hp0, Hp1, Hp2⟩, Hk⟩
    iapply (p11_store0 m c g _ _)
    isplitl [Ho]; · iexact Ho
    iintro Ho
    iapply (p11_face1 m c hX0 K W _ _ _)
    iframe Hrec HO Ho Hc1 Hp1
    iintro ⟨HO, Ho, Hh1, Hp1⟩
    iapply (p11_face2 m c hY1 K _ _ _ _)
    iframe Hrec HO Ho Hc2 Hp2
    iintro ⟨HO, Ho, Hh2, Hp2⟩
    iapply (le_wp_ret _ _ _)
    iapply Hk
    isplitl [HO]; · iexists _; iexact HO
    isplitl [Ho]; · iexact Ho
    isplitr; · iempintro
    iframe Hh1 Hh2 Hp0 Hp1 Hp2
  ·
    have hX0 : X c = 0 := by omega
    have h11 : ¬ _ := (xw_eq1_iff c).not.mpr hX1
    have h12 := (xw_eq0_iff c).mpr hX0
    have r0 : ¬ recvAct c 0 := hX1
    have r1 : recvAct c 1 := hX0
    have h13 : ¬ _ := (yw_eq1_iff c).not.mpr hY1
    have r2 : ¬ recvAct c 2 := hY1
    have e3 : out3 m c = upd1 m c (out0 m c) := by
      unfold out3 out2 out1; rw [if_neg hY1, if_pos hX0, if_neg hX1]
    simp only [h11, h12, h13, ↓reduceDIte]
    simp only [pre11, post11, rCred, rPos0, hBack, rPos1, condP, r0, r1, r2, e3, ↓reduceIte]
    iintro ⟨⟨#Hrec, HO, ⟨%g, Ho⟩, -, Hc1, -, Hp0, Hp1, Hp2⟩, Hk⟩
    iapply (p11_store0 m c g _ _)
    isplitl [Ho]; · iexact Ho
    iintro Ho
    iapply (p11_face1 m c hX0 K W _ _ _)
    iframe Hrec HO Ho Hc1 Hp1
    iintro ⟨HO, Ho, Hh1, Hp1⟩
    iapply (le_wp_ret _ _ _)
    iapply Hk
    isplitl [HO]; · iexists _; iexact HO
    isplitl [Ho]; · iexact Ho
    isplitr; · iempintro
    isplitl [Hh1]; · iexact Hh1
    isplitr; · iempintro
    iframe Hp0 Hp1 Hp2

end Cert.KernelIdeal.Halo

end
-- ==== Proof.BodyRecv.lean ====
import proofs.«900536_g7700000000000537_dist_halo3d_v7x_xyz2x2x4_s48_bf16_1_alg».proof.Proof.BodyInv

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem inv_at (K : Dev nD × Fin 13 → ℕ) (ck : Dev nD × Fin 13) :
    (bigSep Finset.univ fun ck : Dev nD × Fin 13 => (cellInv ER (haloRd m) (K ck) (kcell ck) : sProp 𝕄))
      ⊢ cellInv ER (haloRd m) (K ck) (kcell ck) :=
  bigSep_elim (Finset.mem_univ ck)

private theorem inv_recv (K : Dev nD × Fin 13 → ℕ) (c : Dev nD) (s : Fin 6) :
    (bigSep Finset.univ fun ck : Dev nD × Fin 13 => (cellInv ER (haloRd m) (K ck) (kcell ck) : sProp 𝕄))
      ⊢ cellInv ER (haloRd m) (K (c, ⟨7 + s.val, by have := s.isLt; omega⟩)) (recvCell c s) := by
  have h := inv_at m K (c, ⟨7 + s.val, by have := s.isLt; omega⟩)
  rwa [kcell_recv] at h

private theorem inv_send (K : Dev nD × Fin 13 → ℕ) (c : Dev nD) (s : Fin 6) :
    (bigSep Finset.univ fun ck : Dev nD × Fin 13 => (cellInv ER (haloRd m) (K ck) (kcell ck) : sProp 𝕄))
      ⊢ cellInv ER (haloRd m) (K (c, ⟨1 + s.val, by have := s.isLt; omega⟩)) (sendCell c s) := by
  have h := inv_at m K (c, ⟨1 + s.val, by have := s.isLt; omega⟩)
  rwa [kcell_send] at h

theorem recv_wait (c : Dev nD) (s : Fin 6) (h : recvAct c s) (K : Dev nD × Fin 13 → ℕ) (W : Waits sig Unit) {α : Type}
    {sem : DmaSem sig} (hsem : sem = recvSem s) {src dst : Memref sig .tc .vmem S48x48 .bf16}
    {hsrc : src.view.WordExact} {hdst : dst.view.WordExact}
    (hcr : dst.view.dmaCredit = N) (k : PUnit → Prog (TpuEff nD τ sig (Elt F) Λ₀ .tc) α) (Q : α → sProp 𝕄) :
    iprop(records m K ∗ owes (c : Thread nD τ) 0 W ∗ cred (tallyAt (recvCell c s) () N) ∗ atPos ER (recvCell c s) 0 ∅ 0
        ∗ ((owes (c : Thread nD τ) 0 (insert (SemLoc.dma (recvSem s), ()) W) ∗ atPos ER (recvCell c s) 1 ∅ 0
            ∗ hPts c s (haloC m c)) -∗ WP c (k ⟨⟩) Q))
      ⊢ WP c (.op (.waitDma2 sem src dst hsrc hdst) k) Q := by
  subst hsem
  unfold records
  iintro ⟨⟨HI, -⟩, HL, Hc, Hat, Hk⟩
  ihave Hκ := (inv_recv m K c s) $$ HI
  iapply (Rounds.wp_wait_rest_token 𝒱₀ ER (haloRd m) (c : Thread nD τ) none (κ := K (c, ⟨7 + s.val, by have := s.isLt; omega⟩))
      (wpE_waitDma2_eq 𝒱₀ (c : Thread nD τ) none Set.univ) (Set.mem_univ _) () (O := 0) (W := W) (R := 0) (m := 0) (T := ∅)
      (by rw [Nat.zero_add, hcr, expect_recv m c s h])) $$ [Hκ Hc HL Hat]
  · isplitl [Hκ]; · iexact Hκ
    isplitl [Hc]; · rw [hcr]; iexact Hc
    isplitl [HL]; · iexact HL
    isplitr; · rw [MayWait_zero]; iempintro
    iexact Hat
  iintro ⟨HL, Hat, -, Hpay⟩
  ihave Hp := (Entails.of_eq ((rest_recv m c s h).trans (by unfold recvPay; rfl))) $$ Hpay
  iapply Hk
  iframe HL Hat Hp

theorem send_wait (c : Dev nD) (s : Fin 6) (h : sendAct c s) (K : Dev nD × Fin 13 → ℕ) (W : Waits sig Unit) {α : Type}
    {sem : DmaSem sig} (hsem : sem = sendSem s) {src dst : Memref sig .tc .vmem S48x48 .bf16}
    {hsrc : src.view.WordExact} {hdst : dst.view.WordExact}
    (hcr : dst.view.dmaCredit = N) (k : PUnit → Prog (TpuEff nD τ sig (Elt F) Λ₀ .tc) α) (Q : α → sProp 𝕄) :
    iprop(records m K ∗ owes (c : Thread nD τ) 0 W ∗ cred (tallyAt (sendCell c s) () N) ∗ atPos ER (sendCell c s) 0 ∅ 0
        ∗ ((owes (c : Thread nD τ) 0 (insert (SemLoc.dma (sendSem s), ()) W) ∗ atPos ER (sendCell c s) 1 ∅ 0
            ∗ sPts c s (sendC m c)) -∗ WP c (k ⟨⟩) Q))
      ⊢ WP c (.op (.waitDma2 sem src dst hsrc hdst) k) Q := by
  subst hsem
  unfold records
  iintro ⟨⟨HI, -⟩, HL, Hc, Hat, Hk⟩
  ihave Hκ := (inv_send m K c s) $$ HI
  iapply (Rounds.wp_wait_rest_token 𝒱₀ ER (haloRd m) (c : Thread nD τ) none (κ := K (c, ⟨1 + s.val, by have := s.isLt; omega⟩))
      (wpE_waitDma2_eq 𝒱₀ (c : Thread nD τ) none Set.univ) (Set.mem_univ _) () (O := 0) (W := W) (R := 0) (m := 0) (T := ∅)
      (by rw [Nat.zero_add, hcr, expect_send m c s h])) $$ [Hκ Hc HL Hat]
  · isplitl [Hκ]; · iexact Hκ
    isplitl [Hc]; · rw [hcr]; iexact Hc
    isplitl [HL]; · iexact HL
    isplitr; · rw [MayWait_zero]; iempintro
    iexact Hat
  iintro ⟨HL, Hat, -, Hpay⟩
  ihave Hp := (Entails.of_eq ((rest_send m c s h).trans (by unfold sendPay; rfl))) $$ Hpay
  iapply Hk
  iframe HL Hat Hp

theorem halo_load (c : Dev nD) (s : Fin 6) {r : LoadRect S6x48x48}
    {hl : (hM : Memref sig .tc .vmem S6x48x48 .bf16).view.LoadsAt r}
    (hr : (hM : Memref sig .tc .vmem S6x48x48 .bf16).view.setOn r.set ⊆ hSet s)
    (f : Buf (Elt F) ((c : Thread nD τ).loc cc0_scratch0)) {α : Type}
    (k : (r.shape.Idx → Elt F .bf16) → Prog (TpuEff nD τ sig (Elt F) Λ₀ .tc) α) (Q : α → sProp 𝕄) :
    iprop(hPts c s f ∗ (hPts c s f -∗ WP c (k ((hM : Memref sig .tc .vmem S6x48x48 .bf16).view.readAt (Elt F) r f)) Q))
      ⊢ WP c (.op (.load hM r hl) k) Q := by
  unfold hPts
  iintro ⟨H, Hk⟩
  iapply (wp_load 𝒱₀ (c : Thread nD τ) none Set.univ (m := (hM : Memref sig .tc .vmem S6x48x48 .bf16)) hr) $$ H
  iexact Hk

theorem hSet_3 : hSet 3 = (hM : Memref sig .tc .vmem S6x48x48 .bf16).view.setOn
    (Rect.unit (s := S6x48x48) ![3, 0, 0] S1x48x48.size inb_S6x48x48_S1x48x48_3_0_0).toLoadRect.set := by
  show (hSlot 3).view.set = _
  exact (View.set_reshape _ _).trans (View.set_slice _ _)
theorem halo_row_sub3 : (hM : Memref sig .tc .vmem S6x48x48 .bf16).view.setOn
    (Rect.unit (s := S6x48x48) ![3, 0, 0] S1x48x48.size inb_S6x48x48_S1x48x48_3_0_0).toLoadRect.set ⊆ hSet 3 := by
  rw [hSet_3]
theorem hSet_4 : hSet 4 = (hM : Memref sig .tc .vmem S6x48x48 .bf16).view.setOn
    (Rect.unit (s := S6x48x48) ![4, 0, 0] S1x48x48.size inb_S6x48x48_S1x48x48_4_0_0).toLoadRect.set := by
  show (hSlot 4).view.set = _
  exact (View.set_reshape _ _).trans (View.set_slice _ _)
theorem halo_row_sub4 : (hM : Memref sig .tc .vmem S6x48x48 .bf16).view.setOn
    (Rect.unit (s := S6x48x48) ![4, 0, 0] S1x48x48.size inb_S6x48x48_S1x48x48_4_0_0).toLoadRect.set ⊆ hSet 4 := by
  rw [hSet_4]
theorem hSet_5 : hSet 5 = (hM : Memref sig .tc .vmem S6x48x48 .bf16).view.setOn
    (Rect.unit (s := S6x48x48) ![5, 0, 0] S1x48x48.size inb_S6x48x48_S1x48x48_5_0_0).toLoadRect.set := by
  show (hSlot 5).view.set = _
  exact (View.set_reshape _ _).trans (View.set_slice _ _)
theorem halo_row_sub5 : (hM : Memref sig .tc .vmem S6x48x48 .bf16).view.setOn
    (Rect.unit (s := S6x48x48) ![5, 0, 0] S1x48x48.size inb_S6x48x48_S1x48x48_5_0_0).toLoadRect.set ⊆ hSet 5 := by
  rw [hSet_5]

end Cert.KernelIdeal.Halo

end
-- ==== Proof.BodyTail.lean ====
import proofs.«900536_g7700000000000537_dist_halo3d_v7x_xyz2x2x4_s48_bf16_1_alg».proof.Proof.BodyRecv

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem tl_hCredit (s : Fin 6) : (hSlot s).view.dmaCredit = N := by
  fin_cases s <;> rfl
private theorem tl_sCredit (s : Fin 6) : (sSlot s).view.dmaCredit = N := by
  fin_cases s <;> rfl

private theorem tl_huM : (uM : Memref sig .tc .vmem S48x48x48 .f32).IsWhole := Memref.isWhole_whole _
private theorem tl_hoM : (oM : Memref sig .tc .vmem S48x48x48 .bf16).IsWhole := Memref.isWhole_whole _
private theorem tl_hhM : (hM : Memref sig .tc .vmem S6x48x48 .bf16).IsWhole := Memref.isWhole_whole _
private theorem tl_hsM : (sM : Memref sig .tc .vmem S6x48x48 .bf16).IsWhole := Memref.isWhole_whole _

theorem tl_send_blk (c : Dev nD) (s : Fin 6) (K : Dev nD × Fin 13 → ℕ) (W : Waits sig Unit)
    (b : BitVec 1) (hb : b = 1#1 ↔ sendAct c s)
    {sem : DmaSem sig} (hsem : sem = sendSem s) {src dst : Memref sig .tc .vmem S48x48 .bf16} {hsrc : src.view.WordExact} {hdst : dst.view.WordExact}
    (hcr : dst.view.dmaCredit = N) (rest : Prog (TpuEff nD τ sig (Elt F) Λ₀ .tc) PUnit) (Q : PUnit → sProp 𝕄) :
    iprop(records m K ∗ owes (c : Thread nD τ) 0 W ∗ sCred c s ∗ sPos0 c s
        ∗ (∀ W', (owes (c : Thread nD τ) 0 W' ∗ sBack m c s ∗ sPos1 c s) -∗ WP c rest Q))
      ⊢ WP c (if _h : b = 1#1 then (do Prog.lift (.waitDma2 sem src dst hsrc hdst); rest) else rest) Q := by
  by_cases hp : sendAct c s
  · rw [dif_pos (hb.mpr hp)]
    unfold sCred sPos0 sBack sPos1 condP
    simp only [if_pos hp]
    iintro ⟨#Hrec, HL, Hc, Hat, Hk⟩
    iapply (send_wait m c s hp K W hsem hcr _ Q) $$ [HL Hc Hat Hk]
    iframe Hrec HL Hc Hat
    iintro ⟨HL, Hat, Hpay⟩
    iapply Hk $$ %_
    iframe HL Hpay Hat
  · rw [dif_neg (fun h => hp (hb.mp h))]
    unfold sCred sPos0 sBack sPos1 condP
    simp only [if_neg hp]
    iintro ⟨-, HL, -, Hat, Hk⟩
    iapply Hk $$ %W
    isplitl [HL]; · iexact HL
    isplitr; · iempintro
    iexact Hat

theorem tl_recv_blk3 (c : Dev nD) (K : Dev nD × Fin 13 → ℕ) (W : Waits sig Unit) (o : OC (F := F))
    (rest : Prog (TpuEff nD τ sig (Elt F) Λ₀ .tc) PUnit) (Q : PUnit → sProp 𝕄) :
    iprop(records m K ∗ owes (c : Thread nD τ) 0 W ∗ pt1 c o ∗ rCred c 3 ∗ rPos0 c 3
        ∗ (∀ W', (owes (c : Thread nD τ) 0 W' ∗ pt1 c (if Y c = 0 then upd3 m c o else o) ∗ hBack m c 3 ∗ rPos1 c 3) -∗ WP c rest Q))
      ⊢ WP c (if _h : Scalar.cmpi .ne (Scalar.extui (Scalar.cmpi .eq (yw c) 0#32)) 0#32 = 1#1 then (do
        let ⟨v206, v227, v229⟩ : Σ' (v206 : FVec F S48x48 .bf16) (v227 : IVec S48x48 1), FVec F S48x48 .bf16 ← k0_part4 uM tl_huM oM tl_hoM hM tl_hhM sM tl_hsM cc0_scratch2 cc0_scratch3 (xw c) (yw c) (zw c) (f90 c) (f91 c) (f94 c) (f95 c)
        let v233 : Vec F S48x1x48 .bf16 ← Prog.lift (.load oM (Rect.unit (s := S48x48x48) ![0, 47, 0] S48x1x48.size inb_S48x48x48_S48x1x48_0_47_0).toLoadRect (View.loadsAt_vmem h_S48x1x48))
        storeSubelements oM (Rect.unit (s := S48x48x48) ![0, 46, 0] S48x2x48.size inb_S48x48x48_S48x2x48_0_46_0) (fun old => updateSlice old (k0_pay1 v206 v227 v229) ![0, 1, 0] slices_S48x2x48_S48x1x48_0_1_0) (View.loadsAt_vmem h_S48x2x48) (View.stores_vmem h_S48x2x48 (tl_hoM.storeExact_slice rfl _ packedbf16_S48x48x48_S48x2x48_0_46_0) (fun _ => rfl))
        rest) else rest) Q := by
  by_cases hp : Y c = 0
  · have hp' : recvAct c 3 := hp
    rw [dif_pos ((yw_eq0_iff c).mpr hp)]
    unfold rCred rPos0 hBack rPos1 condP
    simp only [if_pos hp', if_pos hp]
    iintro ⟨#Hrec, HL, Ho, Hc, Hat, Hk⟩
    simp only [k0_part4_eq_skeleton]
    unfold k0_part4_skel
    iapply (recv_wait m c 3 hp' K W recvSem_3 (tl_hCredit 3) _ Q) $$ [HL Hc Hat Hk Ho]
    iframe Hrec HL Hc Hat
    iintro ⟨HL, Hat, Hh⟩
    iapply (wp_load 𝒱₀ (c : Thread nD τ) none Set.univ (m := oM) (Finset.subset_univ _)) $$ Ho; iintro Ho
    iapply (halo_load c 3 halo_row_sub3 (haloC m c) _ Q) $$ [Hh HL Hat Hk Ho]
    isplitl [Hh]; · iexact Hh
    iintro Hh
    iapply (wp_load 𝒱₀ (c : Thread nD τ) none Set.univ (m := oM) (Finset.subset_univ _)) $$ Ho; iintro Ho
    iapply (wp_load 𝒱₀ (c : Thread nD τ) none Set.univ (m := oM) (Finset.subset_univ _)) $$ Ho; iintro Ho
    iapply (wp_store 𝒱₀ (c : Thread nD τ) none Set.univ (m := oM) (r := Rect.unit (s := S48x48x48) ![0, 46, 0] S48x2x48.size inb_S48x48x48_S48x2x48_0_46_0) (Finset.subset_univ _)) $$ Ho; iintro Ho
    iapply Hk $$ %_
    isplitl [HL]; · iexact HL
    isplitl [Ho]; · iexact Ho
    isplitl [Hh]; · iexact Hh
    iexact Hat
  · rw [dif_neg (fun h => hp ((yw_eq0_iff c).mp h))]
    have hp' : ¬ recvAct c 3 := hp
    unfold rCred rPos0 hBack rPos1 condP
    simp only [if_neg hp', if_neg hp]
    iintro ⟨-, HL, Ho, -, Hat, Hk⟩
    iapply Hk $$ %W
    iframe HL Ho
    isplitr; · iempintro
    iexact Hat

theorem tl_recv_blk4 (c : Dev nD) (K : Dev nD × Fin 13 → ℕ) (W : Waits sig Unit) (o : OC (F := F))
    (rest : Prog (TpuEff nD τ sig (Elt F) Λ₀ .tc) PUnit) (Q : PUnit → sProp 𝕄) :
    iprop(records m K ∗ owes (c : Thread nD τ) 0 W ∗ pt1 c o ∗ rCred c 4 ∗ rPos0 c 4
        ∗ (∀ W', (owes (c : Thread nD τ) 0 W' ∗ pt1 c (if 0 < Z c then upd4 m c o else o) ∗ hBack m c 4 ∗ rPos1 c 4) -∗ WP c rest Q))
      ⊢ WP c (if _h : Scalar.cmpi .ne (Scalar.extui (Scalar.cmpi .sgt (zw c) 0#32)) 0#32 = 1#1 then (do
        let ⟨v206, v227, v229⟩ : Σ' (v206 : FVec F S48x48 .bf16) (v227 : IVec S48x48 1), FVec F S48x48 .bf16 ← k0_part5 uM tl_huM oM tl_hoM hM tl_hhM sM tl_hsM cc0_scratch2 cc0_scratch3 (xw c) (yw c) (zw c) (f90 c) (f91 c) (f92 c) (f93 c)
        let v233 : Vec F S48x48x1 .bf16 ← Prog.lift (.load oM (Rect.unit (s := S48x48x48) ![0, 0, 0] S48x48x1.size inb_S48x48x48_S48x48x1_0_0_0).toLoadRect (View.loadsAt_vmem h_S48x48x1))
        Prog.lift (.store oM (Rect.unit (s := S48x48x48) ![0, 0, 0] S48x48x1.size inb_S48x48x48_S48x48x1_0_0_0) (k0_pay2 v206 v227 v229) Finset.univ (View.stores_vmem h_S48x48x1 (tl_hoM.storeExact_slice rfl _ packedbf16_S48x48x48_S48x48x1_0_0_0) (fun _ => rfl)) (.inl rfl))
        rest) else rest) Q := by
  by_cases hp : 0 < Z c
  · have hp' : recvAct c 4 := hp
    rw [dif_pos ((zw_sgt0_iff c).mpr hp)]
    unfold rCred rPos0 hBack rPos1 condP
    simp only [if_pos hp', if_pos hp]
    iintro ⟨#Hrec, HL, Ho, Hc, Hat, Hk⟩
    simp only [k0_part5_eq_skeleton]
    unfold k0_part5_skel
    iapply (recv_wait m c 4 hp' K W recvSem_4 (tl_hCredit 4) _ Q) $$ [HL Hc Hat Hk Ho]
    iframe Hrec HL Hc Hat
    iintro ⟨HL, Hat, Hh⟩
    iapply (wp_load 𝒱₀ (c : Thread nD τ) none Set.univ (m := oM) (Finset.subset_univ _)) $$ Ho; iintro Ho
    iapply (halo_load c 4 halo_row_sub4 (haloC m c) _ Q) $$ [Hh HL Hat Hk Ho]
    isplitl [Hh]; · iexact Hh
    iintro Hh
    iapply (wp_load 𝒱₀ (c : Thread nD τ) none Set.univ (m := oM) (Finset.subset_univ _)) $$ Ho; iintro Ho
    iapply (wp_store 𝒱₀ (c : Thread nD τ) none Set.univ (m := oM) (r := Rect.unit (s := S48x48x48) ![0, 0, 0] S48x48x1.size inb_S48x48x48_S48x48x1_0_0_0) (Finset.subset_univ _)) $$ Ho; iintro Ho
    iapply Hk $$ %_
    isplitl [HL]; · iexact HL
    isplitl [Ho]; · iexact Ho
    isplitl [Hh]; · iexact Hh
    iexact Hat
  · rw [dif_neg (fun h => hp ((zw_sgt0_iff c).mp h))]
    have hp' : ¬ recvAct c 4 := hp
    unfold rCred rPos0 hBack rPos1 condP
    simp only [if_neg hp', if_neg hp]
    iintro ⟨-, HL, Ho, -, Hat, Hk⟩
    iapply Hk $$ %W
    iframe HL Ho
    isplitr; · iempintro
    iexact Hat

theorem tl_recv_blk5 (c : Dev nD) (K : Dev nD × Fin 13 → ℕ) (W : Waits sig Unit) (o : OC (F := F))
    (rest : Prog (TpuEff nD τ sig (Elt F) Λ₀ .tc) PUnit) (Q : PUnit → sProp 𝕄) :
    iprop(records m K ∗ owes (c : Thread nD τ) 0 W ∗ pt1 c o ∗ rCred c 5 ∗ rPos0 c 5
        ∗ (∀ W', (owes (c : Thread nD τ) 0 W' ∗ pt1 c (if Z c < 3 then upd5 m c o else o) ∗ hBack m c 5 ∗ rPos1 c 5) -∗ WP c rest Q))
      ⊢ WP c (if _h : Scalar.cmpi .ne (Scalar.extui (Scalar.cmpi .slt (zw c) 3#32)) 0#32 = 1#1 then (do
        let ⟨v206, v227, v229⟩ : Σ' (v206 : FVec F S48x48 .bf16) (v227 : IVec S48x48 1), FVec F S48x48 .bf16 ← k0_part6 uM tl_huM oM tl_hoM hM tl_hhM sM tl_hsM cc0_scratch2 cc0_scratch3 (xw c) (yw c) (zw c) (f90 c) (f91 c) (f92 c) (f93 c)
        let v233 : Vec F S48x48x1 .bf16 ← Prog.lift (.load oM (Rect.unit (s := S48x48x48) ![0, 0, 47] S48x48x1.size inb_S48x48x48_S48x48x1_0_0_47).toLoadRect (View.loadsAt_vmem h_S48x48x1))
        Prog.lift (.store oM (Rect.unit (s := S48x48x48) ![0, 0, 47] S48x48x1.size inb_S48x48x48_S48x48x1_0_0_47) (k0_pay3 v206 v227 v229) Finset.univ (View.stores_vmem h_S48x48x1 (tl_hoM.storeExact_slice rfl _ packedbf16_S48x48x48_S48x48x1_0_0_47) (fun _ => rfl)) (.inl rfl))
        rest) else rest) Q := by
  by_cases hp : Z c < 3
  · have hp' : recvAct c 5 := hp
    rw [dif_pos ((zw_slt3_iff c).mpr hp)]
    unfold rCred rPos0 hBack rPos1 condP
    simp only [if_pos hp', if_pos hp]
    iintro ⟨#Hrec, HL, Ho, Hc, Hat, Hk⟩
    simp only [k0_part6_eq_skeleton]
    unfold k0_part6_skel
    iapply (recv_wait m c 5 hp' K W recvSem_5 (tl_hCredit 5) _ Q) $$ [HL Hc Hat Hk Ho]
    iframe Hrec HL Hc Hat
    iintro ⟨HL, Hat, Hh⟩
    iapply (wp_load 𝒱₀ (c : Thread nD τ) none Set.univ (m := oM) (Finset.subset_univ _)) $$ Ho; iintro Ho
    iapply (halo_load c 5 halo_row_sub5 (haloC m c) _ Q) $$ [Hh HL Hat Hk Ho]
    isplitl [Hh]; · iexact Hh
    iintro Hh
    iapply (wp_load 𝒱₀ (c : Thread nD τ) none Set.univ (m := oM) (Finset.subset_univ _)) $$ Ho; iintro Ho
    iapply (wp_store 𝒱₀ (c : Thread nD τ) none Set.univ (m := oM) (r := Rect.unit (s := S48x48x48) ![0, 0, 47] S48x48x1.size inb_S48x48x48_S48x48x1_0_0_47) (Finset.subset_univ _)) $$ Ho; iintro Ho
    iapply Hk $$ %_
    isplitl [HL]; · iexact HL
    isplitl [Ho]; · iexact Ho
    isplitl [Hh]; · iexact Hh
    iexact Hat
  · rw [dif_neg (fun h => hp ((zw_slt3_iff c).mp h))]
    have hp' : ¬ recvAct c 5 := hp
    unfold rCred rPos0 hBack rPos1 condP
    simp only [if_neg hp', if_neg hp]
    iintro ⟨-, HL, Ho, -, Hat, Hk⟩
    iapply Hk $$ %W
    iframe HL Ho
    isplitr; · iempintro
    iexact Hat

theorem tail_sound (c : Dev nD) : TailSpec (F := F) m c := by
  intro K W Q
  unfold preT postT six
  iintro ⟨⟨#Hrec, HL, Ho, Hc3, Hc4, Hc5, Hp3, Hp4, Hp5, ⟨Hs0, Hs1, Hs2, Hs3, Hs4, Hs5⟩, Hq0, Hq1, Hq2, Hq3, Hq4, Hq5⟩, Hpost⟩
  unfold tailProg

  iapply (tl_recv_blk3 m c K W (out3 m c) _ Q) $$ [HL Ho Hc3 Hc4 Hc5 Hp3 Hp4 Hp5 Hs0 Hs1 Hs2 Hs3 Hs4 Hs5 Hq0 Hq1 Hq2 Hq3 Hq4 Hq5 Hpost]
  iframe Hrec HL Ho Hc3 Hp3
  iintro %W3 ⟨HL, Ho, Hh3, Hp3⟩

  iapply (tl_recv_blk4 m c K W3 (out4 m c) _ Q) $$ [HL Ho Hc4 Hc5 Hp3 Hp4 Hp5 Hs0 Hs1 Hs2 Hs3 Hs4 Hs5 Hq0 Hq1 Hq2 Hq3 Hq4 Hq5 Hpost Hh3]
  isplitr; · iexact Hrec
  isplitl [HL]; · iexact HL
  isplitl [Ho]; · iexact Ho
  isplitl [Hc4]; · iexact Hc4
  isplitl [Hp4]; · iexact Hp4
  iintro %W4 ⟨HL, Ho, Hh4, Hp4⟩

  iapply (tl_recv_blk5 m c K W4 (out5 m c) _ Q) $$ [HL Ho Hc5 Hp3 Hp4 Hp5 Hs0 Hs1 Hs2 Hs3 Hs4 Hs5 Hq0 Hq1 Hq2 Hq3 Hq4 Hq5 Hpost Hh3 Hh4]
  isplitr; · iexact Hrec
  isplitl [HL]; · iexact HL
  isplitl [Ho]; · iexact Ho
  isplitl [Hc5]; · iexact Hc5
  isplitl [Hp5]; · iexact Hp5
  iintro %W5 ⟨HL, Ho, Hh5, Hp5⟩

  iapply (tl_send_blk m c 1 K W5 _ (xw_eq0_iff c) sendSem_1 (tl_sCredit 1) _ Q) $$ [HL Ho Hp3 Hp4 Hp5 Hs0 Hs1 Hs2 Hs3 Hs4 Hs5 Hq0 Hq1 Hq2 Hq3 Hq4 Hq5 Hpost Hh3 Hh4 Hh5]
  iframe Hrec HL Hs1 Hq1
  iintro %V1 ⟨HL, Hs1, Hq1⟩

  iapply (tl_send_blk m c 0 K V1 _ (xw_eq1_iff c) sendSem_0 (tl_sCredit 0) _ Q) $$ [HL Ho Hp3 Hp4 Hp5 Hs0 Hs1 Hs2 Hs3 Hs4 Hs5 Hq0 Hq1 Hq2 Hq3 Hq4 Hq5 Hpost Hh3 Hh4 Hh5]
  iframe Hrec HL Hs0 Hq0
  iintro %V0 ⟨HL, Hs0, Hq0⟩

  iapply (tl_send_blk m c 3 K V0 _ (yw_eq0_iff c) sendSem_3 (tl_sCredit 3) _ Q) $$ [HL Ho Hp3 Hp4 Hp5 Hs0 Hs1 Hs2 Hs3 Hs4 Hs5 Hq0 Hq1 Hq2 Hq3 Hq4 Hq5 Hpost Hh3 Hh4 Hh5]
  iframe Hrec HL Hs3 Hq3
  iintro %V3 ⟨HL, Hs3, Hq3⟩

  iapply (tl_send_blk m c 2 K V3 _ (yw_eq1_iff c) sendSem_2 (tl_sCredit 2) _ Q) $$ [HL Ho Hp3 Hp4 Hp5 Hs0 Hs1 Hs2 Hs3 Hs4 Hs5 Hq0 Hq1 Hq2 Hq3 Hq4 Hq5 Hpost Hh3 Hh4 Hh5]
  iframe Hrec HL Hs2 Hq2
  iintro %V2 ⟨HL, Hs2, Hq2⟩

  iapply (tl_send_blk m c 4 K V2 _ (zw_sgt0_iff c) sendSem_4 (tl_sCredit 4) _ Q) $$ [HL Ho Hp3 Hp4 Hp5 Hs0 Hs1 Hs2 Hs3 Hs4 Hs5 Hq0 Hq1 Hq2 Hq3 Hq4 Hq5 Hpost Hh3 Hh4 Hh5]
  iframe Hrec HL Hs4 Hq4
  iintro %V4 ⟨HL, Hs4, Hq4⟩

  iapply (tl_send_blk m c 5 K V4 _ (zw_slt3_iff c) sendSem_5 (tl_sCredit 5) _ Q) $$ [HL Ho Hp3 Hp4 Hp5 Hs0 Hs1 Hs2 Hs3 Hs4 Hs5 Hq0 Hq1 Hq2 Hq3 Hq4 Hq5 Hpost Hh3 Hh4 Hh5]
  iframe Hrec HL Hs5 Hq5
  iintro %V5 ⟨HL, Hs5, Hq5⟩
  simp only [WP, wp_pure]
  imodintro
  iapply Hpost
  isplitl [HL]; · iexists _; iexact HL
  isplitl [Ho]; · iexact Ho
  isplitl [Hh3]; · iexact Hh3
  isplitl [Hh4]; · iexact Hh4
  isplitl [Hh5]; · iexact Hh5
  isplitl [Hp3]; · iexact Hp3
  isplitl [Hp4]; · iexact Hp4
  isplitl [Hp5]; · iexact Hp5
  isplitl [Hs0 Hs1 Hs2 Hs3 Hs4 Hs5]
  · isplitl [Hs0]; · iexact Hs0
    iframe Hs1 Hs2 Hs3 Hs4 Hs5
  iframe Hq0 Hq1 Hq2 Hq3 Hq4 Hq5

end Cert.KernelIdeal.Halo

end
-- ==== Proof.Body.lean ====
import proofs.«900536_g7700000000000537_dist_halo3d_v7x_xyz2x2x4_s48_bf16_1_alg».proof.Proof.BodyP7
import proofs.«900536_g7700000000000537_dist_halo3d_v7x_xyz2x2x4_s48_bf16_1_alg».proof.Proof.BodyP8
import proofs.«900536_g7700000000000537_dist_halo3d_v7x_xyz2x2x4_s48_bf16_1_alg».proof.Proof.BodyP9
import proofs.«900536_g7700000000000537_dist_halo3d_v7x_xyz2x2x4_s48_bf16_1_alg».proof.Proof.BodyP10
import proofs.«900536_g7700000000000537_dist_halo3d_v7x_xyz2x2x4_s48_bf16_1_alg».proof.Proof.BodyP11
import proofs.«900536_g7700000000000537_dist_halo3d_v7x_xyz2x2x4_s48_bf16_1_alg».proof.Proof.BodyTail

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One device's body is its parts in order. -/
theorem body_sound (c : Dev nD) : BodySound (F := F) m c :=
  body_sound_of m c (part7_sound m c) (part8_sound m c) (part9_sound m c) (part10_sound m c) (part11_sound m c) (tail_sound m c)
    (halo_split c) (halo_join c) (send_join c)

end Cert.KernelIdeal.Halo

end
-- ==== Proof.K.Mesh.lean ====
import proofs.«900536_g7700000000000537_dist_halo3d_v7x_xyz2x2x4_s48_bf16_1_alg».proof.Proof.Gen.Kernel

namespace Cert.Kernel.Halo

open Cert.Kernel Cert.Kernel.Gen
open Idealize.ShloMosaic Idealize.SL.Sem

def X (c : Dev nD) : Nat := c.val / 8
def Y (c : Dev nD) : Nat := c.val / 4 % 2
def Z (c : Dev nD) : Nat := c.val % 4

def fx (c : Dev nD) : Dev nD := ⟨(c.val + 8) % 16, Nat.mod_lt _ (by decide)⟩
def fy (c : Dev nD) : Dev nD := ⟨c.val / 8 * 8 + (c.val % 8 + 4) % 8, by have := c.isLt; simp only [nD] at this ⊢; omega⟩
def zup (c : Dev nD) : Dev nD := ⟨c.val / 4 * 4 + (c.val % 4 + 1) % 4, by have := c.isLt; simp only [nD] at this ⊢; omega⟩
def zdn (c : Dev nD) : Dev nD := ⟨c.val / 4 * 4 + (c.val % 4 + 3) % 4, by have := c.isLt; simp only [nD] at this ⊢; omega⟩

theorem fx_fx (c : Dev nD) : fx (fx c) = c := by revert c; decide
theorem fy_fy (c : Dev nD) : fy (fy c) = c := by revert c; decide
theorem zup_zdn (c : Dev nD) : zup (zdn c) = c := by revert c; decide
theorem zdn_zup (c : Dev nD) : zdn (zup c) = c := by revert c; decide

def fxE : Dev nD ≃ Dev nD := ⟨fx, fx, fx_fx, fx_fx⟩
def fyE : Dev nD ≃ Dev nD := ⟨fy, fy, fy_fy, fy_fy⟩
def zupE : Dev nD ≃ Dev nD := ⟨zup, zdn, zdn_zup, zup_zdn⟩

theorem X_fx (c : Dev nD) : X (fx c) = 1 - X c := by revert c; decide
theorem Y_fx (c : Dev nD) : Y (fx c) = Y c := by revert c; decide
theorem Z_fx (c : Dev nD) : Z (fx c) = Z c := by revert c; decide
theorem X_fy (c : Dev nD) : X (fy c) = X c := by revert c; decide
theorem Y_fy (c : Dev nD) : Y (fy c) = 1 - Y c := by revert c; decide
theorem Z_fy (c : Dev nD) : Z (fy c) = Z c := by revert c; decide
theorem X_zup (c : Dev nD) : X (zup c) = X c := by revert c; decide
theorem Y_zup (c : Dev nD) : Y (zup c) = Y c := by revert c; decide
theorem Z_zup (c : Dev nD) (h : Z c < 3) : Z (zup c) = Z c + 1 := by revert c; decide
theorem X_zdn (c : Dev nD) : X (zdn c) = X c := by revert c; decide
theorem Y_zdn (c : Dev nD) : Y (zdn c) = Y c := by revert c; decide
theorem Z_zdn (c : Dev nD) (h : 0 < Z c) : Z (zdn c) = Z c - 1 := by revert c; decide
theorem X_lt (c : Dev nD) : X c < 2 := by revert c; decide
theorem Y_lt (c : Dev nD) : Y c < 2 := by revert c; decide
theorem Z_lt (c : Dev nD) : Z c < 4 := by revert c; decide

end Cert.Kernel.Halo
-- ==== Proof.K.MeshFacts.lean ====
import proofs.«900536_g7700000000000537_dist_halo3d_v7x_xyz2x2x4_s48_bf16_1_alg».proof.Proof.K.Mesh
import Idealize.ShloMosaic.Lib.Decide

namespace Cert.Kernel.Halo

open Cert.Kernel Cert.Kernel.Gen
open Idealize.ShloMosaic Idealize.SL.Sem

theorem bv1_eq_zero_iff (b : BitVec 1) : b = 0#1 ↔ ¬ b = 1#1 := by revert b; decide

theorem bv1_zero_of_one_iff {b : BitVec 1} {p : Prop} (h : b = 1#1 ↔ p) : b = 0#1 ↔ ¬ p :=
  (bv1_eq_zero_iff b).trans (not_congr h)

theorem dev1_eq (c : Dev nD) : (⟨k0_dev1 c, k0_dev1_lt c⟩ : Dev nD) = fx c := by
  revert c; decide +kernel
theorem dev2_eq (c : Dev nD) : (⟨k0_dev2 c, k0_dev2_lt c⟩ : Dev nD) = fy c := by
  revert c; decide +kernel
theorem dev3_eq (c : Dev nD) (h : k0_cond1 c = 1#1) : (⟨k0_dev3 c, k0_dev3_lt c h⟩ : Dev nD) = zdn c := by
  revert c; decide +kernel
theorem dev4_eq (c : Dev nD) (h : k0_cond3 c = 1#1) : (⟨k0_dev4 c, k0_dev4_lt c h⟩ : Dev nD) = zup c := by
  revert c; decide +kernel
theorem dev5_eq (c : Dev nD) (h : k0_cond5 c = 1#1) : (⟨k0_dev5 c, k0_dev5_lt c h⟩ : Dev nD) = fx c := by
  revert c; decide +kernel
theorem dev6_eq (c : Dev nD) (h : k0_cond6 c = 1#1) : (⟨k0_dev6 c, k0_dev6_lt c h⟩ : Dev nD) = fx c := by
  revert c; decide +kernel
theorem dev7_eq (c : Dev nD) (h : k0_cond7 c = 1#1) : (⟨k0_dev7 c, k0_dev7_lt c h⟩ : Dev nD) = fy c := by
  revert c; decide +kernel
theorem dev8_eq (c : Dev nD) (h : k0_cond8 c = 1#1) : (⟨k0_dev8 c, k0_dev8_lt c h⟩ : Dev nD) = fy c := by
  revert c; decide +kernel
theorem dev9_eq (c : Dev nD) (h : k0_cond9 c = 1#1) : (⟨k0_dev9 c, k0_dev9_lt c h⟩ : Dev nD) = zdn c := by
  revert c; decide +kernel
theorem dev10_eq (c : Dev nD) (h : k0_cond10 c = 1#1) : (⟨k0_dev10 c, k0_dev10_lt c h⟩ : Dev nD) = zup c := by
  revert c; decide +kernel

theorem cond1_iff (c : Dev nD) : k0_cond1 c = 1#1 ↔ 0 < Z c := by revert c; decide +kernel
theorem cond3_iff (c : Dev nD) : k0_cond3 c = 1#1 ↔ Z c < 3 := by revert c; decide +kernel
theorem cond5_iff (c : Dev nD) : k0_cond5 c = 1#1 ↔ X c = 0 := by revert c; decide +kernel
theorem cond6_iff (c : Dev nD) : k0_cond6 c = 1#1 ↔ X c = 1 := by revert c; decide +kernel
theorem cond7_iff (c : Dev nD) : k0_cond7 c = 1#1 ↔ Y c = 0 := by revert c; decide +kernel
theorem cond8_iff (c : Dev nD) : k0_cond8 c = 1#1 ↔ Y c = 1 := by revert c; decide +kernel
theorem cond9_iff (c : Dev nD) : k0_cond9 c = 1#1 ↔ 0 < Z c := by revert c; decide +kernel
theorem cond10_iff (c : Dev nD) : k0_cond10 c = 1#1 ↔ Z c < 3 := by revert c; decide +kernel

theorem cond3_niff (c : Dev nD) : k0_cond3 c = 0#1 ↔ ¬ Z c < 3 := bv1_zero_of_one_iff (cond3_iff c)
def xw (c : Dev nD) : BitVec 32 := Scalar.remsi (Scalar.divsi (Dev.word c) 8#32) 2#32

def yw (c : Dev nD) : BitVec 32 := Scalar.remsi (Scalar.divsi (Dev.word c) 4#32) 2#32

def zw (c : Dev nD) : BitVec 32 := Scalar.remsi (Scalar.divsi (Dev.word c) 1#32) 4#32

theorem zw_eq0_iff (c : Dev nD) : Scalar.cmpi .ne (Scalar.extui (Scalar.cmpi .eq (zw c) 0#32)) 0#32 = 1#1 ↔ Z c = 0 := by
  revert c; decide +kernel
theorem zw_eq3_iff (c : Dev nD) : Scalar.cmpi .ne (Scalar.extui (Scalar.cmpi .eq (zw c) 3#32)) 0#32 = 1#1 ↔ Z c = 3 := by
  revert c; decide +kernel
theorem zw_eq3_niff (c : Dev nD) : Scalar.cmpi .ne (Scalar.extui (Scalar.cmpi .eq (zw c) 3#32)) 0#32 = 0#1 ↔ ¬ Z c = 3 :=
  bv1_zero_of_one_iff (zw_eq3_iff c)
theorem zw_sgt0_iff (c : Dev nD) : Scalar.cmpi .ne (Scalar.extui (Scalar.cmpi .sgt (zw c) 0#32)) 0#32 = 1#1 ↔ 0 < Z c := by
  revert c; decide +kernel
theorem zw_slt3_iff (c : Dev nD) : Scalar.cmpi .ne (Scalar.extui (Scalar.cmpi .slt (zw c) 3#32)) 0#32 = 1#1 ↔ Z c < 3 := by
  revert c; decide +kernel
theorem xw_eq0_iff (c : Dev nD) : Scalar.cmpi .ne (Scalar.extui (Scalar.cmpi .eq (xw c) 0#32)) 0#32 = 1#1 ↔ X c = 0 := by
  revert c; decide +kernel
theorem xw_eq1_iff (c : Dev nD) : Scalar.cmpi .ne (Scalar.extui (Scalar.cmpi .eq (xw c) 1#32)) 0#32 = 1#1 ↔ X c = 1 := by
  revert c; decide +kernel
theorem yw_eq0_iff (c : Dev nD) : Scalar.cmpi .ne (Scalar.extui (Scalar.cmpi .eq (yw c) 0#32)) 0#32 = 1#1 ↔ Y c = 0 := by
  revert c; decide +kernel
theorem yw_eq1_iff (c : Dev nD) : Scalar.cmpi .ne (Scalar.extui (Scalar.cmpi .eq (yw c) 1#32)) 0#32 = 1#1 ↔ Y c = 1 := by
  revert c; decide +kernel
theorem xflag0_iff (c : Dev nD) : Scalar.cmpi .eq (xw c) 0#32 = 1#1 ↔ X c = 0 := by
  revert c; decide +kernel
theorem xflag1_iff (c : Dev nD) : Scalar.cmpi .eq (xw c) 1#32 = 1#1 ↔ X c = 1 := by
  revert c; decide +kernel
theorem yflag0_iff (c : Dev nD) : Scalar.cmpi .eq (yw c) 0#32 = 1#1 ↔ Y c = 0 := by
  revert c; decide +kernel
theorem yflag1_iff (c : Dev nD) : Scalar.cmpi .eq (yw c) 1#32 = 1#1 ↔ Y c = 1 := by
  revert c; decide +kernel
theorem zflag0_iff (c : Dev nD) : Scalar.cmpi .eq (zw c) 0#32 = 1#1 ↔ Z c = 0 := by
  revert c; decide +kernel
theorem zflag3_iff (c : Dev nD) : Scalar.cmpi .eq (zw c) 3#32 = 1#1 ↔ Z c = 3 := by
  revert c; decide +kernel
end Cert.Kernel.Halo
-- ==== Proof.K.Proto.lean ====
import proofs.«900536_g7700000000000537_dist_halo3d_v7x_xyz2x2x4_s48_bf16_1_alg».proof.Proof.Gen.Kernel.Skeleton
import proofs.«900536_g7700000000000537_dist_halo3d_v7x_xyz2x2x4_s48_bf16_1_alg».proof.Proof.Gen.Kernel.Launch
import proofs.«900536_g7700000000000537_dist_halo3d_v7x_xyz2x2x4_s48_bf16_1_alg».proof.Proof.Gen.Kernel.Points
import proofs.«900536_g7700000000000537_dist_halo3d_v7x_xyz2x2x4_s48_bf16_1_alg».proof.Proof.K.Mesh
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev barS : Sem sig := (SemArray.scalar (sig.barrier 0 rfl) : Sems sig S_).sem

abbrev sendSem (s : Fin 6) : DmaSem sig := ⟨2 + s.val, by have := s.isLt; show 2 + s.val < 14; omega⟩
abbrev recvSem (s : Fin 6) : DmaSem sig := ⟨8 + s.val, by have := s.isLt; show 8 + s.val < 14; omega⟩

abbrev barCell (c : Dev nD) : GSem nD τ sig := ((c : Thread nD τ), .reg barS)
abbrev sendCell (c : Dev nD) (s : Fin 6) : GSem nD τ sig := ((c : Thread nD τ), .dma (sendSem s))
abbrev recvCell (c : Dev nD) (s : Fin 6) : GSem nD τ sig := ((c : Thread nD τ), .dma (recvSem s))

abbrev csem (k : Fin 13) : SemLoc sig :=
  if h0 : k.val = 0 then .reg barS
  else if h1 : k.val < 7 then .dma (sendSem ⟨k.val - 1, by omega⟩)
  else .dma (recvSem ⟨k.val - 7, by have := k.isLt; omega⟩)
abbrev kcell (ck : Dev nD × Fin 13) : GSem nD τ sig := ((ck.1 : Thread nD τ), csem ck.2)

abbrev uM : Memref sig .tc .vmem S48x48x48 .f32 := Memref.whole cc0_stg0_0
abbrev oM : Memref sig .tc .vmem S48x48x48 .bf16 := Memref.whole cc0_stg1_0
abbrev hM : Memref sig .tc .vmem S6x48x48 .bf16 := Memref.whole cc0_scratch0
abbrev sM : Memref sig .tc .vmem S6x48x48 .bf16 := Memref.whole cc0_scratch1

abbrev hSlot : Fin 6 → Memref sig .tc .vmem S48x48 .bf16
  | ⟨0, _⟩ => ((Memref.whole cc0_scratch0 : Memref sig .tc .vmem S6x48x48 .bf16).slice (Rect.unit (s := S6x48x48) ![0, 0, 0] S1x48x48.size inb_S6x48x48_S1x48x48_0_0_0) (fun _ => rfl)).squeeze S48x48 squeezes_S1x48x48_S48x48
  | ⟨1, _⟩ => ((Memref.whole cc0_scratch0 : Memref sig .tc .vmem S6x48x48 .bf16).slice (Rect.unit (s := S6x48x48) ![1, 0, 0] S1x48x48.size inb_S6x48x48_S1x48x48_1_0_0) (fun _ => rfl)).squeeze S48x48 squeezes_S1x48x48_S48x48
  | ⟨2, _⟩ => ((Memref.whole cc0_scratch0 : Memref sig .tc .vmem S6x48x48 .bf16).slice (Rect.unit (s := S6x48x48) ![2, 0, 0] S1x48x48.size inb_S6x48x48_S1x48x48_2_0_0) (fun _ => rfl)).squeeze S48x48 squeezes_S1x48x48_S48x48
  | ⟨3, _⟩ => ((Memref.whole cc0_scratch0 : Memref sig .tc .vmem S6x48x48 .bf16).slice (Rect.unit (s := S6x48x48) ![3, 0, 0] S1x48x48.size inb_S6x48x48_S1x48x48_3_0_0) (fun _ => rfl)).squeeze S48x48 squeezes_S1x48x48_S48x48
  | ⟨4, _⟩ => ((Memref.whole cc0_scratch0 : Memref sig .tc .vmem S6x48x48 .bf16).slice (Rect.unit (s := S6x48x48) ![4, 0, 0] S1x48x48.size inb_S6x48x48_S1x48x48_4_0_0) (fun _ => rfl)).squeeze S48x48 squeezes_S1x48x48_S48x48
  | ⟨5, _⟩ => ((Memref.whole cc0_scratch0 : Memref sig .tc .vmem S6x48x48 .bf16).slice (Rect.unit (s := S6x48x48) ![5, 0, 0] S1x48x48.size inb_S6x48x48_S1x48x48_5_0_0) (fun _ => rfl)).squeeze S48x48 squeezes_S1x48x48_S48x48
  | ⟨_ + 6, h⟩ => absurd h (by omega)
abbrev sSlot : Fin 6 → Memref sig .tc .vmem S48x48 .bf16
  | ⟨0, _⟩ => ((Memref.whole cc0_scratch1 : Memref sig .tc .vmem S6x48x48 .bf16).slice (Rect.unit (s := S6x48x48) ![0, 0, 0] S1x48x48.size inb_S6x48x48_S1x48x48_0_0_0) (fun _ => rfl)).squeeze S48x48 squeezes_S1x48x48_S48x48
  | ⟨1, _⟩ => ((Memref.whole cc0_scratch1 : Memref sig .tc .vmem S6x48x48 .bf16).slice (Rect.unit (s := S6x48x48) ![1, 0, 0] S1x48x48.size inb_S6x48x48_S1x48x48_1_0_0) (fun _ => rfl)).squeeze S48x48 squeezes_S1x48x48_S48x48
  | ⟨2, _⟩ => ((Memref.whole cc0_scratch1 : Memref sig .tc .vmem S6x48x48 .bf16).slice (Rect.unit (s := S6x48x48) ![2, 0, 0] S1x48x48.size inb_S6x48x48_S1x48x48_2_0_0) (fun _ => rfl)).squeeze S48x48 squeezes_S1x48x48_S48x48
  | ⟨3, _⟩ => ((Memref.whole cc0_scratch1 : Memref sig .tc .vmem S6x48x48 .bf16).slice (Rect.unit (s := S6x48x48) ![3, 0, 0] S1x48x48.size inb_S6x48x48_S1x48x48_3_0_0) (fun _ => rfl)).squeeze S48x48 squeezes_S1x48x48_S48x48
  | ⟨4, _⟩ => ((Memref.whole cc0_scratch1 : Memref sig .tc .vmem S6x48x48 .bf16).slice (Rect.unit (s := S6x48x48) ![4, 0, 0] S1x48x48.size inb_S6x48x48_S1x48x48_4_0_0) (fun _ => rfl)).squeeze S48x48 squeezes_S1x48x48_S48x48
  | ⟨5, _⟩ => ((Memref.whole cc0_scratch1 : Memref sig .tc .vmem S6x48x48 .bf16).slice (Rect.unit (s := S6x48x48) ![5, 0, 0] S1x48x48.size inb_S6x48x48_S1x48x48_5_0_0) (fun _ => rfl)).squeeze S48x48 squeezes_S1x48x48_S48x48
  | ⟨_ + 6, h⟩ => absurd h (by omega)

abbrev HIdx : Type := (hM : Memref sig .tc .vmem S6x48x48 .bf16).view.ty.Idx
abbrev SIdx : Type := (sM : Memref sig .tc .vmem S6x48x48 .bf16).view.ty.Idx
def hSet : Fin 6 → Finset HIdx
  | ⟨0, _⟩ => (hSlot 0).view.set
  | ⟨1, _⟩ => (hSlot 1).view.set
  | ⟨2, _⟩ => (hSlot 2).view.set
  | ⟨3, _⟩ => (hSlot 3).view.set
  | ⟨4, _⟩ => (hSlot 4).view.set
  | ⟨5, _⟩ => (hSlot 5).view.set
  | ⟨_ + 6, h⟩ => absurd h (by omega)
def sSet : Fin 6 → Finset SIdx
  | ⟨0, _⟩ => (sSlot 0).view.set
  | ⟨1, _⟩ => (sSlot 1).view.set
  | ⟨2, _⟩ => (sSlot 2).view.set
  | ⟨3, _⟩ => (sSlot 3).view.set
  | ⟨4, _⟩ => (sSlot 4).view.set
  | ⟨5, _⟩ => (sSlot 5).view.set
  | ⟨_ + 6, h⟩ => absurd h (by omega)

abbrev N : ℕ := (hSlot 0).view.dmaCredit

def hPts (c : Dev nD) (s : Fin 6) (f : Buf (Elt F) ((c : Thread nD τ).loc cc0_scratch0)) : sProp 𝕄 :=
  ((c : Thread nD τ).loc cc0_scratch0) ↦[hSet s]{fullShare} f
def sPts (c : Dev nD) (s : Fin 6) (f : Buf (Elt F) ((c : Thread nD τ).loc cc0_scratch1)) : sProp 𝕄 :=
  ((c : Thread nD τ).loc cc0_scratch1) ↦[sSet s]{fullShare} f

def ublk (c : Dev nD) : (cc0_stg0_0 : Ref sig .tc).ty.Contents (Elt F) :=
  (win0_0.blk (0 : Fin 1)).view.read (Elt F) (m ((c : Thread nD τ).loc main_arg0))

def sendC (c : Dev nD) : Buf (Elt F) ((c : Thread nD τ).loc cc0_scratch1) := fun idx =>
  let p : Fin 48 := ⟨(idx 1).val, (idx 1).isLt⟩
  let q : Fin 48 := ⟨(idx 2).val, (idx 2).isLt⟩
  match (idx 0).val with
  | 0 => k0_pay22 (uM.view.readAt (Elt F) (Rect.unit (s := S48x48x48) ![0, 0, 0] S1x48x48.size inb_S48x48x48_S1x48x48_0_0_0).toLoadRect (ublk m c)) (ValueIdx.ix3 0 p q)
  | 1 => k0_pay23 (uM.view.readAt (Elt F) (Rect.unit (s := S48x48x48) ![47, 0, 0] S1x48x48.size inb_S48x48x48_S1x48x48_47_0_0).toLoadRect (ublk m c)) (ValueIdx.ix3 0 p q)
  | 2 => k0_pay24 (uM.view.readAt (Elt F) (Rect.unit (s := S48x48x48) ![0, 0, 0] S48x1x48.size inb_S48x48x48_S48x1x48_0_0_0).toLoadRect (ublk m c)) (ValueIdx.ix3 0 p q)
  | 3 => k0_pay25 (uM.view.readAt (Elt F) (Rect.unit (s := S48x48x48) ![0, 47, 0] S48x1x48.size inb_S48x48x48_S48x1x48_0_47_0).toLoadRect (ublk m c)) (ValueIdx.ix3 0 p q)
  | 4 => k0_pay26 (uM.view.readAt (Elt F) (Rect.unit (s := S48x48x48) ![0, 0, 0] S48x48x1.size inb_S48x48x48_S48x48x1_0_0_0).toLoadRect (ublk m c)) (ValueIdx.ix3 0 p q)
  | _ => k0_pay27 (uM.view.readAt (Elt F) (Rect.unit (s := S48x48x48) ![0, 0, 47] S48x48x1.size inb_S48x48x48_S48x48x1_0_0_47).toLoadRect (ublk m c)) (ValueIdx.ix3 0 p q)

def srcSlot : Fin 6 → Fin 6 | ⟨0, _⟩ => 1 | ⟨1, _⟩ => 0 | ⟨2, _⟩ => 3 | ⟨3, _⟩ => 2 | ⟨4, _⟩ => 5 | _ => 4
def sender (c : Dev nD) : Fin 6 → Dev nD | ⟨0, _⟩ => fx c | ⟨1, _⟩ => fx c | ⟨2, _⟩ => fy c | ⟨3, _⟩ => fy c | ⟨4, _⟩ => zdn c | _ => zup c

def haloC (c : Dev nD) : Buf (Elt F) ((c : Thread nD τ).loc cc0_scratch0) := fun idx =>
  let s : Fin 6 := ⟨(idx 0).val, (idx 0).isLt⟩
  sendC m (sender c s) (ValueIdx.ix3 (srcSlot s) ⟨(idx 1).val, (idx 1).isLt⟩ ⟨(idx 2).val, (idx 2).isLt⟩)

def recvAct (c : Dev nD) : Fin 6 → Prop
  | ⟨0, _⟩ => X c = 1 | ⟨1, _⟩ => X c = 0 | ⟨2, _⟩ => Y c = 1 | ⟨3, _⟩ => Y c = 0 | ⟨4, _⟩ => 0 < Z c | _ => Z c < 3

def sendAct (c : Dev nD) : Fin 6 → Prop
  | ⟨0, _⟩ => X c = 1 | ⟨1, _⟩ => X c = 0 | ⟨2, _⟩ => Y c = 1 | ⟨3, _⟩ => Y c = 0 | ⟨4, _⟩ => 0 < Z c | _ => Z c < 3
instance (c : Dev nD) (s : Fin 6) : Decidable (recvAct c s) := by
  unfold recvAct; split <;> infer_instance
instance (c : Dev nD) (s : Fin 6) : Decidable (sendAct c s) := by
  unfold sendAct; split <;> infer_instance

def barDuties (c : Dev nD) : Finset (Fin 5) :=
  {0, 1} ∪ (if Z c < 3 then {2} else ∅) ∪ (if 0 < Z c then {3} else ∅) ∪ (if Z c = 0 ∨ Z c = 3 then {4} else ∅)

def nbrPay (p : Dev nD) (s : Fin 6) : sProp 𝕄 := iprop((∃ f, hPts p s f) ∗ reached ER (recvCell p s) 0)

def barPay (c : Dev nD) (d : Fin 5) : sProp 𝕄 :=
  match d with
  | ⟨0, _⟩ => nbrPay (fx c) (if X c = 0 then 0 else 1)
  | ⟨1, _⟩ => nbrPay (fy c) (if Y c = 0 then 2 else 3)
  | ⟨2, _⟩ => nbrPay (zup c) 4
  | ⟨3, _⟩ => nbrPay (zdn c) 5
  | _ => iprop(emp)
def recvPay (c : Dev nD) (s : Fin 6) : sProp 𝕄 := hPts c s (haloC m c)
def sendPay (c : Dev nD) (s : Fin 6) : sProp 𝕄 := sPts c s (sendC m c)

def slotOf (q : DmaSem sig) : Option (Bool × Fin 6) :=
  if h : 2 ≤ q.val ∧ q.val < 8 then some (false, ⟨q.val - 2, by omega⟩)
  else if h' : 8 ≤ q.val then some (true, ⟨q.val - 8, by have := q.isLt; have : sig.nDmaSem = 14 := rfl; omega⟩)
  else none

def haloRd : Rounds.Schedule (GSem nD τ sig) (Fin 5) 𝕄 where
  duties g r :=
    if r = 0 ∧ g.1.2 = .tc then
      match g.2 with
      | .reg _ => barDuties g.1.1
      | .dma q => match slotOf q with
        | some (false, s) => if sendAct g.1.1 s then {0} else ∅
        | some (true, s) => if recvAct g.1.1 s then {0} else ∅
        | none => ∅
    else ∅
  unitless _ := False
  amount g _ _ := match g.2 with | .reg _ => 1 | .dma _ => N
  payload g _ d :=
    match g.2 with
    | .reg _ => barPay g.1.1 d
    | .dma q => match slotOf q with
      | some (false, s) => sendPay m g.1.1 s
      | some (true, s) => recvPay m g.1.1 s
      | none => iprop(emp)
  amount_pos g _ _ _ := by
    cases g.2 with
    | reg _ => exact Nat.one_pos
    | dma _ => exact View.dmaCredit_pos _ (by decide)

def L (g : GSem nD τ sig) : Finset Unit := if g.1.2 = .tc then {()} else ∅

def lv (g : GSem nD τ sig) (_ : Unit) : ℕ :=
  match g.2 with
  | .reg _ => 1
  | .dma q => match slotOf q with | some (true, _) => 2 | _ => 0

def Osend (c : Dev nD) : CellTallies nD τ sig Unit :=
  tallyAt (recvCell (zup c) 4) () (if Z c < 3 then N else 0) + tallyAt (recvCell (zdn c) 5) () (if 0 < Z c then N else 0)
    + tallyAt (recvCell (fy c) (if Y c = 0 then 2 else 3)) () N + tallyAt (recvCell (fx c) (if X c = 0 then 0 else 1)) () N

def O₄ (c : Dev nD) : CellTallies nD τ sig Unit := Osend c
def O₃ (c : Dev nD) : CellTallies nD τ sig Unit := O₄ c + tallyAt (barCell (if Z c < 3 then zup c else c)) () 1
def O₂ (c : Dev nD) : CellTallies nD τ sig Unit := O₃ c + tallyAt (barCell (if 0 < Z c then zdn c else c)) () 1
def O₁ (c : Dev nD) : CellTallies nD τ sig Unit := O₂ c + tallyAt (barCell (fy c)) () 1
def O₀ (c : Dev nD) : CellTallies nD τ sig Unit := O₁ c + tallyAt (barCell (fx c)) () 1

end Cert.Kernel.Halo

end
-- ==== Proof.K.State.lean ====
import proofs.«900536_g7700000000000537_dist_halo3d_v7x_xyz2x2x4_s48_bf16_1_alg».proof.Proof.K.MeshFacts
import proofs.«900536_g7700000000000537_dist_halo3d_v7x_xyz2x2x4_s48_bf16_1_alg».proof.Proof.K.Proto

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def condP (p : Prop) [Decidable p] (R : sProp 𝕄) : sProp 𝕄 := if p then R else iprop(emp)

abbrev OC : Type := (cc0_stg1_0 : Ref sig .tc).ty.Contents (Elt F)

abbrev f90 (c : Dev nD) : BitVec 1 := Scalar.cmpi .eq (xw c) 0#32
abbrev f91 (c : Dev nD) : BitVec 1 := Scalar.cmpi .eq (xw c) 1#32
abbrev f92 (c : Dev nD) : BitVec 1 := Scalar.cmpi .eq (yw c) 0#32
abbrev f93 (c : Dev nD) : BitVec 1 := Scalar.cmpi .eq (yw c) 1#32
abbrev f94 (c : Dev nD) : BitVec 1 := Scalar.cmpi .eq (zw c) 0#32
abbrev f95 (c : Dev nD) : BitVec 1 := Scalar.cmpi .eq (zw c) 3#32

def out0 (c : Dev nD) : OC (F := F) :=
  k0_pay30 (f91 c) (f92 c) (f93 c) (f94 c) (f95 c) (k0_pay28 (ublk m c))
    (iota .tc S48x48x48 32 [0] iota_S48x48x48_d0_w32) (iota .tc S48x48x48 32 [1] iota_S48x48x48_d1_w32) (iota .tc S48x48x48 32 [2] iota_S48x48x48_d2_w32)
    (k0_pay29 (xw c)) 47#32

def hRow0 (c : Dev nD) : Vec F S1x48x48 .bf16 := hM.view.readAt (Elt F) (Rect.unit (s := S6x48x48) ![0, 0, 0] S1x48x48.size inb_S6x48x48_S1x48x48_0_0_0).toLoadRect (haloC m c)
def hRow1 (c : Dev nD) : Vec F S1x48x48 .bf16 := hM.view.readAt (Elt F) (Rect.unit (s := S6x48x48) ![1, 0, 0] S1x48x48.size inb_S6x48x48_S1x48x48_1_0_0).toLoadRect (haloC m c)
def hRow2 (c : Dev nD) : Vec F S1x48x48 .bf16 := hM.view.readAt (Elt F) (Rect.unit (s := S6x48x48) ![2, 0, 0] S1x48x48.size inb_S6x48x48_S1x48x48_2_0_0).toLoadRect (haloC m c)
def hRow3 (c : Dev nD) : Vec F S1x48x48 .bf16 := hM.view.readAt (Elt F) (Rect.unit (s := S6x48x48) ![3, 0, 0] S1x48x48.size inb_S6x48x48_S1x48x48_3_0_0).toLoadRect (haloC m c)
def hRow4 (c : Dev nD) : Vec F S1x48x48 .bf16 := hM.view.readAt (Elt F) (Rect.unit (s := S6x48x48) ![4, 0, 0] S1x48x48.size inb_S6x48x48_S1x48x48_4_0_0).toLoadRect (haloC m c)
def hRow5 (c : Dev nD) : Vec F S1x48x48 .bf16 := hM.view.readAt (Elt F) (Rect.unit (s := S6x48x48) ![5, 0, 0] S1x48x48.size inb_S6x48x48_S1x48x48_5_0_0).toLoadRect (haloC m c)

def upd0 (c : Dev nD) (o : OC (F := F)) : OC (F := F) :=
  (oM.access (Rect.unit (s := S48x48x48) ![0, 0, 0] S1x48x48.size inb_S48x48x48_S1x48x48_0_0_0)).write (Elt F) o
    (k0_pay31 (k0_pay4 (oM.view.readAt (Elt F) (Rect.unit (s := S48x48x48) ![0, 0, 0] S1x48x48.size inb_S48x48x48_S1x48x48_0_0_0).toLoadRect o)) (k0_pay5 (f92 c) (f93 c) (f94 c) (f95 c)) (k0_pay6 (hRow0 m c))) Finset.univ
def upd1 (c : Dev nD) (o : OC (F := F)) : OC (F := F) :=
  (oM.access (Rect.unit (s := S48x48x48) ![47, 0, 0] S1x48x48.size inb_S48x48x48_S1x48x48_47_0_0)).write (Elt F) o
    (k0_pay32 (k0_pay7 (oM.view.readAt (Elt F) (Rect.unit (s := S48x48x48) ![47, 0, 0] S1x48x48.size inb_S48x48x48_S1x48x48_47_0_0).toLoadRect o)) (k0_pay8 (f92 c) (f93 c) (f94 c) (f95 c)) (k0_pay9 (hRow1 m c))) Finset.univ
def upd2 (c : Dev nD) (o : OC (F := F)) : OC (F := F) :=
  (oM.access (Rect.unit (s := S48x48x48) ![0, 0, 0] S48x2x48.size inb_S48x48x48_S48x2x48_0_0_0)).write (Elt F) o
    (updateSlice (oM.view.readAt (Elt F) (Rect.unit (s := S48x48x48) ![0, 0, 0] S48x2x48.size inb_S48x48x48_S48x2x48_0_0_0).toLoadRect o)
      (k0_pay33 (k0_pay10 (oM.view.readAt (Elt F) (Rect.unit (s := S48x48x48) ![0, 0, 0] S48x1x48.size inb_S48x48x48_S48x1x48_0_0_0).toLoadRect o)) (k0_pay11 (f90 c) (f91 c) (f94 c) (f95 c)) (k0_pay12 (hRow2 m c)))
      ![0, 0, 0] slices_S48x2x48_S48x1x48_0_0_0) Finset.univ
def upd3 (c : Dev nD) (o : OC (F := F)) : OC (F := F) :=
  (oM.access (Rect.unit (s := S48x48x48) ![0, 46, 0] S48x2x48.size inb_S48x48x48_S48x2x48_0_46_0)).write (Elt F) o
    (updateSlice (oM.view.readAt (Elt F) (Rect.unit (s := S48x48x48) ![0, 46, 0] S48x2x48.size inb_S48x48x48_S48x2x48_0_46_0).toLoadRect o)
      (k0_pay1 (k0_pay13 (oM.view.readAt (Elt F) (Rect.unit (s := S48x48x48) ![0, 47, 0] S48x1x48.size inb_S48x48x48_S48x1x48_0_47_0).toLoadRect o)) (k0_pay14 (f90 c) (f91 c) (f94 c) (f95 c)) (k0_pay15 (hRow3 m c)))
      ![0, 1, 0] slices_S48x2x48_S48x1x48_0_1_0) Finset.univ
def upd4 (c : Dev nD) (o : OC (F := F)) : OC (F := F) :=
  (oM.access (Rect.unit (s := S48x48x48) ![0, 0, 0] S48x48x1.size inb_S48x48x48_S48x48x1_0_0_0)).write (Elt F) o
    (k0_pay2 (k0_pay16 (oM.view.readAt (Elt F) (Rect.unit (s := S48x48x48) ![0, 0, 0] S48x48x1.size inb_S48x48x48_S48x48x1_0_0_0).toLoadRect o)) (k0_pay17 (f90 c) (f91 c) (f92 c) (f93 c)) (k0_pay18 (hRow4 m c))) Finset.univ
def upd5 (c : Dev nD) (o : OC (F := F)) : OC (F := F) :=
  (oM.access (Rect.unit (s := S48x48x48) ![0, 0, 47] S48x48x1.size inb_S48x48x48_S48x48x1_0_0_47)).write (Elt F) o
    (k0_pay3 (k0_pay19 (oM.view.readAt (Elt F) (Rect.unit (s := S48x48x48) ![0, 0, 47] S48x48x1.size inb_S48x48x48_S48x48x1_0_0_47).toLoadRect o)) (k0_pay20 (f90 c) (f91 c) (f92 c) (f93 c)) (k0_pay21 (hRow5 m c))) Finset.univ

def out1 (c : Dev nD) : OC (F := F) := if X c = 1 then upd0 m c (out0 m c) else out0 m c
def out2 (c : Dev nD) : OC (F := F) := if X c = 0 then upd1 m c (out1 m c) else out1 m c
def out3 (c : Dev nD) : OC (F := F) := if Y c = 1 then upd2 m c (out2 m c) else out2 m c
def out4 (c : Dev nD) : OC (F := F) := if Y c = 0 then upd3 m c (out3 m c) else out3 m c
def out5 (c : Dev nD) : OC (F := F) := if 0 < Z c then upd4 m c (out4 m c) else out4 m c

def outAt (c : Dev nD) : OC (F := F) := if Z c < 3 then upd5 m c (out5 m c) else out5 m c

def records (K : Dev nD × Fin 13 → ℕ) : sProp 𝕄 :=
  iprop((bigSep Finset.univ fun ck : Dev nD × Fin 13 => cellInv ER (haloRd m) (K ck) (kcell ck))
    ∗ bigSep Finset.univ fun ck : Dev nD × Fin 13 => reached ER (kcell ck) 0)

instance records_persistent (K : Dev nD × Fin 13 → ℕ) : BI.Persistent (records m K) := by unfold records; infer_instance

def payToks (c : Dev nD) : sProp 𝕄 :=
  iprop(dutyTok ER (barCell (fx c)) 0 (0 : Fin 5) ∗ dutyTok ER (barCell (fy c)) 0 (1 : Fin 5)
    ∗ (if 0 < Z c then dutyTok ER (barCell (zdn c)) 0 (2 : Fin 5) else dutyTok ER (barCell c) 0 (4 : Fin 5))
    ∗ (if Z c < 3 then dutyTok ER (barCell (zup c)) 0 (3 : Fin 5) else dutyTok ER (barCell c) 0 (4 : Fin 5))
    ∗ dutyTok ER (recvCell (fx c) (if X c = 0 then 0 else 1)) 0 (0 : Fin 5) ∗ dutyTok ER (recvCell (fy c) (if Y c = 0 then 2 else 3)) 0 (0 : Fin 5)
    ∗ condP (0 < Z c) (dutyTok ER (recvCell (zdn c) 5) 0 (0 : Fin 5)) ∗ condP (Z c < 3) (dutyTok ER (recvCell (zup c) 4) 0 (0 : Fin 5))
    ∗ bigSep Finset.univ fun s : Fin 6 => condP (sendAct c s) (dutyTok ER (sendCell c s) 0 (0 : Fin 5)))

def positions (c : Dev nD) : sProp 𝕄 := bigSep Finset.univ fun k : Fin 13 => atPos ER (kcell (c, k)) 0 ∅ 0

def ghost (K : Dev nD × Fin 13 → ℕ) (c : Dev nD) : sProp 𝕄 := iprop(records m K ∗ positions c ∗ payToks c)

def startCred (c : Dev nD) : sProp 𝕄 :=
  iprop(cred (tallyAt (barCell c) () 4) ∗ bigSep Finset.univ fun s : Fin 6 => condP (recvAct c s) (cred (tallyAt (recvCell c s) () N)))

def start (c : Dev nD) : sProp 𝕄 := iprop((∃ K, ghost m K c) ∗ startCred c ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun s : Fin 6 => semVal (sendCell c s) 0) ∗ (bigSep Finset.univ fun s : Fin 6 => semVal (recvCell c s) 0))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => ublk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (ublk m c) ∗ stg c cc0_stg1_0 (outAt m c))

def BodySound (c : Dev nD) : Prop :=
  ∀ Kt : PUnit → sProp 𝕄, iprop(bodyPre m c ∗ (bodyPost m c -∗ Kt ⟨⟩))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3) Kt

end Cert.Kernel.Halo

end
-- ==== Proof.K.Tables.lean ====
import proofs.«900536_g7700000000000537_dist_halo3d_v7x_xyz2x2x4_s48_bf16_1_alg».proof.Proof.K.State

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem slotOf_send (s : Fin 6) : slotOf (sendSem s) = some (false, s) := by revert s; decide
theorem slotOf_recv (s : Fin 6) : slotOf (recvSem s) = some (true, s) := by revert s; decide
theorem sendSem_0 : ((cc0_scratch2.slice (Rect.unit (s := S6) ![0] S1.size inb_S6_S1_0)).squeeze S_ squeezes_S1_S_).sem = sendSem 0 := by decide
theorem recvSem_0 : ((cc0_scratch3.slice (Rect.unit (s := S6) ![0] S1.size inb_S6_S1_0)).squeeze S_ squeezes_S1_S_).sem = recvSem 0 := by decide
theorem sendSem_1 : ((cc0_scratch2.slice (Rect.unit (s := S6) ![1] S1.size inb_S6_S1_1)).squeeze S_ squeezes_S1_S_).sem = sendSem 1 := by decide
theorem recvSem_1 : ((cc0_scratch3.slice (Rect.unit (s := S6) ![1] S1.size inb_S6_S1_1)).squeeze S_ squeezes_S1_S_).sem = recvSem 1 := by decide
theorem sendSem_2 : ((cc0_scratch2.slice (Rect.unit (s := S6) ![2] S1.size inb_S6_S1_2)).squeeze S_ squeezes_S1_S_).sem = sendSem 2 := by decide
theorem recvSem_2 : ((cc0_scratch3.slice (Rect.unit (s := S6) ![2] S1.size inb_S6_S1_2)).squeeze S_ squeezes_S1_S_).sem = recvSem 2 := by decide
theorem sendSem_3 : ((cc0_scratch2.slice (Rect.unit (s := S6) ![3] S1.size inb_S6_S1_3)).squeeze S_ squeezes_S1_S_).sem = sendSem 3 := by decide
theorem recvSem_3 : ((cc0_scratch3.slice (Rect.unit (s := S6) ![3] S1.size inb_S6_S1_3)).squeeze S_ squeezes_S1_S_).sem = recvSem 3 := by decide
theorem sendSem_4 : ((cc0_scratch2.slice (Rect.unit (s := S6) ![4] S1.size inb_S6_S1_4)).squeeze S_ squeezes_S1_S_).sem = sendSem 4 := by decide
theorem recvSem_4 : ((cc0_scratch3.slice (Rect.unit (s := S6) ![4] S1.size inb_S6_S1_4)).squeeze S_ squeezes_S1_S_).sem = recvSem 4 := by decide
theorem sendSem_5 : ((cc0_scratch2.slice (Rect.unit (s := S6) ![5] S1.size inb_S6_S1_5)).squeeze S_ squeezes_S1_S_).sem = sendSem 5 := by decide
theorem recvSem_5 : ((cc0_scratch3.slice (Rect.unit (s := S6) ![5] S1.size inb_S6_S1_5)).squeeze S_ squeezes_S1_S_).sem = recvSem 5 := by decide
theorem csem_send (s : Fin 6) : csem ⟨1 + s.val, by have := s.isLt; omega⟩ = .dma (sendSem s) := by revert s; decide
theorem csem_recv (s : Fin 6) : csem ⟨7 + s.val, by have := s.isLt; omega⟩ = .dma (recvSem s) := by revert s; decide
theorem csem_injective : Function.Injective csem := by
  intro a b; revert a b; decide

theorem kcell_send (c : Dev nD) (s : Fin 6) : kcell (c, ⟨1 + s.val, by have := s.isLt; omega⟩) = sendCell c s :=
  congrArg (Prod.mk (c : Thread nD τ)) (csem_send s)
theorem kcell_recv (c : Dev nD) (s : Fin 6) : kcell (c, ⟨7 + s.val, by have := s.isLt; omega⟩) = recvCell c s :=
  congrArg (Prod.mk (c : Thread nD τ)) (csem_recv s)

theorem kcell_injective : Function.Injective (kcell : Dev nD × Fin 13 → GSem nD τ sig) := by
  rintro ⟨c, k⟩ ⟨c', k'⟩ h
  have h1 : c = c' := congrArg (fun g : GSem nD τ sig => g.1.1) h
  have h2 : csem k = csem k' := congrArg (fun g : GSem nD τ sig => g.2) h
  rw [h1, csem_injective h2]

theorem send_ne_bar (s : Fin 6) : (SemLoc.dma (sendSem s) : SemLoc sig) ≠ .reg barS := fun h => by cases h
theorem recv_ne_bar (s : Fin 6) : (SemLoc.dma (recvSem s) : SemLoc sig) ≠ .reg barS := fun h => by cases h
theorem sendSem_ne_recvSem (s s' : Fin 6) : sendSem s ≠ recvSem s' := by revert s s'; decide
theorem send_ne_recv (s s' : Fin 6) : (SemLoc.dma (sendSem s) : SemLoc sig) ≠ .dma (recvSem s') :=
  fun h => sendSem_ne_recvSem s s' (SemLoc.dma.inj h)
theorem sendSem_injective : Function.Injective sendSem := by intro a b; revert a b; decide
theorem recvSem_injective : Function.Injective recvSem := by intro a b; revert a b; decide

theorem bar_eq_iff {a b : Dev nD} : barCell a = barCell b ↔ a = b :=
  ⟨fun h => congrArg (fun g : GSem nD τ sig => g.1.1) h, fun h => h ▸ rfl⟩
theorem recv_eq_iff {a b : Dev nD} {s s' : Fin 6} : recvCell a s = recvCell b s' ↔ a = b ∧ s = s' :=
  ⟨fun h => ⟨congrArg (fun g : GSem nD τ sig => g.1.1) h, recvSem_injective (SemLoc.dma.inj (congrArg (fun g : GSem nD τ sig => g.2) h))⟩,
    fun h => by rw [h.1, h.2]⟩
theorem recv_ne_barCell (a b : Dev nD) (s : Fin 6) : recvCell a s ≠ barCell b :=
  fun h => recv_ne_bar s (congrArg (fun g : GSem nD τ sig => g.2) h)
section Sched
variable (c : Dev nD)

theorem duties_bar : (haloRd (F := F) m).duties (barCell c) 0 = barDuties c := by
  dsimp only [haloRd]; exact if_pos ⟨rfl, rfl⟩
theorem duties_send (s : Fin 6) : (haloRd (F := F) m).duties (sendCell c s) 0 = if sendAct c s then {0} else ∅ := by
  dsimp only [haloRd]; rw [if_pos ⟨rfl, rfl⟩, slotOf_send]
theorem duties_recv (s : Fin 6) : (haloRd (F := F) m).duties (recvCell c s) 0 = if recvAct c s then {0} else ∅ := by
  dsimp only [haloRd]; rw [if_pos ⟨rfl, rfl⟩, slotOf_recv]
theorem duties_later (g : GSem nD τ sig) : ∀ r, 1 ≤ r → (haloRd (F := F) m).duties g r = ∅ :=
  fun r hr => by dsimp only [haloRd]; rw [if_neg fun h => by have := h.1; omega]

theorem duties_send_dormant (s : Fin 6) (h : ¬ sendAct c s) : ∀ r, 0 ≤ r → (haloRd (F := F) m).duties (sendCell c s) r = ∅ := fun r _ => by
  rcases Nat.eq_zero_or_pos r with rfl | hr
  · rw [duties_send, if_neg h]
  · exact duties_later m _ r hr

theorem duties_recv_dormant (s : Fin 6) (h : ¬ recvAct c s) : ∀ r, 0 ≤ r → (haloRd (F := F) m).duties (recvCell c s) r = ∅ := fun r _ => by
  rcases Nat.eq_zero_or_pos r with rfl | hr
  · rw [duties_recv, if_neg h]
  · exact duties_later m _ r hr

theorem amount_bar (d : Fin 5) : (haloRd (F := F) m).amount (barCell c) 0 d = 1 := rfl
theorem amount_send (s : Fin 6) (d : Fin 5) : (haloRd (F := F) m).amount (sendCell c s) 0 d = N := rfl
theorem amount_recv (s : Fin 6) (d : Fin 5) : (haloRd (F := F) m).amount (recvCell c s) 0 d = N := rfl
theorem barDuties_z0 (h : Z c = 0) : barDuties c = ([0, 1, 2, 4] : List (Fin 5)).toFinset := by revert c; decide
theorem barDuties_zmid (h0 : 0 < Z c) (h3 : Z c < 3) : barDuties c = ([0, 1, 2, 3] : List (Fin 5)).toFinset := by revert c; decide
theorem barDuties_z3 (h : Z c = 3) : barDuties c = ([0, 1, 3, 4] : List (Fin 5)).toFinset := by revert c; decide
theorem barDuties_card : (barDuties c).card = 4 := by revert c; decide

theorem expect_bar : (haloRd (F := F) m).expect (barCell c) 0 = 4 := by
  unfold Schedule.expect Schedule.amountOf
  rw [duties_bar, Finset.sum_congr rfl fun d _ => amount_bar m c d, Finset.sum_const, barDuties_card, smul_eq_mul]
theorem expect_send (s : Fin 6) (h : sendAct c s) : (haloRd (F := F) m).expect (sendCell c s) 0 = N := by
  unfold Schedule.expect Schedule.amountOf; rw [duties_send, if_pos h, Finset.sum_singleton, amount_send]
theorem expect_recv (s : Fin 6) (h : recvAct c s) : (haloRd (F := F) m).expect (recvCell c s) 0 = N := by
  unfold Schedule.expect Schedule.amountOf; rw [duties_recv, if_pos h, Finset.sum_singleton, amount_recv]

theorem payload_bar (d : Fin 5) : (haloRd (F := F) m).payload (barCell c) 0 d = barPay c d := rfl
theorem payload_send (s : Fin 6) (d : Fin 5) : (haloRd (F := F) m).payload (sendCell c s) 0 d = sendPay m c s := by
  dsimp only [haloRd]; rw [slotOf_send]
theorem payload_recv (s : Fin 6) (d : Fin 5) : (haloRd (F := F) m).payload (recvCell c s) 0 d = recvPay m c s := by
  dsimp only [haloRd]; rw [slotOf_recv]

theorem barPay_0 : barPay (F := F) c 0 = nbrPay (fx c) (if X c = 0 then 0 else 1) := rfl
theorem barPay_1 : barPay (F := F) c 1 = nbrPay (fy c) (if Y c = 0 then 2 else 3) := rfl
theorem barPay_2 : barPay (F := F) c 2 = nbrPay (zup c) 4 := rfl
theorem barPay_3 : barPay (F := F) c 3 = nbrPay (zdn c) 5 := rfl
theorem rest_bar_z0 (h : Z c = 0) :
    bigSep ((haloRd (F := F) m).duties (barCell c) 0 \ ∅) (fun d => (haloRd (F := F) m).payload (barCell c) 0 d)
      = iprop(nbrPay (fx c) (if X c = 0 then 0 else 1) ∗ nbrPay (fy c) (if Y c = 0 then 2 else 3) ∗ nbrPay (zup c) 4 ∗ emp) := by
  rw [Finset.sdiff_empty, duties_bar, bigSep_eq_bigSepL_of_eq [0, 1, 2, 4] (barDuties_z0 c h) (by decide)]
  rfl

theorem rest_bar_zmid (h0 : 0 < Z c) (h3 : Z c < 3) :
    bigSep ((haloRd (F := F) m).duties (barCell c) 0 \ ∅) (fun d => (haloRd (F := F) m).payload (barCell c) 0 d)
      = iprop(nbrPay (fx c) (if X c = 0 then 0 else 1) ∗ nbrPay (fy c) (if Y c = 0 then 2 else 3) ∗ nbrPay (zup c) 4 ∗ nbrPay (zdn c) 5) := by
  rw [Finset.sdiff_empty, duties_bar, bigSep_eq_bigSepL_of_eq [0, 1, 2, 3] (barDuties_zmid c h0 h3) (by decide)]
  rfl

theorem rest_bar_z3 (h : Z c = 3) :
    bigSep ((haloRd (F := F) m).duties (barCell c) 0 \ ∅) (fun d => (haloRd (F := F) m).payload (barCell c) 0 d)
      = iprop(nbrPay (fx c) (if X c = 0 then 0 else 1) ∗ nbrPay (fy c) (if Y c = 0 then 2 else 3) ∗ nbrPay (zdn c) 5 ∗ emp) := by
  rw [Finset.sdiff_empty, duties_bar, bigSep_eq_bigSepL_of_eq [0, 1, 3, 4] (barDuties_z3 c h) (by decide)]
  rfl
theorem rest_send (s : Fin 6) (h : sendAct c s) :
    bigSep ((haloRd (F := F) m).duties (sendCell c s) 0 \ ∅) (fun d => (haloRd (F := F) m).payload (sendCell c s) 0 d) = sendPay m c s := by
  rw [Finset.sdiff_empty, duties_send, if_pos h, bigSep_singleton, payload_send]
theorem rest_recv (s : Fin 6) (h : recvAct c s) :
    bigSep ((haloRd (F := F) m).duties (recvCell c s) 0 \ ∅) (fun d => (haloRd (F := F) m).payload (recvCell c s) 0 d) = recvPay m c s := by
  rw [Finset.sdiff_empty, duties_recv, if_pos h, bigSep_singleton, payload_recv]

end Sched

instance haloRd_payload_storable (g : GSem nD τ sig) (r : ℕ) (d : Fin 5) :
    BI.Storable (upEmb : UEmb _ 𝕄) ((haloRd (F := F) m).payload g r d) := by
  dsimp only [haloRd]
  unfold barPay nbrPay sendPay recvPay hPts sPts
  (repeat' split) <;> infer_instance

section Payer
variable (c : Dev nD)

theorem duties_send_act (s : Fin 6) (h : sendAct c s) : (haloRd (F := F) m).duties (sendCell c s) 0 = {0} := by rw [duties_send, if_pos h]
theorem duties_recv_act (s : Fin 6) (h : recvAct c s) : (haloRd (F := F) m).duties (recvCell c s) 0 = {0} := by rw [duties_recv, if_pos h]

theorem recvAct_zup (h : Z c < 3) : recvAct (zup c) 4 := by revert c; decide

theorem mem_barDuties_fx : (0 : Fin 5) ∈ barDuties (fx c) := by revert c; decide
theorem mem_barDuties_fy : (1 : Fin 5) ∈ barDuties (fy c) := by revert c; decide
theorem mem_barDuties_zdn (h : 0 < Z c) : (2 : Fin 5) ∈ barDuties (zdn c) := by revert c; decide
theorem mem_barDuties_zup (h : Z c < 3) : (3 : Fin 5) ∈ barDuties (zup c) := by revert c; decide
theorem mem_barDuties_self_lo (h : ¬ 0 < Z c) : (4 : Fin 5) ∈ barDuties c := by revert c; decide
theorem mem_barDuties_self_hi (h : ¬ Z c < 3) : (4 : Fin 5) ∈ barDuties c := by revert c; decide

theorem slot_fx : (if X (fx c) = 0 then (0 : Fin 6) else 1) = if X c = 0 then 1 else 0 := by revert c; decide
theorem slot_fy : (if Y (fy c) = 0 then (2 : Fin 6) else 3) = if Y c = 0 then 3 else 2 := by revert c; decide

theorem payload_bar_fx : (haloRd (F := F) m).payload (barCell (fx c)) 0 0 = nbrPay c (if X c = 0 then 1 else 0) := by
  rw [payload_bar, barPay_0, fx_fx, slot_fx]
theorem payload_bar_fy : (haloRd (F := F) m).payload (barCell (fy c)) 0 1 = nbrPay c (if Y c = 0 then 3 else 2) := by
  rw [payload_bar, barPay_1, fy_fy, slot_fy]
theorem payload_bar_zdn : (haloRd (F := F) m).payload (barCell (zdn c)) 0 2 = nbrPay c 4 := by
  rw [payload_bar, barPay_2, zup_zdn]
theorem payload_bar_zup : (haloRd (F := F) m).payload (barCell (zup c)) 0 3 = nbrPay c 5 := by
  rw [payload_bar, barPay_3, zdn_zup]
theorem payload_bar_self : (haloRd (F := F) m).payload (barCell c) 0 4 = iprop(emp) := rfl

end Payer

theorem tallyAt_zero' (g : GSem nD τ sig) : (tallyAt g () 0 : CellTallies nD τ sig Unit) = 0 := tallyAt_zero g ()

theorem tallyAt_pos {g g' : GSem nD τ sig} {u : Unit} {k : ℕ} (h : 0 < (tallyAt g () k : CellTallies nD τ sig Unit) g' u) : g' = g ∧ 0 < k := by
  rw [tallyAt_apply] at h
  by_cases hg : g' = g ∧ u = ()
  · rw [if_pos hg] at h; exact ⟨hg.1, h⟩
  · rw [if_neg hg] at h; exact absurd h (Nat.lt_irrefl 0)

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) (u : Unit) : u ∈ L ((c : Thread nD τ), sm) := by
  rw [L_tc]; exact Finset.mem_singleton_self _

theorem Osend_pos {c : Dev nD} {g : GSem nD τ sig} {u : Unit} (h : 0 < Osend c g u) :
    (g = recvCell (zup c) 4 ∧ Z c < 3) ∨ (g = recvCell (zdn c) 5 ∧ 0 < Z c)
      ∨ g = recvCell (fy c) (if Y c = 0 then 2 else 3) ∨ g = recvCell (fx c) (if X c = 0 then 0 else 1) := by
  unfold Osend at h
  rcases Pipeline.add_pos_cases h with h | h
  · rcases Pipeline.add_pos_cases h with h | h
    · rcases Pipeline.add_pos_cases h with h | h
      · obtain ⟨hg, hk⟩ := tallyAt_pos h
        refine .inl ⟨hg, ?_⟩
        by_contra hz; rw [if_neg hz] at hk; exact Nat.lt_irrefl 0 hk
      · obtain ⟨hg, hk⟩ := tallyAt_pos h
        refine .inr (.inl ⟨hg, ?_⟩)
        by_contra hz; rw [if_neg hz] at hk; exact Nat.lt_irrefl 0 hk
    · exact .inr (.inr (.inl (tallyAt_pos h).1))
  · exact .inr (.inr (.inr (tallyAt_pos h).1))

theorem Osend_pos_kind {c : Dev nD} {g : GSem nD τ sig} {u : Unit} (h : 0 < Osend c g u) : ∃ p s, g = recvCell p s := by
  rcases Osend_pos h with ⟨rfl, _⟩ | ⟨rfl, _⟩ | rfl | rfl <;> exact ⟨_, _, rfl⟩

theorem O₀_pos {c : Dev nD} {g : GSem nD τ sig} {u : Unit} (h : 0 < O₀ c g u) :
    ((g = recvCell (zup c) 4 ∧ Z c < 3) ∨ (g = recvCell (zdn c) 5 ∧ 0 < Z c)
      ∨ g = recvCell (fy c) (if Y c = 0 then 2 else 3) ∨ g = recvCell (fx c) (if X c = 0 then 0 else 1))
    ∨ g = barCell (if Z c < 3 then zup c else c) ∨ g = barCell (if 0 < Z c then zdn c else c) ∨ g = barCell (fy c) ∨ g = barCell (fx c) := by
  unfold O₀ at h
  rcases Pipeline.add_pos_cases h with h | h
  · unfold O₁ at h
    rcases Pipeline.add_pos_cases h with h | h
    · unfold O₂ at h
      rcases Pipeline.add_pos_cases h with h | h
      · unfold O₃ at h
        rcases Pipeline.add_pos_cases h with h | h
        · exact .inl (Osend_pos h)
        · exact .inr (.inl (tallyAt_pos h).1)
      · exact .inr (.inr (.inl (tallyAt_pos h).1))
    · exact .inr (.inr (.inr (.inl (tallyAt_pos h).1)))
  · exact .inr (.inr (.inr (.inr (tallyAt_pos h).1)))

theorem O₀_pos_kind {c : Dev nD} {g : GSem nD τ sig} {u : Unit} (h : 0 < O₀ c g u) : (∃ p s, g = recvCell p s) ∨ ∃ p, g = barCell p := by
  rcases O₀_pos h with h | rfl | rfl | rfl | rfl
  · rcases h with ⟨rfl, _⟩ | ⟨rfl, _⟩ | rfl | rfl <;> exact .inl ⟨_, _, rfl⟩
  all_goals exact .inr ⟨_, rfl⟩

theorem lv_bar (c : Dev nD) (u : Unit) : lv (barCell c) u = 1 := rfl
theorem lv_recv (c : Dev nD) (s : Fin 6) (u : Unit) : lv (recvCell c s) u = 2 := by dsimp only [lv]; rw [slotOf_recv]
theorem mayWait_stage (c : Dev nD) (q : DmaSem sig) (hq : slotOf q = none ∨ ∃ s, slotOf q = some (false, s)) (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), .dma q) () = 0 := by
      dsimp only [lv]; rcases hq with hq | ⟨s, hq⟩ <;> rw [hq]
    refine Pipeline.mayWait_of_levAts (mem_L_tc c _ _) fun g u hg => ?_
    rcases O₀_pos_kind hg with ⟨p, s, rfl⟩ | ⟨p, rfl⟩
    · exact ⟨mem_L_tc p _ u, by rw [hlv, lv_recv]; decide⟩
    · exact ⟨mem_L_tc p _ u, by rw [hlv, lv_bar]; decide⟩
  · rw [MayWait_zero]; iintro -; iempintro

theorem mayWait_bar (c : Dev nD) :
    (levAts L lv : sProp 𝕄) ⊢ MayWait (c : Thread nD τ) (.reg barS) () (Osend c) :=
  Pipeline.mayWait_of_levAts (mem_L_tc c _ _) fun g u hg => by
    obtain ⟨p, s, rfl⟩ := Osend_pos_kind hg
    exact ⟨mem_L_tc p _ u, by rw [lv_recv]; exact (show (1 : ℕ) < 2 by decide)⟩

end Cert.Kernel.Halo

end
-- ==== Proof.K.Launch.lean ====
import proofs.«900536_g7700000000000537_dist_halo3d_v7x_xyz2x2x4_s48_bf16_1_alg».proof.Proof.K.Tables

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev osem : Fin 12 → SemLoc sig := fun k =>
  if h : k.val < 6 then .dma (sendSem ⟨k.val, h⟩) else .dma (recvSem ⟨k.val - 6, by have := k.isLt; omega⟩)

theorem ownSemFacts : Pipeline.OwnSemFacts cfg0.spec osem := by decide

theorem share_eq (c : Dev nD) (w : Fin cfg0.W) : (dats m 0 c).share w = fullShare := by unfold Dat.share; split <;> rfl

def haloCells : Finset (GSem nD τ sig) := Finset.univ.map ⟨kcell, kcell_injective⟩

abbrev TIx : Type := Fin 5 ⊕ (Fin 6 ⊕ Fin 6)

def tokOf (cj : Dev nD × TIx) : GSem nD τ sig × ℕ × Fin 5 :=
  match cj with
  | (c, .inl d) => (barCell c, 0, d)
  | (c, .inr (.inl s)) => (sendCell c s, 0, 0)
  | (c, .inr (.inr s)) => (recvCell c s, 0, 0)

def tokAct (cj : Dev nD × TIx) : Prop :=
  match cj with
  | (c, .inl d) => d ∈ barDuties c
  | (c, .inr (.inl s)) => sendAct c s
  | (c, .inr (.inr s)) => recvAct c s

instance tokAct_dec : DecidablePred tokAct := fun cj =>
  match cj with
  | (c, .inl d) => inferInstanceAs (Decidable (d ∈ barDuties c))
  | (c, .inr (.inl s)) => inferInstanceAs (Decidable (sendAct c s))
  | (c, .inr (.inr s)) => inferInstanceAs (Decidable (recvAct c s))

theorem tokOf_injective : Function.Injective (tokOf : Dev nD × TIx → GSem nD τ sig × ℕ × Fin 5) := by
  rintro ⟨c, j⟩ ⟨c', j'⟩ h
  have h1 : c = c' := by
    have := congrArg (fun x : GSem nD τ sig × ℕ × Fin 5 => x.1.1.1) h
    rcases j with d | s | s <;> rcases j' with d' | s' | s' <;> exact this
  subst h1
  have hs := congrArg (fun x : GSem nD τ sig × ℕ × Fin 5 => x.1.2) h
  have hd := congrArg (fun x : GSem nD τ sig × ℕ × Fin 5 => x.2.2) h
  rcases j with d | s | s <;> rcases j' with d' | s' | s'
  · exact congrArg (fun d => (c, Sum.inl d)) hd
  · exact absurd hs.symm (send_ne_bar s')
  · exact absurd hs.symm (recv_ne_bar s')
  · exact absurd hs (send_ne_bar s)
  · exact congrArg (fun s => (c, Sum.inr (Sum.inl s))) (sendSem_injective (SemLoc.dma.inj hs))
  · exact absurd hs (send_ne_recv s s')
  · exact absurd hs (recv_ne_bar s)
  · exact absurd hs.symm (send_ne_recv s' s)
  · exact congrArg (fun s => (c, Sum.inr (Sum.inr s))) (recvSem_injective (SemLoc.dma.inj hs))

def haloToks : Finset (GSem nD τ sig × ℕ × Fin 5) := (Finset.univ.filter tokAct).map ⟨tokOf, tokOf_injective⟩

def u₀ : UU :=
  (initOf (Pipeline.cells cfgs cellOf_inj) (Pipeline.launchToks cfgs cellOf_inj), initOf haloCells haloToks)

def toks (c : Dev nD) : sProp 𝕄 :=
  iprop((bigSep Finset.univ fun d : Fin 5 => condP (d ∈ barDuties c) (dutyTok ER (barCell c) 0 d))
    ∗ (bigSep Finset.univ fun s : Fin 6 => condP (sendAct c s) (dutyTok ER (sendCell c s) 0 (0 : Fin 5)))
    ∗ (bigSep Finset.univ fun s : Fin 6 => condP (recvAct c s) (dutyTok ER (recvCell c s) 0 (0 : Fin 5))))

def G (c : Dev nD) : sProp 𝕄 :=
  iprop((bigSep Finset.univ fun k : Fin 13 => roundState ER (haloRd m) (kcell (c, k)) 0)
    ∗ (bigSep Finset.univ fun k : Fin 13 => iprop(atPos ER (kcell (c, k)) 0 ∅ 0 ∗ reached ER (kcell (c, k)) 0)) ∗ toks c)

def G' (c : Dev nD) : sProp 𝕄 := iprop(∃ K, ghost m K c)

theorem toks_eq : bigSep haloToks (fun x => (dutyTok ER x.1 x.2.1 x.2.2 : sProp 𝕄)) = bigSep Finset.univ fun c : Dev nD => toks c := by
  unfold haloToks
  rw [bigSep_map, bigSep_filter, bigSep_univ_prod]
  refine bigSep_congr fun c _ => ?_
  rw [bigSep_univ_sum, bigSep_univ_sum]
  rfl

theorem fund : BI.own (ER (initOf haloCells haloToks)) ⊢ (|==> bigSep Finset.univ (G m) : sProp 𝕄) := by
  have hX (Φ : GSem nD τ sig → sProp 𝕄) : bigSep haloCells Φ = bigSep Finset.univ fun c : Dev nD => bigSep Finset.univ fun k : Fin 13 => Φ (kcell (c, k)) := by
    unfold haloCells; rw [bigSep_map, bigSep_univ_prod]; rfl
  iintro HX
  imod (Rounds.fund ER (haloRd m) haloCells haloToks) $$ HX with ⟨Hst, Hr, Hat, Htok⟩
  imodintro
  ihave Hst' := (Entails.of_eq (hX fun g => roundState ER (haloRd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

private theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
        ∗ semVal (recvCell c 0) 0 ∗ semVal (recvCell c 1) 0 ∗ semVal (recvCell c 2) 0 ∗ semVal (recvCell c 3) 0 ∗ semVal (recvCell c 4) 0 ∗ semVal (recvCell c 5) 0) := by
  rw [Pipeline.ownSems0_eq_of_list c osem [0, 1, 2, 3, 4, 5, 6, 7, 8, 9, 10, 11] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (haloRd m) (kcell (c, k)) 0)
      ⊢ (|={Set.univ}=> bigSep Finset.univ fun k => iprop(∃ κ : ℕ, cellInv ER (haloRd m) κ (kcell (c, k))) : sProp 𝕄) from by
        rw [← bigSep_sep']
        exact (bigSep_mono fun k _ => (Rounds.body_intro ER (haloRd m) (kcell (c, k))).trans inv_alloc).trans (bigSep_fupd _ _)) $$ [Hv Hst] with Hinv
  · isplitl [Hv] <;> iassumption
  imodintro
  iframe Hinv Hat Htok

private theorem condP_pos {p : Prop} [Decidable p] (h : p) (R : sProp 𝕄) : condP p R = R := if_pos h
private theorem condP_neg {p : Prop} [Decidable p] (h : ¬ p) (R : sProp 𝕄) : condP p R = iprop(emp) := if_neg h
private theorem condP_congr {p q : Prop} [Decidable p] [Decidable q] (h : p ↔ q) (R : sProp 𝕄) : condP p R = condP q R := by
  by_cases hp : p
  · rw [condP_pos hp, condP_pos (h.mp hp)]
  · rw [condP_neg hp, condP_neg (mt h.mpr hp)]

private theorem Z_zup_pos_iff (c : Dev nD) : 0 < Z (zup c) ↔ Z c < 3 := by revert c; decide
private theorem Z_zdn_lt_iff (c : Dev nD) : Z (zdn c) < 3 ↔ 0 < Z c := by revert c; decide
private theorem mem_bar0 (c : Dev nD) : (0 : Fin 5) ∈ barDuties c := by revert c; decide
private theorem mem_bar1 (c : Dev nD) : (1 : Fin 5) ∈ barDuties c := by revert c; decide
private theorem mem_bar2 (c : Dev nD) : (2 : Fin 5) ∈ barDuties c ↔ Z c < 3 := by revert c; decide
private theorem mem_bar3 (c : Dev nD) : (3 : Fin 5) ∈ barDuties c ↔ 0 < Z c := by revert c; decide
private theorem mem_bar4 (c : Dev nD) : (4 : Fin 5) ∈ barDuties c ↔ (Z c = 0 ∨ Z c = 3) := by revert c; decide

private theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
private theorem bigSep_fin6 (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

def minted (c : Dev nD) : sProp 𝕄 :=
  iprop(dutyTok ER (barCell c) 0 (0 : Fin 5) ∗ dutyTok ER (barCell c) 0 (1 : Fin 5)
    ∗ condP (Z c < 3) (dutyTok ER (barCell c) 0 (2 : Fin 5)) ∗ condP (0 < Z c) (dutyTok ER (barCell c) 0 (3 : Fin 5))
    ∗ condP (Z c = 0) (dutyTok ER (barCell c) 0 (4 : Fin 5)) ∗ condP (Z c = 3) (dutyTok ER (barCell c) 0 (4 : Fin 5))
    ∗ iprop(condP (X c = 1) (dutyTok ER (recvCell c 0) 0 (0 : Fin 5)) ∗ condP (X c = 0) (dutyTok ER (recvCell c 1) 0 (0 : Fin 5)))
    ∗ iprop(condP (Y c = 1) (dutyTok ER (recvCell c 2) 0 (0 : Fin 5)) ∗ condP (Y c = 0) (dutyTok ER (recvCell c 3) 0 (0 : Fin 5)))
    ∗ condP (0 < Z c) (dutyTok ER (recvCell c 4) 0 (0 : Fin 5)) ∗ condP (Z c < 3) (dutyTok ER (recvCell c 5) 0 (0 : Fin 5))
    ∗ bigSep Finset.univ fun s : Fin 6 => condP (sendAct c s) (dutyTok ER (sendCell c s) 0 (0 : Fin 5)))

def routed (c : Dev nD) : sProp 𝕄 :=
  iprop(dutyTok ER (barCell (fx c)) 0 (0 : Fin 5) ∗ dutyTok ER (barCell (fy c)) 0 (1 : Fin 5)
    ∗ condP (0 < Z c) (dutyTok ER (barCell (zdn c)) 0 (2 : Fin 5)) ∗ condP (Z c < 3) (dutyTok ER (barCell (zup c)) 0 (3 : Fin 5))
    ∗ condP (Z c = 0) (dutyTok ER (barCell c) 0 (4 : Fin 5)) ∗ condP (Z c = 3) (dutyTok ER (barCell c) 0 (4 : Fin 5))
    ∗ dutyTok ER (recvCell (fx c) (if X c = 0 then 0 else 1)) 0 (0 : Fin 5)
    ∗ dutyTok ER (recvCell (fy c) (if Y c = 0 then 2 else 3)) 0 (0 : Fin 5)
    ∗ condP (Z c < 3) (dutyTok ER (recvCell (zup c) 4) 0 (0 : Fin 5)) ∗ condP (0 < Z c) (dutyTok ER (recvCell (zdn c) 5) 0 (0 : Fin 5))
    ∗ bigSep Finset.univ fun s : Fin 6 => condP (sendAct c s) (dutyTok ER (sendCell c s) 0 (0 : Fin 5)))

private theorem or_split (c : Dev nD) (R : sProp 𝕄) : condP (Z c = 0 ∨ Z c = 3) R ⊢ iprop(condP (Z c = 0) R ∗ condP (Z c = 3) R) := by
  by_cases h0 : Z c = 0
  · rw [condP_pos (Or.inl h0), condP_pos h0, condP_neg (by omega)]
    iintro H; isplitl [H]; · iexact H
    iempintro
  · by_cases h3 : Z c = 3
    · rw [condP_pos (Or.inr h3), condP_neg h0, condP_pos h3]
      iintro H; isplitr; · iempintro
      iexact H
    · rw [condP_neg (by omega), condP_neg h0, condP_neg h3]
      iintro -; isplitl <;> iempintro

theorem toks_minted (c : Dev nD) : (toks c : sProp 𝕄) ⊢ minted c := by
  unfold toks minted
  rw [bigSep_fin5, bigSep_fin6 (fun s : Fin 6 => condP (recvAct c s) (dutyTok ER (recvCell c s) 0 (0 : Fin 5))),
    condP_pos (mem_bar0 c), condP_pos (mem_bar1 c), condP_congr (mem_bar2 c), condP_congr (mem_bar3 c), condP_congr (mem_bar4 c)]
  iintro ⟨⟨H0, H1, H2, H3, H4⟩, HS, ⟨R0, R1, R2, R3, R4, R5⟩⟩
  ihave H4' := (or_split c _) $$ H4
  icases H4' with ⟨H4a, H4b⟩
  iframe H0 H1 H2 H3 H4a H4b
  isplitl [R0 R1]
  · isplitl [R0]
    · iapply (Entails.of_eq (condP_congr (p := recvAct c 0) (q := X c = 1) Iff.rfl _)); iexact R0
    · iapply (Entails.of_eq (condP_congr (p := recvAct c 1) (q := X c = 0) Iff.rfl _)); iexact R1
  isplitl [R2 R3]
  · isplitl [R2]
    · iapply (Entails.of_eq (condP_congr (p := recvAct c 2) (q := Y c = 1) Iff.rfl _)); iexact R2
    · iapply (Entails.of_eq (condP_congr (p := recvAct c 3) (q := Y c = 0) Iff.rfl _)); iexact R3
  isplitl [R4]
  · iapply (Entails.of_eq (condP_congr (p := recvAct c 4) (q := 0 < Z c) Iff.rfl _)); iexact R4
  isplitl [R5]
  · iapply (Entails.of_eq (condP_congr (p := recvAct c 5) (q := Z c < 3) Iff.rfl _)); iexact R5
  iexact HS

private theorem route (e : Dev nD ≃ Dev nD) {Φ Ψ : Dev nD → sProp 𝕄} (h : ∀ c, Φ (e c) ⊢ Ψ c) :
    bigSep Finset.univ Φ ⊢ bigSep Finset.univ Ψ := by
  rw [bigSep_univ_equiv e Φ]; exact bigSep_mono fun c _ => h c

private theorem sep_route {A A' B B' : Dev nD → sProp 𝕄} (hA : bigSep Finset.univ A ⊢ bigSep Finset.univ A') (hB : bigSep Finset.univ B ⊢ bigSep Finset.univ B') :
    (bigSep Finset.univ fun c => iprop(A c ∗ B c)) ⊢ bigSep Finset.univ fun c => iprop(A' c ∗ B' c) := by
  rw [bigSep_sep', bigSep_sep']
  iintro ⟨HA, HB⟩
  isplitl [HA]
  · iapply hA; iexact HA
  · iapply hB; iexact HB

private theorem x_route (c : Dev nD) :
    iprop(condP (X (fx c) = 1) (dutyTok ER (recvCell (fx c) 0) 0 (0 : Fin 5)) ∗ condP (X (fx c) = 0) (dutyTok ER (recvCell (fx c) 1) 0 (0 : Fin 5)))
      ⊢ (dutyTok ER (recvCell (fx c) (if X c = 0 then 0 else 1)) 0 (0 : Fin 5) : sProp 𝕄) := by
  have hx := X_lt c; have hfx := X_fx c
  by_cases h : X c = 0
  · rw [condP_pos (by omega), condP_neg (by omega), if_pos h]; iintro ⟨H, -⟩; iexact H
  · rw [condP_neg (by omega), condP_pos (by omega), if_neg h]; iintro ⟨-, H⟩; iexact H

private theorem y_route (c : Dev nD) :
    iprop(condP (Y (fy c) = 1) (dutyTok ER (recvCell (fy c) 2) 0 (0 : Fin 5)) ∗ condP (Y (fy c) = 0) (dutyTok ER (recvCell (fy c) 3) 0 (0 : Fin 5)))
      ⊢ (dutyTok ER (recvCell (fy c) (if Y c = 0 then 2 else 3)) 0 (0 : Fin 5) : sProp 𝕄) := by
  have hy := Y_lt c; have hfy := Y_fy c
  by_cases h : Y c = 0
  · rw [condP_pos (by omega), condP_neg (by omega), if_pos h]; iintro ⟨H, -⟩; iexact H
  · rw [condP_neg (by omega), condP_pos (by omega), if_neg h]; iintro ⟨-, H⟩; iexact H

theorem minted_routed : (bigSep Finset.univ fun c : Dev nD => (minted c : sProp 𝕄)) ⊢ bigSep Finset.univ fun c : Dev nD => routed c := by
  unfold minted routed
  refine sep_route (route fxE fun c => .rfl) ?_
  refine sep_route (route fyE fun c => .rfl) ?_
  refine sep_route (route zupE.symm fun c => Entails.of_eq (condP_congr (Z_zdn_lt_iff c) _)) ?_
  refine sep_route (route zupE fun c => Entails.of_eq (condP_congr (Z_zup_pos_iff c) _)) ?_
  refine sep_route .rfl ?_
  refine sep_route .rfl ?_
  refine sep_route (route fxE fun c => x_route c) ?_
  refine sep_route (route fyE fun c => y_route c) ?_
  refine sep_route (route zupE fun c => Entails.of_eq (condP_congr (Z_zup_pos_iff c) _)) ?_
  refine sep_route (route zupE.symm fun c => Entails.of_eq (condP_congr (Z_zdn_lt_iff c) _)) ?_
  exact .rfl

private theorem low_pay (c : Dev nD) (A B : sProp 𝕄) : iprop(condP (0 < Z c) A ∗ condP (Z c = 0) B) ⊢ if 0 < Z c then A else B := by
  by_cases h : 0 < Z c
  · rw [condP_pos h, if_pos h]; iintro ⟨H, -⟩; iexact H
  · rw [condP_neg h, condP_pos (by omega), if_neg h]; iintro ⟨-, H⟩; iexact H
private theorem high_pay (c : Dev nD) (A B : sProp 𝕄) : iprop(condP (Z c < 3) A ∗ condP (Z c = 3) B) ⊢ if Z c < 3 then A else B := by
  have hz := Z_lt c
  by_cases h : Z c < 3
  · rw [condP_pos h, if_pos h]; iintro ⟨H, -⟩; iexact H
  · rw [condP_neg h, condP_pos (by omega), if_neg h]; iintro ⟨-, H⟩; iexact H

theorem routed_pay (c : Dev nD) : (routed c : sProp 𝕄) ⊢ payToks c := by
  unfold routed payToks
  iintro ⟨H0, H1, H2, H3, H4a, H4b, Hx, Hy, Hr4, Hr5, HS⟩
  iframe H0 H1
  isplitl [H2 H4a]
  · iapply (low_pay c _ _); isplitl [H2] <;> iassumption
  isplitl [H3 H4b]
  · iapply (high_pay c _ _); isplitl [H3] <;> iassumption
  iframe Hx Hy Hr5 Hr4 HS

theorem toks_around : (bigSep Finset.univ fun c : Dev nD => (toks c : sProp 𝕄)) ⊢ bigSep Finset.univ fun c : Dev nD => payToks c :=
  ((bigSep_mono fun c _ => toks_minted (F := F) c).trans (minted_routed (F := F))).trans (bigSep_mono fun c _ => routed_pay (F := F) c)

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 13 → ℕ) (c : Dev nD) : iprop(records m K ∗ iprop(positions c ∗ payToks c)) ⊢ G' m c := by
  unfold G' ghost
  iintro ⟨HR, Hp, Ht⟩
  iexists K
  isplitl [HR]; · iexact HR
  isplitl [Hp] <;> iassumption

theorem regroup :
    (bigSep Finset.univ fun c : Dev nD => iprop((bigSep Finset.univ fun k => iprop(∃ κ : ℕ, cellInv ER (haloRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (haloRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (haloRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · unfold positions; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

private theorem barCell_ne_recv (a b : Dev nD) (s : Fin 6) : barCell a ≠ recvCell b s := fun h => recv_ne_barCell b a s h.symm

def kb (d c : Dev nD) : ℕ :=
  (if c = (if Z d < 3 then zup d else d) then 1 else 0) + (if c = (if 0 < Z d then zdn d else d) then 1 else 0)
    + (if c = fy d then 1 else 0) + (if c = fx d then 1 else 0)

def kr (d c : Dev nD) (s : Fin 6) : ℕ :=
  (if c = zup d ∧ s = 4 then (if Z d < 3 then 1 else 0) else 0) + (if c = zdn d ∧ s = 5 then (if 0 < Z d then 1 else 0) else 0)
    + (if c = fy d ∧ s = (if Y d = 0 then 2 else 3) then 1 else 0) + (if c = fx d ∧ s = (if X d = 0 then 0 else 1) then 1 else 0)

theorem kb_sum (c : Dev nD) : ∑ d : Dev nD, kb d c = 4 := by revert c; decide

theorem kr_sum (c : Dev nD) (s : Fin 6) : ∑ d : Dev nD, kr d c s = if recvAct c s then 1 else 0 := by revert c s; decide

theorem owed_bar (d c : Dev nD) : O₀ d (barCell c) () = kb d c := by
  unfold O₀ O₁ O₂ O₃ O₄ Osend kb
  simp only [Pi.add_apply, Finsupp.add_apply, tallyAt_apply, bar_eq_iff, barCell_ne_recv, false_and, and_true, if_false, Nat.zero_add]

theorem owed_recv (d c : Dev nD) (s : Fin 6) : O₀ d (recvCell c s) () = N * kr d c s := by
  unfold O₀ O₁ O₂ O₃ O₄ Osend kr
  generalize N = n
  simp only [Pi.add_apply, Finsupp.add_apply, tallyAt_apply, recv_eq_iff, recv_ne_barCell, false_and, and_true, if_false, Nat.add_zero,
    Nat.mul_add, mul_ite, mul_one, mul_zero]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, kb_sum]

theorem launch_recv (c : Dev nD) (s : Fin 6) :
    tallyOn (recvCell c s) (launchCredit (Pipeline.owing O₀) 0 (recvCell c s)) = (tallyAt (recvCell c s) () (if recvAct c s then N else 0) : CellTallies nD τ sig Unit) := by
  unfold tallyAt; refine congrArg _ (Finsupp.ext fun u => ?_); cases u
  rw [Pipeline.launchCredit_owing, Finsupp.single_eq_same, Finset.sum_congr rfl fun d _ => owed_recv d c s, ← Finset.mul_sum, kr_sum]
  split <;> simp

private theorem recvLoc_injective : Function.Injective (fun s : Fin 6 => (SemLoc.dma (recvSem s) : SemLoc sig)) :=
  fun a b h => recvSem_injective (SemLoc.dma.inj h)

private theorem bigSep_mono' {I : Type} {S : Finset I} {Φ Ψ : I → sProp 𝕄} (h : ∀ i ∈ S, Φ i ⊢ Ψ i) : bigSep S Φ ⊢ bigSep S Ψ := bigSep_mono h

theorem creds (c : Dev nD) : (Pipeline.launchCred O₀ c : sProp 𝕄) ⊢ startCred c := by
  unfold Pipeline.launchCred startCred
  refine (bigSep_subset (t := insert (SemLoc.reg barS) (Finset.univ.map ⟨_, recvLoc_injective⟩)) (Finset.subset_univ _)).trans ?_
  rw [bigSep_insert (fun h => by obtain ⟨s, -, hs⟩ := Finset.mem_map.mp h; exact recv_ne_bar s hs), bigSep_map, launch_bar]
  show iprop(cred (tallyAt (barCell c) () 4) ∗ bigSep Finset.univ fun s : Fin 6 => cred (tallyOn (recvCell c s) (launchCredit (Pipeline.owing O₀) 0 (recvCell c s))))
    ⊢ iprop(cred (tallyAt (barCell c) () 4) ∗ bigSep Finset.univ fun s : Fin 6 => condP (recvAct c s) (cred (tallyAt (recvCell c s) () N)))
  iintro ⟨H1, H2⟩
  isplitl [H1]; · iexact H1
  iapply (bigSep_mono' (S := Finset.univ) fun (s : Fin 6) _ => show
      (cred (tallyOn (recvCell c s) (launchCredit (Pipeline.owing O₀) 0 (recvCell c s))) : sProp 𝕄) ⊢ condP (recvAct c s) (cred (tallyAt (recvCell c s) () N)) from by
    rw [launch_recv]
    by_cases h : recvAct c s
    · rw [if_pos h, condP_pos h]
    · rw [condP_neg h]; iintro -; iempintro)
  iexact H2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  rw [bigSep_fin6, bigSep_fin6]
  iintro ⟨H0, H1, ⟨S0, S1, S2, S3, S4, S5⟩, ⟨R0, R1, R2, R3, R4, R5⟩⟩
  isplitr; · iempintro
  isplitr [H0 H1]
  · isplitl [S0]; · iexact S0
    iframe S1 S2 S3 S4 S5 R0 R1 R2 R3 R4 R5
  isplitl [H0] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> exact Or.inl (by decide)) _ (by
      rcases t with ⟨_ | _, ht⟩
      · exact Or.inl rfl
      · exact Or.inr rfl)

private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
theorem body_obligation (hbody : ∀ c : Dev nD, BodySound (F := F) m c) (c : Dev nD) :
    BodyObligation (dats (F := F) m 0 c) (defs₀ (F := F)) 𝒱₀ () Set.univ := fun t => by
  rw [fin_N t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m c)
  iintro H
  iapply (hbody c fun _ => bodyPost m c)
  isplitl [H]; · iexact H
  iintro H; iexact H

set_option maxRecDepth 8000 in

theorem run_arrays (hbody : ∀ c : Dev nD, BodySound (F := F) m c) :
    θ_run defs (onTc (τ := τ) (main (F := F))) ⟨m, fun _ => 0, ρ⟩ (fun r =>
      ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

theorem final_in (c : Dev nD) : (dats m 0 c).arrAt (0 : Fin 2) cfg0.N = m ((c : Thread nD τ).loc main_arg0) :=
  (dats (F := F) m 0 c).arrAt_in (0 : Fin 2) rfl _

theorem final_out (c : Dev nD) : (dats m 0 c).arrAt (1 : Fin 2) cfg0.N = outAt m c := by
  have h := (dats (F := F) m 0 c).arrAt_succ (1 : Fin 2) t₀
  rw [flush0_1 t₀, if_pos rfl] at h
  refine (show (dats m 0 c).arrAt (1 : Fin 2) cfg0.N = (dats m 0 c).arrAt (1 : Fin 2) (t₀.val + 1) from rfl).trans (h.trans ?_)
  exact Memref.write_access_unit_zero_univ (Elt F) main_v1 (off := fun a => (cfg0.win 1).index t₀ a * (cfg0.win 1).size a)
    (funext fun a => by fin_cases a <;> rfl) _ _ _

/-- From each device's body: every fair run ends, device `c` at `outAt m c`, its input block unchanged. -/
theorem run_main (hbody : ∀ c : Dev nD, BodySound (F := F) m c) :
    θ_run defs (onTc (τ := τ) (main (F := F))) ⟨m, fun _ => 0, ρ⟩ (fun r => ∀ c : Dev nD,
      r.2.mem ((c.tc : Thread nD τ).loc main_v1) = outAt m c ∧ r.2.mem ((c.tc : Thread nD τ).loc main_arg0) = m ((c.tc : Thread nD τ).loc main_arg0)) :=
  (θ_run defs _ _).mono (fun _ h c => ⟨((h c) (1 : Fin 2)).trans (final_out m c), ((h c) (0 : Fin 2)).trans (final_in m c)⟩) (run_arrays m ρ hbody)

end Cert.Kernel.Halo

end
-- ==== Proof.K.BodyInv.lean ====
import proofs.«900536_g7700000000000537_dist_halo3d_v7x_xyz2x2x4_s48_bf16_1_alg».proof.Proof.K.Tables

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def six (Φ : Fin 6 → sProp 𝕄) : sProp 𝕄 := iprop(Φ 0 ∗ Φ 1 ∗ Φ 2 ∗ Φ 3 ∗ Φ 4 ∗ Φ 5)

abbrev pt0 (c : Dev nD) (f : Buf (Elt F) ((c : Thread nD τ).loc cc0_stg0_0)) : sProp 𝕄 := ((c : Thread nD τ).loc cc0_stg0_0) ↦{fullShare} f
abbrev pt1 (c : Dev nD) (f : Buf (Elt F) ((c : Thread nD τ).loc cc0_stg1_0)) : sProp 𝕄 := ((c : Thread nD τ).loc cc0_stg1_0) ↦{fullShare} f
abbrev ptH (c : Dev nD) (f : Buf (Elt F) ((c : Thread nD τ).loc cc0_scratch0)) : sProp 𝕄 := ((c : Thread nD τ).loc cc0_scratch0) ↦{fullShare} f
abbrev ptS (c : Dev nD) (f : Buf (Elt F) ((c : Thread nD τ).loc cc0_scratch1)) : sProp 𝕄 := ((c : Thread nD τ).loc cc0_scratch1) ↦{fullShare} f

abbrev WP {α : Type} (c : Dev nD) (p : Prog (TpuEff nD τ sig (Elt F) Λ₀ .tc) α) (Q : α → sProp 𝕄) : sProp 𝕄 :=
  wp frame (wpE (defs₀ (F := F)) 𝒱₀ c none) Set.univ p Q

def sTok (c : Dev nD) (s : Fin 6) : sProp 𝕄 := condP (sendAct c s) (dutyTok ER (sendCell c s) 0 (0 : Fin 5))

def rCred (c : Dev nD) (s : Fin 6) : sProp 𝕄 := condP (recvAct c s) (cred (tallyAt (recvCell c s) () N))
def sCred (c : Dev nD) (s : Fin 6) : sProp 𝕄 := condP (sendAct c s) (cred (tallyAt (sendCell c s) () N))

def hGive (c : Dev nD) (s : Fin 6) : sProp 𝕄 := condP (recvAct c s) iprop(∃ f, hPts c s f)
def hBack (c : Dev nD) (s : Fin 6) : sProp 𝕄 := condP (recvAct c s) (hPts c s (haloC m c))

def sKeep (c : Dev nD) (s : Fin 6) : sProp 𝕄 := condP (¬ sendAct c s) (sPts c s (sendC m c))
def sBack (c : Dev nD) (s : Fin 6) : sProp 𝕄 := condP (sendAct c s) (sPts c s (sendC m c))

def rPos0 (c : Dev nD) (s : Fin 6) : sProp 𝕄 := atPos ER (recvCell c s) 0 ∅ 0
def rPos1 (c : Dev nD) (s : Fin 6) : sProp 𝕄 := atPos ER (recvCell c s) (if recvAct c s then 1 else 0) ∅ 0
def sPos0 (c : Dev nD) (s : Fin 6) : sProp 𝕄 := atPos ER (sendCell c s) 0 ∅ 0
def sPos1 (c : Dev nD) (s : Fin 6) : sProp 𝕄 := atPos ER (sendCell c s) (if sendAct c s then 1 else 0) ∅ 0

def pre7 (K : Dev nD × Fin 13 → ℕ) (W : Waits sig Unit) (c : Dev nD) : sProp 𝕄 :=
  iprop(records m K ∗ owes (c : Thread nD τ) (O₀ c) W
    ∗ dutyTok ER (barCell (fx c)) 0 (0 : Fin 5) ∗ dutyTok ER (barCell (fy c)) 0 (1 : Fin 5)
    ∗ (if 0 < Z c then dutyTok ER (barCell (zdn c)) 0 (2 : Fin 5) else dutyTok ER (barCell c) 0 (4 : Fin 5))
    ∗ hGive c 0 ∗ hGive c 1 ∗ hGive c 2 ∗ hGive c 3 ∗ hGive c 4)
def post7 (W : Waits sig Unit) (c : Dev nD) : sProp 𝕄 := owes (c : Thread nD τ) (O₃ c) W

def Part7Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre7 m K W c ∗ (post7 (F := F) W c -∗
        WP c (k ⟨c, xw c, yw c, zw c, SemArray.scalar (sig.barrier 0 rfl), Scalar.extui (Scalar.cmpi .slt (zw c) 3#32)⟩) Q))
      ⊢ WP c (k0_part7 (F := F) uM (Memref.isWhole_whole _) oM (Memref.isWhole_whole _) hM (Memref.isWhole_whole _) sM (Memref.isWhole_whole _) cc0_scratch2 cc0_scratch3 >>= k) Q

def filledTo (n : ℕ) (c : Dev nD) (f : Buf (Elt F) ((c : Thread nD τ).loc cc0_scratch1)) : Prop :=
  ∀ idx, (idx 0).val < n → f idx = sendC m c idx

def pre8 (K : Dev nD × Fin 13 → ℕ) (W : Waits sig Unit) (c : Dev nD) : sProp 𝕄 :=
  iprop(records m K ∗ owes (c : Thread nD τ) (O₃ c) W
    ∗ (if Z c < 3 then dutyTok ER (barCell (zup c)) 0 (3 : Fin 5) else dutyTok ER (barCell c) 0 (4 : Fin 5))
    ∗ hGive c 5
    ∗ pt0 c (ublk m c) ∗ (∃ f, ptS c f))
def post8 (W : Waits sig Unit) (c : Dev nD) : sProp 𝕄 :=
  iprop(owes (c : Thread nD τ) (Osend c) W ∗ pt0 c (ublk m c) ∗ (∃ f, ⌜filledTo m 3 c f⌝ ∗ ptS c f))

def Part8Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre8 m K W c ∗ (post8 m W c -∗
        WP c (k (k0_pay25 (uM.view.readAt (Elt F) (Rect.unit (s := S48x48x48) ![0, 47, 0] S48x1x48.size inb_S48x48x48_S48x1x48_0_47_0).toLoadRect (ublk m c)))) Q))
      ⊢ WP c (k0_part8 (F := F) uM (Memref.isWhole_whole _) oM (Memref.isWhole_whole _) hM (Memref.isWhole_whole _) sM (Memref.isWhole_whole _) cc0_scratch2 cc0_scratch3 c (xw c) (yw c) (zw c) (SemArray.scalar (sig.barrier 0 rfl)) (Scalar.extui (Scalar.cmpi .slt (zw c) 3#32)) >>= k) Q

def pre9 (K : Dev nD × Fin 13 → ℕ) (W : Waits sig Unit) (c : Dev nD) : sProp 𝕄 :=
  iprop(records m K ∗ levAts L lv ∗ owes (c : Thread nD τ) (Osend c) W
    ∗ pt0 c (ublk m c) ∗ (∃ f, ⌜filledTo m 3 c f⌝ ∗ ptS c f)
    ∗ cred (tallyAt (barCell c) () 4) ∗ atPos ER (barCell c) 0 ∅ 0
    ∗ sTok c 0 ∗ sTok c 1 ∗ sTok c 2 ∗ sTok c 3 ∗ sTok c 4
    ∗ dutyTok ER (recvCell (fx c) (if X c = 0 then 0 else 1)) 0 (0 : Fin 5) ∗ dutyTok ER (recvCell (fy c) (if Y c = 0 then 2 else 3)) 0 (0 : Fin 5)
    ∗ condP (0 < Z c) (dutyTok ER (recvCell (zdn c) 5) 0 (0 : Fin 5)))
def post9 (c : Dev nD) : sProp 𝕄 :=
  iprop((∃ W, owes (c : Thread nD τ) (tallyAt (recvCell (zup c) 4) () (if Z c < 3 then N else 0)) W)
    ∗ pt0 c (ublk m c)
    ∗ sKeep m c 0 ∗ sKeep m c 1 ∗ sKeep m c 2 ∗ sKeep m c 3 ∗ sKeep m c 4 ∗ sPts c 5 (sendC m c)
    ∗ sCred c 0 ∗ sCred c 1 ∗ sCred c 2 ∗ sCred c 3 ∗ sCred c 4
    ∗ condP (Z c < 3) (nbrPay (zup c) 4))

def Part9Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre9 m K W c ∗ (post9 m c -∗ WP c (k ⟨⟩) Q))
      ⊢ WP c (k0_part9 (F := F) uM (Memref.isWhole_whole _) oM (Memref.isWhole_whole _) hM (Memref.isWhole_whole _) sM (Memref.isWhole_whole _) cc0_scratch2 cc0_scratch3 c (xw c) (yw c) (zw c) (SemArray.scalar (sig.barrier 0 rfl))
          (k0_pay25 (uM.view.readAt (Elt F) (Rect.unit (s := S48x48x48) ![0, 47, 0] S48x1x48.size inb_S48x48x48_S48x1x48_0_47_0).toLoadRect (ublk m c))) >>= k) Q

def pre10 (K : Dev nD × Fin 13 → ℕ) (W : Waits sig Unit) (c : Dev nD) : sProp 𝕄 :=
  iprop(records m K ∗ owes (c : Thread nD τ) (tallyAt (recvCell (zup c) 4) () (if Z c < 3 then N else 0)) W
    ∗ condP (Z c < 3) (nbrPay (zup c) 4) ∗ sPts c 5 (sendC m c)
    ∗ sTok c 5 ∗ condP (Z c < 3) (dutyTok ER (recvCell (zup c) 4) 0 (0 : Fin 5))
    ∗ pt0 c (ublk m c))
def post10 (W : Waits sig Unit) (c : Dev nD) : sProp 𝕄 :=
  iprop(owes (c : Thread nD τ) 0 W ∗ sKeep m c 5 ∗ sCred c 5 ∗ pt0 c (ublk m c))

def Part10Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre10 m K W c ∗ (post10 m W c -∗
        WP c (k ⟨f90 c, f91 c, f92 c, f93 c, f94 c, f95 c, k0_pay28 (ublk m c),
          iota .tc S48x48x48 32 [0] iota_S48x48x48_d0_w32, iota .tc S48x48x48 32 [1] iota_S48x48x48_d1_w32, iota .tc S48x48x48 32 [2] iota_S48x48x48_d2_w32,
          k0_pay29 (xw c), 47#32⟩) Q))
      ⊢ WP c (k0_part10 (F := F) uM (Memref.isWhole_whole _) oM (Memref.isWhole_whole _) hM (Memref.isWhole_whole _) sM (Memref.isWhole_whole _) cc0_scratch2 cc0_scratch3 c (xw c) (yw c) (zw c) >>= k) Q

def pre11 (K : Dev nD × Fin 13 → ℕ) (W : Waits sig Unit) (c : Dev nD) : sProp 𝕄 :=
  iprop(records m K ∗ owes (c : Thread nD τ) 0 W ∗ (∃ g, pt1 c g)
    ∗ rCred c 0 ∗ rCred c 1 ∗ rCred c 2 ∗ rPos0 c 0 ∗ rPos0 c 1 ∗ rPos0 c 2)
def post11 (c : Dev nD) : sProp 𝕄 :=
  iprop((∃ W, owes (c : Thread nD τ) 0 W) ∗ pt1 c (out3 m c)
    ∗ hBack m c 0 ∗ hBack m c 1 ∗ hBack m c 2 ∗ rPos1 c 0 ∗ rPos1 c 1 ∗ rPos1 c 2)

def Part11Spec (c : Dev nD) : Prop :=
  ∀ (K : Dev nD × Fin 13 → ℕ) (W : Waits sig Unit) {α : Type} (k : _ → Prog (TpuEff nD τ sig (Elt F) Λ₀ .tc) α) (Q : α → sProp 𝕄),
    iprop(pre11 m K W c ∗ (post11 m c -∗ WP c (k (Scalar.cmpi .ne (Scalar.extui (Scalar.cmpi .eq (yw c) 0#32)) 0#32)) Q))
      ⊢ WP c (k0_part11 (F := F) uM (Memref.isWhole_whole _) oM (Memref.isWhole_whole _) hM (Memref.isWhole_whole _) sM (Memref.isWhole_whole _) cc0_scratch2 cc0_scratch3 (xw c) (yw c) (zw c) (f90 c) (f91 c) (f92 c) (f93 c) (f94 c) (f95 c) (k0_pay28 (ublk m c))
          (iota .tc S48x48x48 32 [0] iota_S48x48x48_d0_w32) (iota .tc S48x48x48 32 [1] iota_S48x48x48_d1_w32) (iota .tc S48x48x48 32 [2] iota_S48x48x48_d2_w32)
          (k0_pay29 (xw c)) 47#32 >>= k) Q

def tailProg (arg0 : Memref sig .tc .vmem S48x48x48 .f32) (harg0 : arg0.IsWhole) (arg1 : Memref sig .tc .vmem S48x48x48 .bf16) (harg1 : arg1.IsWhole) (arg2 : Memref sig .tc .vmem S6x48x48 .bf16) (harg2 : arg2.IsWhole) (arg3 : Memref sig .tc .vmem S6x48x48 .bf16) (harg3 : arg3.IsWhole) (arg4 : DmaSems sig S6) (arg5 : DmaSems sig S6)
    (v2 v5 v8 : BitVec 32) (v90 v91 v92 v93 v94 v95 v168 : BitVec 1) : Prog (TpuEff nD τ sig (Elt F) Λ₀ .tc) PUnit := do
  if k0_h14 : v168 = 1#1 then do
    let ⟨v206, v227, v229⟩ : Σ' (v206 : FVec F S48x48 .bf16) (v227 : IVec S48x48 1), FVec F S48x48 .bf16 ← k0_part4 arg0 harg0 arg1 harg1 arg2 harg2 arg3 harg3 arg4 arg5 v2 v5 v8 v90 v91 v94 v95
    let v233 : Vec F S48x1x48 .bf16 ← Prog.lift (.load arg1 (Rect.unit (s := S48x48x48) ![0, 47, 0] S48x1x48.size inb_S48x48x48_S48x1x48_0_47_0).toLoadRect (View.loadsAt_vmem h_S48x1x48))
    storeSubelements arg1 (Rect.unit (s := S48x48x48) ![0, 46, 0] S48x2x48.size inb_S48x48x48_S48x2x48_0_46_0) (fun old => updateSlice old (k0_pay1 v206 v227 v229) ![0, 1, 0] slices_S48x2x48_S48x1x48_0_1_0) (View.loadsAt_vmem h_S48x2x48) (View.stores_vmem h_S48x2x48 (harg1.storeExact_slice rfl _ packedbf16_S48x48x48_S48x2x48_0_46_0) (fun _ => rfl))
    pure ⟨⟩
  else do
    pure ⟨⟩
  let v169 : BitVec 1 := Scalar.cmpi .sgt v8 0#32
  let v170 : BitVec 32 := Scalar.extui v169
  let v171 : BitVec 1 := Scalar.cmpi .ne v170 0#32
  if k0_h15 : v171 = 1#1 then do
    let ⟨v206, v227, v229⟩ : Σ' (v206 : FVec F S48x48 .bf16) (v227 : IVec S48x48 1), FVec F S48x48 .bf16 ← k0_part5 arg0 harg0 arg1 harg1 arg2 harg2 arg3 harg3 arg4 arg5 v2 v5 v8 v90 v91 v92 v93
    let v233 : Vec F S48x48x1 .bf16 ← Prog.lift (.load arg1 (Rect.unit (s := S48x48x48) ![0, 0, 0] S48x48x1.size inb_S48x48x48_S48x48x1_0_0_0).toLoadRect (View.loadsAt_vmem h_S48x48x1))
    Prog.lift (.store arg1 (Rect.unit (s := S48x48x48) ![0, 0, 0] S48x48x1.size inb_S48x48x48_S48x48x1_0_0_0) (k0_pay2 v206 v227 v229) Finset.univ (View.stores_vmem h_S48x48x1 (harg1.storeExact_slice rfl _ packedbf16_S48x48x48_S48x48x1_0_0_0) (fun _ => rfl)) (.inl rfl))
    pure ⟨⟩
  else do
    pure ⟨⟩
  let v172 : BitVec 1 := Scalar.cmpi .slt v8 3#32
  let v173 : BitVec 32 := Scalar.extui v172
  let v174 : BitVec 1 := Scalar.cmpi .ne v173 0#32
  if k0_h16 : v174 = 1#1 then do
    let ⟨v206, v227, v229⟩ : Σ' (v206 : FVec F S48x48 .bf16) (v227 : IVec S48x48 1), FVec F S48x48 .bf16 ← k0_part6 arg0 harg0 arg1 harg1 arg2 harg2 arg3 harg3 arg4 arg5 v2 v5 v8 v90 v91 v92 v93
    let v233 : Vec F S48x48x1 .bf16 ← Prog.lift (.load arg1 (Rect.unit (s := S48x48x48) ![0, 0, 47] S48x48x1.size inb_S48x48x48_S48x48x1_0_0_47).toLoadRect (View.loadsAt_vmem h_S48x48x1))
    Prog.lift (.store arg1 (Rect.unit (s := S48x48x48) ![0, 0, 47] S48x48x1.size inb_S48x48x48_S48x48x1_0_0_47) (k0_pay3 v206 v227 v229) Finset.univ (View.stores_vmem h_S48x48x1 (harg1.storeExact_slice rfl _ packedbf16_S48x48x48_S48x48x1_0_0_47) (fun _ => rfl)) (.inl rfl))
    pure ⟨⟩
  else do
    pure ⟨⟩
  let v175 : BitVec 1 := Scalar.cmpi .eq v2 0#32
  let v176 : BitVec 32 := Scalar.extui v175
  let v177 : BitVec 1 := Scalar.cmpi .ne v176 0#32
  if k0_h17 : v177 = 1#1 then do
    let v193 : DmaSems sig S1 := arg4.slice (Rect.unit (s := S6) ![1] S1.size inb_S6_S1_1)
    let v194 : DmaSems sig S_ := v193.squeeze S_ squeezes_S1_S_
    let v195 : Memref sig .tc .vmem S1x48x48 .bf16 := arg3.slice (Rect.unit (s := S6x48x48) ![1, 0, 0] S1x48x48.size inb_S6x48x48_S1x48x48_1_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![1, 0, 0] S1x48x48.size inb_S6x48x48_S1x48x48_1_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_1_0_0).reshape _ _) ((harg3.wordExact_slice rfl _ wordsbf16_S6x48x48_S1x48x48_1_0_0).reshape _ _))
    pure ⟨⟩
  else do
    pure ⟨⟩
  let v178 : BitVec 1 := Scalar.cmpi .eq v2 1#32
  let v179 : BitVec 32 := Scalar.extui v178
  let v180 : BitVec 1 := Scalar.cmpi .ne v179 0#32
  if k0_h18 : v180 = 1#1 then do
    let v193 : DmaSems sig S1 := arg4.slice (Rect.unit (s := S6) ![0] S1.size inb_S6_S1_0)
    let v194 : DmaSems sig S_ := v193.squeeze S_ squeezes_S1_S_
    let v195 : Memref sig .tc .vmem S1x48x48 .bf16 := arg3.slice (Rect.unit (s := S6x48x48) ![0, 0, 0] S1x48x48.size inb_S6x48x48_S1x48x48_0_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![0, 0, 0] S1x48x48.size inb_S6x48x48_S1x48x48_0_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_0_0_0).reshape _ _) ((harg3.wordExact_slice rfl _ wordsbf16_S6x48x48_S1x48x48_0_0_0).reshape _ _))
    pure ⟨⟩
  else do
    pure ⟨⟩
  let v181 : BitVec 1 := Scalar.cmpi .eq v5 0#32
  let v182 : BitVec 32 := Scalar.extui v181
  let v183 : BitVec 1 := Scalar.cmpi .ne v182 0#32
  if k0_h19 : v183 = 1#1 then do
    let v193 : DmaSems sig S1 := arg4.slice (Rect.unit (s := S6) ![3] S1.size inb_S6_S1_3)
    let v194 : DmaSems sig S_ := v193.squeeze S_ squeezes_S1_S_
    let v195 : Memref sig .tc .vmem S1x48x48 .bf16 := arg3.slice (Rect.unit (s := S6x48x48) ![3, 0, 0] S1x48x48.size inb_S6x48x48_S1x48x48_3_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![3, 0, 0] S1x48x48.size inb_S6x48x48_S1x48x48_3_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_3_0_0).reshape _ _) ((harg3.wordExact_slice rfl _ wordsbf16_S6x48x48_S1x48x48_3_0_0).reshape _ _))
    pure ⟨⟩
  else do
    pure ⟨⟩
  let v184 : BitVec 1 := Scalar.cmpi .eq v5 1#32
  let v185 : BitVec 32 := Scalar.extui v184
  let v186 : BitVec 1 := Scalar.cmpi .ne v185 0#32
  if k0_h20 : v186 = 1#1 then do
    let v193 : DmaSems sig S1 := arg4.slice (Rect.unit (s := S6) ![2] S1.size inb_S6_S1_2)
    let v194 : DmaSems sig S_ := v193.squeeze S_ squeezes_S1_S_
    let v195 : Memref sig .tc .vmem S1x48x48 .bf16 := arg3.slice (Rect.unit (s := S6x48x48) ![2, 0, 0] S1x48x48.size inb_S6x48x48_S1x48x48_2_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![2, 0, 0] S1x48x48.size inb_S6x48x48_S1x48x48_2_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_2_0_0).reshape _ _) ((harg3.wordExact_slice rfl _ wordsbf16_S6x48x48_S1x48x48_2_0_0).reshape _ _))
    pure ⟨⟩
  else do
    pure ⟨⟩
  let v187 : BitVec 1 := Scalar.cmpi .sgt v8 0#32
  let v188 : BitVec 32 := Scalar.extui v187
  let v189 : BitVec 1 := Scalar.cmpi .ne v188 0#32
  if k0_h21 : v189 = 1#1 then do
    let v193 : DmaSems sig S1 := arg4.slice (Rect.unit (s := S6) ![4] S1.size inb_S6_S1_4)
    let v194 : DmaSems sig S_ := v193.squeeze S_ squeezes_S1_S_
    let v195 : Memref sig .tc .vmem S1x48x48 .bf16 := arg3.slice (Rect.unit (s := S6x48x48) ![4, 0, 0] S1x48x48.size inb_S6x48x48_S1x48x48_4_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![4, 0, 0] S1x48x48.size inb_S6x48x48_S1x48x48_4_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_4_0_0).reshape _ _) ((harg3.wordExact_slice rfl _ wordsbf16_S6x48x48_S1x48x48_4_0_0).reshape _ _))
    pure ⟨⟩
  else do
    pure ⟨⟩
  let v190 : BitVec 1 := Scalar.cmpi .slt v8 3#32
  let v191 : BitVec 32 := Scalar.extui v190
  let v192 : BitVec 1 := Scalar.cmpi .ne v191 0#32
  if k0_h22 : v192 = 1#1 then do
    let v193 : DmaSems sig S1 := arg4.slice (Rect.unit (s := S6) ![5] S1.size inb_S6_S1_5)
    let v194 : DmaSems sig S_ := v193.squeeze S_ squeezes_S1_S_
    let v195 : Memref sig .tc .vmem S1x48x48 .bf16 := arg3.slice (Rect.unit (s := S6x48x48) ![5, 0, 0] S1x48x48.size inb_S6x48x48_S1x48x48_5_0_0) (fun _ => rfl)
    let v196 : Memref sig .tc .vmem S48x48 .bf16 := v195.squeeze S48x48 squeezes_S1x48x48_S48x48
    let v197 : Memref sig .tc .vmem S1x48x48 .bf16 := arg2.slice (Rect.unit (s := S6x48x48) ![5, 0, 0] S1x48x48.size inb_S6x48x48_S1x48x48_5_0_0) (fun _ => rfl)
    let v198 : Memref sig .tc .vmem S48x48 .bf16 := v197.squeeze S48x48 squeezes_S1x48x48_S48x48
    Prog.lift (.waitDma2 v194.sem v198 v196 ((harg2.wordExact_slice rfl _ wordsbf16_S6x48x48_S1x48x48_5_0_0).reshape _ _) ((harg3.wordExact_slice rfl _ wordsbf16_S6x48x48_S1x48x48_5_0_0).reshape _ _))
    pure ⟨⟩
  else do
    pure ⟨⟩
  pure ⟨⟩

def preT (K : Dev nD × Fin 13 → ℕ) (W : Waits sig Unit) (c : Dev nD) : sProp 𝕄 :=
  iprop(records m K ∗ owes (c : Thread nD τ) 0 W ∗ pt1 c (out3 m c)
    ∗ rCred c 3 ∗ rCred c 4 ∗ rCred c 5 ∗ rPos0 c 3 ∗ rPos0 c 4 ∗ rPos0 c 5
    ∗ six (sCred c) ∗ six (sPos0 c))
def postT (c : Dev nD) : sProp 𝕄 :=
  iprop((∃ W, owes (c : Thread nD τ) 0 W) ∗ pt1 c (outAt m c)
    ∗ hBack m c 3 ∗ hBack m c 4 ∗ hBack m c 5 ∗ rPos1 c 3 ∗ rPos1 c 4 ∗ rPos1 c 5
    ∗ six (sBack m c) ∗ six (sPos1 c))

def TailSpec (c : Dev nD) : Prop :=
  ∀ (K : Dev nD × Fin 13 → ℕ) (W : Waits sig Unit) (Q : PUnit → sProp 𝕄),
    iprop(preT m K W c ∗ (postT m c -∗ Q ⟨⟩))
      ⊢ WP c (tailProg (F := F) uM (Memref.isWhole_whole _) oM (Memref.isWhole_whole _) hM (Memref.isWhole_whole _) sM (Memref.isWhole_whole _) cc0_scratch2 cc0_scratch3 (xw c) (yw c) (zw c) (f90 c) (f91 c) (f92 c) (f93 c) (f94 c) (f95 c)
          (Scalar.cmpi .ne (Scalar.extui (Scalar.cmpi .eq (yw c) 0#32)) 0#32)) Q

theorem cc0_body_eq_parts :
    cc0_body (F := F) uM (Memref.isWhole_whole _) oM (Memref.isWhole_whole _) hM (Memref.isWhole_whole _) sM (Memref.isWhole_whole _) cc0_scratch2 cc0_scratch3 = (do
      let ⟨d0, v2, v5, v8, v9, v31⟩ ← k0_part7 (F := F) uM (Memref.isWhole_whole _) oM (Memref.isWhole_whole _) hM (Memref.isWhole_whole _) sM (Memref.isWhole_whole _) cc0_scratch2 cc0_scratch3
      let v59 ← k0_part8 uM (Memref.isWhole_whole _) oM (Memref.isWhole_whole _) hM (Memref.isWhole_whole _) sM (Memref.isWhole_whole _) cc0_scratch2 cc0_scratch3 d0 v2 v5 v8 v9 v31
      k0_part9 uM (Memref.isWhole_whole _) oM (Memref.isWhole_whole _) hM (Memref.isWhole_whole _) sM (Memref.isWhole_whole _) cc0_scratch2 cc0_scratch3 d0 v2 v5 v8 v9 v59
      let ⟨v90, v91, v92, v93, v94, v95, v121, v122, v123, v124, v128, c47_i32⟩ ← k0_part10 uM (Memref.isWhole_whole _) oM (Memref.isWhole_whole _) hM (Memref.isWhole_whole _) sM (Memref.isWhole_whole _) cc0_scratch2 cc0_scratch3 d0 v2 v5 v8
      let v168 ← k0_part11 uM (Memref.isWhole_whole _) oM (Memref.isWhole_whole _) hM (Memref.isWhole_whole _) sM (Memref.isWhole_whole _) cc0_scratch2 cc0_scratch3 v2 v5 v8 v90 v91 v92 v93 v94 v95 v121 v122 v123 v124 v128 c47_i32
      tailProg uM (Memref.isWhole_whole _) oM (Memref.isWhole_whole _) hM (Memref.isWhole_whole _) sM (Memref.isWhole_whole _) cc0_scratch2 cc0_scratch3 v2 v5 v8 v90 v91 v92 v93 v94 v95 v168) := rfl

end Cert.Kernel.Halo

end
-- ==== Proof.K.BodyAsm.lean ====
import proofs.«900536_g7700000000000537_dist_halo3d_v7x_xyz2x2x4_s48_bf16_1_alg».proof.Proof.K.BodyInv

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem kc0 (c : Dev nD) : kcell (c, 0) = barCell c := rfl
theorem kcs0 (c : Dev nD) : kcell (c, 1) = sendCell c 0 := rfl
theorem kcs1 (c : Dev nD) : kcell (c, 2) = sendCell c 1 := rfl
theorem kcs2 (c : Dev nD) : kcell (c, 3) = sendCell c 2 := rfl
theorem kcs3 (c : Dev nD) : kcell (c, 4) = sendCell c 3 := rfl
theorem kcs4 (c : Dev nD) : kcell (c, 5) = sendCell c 4 := rfl
theorem kcs5 (c : Dev nD) : kcell (c, 6) = sendCell c 5 := rfl
theorem kcr0 (c : Dev nD) : kcell (c, 7) = recvCell c 0 := rfl
theorem kcr1 (c : Dev nD) : kcell (c, 8) = recvCell c 1 := rfl
theorem kcr2 (c : Dev nD) : kcell (c, 9) = recvCell c 2 := rfl
theorem kcr3 (c : Dev nD) : kcell (c, 10) = recvCell c 3 := rfl
theorem kcr4 (c : Dev nD) : kcell (c, 11) = recvCell c 4 := rfl
theorem kcr5 (c : Dev nD) : kcell (c, 12) = recvCell c 5 := rfl

theorem condP_split (p : Prop) [Decidable p] (R : sProp 𝕄) : R ⊢ iprop(condP p R ∗ condP (¬ p) R) := by
  unfold condP
  by_cases h : p
  · rw [if_pos h, if_neg (not_not.mpr h)]; exact (sep_emp (PROP := sProp 𝕄)).2
  · rw [if_neg h, if_pos h]; exact (emp_sep (PROP := sProp 𝕄)).2

theorem condP_join (p : Prop) [Decidable p] (R R' T : sProp 𝕄) (h1 : R ⊢ T) (h2 : R' ⊢ T) : iprop(condP p R ∗ condP (¬ p) R') ⊢ T := by
  unfold condP
  by_cases h : p
  · rw [if_pos h, if_neg (not_not.mpr h)]; exact (sep_emp (PROP := sProp 𝕄)).1.trans h1
  · rw [if_neg h, if_pos h]; exact (emp_sep (PROP := sProp 𝕄)).1.trans h2

theorem fetch_0 (t : Fin cfg0.N) : (cfg0.win (0 : Fin 2)).fetch t = true := by rw [fin_N t]; rfl

theorem inv_send (K : Dev nD × Fin 13 → ℕ) (c : Dev nD) (s : Fin 6) :
    records (F := F) m K ⊢ cellInv ER (haloRd m) (K (c, ⟨1 + s.val, by have := s.isLt; omega⟩)) (sendCell c s) := by
  unfold records; rw [← kcell_send c s]; exact sep_elim_left.trans (bigSep_elim (Finset.mem_univ _))
theorem inv_recv (K : Dev nD × Fin 13 → ℕ) (c : Dev nD) (s : Fin 6) :
    records (F := F) m K ⊢ cellInv ER (haloRd m) (K (c, ⟨7 + s.val, by have := s.isLt; omega⟩)) (recvCell c s) := by
  unfold records; rw [← kcell_recv c s]; exact sep_elim_left.trans (bigSep_elim (Finset.mem_univ _))

theorem close_send (K : Dev nD × Fin 13 → ℕ) (c : Dev nD) (s : Fin 6) :
    iprop(records (F := F) m K ∗ sPos1 c s) ⊢ iprop(|={Set.univ}=> semVal (sendCell c s) 0) := by
  unfold sPos1
  by_cases h : sendAct c s
  · rw [if_pos h]
    iintro ⟨#Hrec, Hat⟩
    ihave #HI := (inv_send m K c s) $$ Hrec
    iapply (Rounds.cell_close ER (haloRd m) (Set.mem_univ _) (fun h => h) (R := 1) (duties_later m (sendCell c s)))
    isplitr; · iexact HI
    iexact Hat
  · rw [if_neg h]
    iintro ⟨#Hrec, Hat⟩
    ihave #HI := (inv_send m K c s) $$ Hrec
    iapply (Rounds.cell_close ER (haloRd m) (Set.mem_univ _) (fun h => h) (R := 0) (duties_send_dormant m c s h))
    isplitr; · iexact HI
    iexact Hat

theorem close_recv (K : Dev nD × Fin 13 → ℕ) (c : Dev nD) (s : Fin 6) :
    iprop(records (F := F) m K ∗ rPos1 c s) ⊢ iprop(|={Set.univ}=> semVal (recvCell c s) 0) := by
  unfold rPos1
  by_cases h : recvAct c s
  · rw [if_pos h]
    iintro ⟨#Hrec, Hat⟩
    ihave #HI := (inv_recv m K c s) $$ Hrec
    iapply (Rounds.cell_close ER (haloRd m) (Set.mem_univ _) (fun h => h) (R := 1) (duties_later m (recvCell c s)))
    isplitr; · iexact HI
    iexact Hat
  · rw [if_neg h]
    iintro ⟨#Hrec, Hat⟩
    ihave #HI := (inv_recv m K c s) $$ Hrec
    iapply (Rounds.cell_close ER (haloRd m) (Set.mem_univ _) (fun h => h) (R := 0) (duties_recv_dormant m c s h))
    isplitr; · iexact HI
    iexact Hat

theorem reached_send (K : Dev nD × Fin 13 → ℕ) (c : Dev nD) (s : Fin 6) : records (F := F) m K ⊢ reached ER (sendCell c s) 0 := by
  unfold records; rw [← kcell_send c s]; exact sep_elim_right.trans (bigSep_elim (Finset.mem_univ (c, (⟨1 + s.val, by have := s.isLt; omega⟩ : Fin 13))) (Φ := fun ck => reached ER (kcell ck) 0))
theorem reached_recv (K : Dev nD × Fin 13 → ℕ) (c : Dev nD) (s : Fin 6) : records (F := F) m K ⊢ reached ER (recvCell c s) 0 := by
  unfold records; rw [← kcell_recv c s]; exact sep_elim_right.trans (bigSep_elim (Finset.mem_univ (c, (⟨7 + s.val, by have := s.isLt; omega⟩ : Fin 13))) (Φ := fun ck => reached ER (kcell ck) 0))
theorem inv_bar (K : Dev nD × Fin 13 → ℕ) (c : Dev nD) : records (F := F) m K ⊢ cellInv ER (haloRd m) (K (c, 0)) (barCell c) := by
  unfold records; exact sep_elim_left.trans (bigSep_elim (Finset.mem_univ (c, (0 : Fin 13))) (Φ := fun ck => cellInv ER (haloRd m) (K ck) (kcell ck)))
theorem reached_bar (K : Dev nD × Fin 13 → ℕ) (c : Dev nD) : records (F := F) m K ⊢ reached ER (barCell c) 0 := by
  unfold records; exact sep_elim_right.trans (bigSep_elim (Finset.mem_univ (c, (0 : Fin 13))) (Φ := fun ck => reached ER (kcell ck) 0))

set_option maxHeartbeats 1600000 in
theorem body_sound_of (c : Dev nD)
    (h7 : Part7Spec (F := F) m c) (h8 : Part8Spec (F := F) m c) (h9 : Part9Spec (F := F) m c) (h10 : Part10Spec (F := F) m c)
    (h11 : Part11Spec (F := F) m c) (hT : TailSpec (F := F) m c)
    (hHs : ∀ f, ptH c f ⊢ six (fun s => hPts (F := F) c s f))
    (hHj : six (fun s => iprop(∃ f, hPts (F := F) c s f)) ⊢ iprop(∃ f, ptH c f))
    (hSj : ∀ f, six (fun s => sPts (F := F) c s f) ⊢ ptS c f) : BodySound (F := F) m c := by
  intro Kt
  rw [cc0_body_eq_parts]
  unfold bodyPre bodyPost Φ₀ Φ₁ start ghost payToks positions startCred Dat.owesAt Pipeline.owesWithin
  rw [bigSep_fin13]
  simp only [bigSep_fin6, kc0, kcs0, kcs1, kcs2, kcs3, kcs4, kcs5, kcr0, kcr1, kcr2, kcr3, kcr4, kcr5]
  rw [show (dats m 0 c).owed t₀.castSucc = O₀ c from rfl, show (dats m 0 c).owed t₀.succ = 0 from rfl]
  iintro ⟨⟨⟨⟨⟨%K, #Hrec, ⟨Pb, Ps0, Ps1, Ps2, Ps3, Ps4, Ps5, Pr0, Pr1, Pr2, Pr3, Pr4, Pr5⟩, ⟨Tbx, Tby, Tbd, Tbu, Trx, Try, Trd, Tru, Ts0, Ts1, Ts2, Ts3, Ts4, Ts5⟩⟩, ⟨Cb, Cr0, Cr1, Cr2, Cr3, Cr4, Cr5⟩, #Hlev⟩, ⟨%f0, HH⟩, ⟨%f1, HS⟩⟩, ⟨%W, %hW, HO⟩, ⟨%d0, %g0, %hg0, Hx⟩, ⟨%d1, %g1, %hg1, Hout⟩⟩, Hk⟩
  have hx : g0 = ublk m c := by rw [hg0]; unfold Dat.before; rw [if_pos (fetch_0 t₀)]; rfl
  subst hx

  ihave HH6 := (hHs f0) $$ HH
  unfold six
  icases HH6 with ⟨Hh0, Hh1, Hh2, Hh3, Hh4, Hh5⟩
  ihave Hh0' := (condP_split (recvAct c 0) iprop(∃ f, hPts (F := F) c 0 f)) $$ [Hh0]
  · iexists f0; iexact Hh0
  icases Hh0' with ⟨Hg0, Hk0⟩
  ihave Hh1' := (condP_split (recvAct c 1) iprop(∃ f, hPts (F := F) c 1 f)) $$ [Hh1]
  · iexists f0; iexact Hh1
  icases Hh1' with ⟨Hg1, Hk1⟩
  ihave Hh2' := (condP_split (recvAct c 2) iprop(∃ f, hPts (F := F) c 2 f)) $$ [Hh2]
  · iexists f0; iexact Hh2
  icases Hh2' with ⟨Hg2, Hk2⟩
  ihave Hh3' := (condP_split (recvAct c 3) iprop(∃ f, hPts (F := F) c 3 f)) $$ [Hh3]
  · iexists f0; iexact Hh3
  icases Hh3' with ⟨Hg3, Hk3⟩
  ihave Hh4' := (condP_split (recvAct c 4) iprop(∃ f, hPts (F := F) c 4 f)) $$ [Hh4]
  · iexists f0; iexact Hh4
  icases Hh4' with ⟨Hg4, Hk4⟩
  ihave Hh5' := (condP_split (recvAct c 5) iprop(∃ f, hPts (F := F) c 5 f)) $$ [Hh5]
  · iexists f0; iexact Hh5
  icases Hh5' with ⟨Hg5, Hk5⟩

  iapply (h7 K W _ _)
  isplitl [HO Tbx Tby Tbd Hg0 Hg1 Hg2 Hg3 Hg4]
  · unfold pre7 hGive
    isplitl []; · iexact Hrec
    iframe HO Tbx Tby Tbd Hg0 Hg1 Hg2 Hg3 Hg4
  unfold post7
  iintro HO

  iapply (h8 K W _ _)
  isplitl [HO Tbu Hg5 Hx HS]
  · unfold pre8 hGive
    isplitl []; · iexact Hrec
    iframe HO Tbu Hg5 Hx
    iexists f1; iexact HS
  unfold post8
  iintro ⟨HO, Hx, HS⟩

  iapply (h9 K W _ _)
  isplitl [HO Hx HS Cb Pb Ts0 Ts1 Ts2 Ts3 Ts4 Trx Try Trd]
  · unfold pre9 sTok
    isplitl []; · iexact Hrec
    isplitl []; · iexact Hlev
    iframe HO Hx HS Cb Pb Ts0 Ts1 Ts2 Ts3 Ts4 Trx Try Trd
  unfold post9
  iintro ⟨⟨%W9, HO⟩, Hx, Sk0, Sk1, Sk2, Sk3, Sk4, S5, Sc0, Sc1, Sc2, Sc3, Sc4, Hzup⟩

  iapply (h10 K W9 _ _)
  isplitl [HO Hzup S5 Ts5 Tru Hx]
  · unfold pre10 sTok
    isplitl []; · iexact Hrec
    iframe HO Hzup S5 Ts5 Tru Hx
  unfold post10
  iintro ⟨HO, Sk5, Sc5, Hx⟩

  iapply (h11 K W9 _ _)
  isplitl [HO Hout Cr0 Cr1 Cr2 Pr0 Pr1 Pr2]
  · unfold pre11 rCred rPos0
    isplitl []; · iexact Hrec
    isplitl [HO]; · iexact HO
    isplitl [Hout]; · iexists g1; iexact Hout
    iframe Cr0 Cr1 Cr2 Pr0 Pr1 Pr2
  unfold post11
  iintro ⟨⟨%W11, HO⟩, Hout, Hb0, Hb1, Hb2, Pr0, Pr1, Pr2⟩

  iapply (wp_fupd _ _ _ _ Kt)
  iapply (hT K W11 _)
  isplitl [HO Hout Cr3 Cr4 Cr5 Pr3 Pr4 Pr5 Sc0 Sc1 Sc2 Sc3 Sc4 Sc5 Ps0 Ps1 Ps2 Ps3 Ps4 Ps5]
  · unfold preT rCred rPos0 sCred sPos0 six
    isplitl []; · iexact Hrec
    iframe HO Hout Cr3 Cr4 Cr5 Pr3 Pr4 Pr5
    isplitl [Sc0 Sc1 Sc2 Sc3 Sc4 Sc5]
    ·
      iframe Sc0 Sc1 Sc2 Sc3 Sc4 Sc5
    iframe Ps0 Ps1 Ps2 Ps3 Ps4 Ps5
  unfold postT six
  iintro ⟨⟨%WT, HO⟩, Hout, Hb3, Hb4, Hb5, Pr3, Pr4, Pr5, ⟨Sb0, Sb1, Sb2, Sb3, Sb4, Sb5⟩, ⟨Ps0, Ps1, Ps2, Ps3, Ps4, Ps5⟩⟩

  imod (close_send m K c 0) $$ [Ps0] with Zs0
  · isplitr; · iexact Hrec
    iexact Ps0
  imod (close_send m K c 1) $$ [Ps1] with Zs1
  · isplitr; · iexact Hrec
    iexact Ps1
  imod (close_send m K c 2) $$ [Ps2] with Zs2
  · isplitr; · iexact Hrec
    iexact Ps2
  imod (close_send m K c 3) $$ [Ps3] with Zs3
  · isplitr; · iexact Hrec
    iexact Ps3
  imod (close_send m K c 4) $$ [Ps4] with Zs4
  · isplitr; · iexact Hrec
    iexact Ps4
  imod (close_send m K c 5) $$ [Ps5] with Zs5
  · isplitr; · iexact Hrec
    iexact Ps5
  imod (close_recv m K c 0) $$ [Pr0] with Zr0
  · isplitr; · iexact Hrec
    iexact Pr0
  imod (close_recv m K c 1) $$ [Pr1] with Zr1
  · isplitr; · iexact Hrec
    iexact Pr1
  imod (close_recv m K c 2) $$ [Pr2] with Zr2
  · isplitr; · iexact Hrec
    iexact Pr2
  imod (close_recv m K c 3) $$ [Pr3] with Zr3
  · isplitr; · iexact Hrec
    iexact Pr3
  imod (close_recv m K c 4) $$ [Pr4] with Zr4
  · isplitr; · iexact Hrec
    iexact Pr4
  imod (close_recv m K c 5) $$ [Pr5] with Zr5
  · isplitr; · iexact Hrec
    iexact Pr5

  unfold hBack sBack sKeep
  ihave Hj0 := (condP_join (recvAct c 0) (hPts c 0 (haloC m c)) iprop(∃ f, hPts (F := F) c 0 f) iprop(∃ f, hPts (F := F) c 0 f)
      (by iintro H; iexists _; iexact H) (BI.Entails.refl _)) $$ [Hb0 Hk0]
  · isplitl [Hb0]; · iexact Hb0
    iexact Hk0
  ihave Hj1 := (condP_join (recvAct c 1) (hPts c 1 (haloC m c)) iprop(∃ f, hPts (F := F) c 1 f) iprop(∃ f, hPts (F := F) c 1 f)
      (by iintro H; iexists _; iexact H) (BI.Entails.refl _)) $$ [Hb1 Hk1]
  · isplitl [Hb1]; · iexact Hb1
    iexact Hk1
  ihave Hj2 := (condP_join (recvAct c 2) (hPts c 2 (haloC m c)) iprop(∃ f, hPts (F := F) c 2 f) iprop(∃ f, hPts (F := F) c 2 f)
      (by iintro H; iexists _; iexact H) (BI.Entails.refl _)) $$ [Hb2 Hk2]
  · isplitl [Hb2]; · iexact Hb2
    iexact Hk2
  ihave Hj3 := (condP_join (recvAct c 3) (hPts c 3 (haloC m c)) iprop(∃ f, hPts (F := F) c 3 f) iprop(∃ f, hPts (F := F) c 3 f)
      (by iintro H; iexists _; iexact H) (BI.Entails.refl _)) $$ [Hb3 Hk3]
  · isplitl [Hb3]; · iexact Hb3
    iexact Hk3
  ihave Hj4 := (condP_join (recvAct c 4) (hPts c 4 (haloC m c)) iprop(∃ f, hPts (F := F) c 4 f) iprop(∃ f, hPts (F := F) c 4 f)
      (by iintro H; iexists _; iexact H) (BI.Entails.refl _)) $$ [Hb4 Hk4]
  · isplitl [Hb4]; · iexact Hb4
    iexact Hk4
  ihave Hj5 := (condP_join (recvAct c 5) (hPts c 5 (haloC m c)) iprop(∃ f, hPts (F := F) c 5 f) iprop(∃ f, hPts (F := F) c 5 f)
      (by iintro H; iexists _; iexact H) (BI.Entails.refl _)) $$ [Hb5 Hk5]
  · isplitl [Hb5]; · iexact Hb5
    iexact Hk5
  ihave HH := hHj $$ [Hj0 Hj1 Hj2 Hj3 Hj4 Hj5]
  · unfold six
    iframe Hj0 Hj1 Hj2 Hj3 Hj4 Hj5

  ihave Sj0 := (condP_join (sendAct c 0) (sPts c 0 (sendC m c)) (sPts c 0 (sendC m c)) (sPts c 0 (sendC m c))
      (BI.Entails.refl _) (BI.Entails.refl _)) $$ [Sb0 Sk0]
  · isplitl [Sb0]; · iexact Sb0
    iexact Sk0
  ihave Sj1 := (condP_join (sendAct c 1) (sPts c 1 (sendC m c)) (sPts c 1 (sendC m c)) (sPts c 1 (sendC m c))
      (BI.Entails.refl _) (BI.Entails.refl _)) $$ [Sb1 Sk1]
  · isplitl [Sb1]; · iexact Sb1
    iexact Sk1
  ihave Sj2 := (condP_join (sendAct c 2) (sPts c 2 (sendC m c)) (sPts c 2 (sendC m c)) (sPts c 2 (sendC m c))
      (BI.Entails.refl _) (BI.Entails.refl _)) $$ [Sb2 Sk2]
  · isplitl [Sb2]; · iexact Sb2
    iexact Sk2
  ihave Sj3 := (condP_join (sendAct c 3) (sPts c 3 (sendC m c)) (sPts c 3 (sendC m c)) (sPts c 3 (sendC m c))
      (BI.Entails.refl _) (BI.Entails.refl _)) $$ [Sb3 Sk3]
  · isplitl [Sb3]; · iexact Sb3
    iexact Sk3
  ihave Sj4 := (condP_join (sendAct c 4) (sPts c 4 (sendC m c)) (sPts c 4 (sendC m c)) (sPts c 4 (sendC m c))
      (BI.Entails.refl _) (BI.Entails.refl _)) $$ [Sb4 Sk4]
  · isplitl [Sb4]; · iexact Sb4
    iexact Sk4
  ihave Sj5 := (condP_join (sendAct c 5) (sPts c 5 (sendC m c)) (sPts c 5 (sendC m c)) (sPts c 5 (sendC m c))
      (BI.Entails.refl _) (BI.Entails.refl _)) $$ [Sb5 Sk5]
  · isplitl [Sb5]; · iexact Sb5
    iexact Sk5
  ihave HS := (hSj (sendC m c)) $$ [Sj0 Sj1 Sj2 Sj3 Sj4 Sj5]
  · unfold six
    iframe Sj0 Sj1 Sj2 Sj3 Sj4 Sj5
  imodintro
  iapply Hk
  isplitl [HH HS Zs0 Zs1 Zs2 Zs3 Zs4 Zs5 Zr0 Zr1 Zr2 Zr3 Zr4 Zr5]
  · isplitl [HH]; · iexact HH
    isplitl [HS]; · iexists _; iexact HS
    isplitl [Zs0 Zs1 Zs2 Zs3 Zs4 Zs5]
    ·
      iframe Zs0 Zs1 Zs2 Zs3 Zs4 Zs5
    iframe Zr0 Zr1 Zr2 Zr3 Zr4 Zr5
  isplitl [HO]
  · iexists WT
    isplitr; · ipureintro; exact fun x _ => Set.mem_union_left _ (Set.mem_univ x)
    iexact HO
  isplitl [Hx]
  · iexists _; isplitr; · (ipureintro; rfl)
    iexact Hx
  iexists _; isplitr; · (ipureintro; rfl)
  iexact Hout

end Cert.Kernel.Halo

end
-- ==== Proof.K.BodyP7.lean ====
import proofs.«900536_g7700000000000537_dist_halo3d_v7x_xyz2x2x4_s48_bf16_1_alg».proof.Proof.K.BodyAsm

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem p7_give_x (K : Dev nD × Fin 13 → ℕ) (c : Dev nD) :
    iprop(records m K ∗ hGive c 0 ∗ hGive c 1) ⊢ nbrPay (F := F) c (if X c = 0 then 1 else 0) := by
  unfold hGive nbrPay condP
  rcases (show X c = 0 ∨ X c = 1 by have := X_lt c; omega) with h | h
  · rw [if_pos h, if_neg (show ¬ recvAct c 0 from fun h' => by have h'' : X c = 1 := h'; omega), if_pos (show recvAct c 1 from h)]
    iintro ⟨#Hrec, -, Hs⟩
    isplitl [Hs]; · iexact Hs
    iapply (reached_recv m K c 1); iexact Hrec
  · rw [if_neg (by omega : ¬ X c = 0), if_pos (show recvAct c 0 from h), if_neg (show ¬ recvAct c 1 from fun h' => by have h'' : X c = 0 := h'; omega)]
    iintro ⟨#Hrec, Hs, -⟩
    isplitl [Hs]; · iexact Hs
    iapply (reached_recv m K c 0); iexact Hrec

private theorem p7_give_y (K : Dev nD × Fin 13 → ℕ) (c : Dev nD) :
    iprop(records m K ∗ hGive c 2 ∗ hGive c 3) ⊢ nbrPay (F := F) c (if Y c = 0 then 3 else 2) := by
  unfold hGive nbrPay condP
  rcases (show Y c = 0 ∨ Y c = 1 by have := Y_lt c; omega) with h | h
  · rw [if_pos h, if_neg (show ¬ recvAct c 2 from fun h' => by have h'' : Y c = 1 := h'; omega), if_pos (show recvAct c 3 from h)]
    iintro ⟨#Hrec, -, Hs⟩
    isplitl [Hs]; · iexact Hs
    iapply (reached_recv m K c 3); iexact Hrec
  · rw [if_neg (by omega : ¬ Y c = 0), if_pos (show recvAct c 2 from h), if_neg (show ¬ recvAct c 3 from fun h' => by have h'' : Y c = 0 := h'; omega)]
    iintro ⟨#Hrec, Hs, -⟩
    isplitl [Hs]; · iexact Hs
    iapply (reached_recv m K c 2); iexact Hrec

private theorem p7_give_zdn (K : Dev nD × Fin 13 → ℕ) (c : Dev nD) (hz : 0 < Z c) :
    iprop(records m K ∗ hGive c 4) ⊢ nbrPay (F := F) c 4 := by
  unfold hGive nbrPay condP
  rw [if_pos (show recvAct c 4 from hz)]
  iintro ⟨#Hrec, Hs⟩
  isplitl [Hs]; · iexact Hs
  iapply (reached_recv m K c 4); iexact Hrec

set_option maxHeartbeats 800000 in

theorem part7_sound (c : Dev nD) : Part7Spec (F := F) m c := by
  intro K W α k Q
  simp only [WP, wp_bind]
  simp only [k0_part7_eq_skeleton]; unfold k0_part7_skel
  unfold pre7 post7
  by_cases hz : 0 < Z c
  · have h1 : k0_cond1 c = 1#1 := (cond1_iff c).2 hz
    have h2 : ¬ (Scalar.cmpi .ne (Scalar.extui (Scalar.cmpi .eq (zw c) 0#32)) 0#32 = 1#1) :=
      fun h => absurd ((zw_eq0_iff c).1 h) (by omega)
    unfold zw at h2
    simp only [semSignalWord, semSignalHereWord, Prog.lift, Prog.bind_op, Prog.bind_ret, Prog.pure_eq_ret, wp_deviceId,
      h1, h2, ↓reduceDIte]
    simp only [dev1_eq c, dev2_eq c, dev3_eq c h1]
    rw [if_pos hz]
    iintro ⟨⟨#Hrec, HO, Ht0, Ht1, Ht2, Hg0, Hg1, Hg2, Hg3, Hg4⟩, Hk⟩

    iapply (Rounds.wp_signal 𝒱₀ ER (haloRd m) (c : Thread nD τ) none (dst := (fx c : Thread nD τ)) (sem := barS) (κ := K (fx c, 0))
        (r := 0) (d := (0 : Fin 5)) (k' := (1#32).toNat)
        (by rw [duties_bar]; exact mem_barDuties_fx c) (amount_bar m (fx c) 0) () (O₁ c) rfl) $$ [HO Ht0 Hg0 Hg1]
    · isplitr; · iapply (inv_bar m K (fx c)); iexact Hrec
      isplitl [HO]; · iexact HO
      isplitl [Ht0]; · iexact Ht0
      isplitl [Hg0 Hg1]
      · rw [payload_bar_fx]
        iapply (p7_give_x m K c)
        iframe Hrec Hg0 Hg1
      · iapply (reached_bar m K (fx c)); iexact Hrec
    iintro HO

    iapply (Rounds.wp_signal 𝒱₀ ER (haloRd m) (c : Thread nD τ) none (dst := (fy c : Thread nD τ)) (sem := barS) (κ := K (fy c, 0))
        (r := 0) (d := (1 : Fin 5)) (k' := (1#32).toNat)
        (by rw [duties_bar]; exact mem_barDuties_fy c) (amount_bar m (fy c) 1) () (O₂ c) rfl) $$ [HO Ht1 Hg2 Hg3]
    · isplitr; · iapply (inv_bar m K (fy c)); iexact Hrec
      isplitl [HO]; · iexact HO
      isplitl [Ht1]; · iexact Ht1
      isplitl [Hg2 Hg3]
      · rw [payload_bar_fy]
        iapply (p7_give_y m K c)
        iframe Hrec Hg2 Hg3
      · iapply (reached_bar m K (fy c)); iexact Hrec
    iintro HO

    iapply (Rounds.wp_signal 𝒱₀ ER (haloRd m) (c : Thread nD τ) none (dst := (zdn c : Thread nD τ)) (sem := barS) (κ := K (zdn c, 0))
        (r := 0) (d := (2 : Fin 5)) (k' := (1#32).toNat)
        (by rw [duties_bar]; exact mem_barDuties_zdn c hz) (amount_bar m (zdn c) 2) () (O₃ c)
        (by show O₂ c = _; unfold O₂; rw [if_pos hz]; rfl)) $$ [HO Ht2 Hg4]
    · isplitr; · iapply (inv_bar m K (zdn c)); iexact Hrec
      isplitl [HO]; · iexact HO
      isplitl [Ht2]; · iexact Ht2
      isplitl [Hg4]
      · rw [payload_bar_zdn]
        iapply (p7_give_zdn m K c hz)
        isplitr; · iexact Hrec
        iexact Hg4
      · iapply (reached_bar m K (zdn c)); iexact Hrec
    iintro HO
    rw [wp_ret]; imodintro
    iapply Hk; iexact HO
  · have h1 : ¬ (k0_cond1 c = 1#1) := fun h => hz ((cond1_iff c).1 h)
    have h2 : Scalar.cmpi .ne (Scalar.extui (Scalar.cmpi .eq (zw c) 0#32)) 0#32 = 1#1 := (zw_eq0_iff c).2 (by omega)
    unfold zw at h2
    simp only [semSignalWord, semSignalHereWord, Prog.lift, Prog.bind_op, Prog.bind_ret, Prog.pure_eq_ret, wp_deviceId,
      h1, h2, ↓reduceDIte]
    simp only [dev1_eq c, dev2_eq c]
    rw [if_neg hz]
    iintro ⟨⟨#Hrec, HO, Ht0, Ht1, Ht2, Hg0, Hg1, Hg2, Hg3, -⟩, Hk⟩

    iapply (Rounds.wp_signal 𝒱₀ ER (haloRd m) (c : Thread nD τ) none (dst := (fx c : Thread nD τ)) (sem := barS) (κ := K (fx c, 0))
        (r := 0) (d := (0 : Fin 5)) (k' := (1#32).toNat)
        (by rw [duties_bar]; exact mem_barDuties_fx c) (amount_bar m (fx c) 0) () (O₁ c) rfl) $$ [HO Ht0 Hg0 Hg1]
    · isplitr; · iapply (inv_bar m K (fx c)); iexact Hrec
      isplitl [HO]; · iexact HO
      isplitl [Ht0]; · iexact Ht0
      isplitl [Hg0 Hg1]
      · rw [payload_bar_fx]
        iapply (p7_give_x m K c)
        iframe Hrec Hg0 Hg1
      · iapply (reached_bar m K (fx c)); iexact Hrec
    iintro HO

    iapply (Rounds.wp_signal 𝒱₀ ER (haloRd m) (c : Thread nD τ) none (dst := (fy c : Thread nD τ)) (sem := barS) (κ := K (fy c, 0))
        (r := 0) (d := (1 : Fin 5)) (k' := (1#32).toNat)
        (by rw [duties_bar]; exact mem_barDuties_fy c) (amount_bar m (fy c) 1) () (O₂ c) rfl) $$ [HO Ht1 Hg2 Hg3]
    · isplitr; · iapply (inv_bar m K (fy c)); iexact Hrec
      isplitl [HO]; · iexact HO
      isplitl [Ht1]; · iexact Ht1
      isplitl [Hg2 Hg3]
      · rw [payload_bar_fy]
        iapply (p7_give_y m K c)
        iframe Hrec Hg2 Hg3
      · iapply (reached_bar m K (fy c)); iexact Hrec
    iintro HO

    simp only [wp_deviceId]
    iapply (Rounds.wp_signal 𝒱₀ ER (haloRd m) (c : Thread nD τ) none (dst := (c : Thread nD τ)) (sem := barS) (κ := K (c, 0))
        (r := 0) (d := (4 : Fin 5)) (k' := (1#32).toNat)
        (by rw [duties_bar]; exact mem_barDuties_self_lo c hz) (amount_bar m c 4) () (O₃ c)
        (by show O₂ c = _; unfold O₂; rw [if_neg hz]; rfl)) $$ [HO Ht2]
    · isplitr; · iapply (inv_bar m K c); iexact Hrec
      isplitl [HO]; · iexact HO
      isplitl [Ht2]; · iexact Ht2
      isplitr
      · rw [payload_bar_self]; iempintro
      · iapply (reached_bar m K c); iexact Hrec
    iintro HO
    rw [wp_ret]; imodintro
    iapply Hk; iexact HO

end Cert.Kernel.Halo

end
-- ==== Proof.K.BodyP8.lean ====
import Idealize.ShloMosaic.Lib.Pipeline.Value
import proofs.«900536_g7700000000000537_dist_halo3d_v7x_xyz2x2x4_s48_bf16_1_alg».proof.Proof.K.BodyInv

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p8_inv_at (K : Dev nD × Fin 13 → ℕ) (ck : Dev nD × Fin 13) :
    (bigSep Finset.univ fun ck : Dev nD × Fin 13 => (cellInv ER (haloRd m) (K ck) (kcell ck) : sProp 𝕄)) ⊢ cellInv ER (haloRd m) (K ck) (kcell ck) :=
  bigSep_elim (Finset.mem_univ ck)
theorem p8_reached_at (ck : Dev nD × Fin 13) :
    (bigSep Finset.univ fun ck : Dev nD × Fin 13 => (reached ER (kcell ck) 0 : sProp 𝕄)) ⊢ reached ER (kcell ck) 0 :=
  bigSep_elim (Finset.mem_univ ck)

theorem p8_inv (K : Dev nD × Fin 13 → ℕ) (ck : Dev nD × Fin 13) : records m K ⊢ cellInv ER (haloRd m) (K ck) (kcell ck) := by
  unfold records; iintro ⟨H, -⟩; iapply (p8_inv_at m K ck); iexact H
theorem p8_reached (K : Dev nD × Fin 13 → ℕ) (ck : Dev nD × Fin 13) : records m K ⊢ reached ER (kcell ck) 0 := by
  unfold records; iintro ⟨-, H⟩; iapply (p8_reached_at ck); iexact H
theorem p8_inv_bar (K : Dev nD × Fin 13 → ℕ) (p : Dev nD) : records m K ⊢ cellInv ER (haloRd m) (K (p, 0)) (barCell p) := p8_inv m K (p, 0)
theorem p8_reached_bar (K : Dev nD × Fin 13 → ℕ) (p : Dev nD) : records m K ⊢ reached ER (barCell p) 0 := p8_reached m K (p, 0)
theorem p8_reached_recv (K : Dev nD × Fin 13 → ℕ) (p : Dev nD) (s : Fin 6) : records m K ⊢ reached ER (recvCell p s) 0 := by
  rw [← kcell_recv p s]; exact p8_reached m K _

theorem p8_write_at (c : Dev nD) (a : ℕ) (inb : ∀ i, (![a, 0, 0] : Fin 3 → ℕ) i + S1x48x48.size i ≤ S6x48x48.size i)
    (f : Buf (Elt F) ((c : Thread nD τ).loc cc0_scratch1)) (w : S1x48x48.Idx → Elt F .bf16) (idx : Idx ((c : Thread nD τ).loc cc0_scratch1)) :
    (sM.access (Rect.unit (s := S6x48x48) ![a, 0, 0] S1x48x48.size inb)).write (Elt F) f w Finset.univ idx
      = if (idx 0).val = a then w (ValueIdx.ix3 0 ⟨(idx 1).val, (idx 1).isLt⟩ ⟨(idx 2).val, (idx 2).isLt⟩) else f idx := by
  have h : (sM.access (Rect.unit (s := S6x48x48) ![a, 0, 0] S1x48x48.size inb)).write (Elt F) f w Finset.univ = updateSlice f w ![a, 0, 0] ⟨rfl, inb⟩ :=
    View.write_whole_slice_unit (Val := Elt F) (cc0_scratch1 : Ref sig .tc) ![a, 0, 0] S1x48x48.size inb f w
  rw [h]; unfold updateSlice
  have h1 : (idx 1).val < 48 := (idx 1).isLt
  have h2 : (idx 2).val < 48 := (idx 2).isLt
  split
  · next hin =>
    have hin0 : a ≤ (idx 0).val ∧ (idx 0).val < a + 1 := hin 0
    rw [if_pos (by omega)]
    congr 1
    funext b
    match b with
    | ⟨0, _⟩ => exact Fin.ext (by show (idx 0).val - a = 0; omega)
    | ⟨1, _⟩ => exact Fin.ext (by show (idx 1).val - 0 = (idx 1).val; omega)
    | ⟨2, _⟩ => exact Fin.ext (by show (idx 2).val - 0 = (idx 2).val; omega)
  · next hout =>
    rw [if_neg]
    intro h0
    refine hout fun a' => ?_
    match a' with
    | ⟨0, _⟩ => exact ⟨by show a ≤ (idx 0).val; omega, by show (idx 0).val < a + 1; omega⟩
    | ⟨1, _⟩ => exact ⟨Nat.zero_le _, by show (idx 1).val < 0 + 48; omega⟩
    | ⟨2, _⟩ => exact ⟨Nat.zero_le _, by show (idx 2).val < 0 + 48; omega⟩

theorem p8_filled (c : Dev nD) (fs : Buf (Elt F) ((c : Thread nD τ).loc cc0_scratch1)) :
    filledTo m 3 c
      ((sM.access (Rect.unit (s := S6x48x48) ![2, 0, 0] S1x48x48.size inb_S6x48x48_S1x48x48_2_0_0)).write (Elt F)
        ((sM.access (Rect.unit (s := S6x48x48) ![1, 0, 0] S1x48x48.size inb_S6x48x48_S1x48x48_1_0_0)).write (Elt F)
          ((sM.access (Rect.unit (s := S6x48x48) ![0, 0, 0] S1x48x48.size inb_S6x48x48_S1x48x48_0_0_0)).write (Elt F) fs
            (k0_pay22 (uM.view.readAt (Elt F) (Rect.unit (s := S48x48x48) ![0, 0, 0] S1x48x48.size inb_S48x48x48_S1x48x48_0_0_0).toLoadRect (ublk m c))) Finset.univ)
          (k0_pay23 (uM.view.readAt (Elt F) (Rect.unit (s := S48x48x48) ![47, 0, 0] S1x48x48.size inb_S48x48x48_S1x48x48_47_0_0).toLoadRect (ublk m c))) Finset.univ)
        (k0_pay24 (uM.view.readAt (Elt F) (Rect.unit (s := S48x48x48) ![0, 0, 0] S48x1x48.size inb_S48x48x48_S48x1x48_0_0_0).toLoadRect (ublk m c))) Finset.univ) := by
  intro idx hlt
  have h012 : (idx 0).val = 0 ∨ (idx 0).val = 1 ∨ (idx 0).val = 2 := by omega
  rcases h012 with h | h | h
  · rw [p8_write_at c 2, if_neg (by omega), p8_write_at c 1, if_neg (by omega), p8_write_at c 0, if_pos h]
    simp only [sendC, h]
  · rw [p8_write_at c 2, if_neg (by omega), p8_write_at c 1, if_pos h]
    simp only [sendC, h]
  · rw [p8_write_at c 2, if_pos h]
    simp only [sendC, h]

theorem part8_sound (c : Dev nD) : Part8Spec (F := F) m c := by
  intro K W α k Q
  simp only [WP, wp_bind]
  simp only [k0_part8_eq_skeleton]
  unfold k0_part8_skel
  have h01 : ¬ ((0#1 : BitVec 1) = 1#1) := by decide
  by_cases hz : Z c < 3
  ·
    have h3 : k0_cond3 c = 1#1 := (cond3_iff c).mpr hz
    have h35 : Scalar.cmpi .ne (Scalar.extui (Scalar.cmpi .eq (zw c) 3#32)) 0#32 = 0#1 := (zw_eq3_niff c).mpr (by omega)
    simp only [h3, h35, ↓reduceDIte, dif_neg h01]
    simp only [semSignalWord, semSignalHereWord, Prog.lift, Prog.bind_op, Prog.bind_ret, Prog.pure_eq_ret, wp_deviceId]
    unfold pre8 hGive
    have hr5 : recvAct c 5 := hz
    unfold condP
    rw [if_pos hz, if_pos hr5]
    iintro ⟨⟨#Hrec, HO, Htok, ⟨%fh, Hh⟩, Hu, ⟨%fs, Hs⟩⟩, Hk⟩
    rw [dev4_eq c h3]
    iapply (Rounds.wp_signal 𝒱₀ ER (haloRd m) (c : Thread nD τ) none (dst := (zup c : Thread nD τ)) (sem := barS) (κ := K (zup c, 0))
      (d := (3 : Fin 5)) (r := 0) (by rw [duties_bar]; exact mem_barDuties_zup c hz) (amount_bar m (zup c) 3) () (Osend c)
      (by show O₃ c = _; unfold O₃ O₄; rw [if_pos hz])) $$ [HO Htok Hh]
    · isplitr; · iapply (p8_inv_bar m K (zup c)); iexact Hrec
      iframe HO Htok
      isplitl [Hh]
      · rw [payload_bar_zup]; unfold nbrPay
        isplitl [Hh]; · iexists fh; iexact Hh
        iapply (p8_reached_recv m K c 5); iexact Hrec
      · iapply (p8_reached_bar m K (zup c)); iexact Hrec
    iintro HO
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![0, 0, 0] S1x48x48.size inb_S6x48x48_S1x48x48_0_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![1, 0, 0] S1x48x48.size inb_S6x48x48_S1x48x48_1_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![2, 0, 0] S1x48x48.size inb_S6x48x48_S1x48x48_2_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs

    rw [wp_ret]; imodintro
    iapply Hk
    unfold post8
    iframe HO Hu
    iexists _
    isplitr; · ipureintro; exact p8_filled m c fs
    iexact Hs
  ·
    have h3 : k0_cond3 c = 0#1 := (cond3_niff c).mpr hz
    have h35 : Scalar.cmpi .ne (Scalar.extui (Scalar.cmpi .eq (zw c) 3#32)) 0#32 = 1#1 := (zw_eq3_iff c).mpr (by have := Z_lt c; omega)
    simp only [h3, h35, ↓reduceDIte, dif_neg h01]
    simp only [semSignalWord, semSignalHereWord, Prog.lift, Prog.bind_op, Prog.bind_ret, Prog.pure_eq_ret, wp_deviceId]
    unfold pre8 hGive
    have hr5 : ¬ recvAct c 5 := hz
    unfold condP
    rw [if_neg hz, if_neg hr5]
    iintro ⟨⟨#Hrec, HO, Htok, -, Hu, ⟨%fs, Hs⟩⟩, Hk⟩
    iapply (Rounds.wp_signal 𝒱₀ ER (haloRd m) (c : Thread nD τ) none (dst := (c : Thread nD τ)) (sem := barS) (κ := K (c, 0))
      (d := (4 : Fin 5)) (r := 0) (by rw [duties_bar]; exact mem_barDuties_self_hi c hz) (amount_bar m (c) 4) () (Osend c)
      (by show O₃ c = _; unfold O₃ O₄; rw [if_neg hz])) $$ [HO Htok]
    · isplitr; · iapply (p8_inv_bar m K c); iexact Hrec
      iframe HO Htok
      isplitr
      · rw [payload_bar_self]; iempintro
      · iapply (p8_reached_bar m K c); iexact Hrec
    iintro HO
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![0, 0, 0] S1x48x48.size inb_S6x48x48_S1x48x48_0_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![1, 0, 0] S1x48x48.size inb_S6x48x48_S1x48x48_1_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs
    iapply (wp_store 𝒱₀ (c : Thread nD τ) none Set.univ (m := sM) (r := (Rect.unit (s := S6x48x48) ![2, 0, 0] S1x48x48.size inb_S6x48x48_S1x48x48_2_0_0)) (Mk := Finset.univ) (Finset.subset_univ _)) $$ Hs; iintro Hs
    iapply (wp_load 𝒱₀ (c : Thread nD τ) none Set.univ (m := uM) (Finset.subset_univ _)) $$ Hu; iintro Hu
    iapply (wp_load 𝒱₀ (c : Thread nD τ) none Set.univ (m := sM) (Finset.subset_univ _)) $$ Hs; iintro Hs

    rw [wp_ret]; imodintro
    iapply Hk
    unfold post8
    iframe HO Hu
    iexists _
    isplitr; · ipureintro; exact p8_filled m c fs
    iexact Hs

end Cert.Kernel.Halo

end
-- ==== Proof.K.BodyP9W.lean ====
import Idealize.ShloMosaic.Lib.Pipeline.Value
import proofs.«900536_g7700000000000537_dist_halo3d_v7x_xyz2x2x4_s48_bf16_1_alg».proof.Proof.K.BodyInv

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p9w_inv_bar (K : Dev nD × Fin 13 → ℕ) (p : Dev nD) : records m K ⊢ cellInv ER (haloRd m) (K (p, 0)) (barCell p) := by
  unfold records; iintro ⟨H, -⟩
  iapply (show (bigSep Finset.univ fun ck : Dev nD × Fin 13 => (cellInv ER (haloRd m) (K ck) (kcell ck) : sProp 𝕄)) ⊢ cellInv ER (haloRd m) (K (p, 0)) (kcell (p, 0)) from bigSep_elim (Finset.mem_univ (p, 0)))
  iexact H

theorem p9w_wait (c : Dev nD) (K : Dev nD × Fin 13 → ℕ) (W : Waits sig Unit) {α : Type}
    (k' : PUnit → Prog (TpuEff nD τ sig (Elt F) Λ₀ .tc) α) (Q : α → sProp 𝕄) :
    iprop(records m K ∗ levAts L lv ∗ owes (c : Thread nD τ) (Osend c) W ∗ cred (tallyAt (barCell c) () 4) ∗ atPos ER (barCell c) 0 ∅ 0
      ∗ ((owes (c : Thread nD τ) (Osend c) (insert (SemLoc.reg barS, ()) W) ∗ atPos ER (barCell c) 1 ∅ 0 ∗ reached ER (barCell c) 1
            ∗ nbrPay (F := F) (fx c) (if X c = 0 then 0 else 1) ∗ nbrPay (F := F) (fy c) (if Y c = 0 then 2 else 3)
            ∗ condP (Z c < 3) (nbrPay (F := F) (zup c) 4) ∗ condP (0 < Z c) (nbrPay (F := F) (zdn c) 5))
          -∗ WP c (k' ⟨⟩) Q))
      ⊢ WP c (Prog.op (TpuEff.semWait barS (4#32).toNat) k') Q := by
  simp only [WP]
  iintro ⟨#Hrec, #Hlev, HO, Hcr, Hat, Hk⟩
  iapply (Rounds.wp_wait_rest_token 𝒱₀ ER (haloRd m) (c : Thread nD τ) none (κ := K (c, 0))
      (wpE_semWait_eq 𝒱₀ (c : Thread nD τ) none Set.univ) (Set.mem_univ _) () (O := Osend c) (W := W) (R := 0) (m := 0) (T := ∅)
      (by rw [expect_bar]; decide)) $$ [Hcr HO Hat]
  · isplitr; · iapply (p9w_inv_bar m K c); iexact Hrec
    isplitl [Hcr]; · iexact Hcr
    isplitl [HO]; · iexact HO
    isplitr; · iapply (mayWait_bar c); iexact Hlev
    iexact Hat
  iintro ⟨HO, Hat, Hr, Hpay⟩
  iapply Hk
  iframe HO Hat Hr
  have hzc : Z c = 0 ∨ (0 < Z c ∧ Z c < 3) ∨ Z c = 3 := by have := Z_lt c; omega
  rcases hzc with hz | ⟨h0, h3⟩ | hz
  · ihave Hp := (Entails.of_eq (rest_bar_z0 m c hz)) $$ Hpay
    icases Hp with ⟨Hx, Hy, Hu, -⟩
    unfold condP; rw [if_pos (by omega : Z c < 3), if_neg (by omega : ¬ 0 < Z c)]
    isplitl [Hx]; · iexact Hx
    isplitl [Hy]; · iexact Hy
    isplitl [Hu]; · iexact Hu
    iempintro
  · ihave Hp := (Entails.of_eq (rest_bar_zmid m c h0 h3)) $$ Hpay
    icases Hp with ⟨Hx, Hy, Hu, Hd⟩
    unfold condP; rw [if_pos h3, if_pos h0]
    iframe Hx Hy Hu Hd
  · ihave Hp := (Entails.of_eq (rest_bar_z3 m c hz)) $$ Hpay
    icases Hp with ⟨Hx, Hy, Hd, -⟩
    unfold condP; rw [if_neg (by omega : ¬ Z c < 3), if_pos (by omega : 0 < Z c)]
    iframe Hx Hy
    isplitr; · iempintro
    iexact Hd

end Cert.Kernel.Halo

end
-- ==== Proof.K.BodyBuf.lean ====
import proofs.«900536_g7700000000000537_dist_halo3d_v7x_xyz2x2x4_s48_bf16_1_alg».proof.Proof.K.BodyInv
import Idealize.ShloMosaic.Lib.ValueLayout

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

theorem inb_row (k : Fin 6) : ∀ a, (![k.val, 0, 0] : Fin 3 → ℕ) a + S1x48x48.size a ≤ S6x48x48.size a := by
  intro a
  have := k.isLt
  match a with
  | ⟨0, _⟩ => show k.val + 1 ≤ 6; omega
  | ⟨1, _⟩ => show 0 + 48 ≤ 48; omega
  | ⟨2, _⟩ => show 0 + 48 ≤ 48; omega

theorem mem_row (k : ℕ) (inb : ∀ a, (![k, 0, 0] : Fin 3 → ℕ) a + S1x48x48.size a ≤ S6x48x48.size a) (i : S6x48x48.Idx) :
    i ∈ (Rect.unit (s := S6x48x48) ![k, 0, 0] S1x48x48.size inb).set ↔ (i 0).val = k := by
  rw [Rect.mem_set_unit]
  constructor
  · intro h
    have h0 : k ≤ (i 0).val ∧ (i 0).val < k + 1 := h 0
    omega
  · intro h a
    have h1 : (i 1).val < 48 := (i 1).isLt
    have h2 : (i 2).val < 48 := (i 2).isLt
    match a with
    | ⟨0, _⟩ => exact ⟨by show k ≤ (i 0).val; omega, by show (i 0).val < k + 1; omega⟩
    | ⟨1, _⟩ => exact ⟨Nat.zero_le _, by show (i 1).val < 0 + 48; omega⟩
    | ⟨2, _⟩ => exact ⟨Nat.zero_le _, by show (i 2).val < 0 + 48; omega⟩

theorem set_squeezed_row {κ : Kind} (b : Ref sig κ) (r : Rect b.ty.shape) (s' : Shape) (h : s'.numel = r.shape.numel) :
    (((View.whole b).slice r).reshape s' h).set = r.set :=
  (View.set_reshape _ _).trans (View.set_slice_whole b r)

theorem hSet_eq (k : Fin 6) : hSet k = (Rect.unit (s := S6x48x48) ![k.val, 0, 0] S1x48x48.size (inb_row k)).set :=
  match k with
  | ⟨0, _⟩ => set_squeezed_row cc0_scratch0 _ _ _
  | ⟨1, _⟩ => set_squeezed_row cc0_scratch0 _ _ _
  | ⟨2, _⟩ => set_squeezed_row cc0_scratch0 _ _ _
  | ⟨3, _⟩ => set_squeezed_row cc0_scratch0 _ _ _
  | ⟨4, _⟩ => set_squeezed_row cc0_scratch0 _ _ _
  | ⟨5, _⟩ => set_squeezed_row cc0_scratch0 _ _ _

theorem sSet_eq (k : Fin 6) : sSet k = (Rect.unit (s := S6x48x48) ![k.val, 0, 0] S1x48x48.size (inb_row k)).set :=
  match k with
  | ⟨0, _⟩ => set_squeezed_row cc0_scratch1 _ _ _
  | ⟨1, _⟩ => set_squeezed_row cc0_scratch1 _ _ _
  | ⟨2, _⟩ => set_squeezed_row cc0_scratch1 _ _ _
  | ⟨3, _⟩ => set_squeezed_row cc0_scratch1 _ _ _
  | ⟨4, _⟩ => set_squeezed_row cc0_scratch1 _ _ _
  | ⟨5, _⟩ => set_squeezed_row cc0_scratch1 _ _ _

theorem mem_hSet (k : Fin 6) (i : HIdx) : i ∈ hSet k ↔ (i 0).val = k.val := by
  rw [hSet_eq]; exact mem_row _ _ i

theorem mem_sSet (k : Fin 6) (i : SIdx) : i ∈ sSet k ↔ (i 0).val = k.val := by
  rw [sSet_eq]; exact mem_row _ _ i

theorem hSet_disjoint (b b' : Fin 6) (h : b ≠ b') : Disjoint (hSet b) (hSet b') := by
  rw [Finset.disjoint_left]
  intro i hi hi'
  rw [mem_hSet] at hi hi'
  exact h (Fin.ext (hi.symm.trans hi'))

theorem sSet_disjoint (b b' : Fin 6) (h : b ≠ b') : Disjoint (sSet b) (sSet b') := by
  rw [Finset.disjoint_left]
  intro i hi hi'
  rw [mem_sSet] at hi hi'
  exact h (Fin.ext (hi.symm.trans hi'))

theorem hSet_cover : Finset.univ.biUnion hSet = Finset.univ := by
  ext i
  simp only [Finset.mem_biUnion, Finset.mem_univ, true_and, iff_true]
  exact ⟨⟨(i 0).val, (i 0).isLt⟩, (mem_hSet _ i).mpr rfl⟩

theorem sSet_cover : Finset.univ.biUnion sSet = Finset.univ := by
  ext i
  simp only [Finset.mem_biUnion, Finset.mem_univ, true_and, iff_true]
  exact ⟨⟨(i 0).val, (i 0).isLt⟩, (mem_sSet _ i).mpr rfl⟩

theorem bigSep_fin_six {M : Type} [URA M] (Φ : Fin 6 → sProp M) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide),
    bigSep_insert (by decide), bigSep_singleton]
  rfl

theorem hPts_whole (c : Dev nD) (f : Buf (Elt F) ((c : Thread nD τ).loc cc0_scratch0)) :
    ((((c : Thread nD τ).loc cc0_scratch0) ↦{fullShare} f) : sProp 𝕄) = bigSep Finset.univ fun s : Fin 6 => hPts c s f := by
  have h := pointsTo_biUnion (ℓ := ((c : Thread nD τ).loc cc0_scratch0)) (q := fullShare) (f := f) (Val := Elt F) (Ix := Unit) (Name := ℕ) (U := UU) (Lvl := ℕ)
    Finset.univ hSet (fun b _ b' _ h => hSet_disjoint b b' h)
  rw [hSet_cover] at h
  exact h

theorem sPts_whole (c : Dev nD) (f : Buf (Elt F) ((c : Thread nD τ).loc cc0_scratch1)) :
    ((((c : Thread nD τ).loc cc0_scratch1) ↦{fullShare} f) : sProp 𝕄) = bigSep Finset.univ fun s : Fin 6 => sPts c s f := by
  have h := pointsTo_biUnion (ℓ := ((c : Thread nD τ).loc cc0_scratch1)) (q := fullShare) (f := f) (Val := Elt F) (Ix := Unit) (Name := ℕ) (U := UU) (Lvl := ℕ)
    Finset.univ sSet (fun b _ b' _ h => sSet_disjoint b b' h)
  rw [sSet_cover] at h
  exact h

theorem hPts_whole6 (c : Dev nD) (f : Buf (Elt F) ((c : Thread nD τ).loc cc0_scratch0)) :
    ((((c : Thread nD τ).loc cc0_scratch0) ↦{fullShare} f) : sProp 𝕄)
      = iprop(hPts c 0 f ∗ hPts c 1 f ∗ hPts c 2 f ∗ hPts c 3 f ∗ hPts c 4 f ∗ hPts c 5 f) := by
  rw [hPts_whole, bigSep_fin_six]

theorem sPts_whole6 (c : Dev nD) (f : Buf (Elt F) ((c : Thread nD τ).loc cc0_scratch1)) :
    ((((c : Thread nD τ).loc cc0_scratch1) ↦{fullShare} f) : sProp 𝕄)
      = iprop(sPts c 0 f ∗ sPts c 1 f ∗ sPts c 2 f ∗ sPts c 3 f ∗ sPts c 4 f ∗ sPts c 5 f) := by
  rw [sPts_whole, bigSep_fin_six]

theorem hPts_join (c : Dev nD) (fs : Fin 6 → Buf (Elt F) ((c : Thread nD τ).loc cc0_scratch0)) :
    (bigSep Finset.univ fun s : Fin 6 => hPts c s (fs s))
      ⊢ (iprop(∃ g, ⌜∀ s : Fin 6, ∀ i ∈ hSet s, g i = fs s i⌝ ∗ (((c : Thread nD τ).loc cc0_scratch0) ↦{fullShare} g)) : sProp 𝕄) := by
  have h := pointsTo_biUnion_join (ℓ := ((c : Thread nD τ).loc cc0_scratch0)) (q := fullShare) (Val := Elt F) (Ix := Unit) (Name := ℕ) (U := UU) (Lvl := ℕ)
    Finset.univ hSet fs (fs 0) (fun b _ b' _ h => hSet_disjoint b b' h)
  rw [hSet_cover] at h
  refine h.trans ?_
  iintro ⟨%g, %hg, H⟩
  iexists g
  isplitr
  · ipureintro; exact fun s => hg s (Finset.mem_univ s)
  · iexact H

theorem row_emb (v : View sig .tc .vmem S6x48x48 .bf16) (k : Fin 6)
    (inb : ∀ a, (![k.val, 0, 0] : Fin 3 → ℕ) a + S1x48x48.size a ≤ S6x48x48.size a)
    (h : S48x48.numel = (Rect.unit (s := S6x48x48) ![k.val, 0, 0] S1x48x48.size inb).shape.numel) (p q : Fin 48) :
    ((v.slice (Rect.unit (s := S6x48x48) ![k.val, 0, 0] S1x48x48.size inb)).reshape S48x48 h).emb (ix2 p q)
      = v.emb (ix3 k p q) := by
  rw [View.emb_reshape, Function.Embedding.trans_apply, Equiv.toEmbedding_apply, View.emb_slice, Function.Embedding.trans_apply]
  refine congrArg v.emb ?_
  have e : Shape.reshapeEquiv h (ix2 p q) = ix3 (⟨0, Nat.one_pos⟩ : Fin 1) p q := reshapeEquiv_ix2_1ab h p q
  rw [e]
  funext a
  apply Fin.ext
  rw [Rect.emb_apply]
  match a with
  | ⟨0, _⟩ => show k.val + 1 * 0 = k.val; omega
  | ⟨1, _⟩ => show 0 + 1 * p.val = p.val; omega
  | ⟨2, _⟩ => show 0 + 1 * q.val = q.val; omega

theorem row_slice_emb (v : View sig .tc .vmem S6x48x48 .bf16) (k : Fin 6)
    (inb : ∀ a, (![k.val, 0, 0] : Fin 3 → ℕ) a + S1x48x48.size a ≤ S6x48x48.size a) (u : Fin 1) (p q : Fin 48) :
    (v.slice (Rect.unit (s := S6x48x48) ![k.val, 0, 0] S1x48x48.size inb)).emb (ix3 u p q) = v.emb (ix3 k p q) := by
  rw [View.emb_slice, Function.Embedding.trans_apply]
  refine congrArg v.emb ?_
  have hu : u.val = 0 := by omega
  funext a
  apply Fin.ext
  rw [Rect.emb_apply]
  match a with
  | ⟨0, _⟩ => show k.val + 1 * u.val = k.val; omega
  | ⟨1, _⟩ => show 0 + 1 * p.val = p.val; omega
  | ⟨2, _⟩ => show 0 + 1 * q.val = q.val; omega

theorem idx_eq_of_row (i : S6x48x48.Idx) (k : Fin 6) (h : (i 0).val = k.val) :
    i = ix3 k (⟨(i 1).val, (i 1).isLt⟩ : Fin 48) (⟨(i 2).val, (i 2).isLt⟩ : Fin 48) := by
  funext a
  match a with
  | ⟨0, _⟩ => exact Fin.ext h
  | ⟨1, _⟩ => rfl
  | ⟨2, _⟩ => rfl

abbrev hRowV (k : Fin 6) : View sig .tc .vmem S48x48 .bf16 :=
  ((View.whole cc0_scratch0 : View sig .tc .vmem S6x48x48 .bf16).slice (Rect.unit (s := S6x48x48) ![k.val, 0, 0] S1x48x48.size (inb_row k))).reshape S48x48
    squeezes_S1x48x48_S48x48.numel_eq
abbrev sRowV (k : Fin 6) : View sig .tc .vmem S48x48 .bf16 :=
  ((View.whole cc0_scratch1 : View sig .tc .vmem S6x48x48 .bf16).slice (Rect.unit (s := S6x48x48) ![k.val, 0, 0] S1x48x48.size (inb_row k))).reshape S48x48
    squeezes_S1x48x48_S48x48.numel_eq

theorem hRowV_emb (k : Fin 6) (p q : Fin 48) : (hRowV k).emb (ix2 p q) = (ix3 k p q : HIdx) :=
  row_emb (View.whole cc0_scratch0) k _ _ p q

theorem sRowV_emb (k : Fin 6) (p q : Fin 48) : (sRowV k).emb (ix2 p q) = (ix3 k p q : SIdx) :=
  row_emb (View.whole cc0_scratch1) k _ _ p q

theorem sRowV_read (k : Fin 6) (g : (sM : Memref sig .tc .vmem S6x48x48 .bf16).view.ty.Contents (Elt F)) (p q : Fin 48) :
    (sRowV k).read (Elt F) g (ix2 p q) = g (ix3 k p q) := by
  rw [View.read_apply, sRowV_emb]; rfl

theorem hRowV_write (k : Fin 6) (g : (hM : Memref sig .tc .vmem S6x48x48 .bf16).view.ty.Contents (Elt F))
    (w : S48x48.Idx → Elt F .bf16) (p q : Fin 48) :
    (hRowV k).write (Elt F) g w Finset.univ (ix3 k p q) = w (ix2 p q) := by
  rw [← hRowV_emb k p q, View.write_emb_of_mem _ _ (Finset.mem_univ _)]; rfl

theorem landed (p : Dev nD) (k : Fin 6) (fd : Buf (Elt F) ((p : Thread nD τ).loc cc0_scratch0)) :
    hPts p k ((hRowV k).write (Elt F) fd ((sRowV (srcSlot k)).read (Elt F) (sendC m (sender p k))) Finset.univ)
      = hPts p k (haloC m p) := by
  unfold hPts
  refine BI.Region.is_congr (fun i hi => ?_)
  rw [mem_hSet] at hi
  rw [idx_eq_of_row i k hi, hRowV_write, sRowV_read]
  rfl

/-- The face device `c` sent lands in halo slot `k` of the device `p` that expects `c` there. -/
theorem land (k : Fin 6) (c p : Dev nD) (hc : sender p k = c) (fd : Buf (Elt F) ((p : Thread nD τ).loc cc0_scratch0)) :
    hPts p k ((hRowV k).write (Elt F) fd ((sRowV (srcSlot k)).read (Elt F) (sendC m c)) Finset.univ) ⊢ hPts p k (haloC m p) := by
  subst hc; exact Entails.of_eq (landed m p k fd)

theorem sRow_store_eq (k : Fin 6) (inb : ∀ a, (![k.val, 0, 0] : Fin 3 → ℕ) a + S1x48x48.size a ≤ S6x48x48.size a)
    (g : (sM : Memref sig .tc .vmem S6x48x48 .bf16).view.ty.Contents (Elt F)) (w : S1x48x48.Idx → Elt F .bf16) (p q : Fin 48) :
    ((sM : Memref sig .tc .vmem S6x48x48 .bf16).access (Rect.unit (s := S6x48x48) ![k.val, 0, 0] S1x48x48.size inb)).write (Elt F) g w Finset.univ
        (ix3 k p q : SIdx) = w (ix3 (0 : Fin 1) p q) := by
  have e := row_slice_emb (View.whole cc0_scratch1) k inb (0 : Fin 1) p q
  have key := View.write_emb_of_mem (v := (sM : Memref sig .tc .vmem S6x48x48 .bf16).access (Rect.unit (s := S6x48x48) ![k.val, 0, 0] S1x48x48.size inb))
    (Val := Elt F) g w (M := Finset.univ) (x := ix3 (0 : Fin 1) p q) (Finset.mem_univ _)
  rw [e] at key
  exact key

theorem sRow_store_ne (k s : Fin 6) (hs : s.val ≠ k.val) (inb : ∀ a, (![k.val, 0, 0] : Fin 3 → ℕ) a + S1x48x48.size a ≤ S6x48x48.size a)
    (g : (sM : Memref sig .tc .vmem S6x48x48 .bf16).view.ty.Contents (Elt F)) (w : S1x48x48.Idx → Elt F .bf16) (p q : Fin 48) :
    ((sM : Memref sig .tc .vmem S6x48x48 .bf16).access (Rect.unit (s := S6x48x48) ![k.val, 0, 0] S1x48x48.size inb)).write (Elt F) g w Finset.univ
        (ix3 s p q : SIdx) = g (ix3 s p q) := by
  refine View.write_of_not_mem _ _ _ (fun hm => hs ?_)
  rw [View.setOn_univ, View.set_slice_whole] at hm
  exact (mem_row _ _ _).mp hm

theorem halo_split (c : Dev nD) (f : Buf (Elt F) ((c : Thread nD τ).loc cc0_scratch0)) :
    ptH c f ⊢ six (fun s => hPts c s f) :=
  Entails.of_eq (hPts_whole6 c f)

theorem halo_join (c : Dev nD) :
    six (fun s => (iprop(∃ f, hPts c s f) : sProp 𝕄)) ⊢ (iprop(∃ f, ptH c f) : sProp 𝕄) := by
  have : Nonempty (Buf (Elt F) ((c : Thread nD τ).loc cc0_scratch0)) := ⟨fun _ => Classical.choice inferInstance⟩
  refine (Entails.of_eq (bigSep_fin_six (fun s : Fin 6 => (iprop(∃ f, hPts c s f) : sProp 𝕄))).symm).trans ?_
  refine (Idealize.SL.BI.bigSep_exists_pi Finset.univ (fun (s : Fin 6) (f : Buf (Elt F) ((c : Thread nD τ).loc cc0_scratch0)) => (hPts c s f : sProp 𝕄))).trans ?_
  iintro ⟨%fs, H⟩
  ihave H' := (hPts_join c fs) $$ H
  icases H' with ⟨%g, -, H'⟩
  iexists g
  iexact H'

theorem send_split (c : Dev nD) (f : Buf (Elt F) ((c : Thread nD τ).loc cc0_scratch1)) :
    ptS c f ⊢ six (fun s => sPts c s f) :=
  Entails.of_eq (sPts_whole6 c f)

theorem send_join (c : Dev nD) (f : Buf (Elt F) ((c : Thread nD τ).loc cc0_scratch1)) :
    six (fun s => sPts c s f) ⊢ ptS c f :=
  Entails.of_eq (sPts_whole6 c f).symm

theorem hSlot_amount (b : Fin 6) (q : DmaSem sig) : (hSlot b).view.amount (.dma q) = N :=
  match b with
  | ⟨0, _⟩ => rfl | ⟨1, _⟩ => rfl | ⟨2, _⟩ => rfl | ⟨3, _⟩ => rfl | ⟨4, _⟩ => rfl | ⟨5, _⟩ => rfl

theorem fill_345 (c : Dev nD) (f : Buf (Elt F) ((c : Thread nD τ).loc cc0_scratch1)) (hf : filledTo m 3 c f) :
    (sM.access (Rect.unit (s := S6x48x48) ![5, 0, 0] S1x48x48.size inb_S6x48x48_S1x48x48_5_0_0)).write (Elt F)
      ((sM.access (Rect.unit (s := S6x48x48) ![4, 0, 0] S1x48x48.size inb_S6x48x48_S1x48x48_4_0_0)).write (Elt F)
        ((sM.access (Rect.unit (s := S6x48x48) ![3, 0, 0] S1x48x48.size inb_S6x48x48_S1x48x48_3_0_0)).write (Elt F) f
          (k0_pay25 (uM.view.readAt (Elt F) (Rect.unit (s := S48x48x48) ![0, 47, 0] S48x1x48.size inb_S48x48x48_S48x1x48_0_47_0).toLoadRect (ublk m c))) Finset.univ)
        (k0_pay26 (uM.view.readAt (Elt F) (Rect.unit (s := S48x48x48) ![0, 0, 0] S48x48x1.size inb_S48x48x48_S48x48x1_0_0_0).toLoadRect (ublk m c))) Finset.univ)
      (k0_pay27 (uM.view.readAt (Elt F) (Rect.unit (s := S48x48x48) ![0, 0, 47] S48x48x1.size inb_S48x48x48_S48x48x1_0_0_47).toLoadRect (ublk m c))) Finset.univ
      = sendC m c := by
  funext i
  obtain ⟨s, p, q, rfl⟩ : ∃ (s : Fin 6) (p q : Fin 48), i = (ix3 s p q : SIdx) := ⟨_, _, _, eq_ix3 (n0 := 6) (n1 := 48) (n2 := 48) i⟩
  match s with
  | ⟨0, h0⟩ =>
    exact (sRow_store_ne (F := F) ⟨5, by decide⟩ ⟨0, h0⟩ (show (0 : ℕ) ≠ 5 by decide) _ _ _ p q).trans
      ((sRow_store_ne (F := F) ⟨4, by decide⟩ ⟨0, h0⟩ (show (0 : ℕ) ≠ 4 by decide) _ _ _ p q).trans
      ((sRow_store_ne (F := F) ⟨3, by decide⟩ ⟨0, h0⟩ (show (0 : ℕ) ≠ 3 by decide) _ _ _ p q).trans (hf _ (show (0 : ℕ) < 3 by decide))))
  | ⟨1, h1⟩ =>
    exact (sRow_store_ne (F := F) ⟨5, by decide⟩ ⟨1, h1⟩ (show (1 : ℕ) ≠ 5 by decide) _ _ _ p q).trans
      ((sRow_store_ne (F := F) ⟨4, by decide⟩ ⟨1, h1⟩ (show (1 : ℕ) ≠ 4 by decide) _ _ _ p q).trans
      ((sRow_store_ne (F := F) ⟨3, by decide⟩ ⟨1, h1⟩ (show (1 : ℕ) ≠ 3 by decide) _ _ _ p q).trans (hf _ (show (1 : ℕ) < 3 by decide))))
  | ⟨2, h2⟩ =>
    exact (sRow_store_ne (F := F) ⟨5, by decide⟩ ⟨2, h2⟩ (show (2 : ℕ) ≠ 5 by decide) _ _ _ p q).trans
      ((sRow_store_ne (F := F) ⟨4, by decide⟩ ⟨2, h2⟩ (show (2 : ℕ) ≠ 4 by decide) _ _ _ p q).trans
      ((sRow_store_ne (F := F) ⟨3, by decide⟩ ⟨2, h2⟩ (show (2 : ℕ) ≠ 3 by decide) _ _ _ p q).trans (hf _ (show (2 : ℕ) < 3 by decide))))
  | ⟨3, h3⟩ =>
    exact (sRow_store_ne (F := F) ⟨5, by decide⟩ ⟨3, h3⟩ (show (3 : ℕ) ≠ 5 by decide) _ _ _ p q).trans
      ((sRow_store_ne (F := F) ⟨4, by decide⟩ ⟨3, h3⟩ (show (3 : ℕ) ≠ 4 by decide) _ _ _ p q).trans (sRow_store_eq (F := F) ⟨3, by decide⟩ _ _ _ p q))
  | ⟨4, h4⟩ =>
    exact (sRow_store_ne (F := F) ⟨5, by decide⟩ ⟨4, h4⟩ (show (4 : ℕ) ≠ 5 by decide) _ _ _ p q).trans (sRow_store_eq (F := F) ⟨4, by decide⟩ _ _ _ p q)
  | ⟨5, h5⟩ => exact sRow_store_eq (F := F) ⟨5, by decide⟩ _ _ _ p q

end Cert.Kernel.Halo

end
-- ==== Proof.K.BodySend.lean ====
import proofs.«900536_g7700000000000537_dist_halo3d_v7x_xyz2x2x4_s48_bf16_1_alg».proof.Proof.K.BodyAsm

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c` copies the face in `src` (its send slot `a`) into `dst` (halo slot `b` of device `p`). -/
theorem send_any (a b : Fin 6) {src dst : Memref sig .tc .vmem S48x48 .bf16} (K : Dev nD × Fin 13 → ℕ) (c p : Dev nD)
    (hact : sendAct c a) (hract : recvAct p b) (hamt : dst.view.amount (.dma (recvSem b)) = N)
    (fs : Buf (Elt F) (src.view.loc (c : Thread nD τ))) (fd : Buf (Elt F) ((p : Thread nD τ).loc cc0_scratch0))
    (fd' : Buf (Elt F) (dst.view.loc (p : Thread nD τ)))
    (hs : (sPts c a (sendC m c) : sProp 𝕄) = ((src.view.loc (c : Thread nD τ)) ↦[src.view.set]{fullShare} fs))
    (hd : (hPts p b fd : sProp 𝕄) = ((dst.view.loc (p : Thread nD τ)) ↦[dst.view.set]{fullShare} fd'))
    (hland : ((dst.view.loc (p : Thread nD τ)) ↦[dst.view.set]{fullShare}
        (dst.view.write (Elt F) fd' (src.view.read (Elt F) fs) Finset.univ) : sProp 𝕄) ⊢ hPts p b (haloC m p))
    {hsc : (dst : Memref sig (Dev.tc p : Thread nD τ).2.kind .vmem S48x48 .bf16).view.ref.isScScratch = false}
    {hsrc : src.view.WordExact} {hdst : dst.view.WordExact}
    {hsem : DmaTarget.Typed .vmem (.dma (recvSem b)) (.remote (Dev.tc p : Thread nD τ) dst (.dma (sendSem a)) hsc)}
    {α : Type} {Q : α → sProp 𝕄} {k : PUnit → Prog (TpuEff nD τ sig (Elt F) Λ₀ .tc) α}
    (O : CellTallies nD τ sig Unit) (W : Waits sig Unit) :
    iprop(records m K ∗ sPts c a (sendC m c) ∗ hPts p b fd ∗ owes (c : Thread nD τ) (O + tallyAt (recvCell p b) () N) W
        ∗ dutyTok ER (sendCell c a) 0 (0 : Fin 5) ∗ dutyTok ER (recvCell p b) 0 (0 : Fin 5))
      ⊢ iprop(((cred (tallyAt (sendCell c a) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma (sendSem a)) hsc) (.dma (recvSem b)) hsrc hdst hsem) k) Q) := by
  rw [hs, hd]
  iintro ⟨#Hrec, Hs, Hd, HO, Ts, Tr⟩
  ihave #HIs := (inv_send m K c a) $$ Hrec
  ihave #HIr := (inv_recv m K p b) $$ Hrec
  ihave #HRs := (reached_send m K c a) $$ Hrec
  ihave #HRr := (reached_recv m K p b) $$ Hrec
  iapply (Rounds.wp_send_pointsTo 𝒱₀ ER (haloRd m) (c : Thread nD τ) none (c' := (p : Thread nD τ)) (src := src) (dst := dst) (q := fullShare)
      (fs := fs) (fd := fd') (r₁ := 0) (r₂ := 0) (d₁ := (0 : Fin 5)) (d₂ := (0 : Fin 5))
      (by rw [duties_send, if_pos hact]; exact Finset.mem_singleton_self _) (by rw [duties_recv, if_pos hract]; exact Finset.mem_singleton_self _)
      () () N hamt (amount_send m c a 0) (amount_recv m p b 0) O rfl (W := W)
      (by rw [payload_send, ← hs]; exact BI.Entails.refl _)
      (by rw [payload_recv]; exact hland))
  iframe HIs HIr Hs Hd HO Ts HRs Tr HRr

end Cert.Kernel.Halo

end
-- ==== Proof.K.BodyP9C.lean ====
import proofs.«900536_g7700000000000537_dist_halo3d_v7x_xyz2x2x4_s48_bf16_1_alg».proof.Proof.K.BodyBuf
import proofs.«900536_g7700000000000537_dist_halo3d_v7x_xyz2x2x4_s48_bf16_1_alg».proof.Proof.K.BodySend

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A send under a device-dependent branch: where the branch is taken it is `send_any`; elsewhere the slot and the tally stay. -/
theorem send_if (a b : Fin 6) {src dst : Memref sig .tc .vmem S48x48 .bf16} (c nb : Dev nD) (P : Prop) [Decidable P]
    (hact : P ↔ sendAct c a) (hract : P → recvAct nb b) {cnd : BitVec 1} (hiff : cnd = 1#1 ↔ P)
    {dev : ℕ} {dev_lt : cnd = 1#1 → dev < nD} (hdev : ∀ h, (⟨dev, dev_lt h⟩ : Dev nD) = nb)
    (hamt : dst.view.amount (.dma (recvSem b)) = N)
    (fs : Buf (Elt F) (src.view.loc (c : Thread nD τ)))
    (cv : Buf (Elt F) ((nb : Thread nD τ).loc cc0_scratch0) → Buf (Elt F) (dst.view.loc (nb : Thread nD τ)))
    (hs : (sPts c a (sendC m c) : sProp 𝕄) = ((src.view.loc (c : Thread nD τ)) ↦[src.view.set]{fullShare} fs))
    (hd : ∀ fd, (hPts nb b fd : sProp 𝕄) = ((dst.view.loc (nb : Thread nD τ)) ↦[dst.view.set]{fullShare} cv fd))
    (hland : ∀ fd, ((dst.view.loc (nb : Thread nD τ)) ↦[dst.view.set]{fullShare}
        (dst.view.write (Elt F) (cv fd) (src.view.read (Elt F) fs) Finset.univ) : sProp 𝕄) ⊢ hPts nb b (haloC m nb))
    {hsc : ∀ h, (dst : Memref sig (Dev.tc (⟨dev, dev_lt h⟩ : Dev nD) : Thread nD τ).2.kind .vmem S48x48 .bf16).view.ref.isScScratch = false}
    {hsrc : src.view.WordExact} {hdst : dst.view.WordExact}
    {hsem : ∀ h, DmaTarget.Typed .vmem (.dma (recvSem b)) (.remote (Dev.tc (⟨dev, dev_lt h⟩ : Dev nD) : Thread nD τ) dst (.dma (sendSem a)) (hsc h))}
    (K : Dev nD × Fin 13 → ℕ) (W : Waits sig Unit) (O : CellTallies nD τ sig Unit) {α : Type}
    (J : Prog (TpuEff nD τ sig (Elt F) Λ₀ .tc) α) (Q : α → sProp 𝕄) :
    iprop(records m K ∗ sPts c a (sendC m c) ∗ sTok c a ∗ condP P (nbrPay nb b)
        ∗ condP P (dutyTok ER (recvCell nb b) 0 (0 : Fin 5))
        ∗ owes (c : Thread nD τ) (O + tallyAt (recvCell nb b) () (if P then N else 0)) W
        ∗ ((sKeep m c a ∗ sCred c a ∗ owes (c : Thread nD τ) O W) -∗ WP c J Q))
      ⊢ WP c (if h : cnd = 1#1 then
          Prog.op (TpuEff.enqueueDma src (.remote (Dev.tc (⟨dev, dev_lt h⟩ : Dev nD)) dst (.dma (sendSem a)) (hsc h)) (.dma (recvSem b)) hsrc hdst (hsem h)) (fun _ => J)
        else J) Q := by
  by_cases hP : P
  · have hcN : cnd = 1#1 := hiff.mpr hP
    rw [dif_pos hcN]
    have e1 : sTok (F := F) c a = dutyTok ER (sendCell c a) 0 (0 : Fin 5) := by unfold sTok condP; exact if_pos (hact.mp hP)
    have e2 : sKeep m c a = iprop(emp) := by unfold sKeep condP; exact if_neg (not_not.mpr (hact.mp hP))
    have e3 : sCred (F := F) c a = cred (tallyAt (sendCell c a) () N) := by unfold sCred condP; exact if_pos (hact.mp hP)
    rw [e1, e2, e3]
    simp only [condP, if_pos hP]
    iintro ⟨#Hrec, Hs, Ts, Hn, Tr, HO, Hk⟩
    unfold nbrPay
    icases Hn with ⟨⟨%fd, Hd⟩, -⟩
    obtain rfl := hdev hcN
    iapply (send_any m a b (src := src) (dst := dst) K c ⟨dev, dev_lt hcN⟩ (hact.mp hP) (hract hP) hamt fs fd (cv fd) hs (hd fd) (hland fd) O W) $$ [Hs Hd HO Ts Tr]
    · isplitr; · iexact Hrec
      iframe Hs Hd HO Ts Tr
    iintro ⟨Hc, HO⟩
    iapply Hk
    isplitr; · iempintro
    isplitl [Hc]; · iexact Hc
    iexact HO
  · have hcN : ¬ cnd = 1#1 := fun h => hP (hiff.mp h)
    rw [dif_neg hcN]
    have e2 : sKeep m c a = sPts c a (sendC m c) := by unfold sKeep condP; exact if_pos (mt hact.mpr hP)
    have e3 : sCred (F := F) c a = iprop(emp) := by unfold sCred condP; exact if_neg (mt hact.mpr hP)
    rw [e2, e3]
    simp only [if_neg hP]
    rw [tallyAt_zero', add_zero]
    iintro ⟨-, Hs, -, -, -, HO, Hk⟩
    iapply Hk
    isplitl [Hs]; · iexact Hs
    isplitr; · iempintro
    iexact HO

end Cert.Kernel.Halo

end
-- ==== Proof.K.BodyP9.lean ====
import proofs.«900536_g7700000000000537_dist_halo3d_v7x_xyz2x2x4_s48_bf16_1_alg».proof.Proof.K.BodyP9W
import proofs.«900536_g7700000000000537_dist_halo3d_v7x_xyz2x2x4_s48_bf16_1_alg».proof.Proof.K.BodyP9C

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem p9_fill (c : Dev nD) (f : Buf (Elt F) ((c : Thread nD τ).loc cc0_scratch1)) (hf : filledTo m 3 c f) :
    ((sM.access (Rect.unit (s := S6x48x48) ![5, 0, 0] S1x48x48.size inb_S6x48x48_S1x48x48_5_0_0)).loc (c : Thread nD τ) ↦{fullShare}
      ((sM.access (Rect.unit (s := S6x48x48) ![5, 0, 0] S1x48x48.size inb_S6x48x48_S1x48x48_5_0_0)).write (Elt F)
        ((sM.access (Rect.unit (s := S6x48x48) ![4, 0, 0] S1x48x48.size inb_S6x48x48_S1x48x48_4_0_0)).write (Elt F)
          ((sM.access (Rect.unit (s := S6x48x48) ![3, 0, 0] S1x48x48.size inb_S6x48x48_S1x48x48_3_0_0)).write (Elt F) f
            (k0_pay25 (uM.view.readAt (Elt F) (Rect.unit (s := S48x48x48) ![0, 47, 0] S48x1x48.size inb_S48x48x48_S48x1x48_0_47_0).toLoadRect (ublk m c))) Finset.univ)
          (k0_pay26 (uM.view.readAt (Elt F) (Rect.unit (s := S48x48x48) ![0, 0, 0] S48x48x1.size inb_S48x48x48_S48x48x1_0_0_0).toLoadRect (ublk m c))) Finset.univ)
        (k0_pay27 (uM.view.readAt (Elt F) (Rect.unit (s := S48x48x48) ![0, 0, 47] S48x48x1.size inb_S48x48x48_S48x48x1_0_0_47).toLoadRect (ublk m c))) Finset.univ) : sProp 𝕄)
      ⊢ iprop(sPts c 0 (sendC m c) ∗ sPts c 1 (sendC m c) ∗ sPts c 2 (sendC m c) ∗ sPts c 3 (sendC m c) ∗ sPts c 4 (sendC m c) ∗ sPts c 5 (sendC m c)) := by
  rw [fill_345 m c f hf]
  exact send_split c (sendC m c)

private theorem p9_split2 (p q : Prop) [Decidable p] [Decidable q] (hpq : p ↔ ¬ q) (Φ : Fin 6 → sProp 𝕄) (s0 s1 : Fin 6) :
    Φ (if p then s0 else s1) ⊢ iprop(condP p (Φ s0) ∗ condP q (Φ s1)) := by
  unfold condP
  by_cases hp : p
  · rw [if_pos hp, if_pos hp, if_neg (hpq.mp hp)]; exact (sep_emp (PROP := sProp 𝕄)).2
  · have hq : q := by by_contra hq; exact hp (hpq.mpr hq)
    rw [if_neg hp, if_neg hp, if_pos hq]; exact (emp_sep (PROP := sProp 𝕄)).2

private theorem p9_tally2 (p q : Prop) [Decidable p] [Decidable q] (hpq : p ↔ ¬ q) (g : Fin 6 → GSem nD τ sig) (s0 s1 : Fin 6) :
    (tallyAt (g (if p then s0 else s1)) () N : CellTallies nD τ sig Unit)
      = tallyAt (g s1) () (if q then N else 0) + tallyAt (g s0) () (if p then N else 0) := by
  by_cases hp : p
  · rw [if_pos hp, if_pos hp, if_neg (hpq.mp hp), tallyAt_zero, zero_add]
  · have hq : q := by by_contra hq; exact hp (hpq.mpr hq)
    rw [if_neg hp, if_neg hp, if_pos hq, tallyAt_zero, add_zero]

private theorem p9_x01 (c : Dev nD) : X c = 0 ↔ ¬ X c = 1 := by have := X_lt c; omega
private theorem p9_y01 (c : Dev nD) : Y c = 0 ↔ ¬ Y c = 1 := by have := Y_lt c; omega

private theorem p9_pay_x (c : Dev nD) :
    nbrPay (F := F) (fx c) (if X c = 0 then 0 else 1) ⊢ iprop(condP (X c = 0) (nbrPay (fx c) 0) ∗ condP (X c = 1) (nbrPay (fx c) 1)) :=
  p9_split2 (X c = 0) (X c = 1) (p9_x01 c) (fun s => nbrPay (F := F) (fx c) s) 0 1
private theorem p9_pay_y (c : Dev nD) :
    nbrPay (F := F) (fy c) (if Y c = 0 then 2 else 3) ⊢ iprop(condP (Y c = 0) (nbrPay (fy c) 2) ∗ condP (Y c = 1) (nbrPay (fy c) 3)) :=
  p9_split2 (Y c = 0) (Y c = 1) (p9_y01 c) (fun s => nbrPay (F := F) (fy c) s) 2 3
private theorem p9_tok_x (c : Dev nD) :
    (dutyTok ER (recvCell (fx c) (if X c = 0 then 0 else 1)) 0 (0 : Fin 5) : sProp 𝕄)
      ⊢ iprop(condP (X c = 0) (dutyTok ER (recvCell (fx c) 0) 0 (0 : Fin 5)) ∗ condP (X c = 1) (dutyTok ER (recvCell (fx c) 1) 0 (0 : Fin 5))) :=
  p9_split2 (X c = 0) (X c = 1) (p9_x01 c) (fun s => (dutyTok ER (recvCell (fx c) s) 0 (0 : Fin 5) : sProp 𝕄)) 0 1
private theorem p9_tok_y (c : Dev nD) :
    (dutyTok ER (recvCell (fy c) (if Y c = 0 then 2 else 3)) 0 (0 : Fin 5) : sProp 𝕄)
      ⊢ iprop(condP (Y c = 0) (dutyTok ER (recvCell (fy c) 2) 0 (0 : Fin 5)) ∗ condP (Y c = 1) (dutyTok ER (recvCell (fy c) 3) 0 (0 : Fin 5))) :=
  p9_split2 (Y c = 0) (Y c = 1) (p9_y01 c) (fun s => (dutyTok ER (recvCell (fy c) s) 0 (0 : Fin 5) : sProp 𝕄)) 2 3

private theorem p9_Osend (c : Dev nD) :
    Osend c = tallyAt (recvCell (zup c) 4) () (if Z c < 3 then N else 0) + tallyAt (recvCell (zdn c) 5) () (if 0 < Z c then N else 0)
      + tallyAt (recvCell (fy c) 3) () (if Y c = 1 then N else 0) + tallyAt (recvCell (fy c) 2) () (if Y c = 0 then N else 0)
      + tallyAt (recvCell (fx c) 1) () (if X c = 1 then N else 0) + tallyAt (recvCell (fx c) 0) () (if X c = 0 then N else 0) := by
  unfold Osend
  have hx : (tallyAt (recvCell (fx c) (if X c = 0 then 0 else 1)) () N : CellTallies nD τ sig Unit)
      = tallyAt (recvCell (fx c) 1) () (if X c = 1 then N else 0) + tallyAt (recvCell (fx c) 0) () (if X c = 0 then N else 0) :=
    p9_tally2 (X c = 0) (X c = 1) (p9_x01 c) (fun s => recvCell (fx c) s) 0 1
  have hy : (tallyAt (recvCell (fy c) (if Y c = 0 then 2 else 3)) () N : CellTallies nD τ sig Unit)
      = tallyAt (recvCell (fy c) 3) () (if Y c = 1 then N else 0) + tallyAt (recvCell (fy c) 2) () (if Y c = 0 then N else 0) :=
    p9_tally2 (Y c = 0) (Y c = 1) (p9_y01 c) (fun s => recvCell (fy c) s) 2 3
  rw [hx, hy]
  simp only [add_assoc]

theorem part9_sound (c : Dev nD) : Part9Spec (F := F) m c := by
  intro K W α k Q
  simp only [WP, wp_bind]
  simp only [k0_part9_eq_skeleton]
  unfold k0_part9_skel
  simp only [semWaitWord, Prog.lift, Prog.bind_op, Prog.bind_ret, Prog.pure_eq_ret]
  unfold pre9
  iintro ⟨⟨#Hrec, #Hlev, HO, Hu, ⟨%f, %hf, Hs⟩, Hcr, Hat, Ht0, Ht1, Ht2, Ht3, Ht4, Hrx, Hry, Hrz⟩, Hk⟩

  iapply (wp_store 𝒱₀ (c : Thread nD τ) none Set.univ (m := sM) (r := (Rect.unit (s := S6x48x48) ![3, 0, 0] S1x48x48.size inb_S6x48x48_S1x48x48_3_0_0)) (Mk := Finset.univ) (Finset.subset_univ _)) $$ Hs; iintro Hs
  iapply (wp_load 𝒱₀ (c : Thread nD τ) none Set.univ (m := uM) (Finset.subset_univ _)) $$ Hu; iintro Hu
  iapply (wp_load 𝒱₀ (c : Thread nD τ) none Set.univ (m := sM) (Finset.subset_univ _)) $$ Hs; iintro Hs
  iapply (wp_store 𝒱₀ (c : Thread nD τ) none Set.univ (m := sM) (r := (Rect.unit (s := S6x48x48) ![4, 0, 0] S1x48x48.size inb_S6x48x48_S1x48x48_4_0_0)) (Mk := Finset.univ) (Finset.subset_univ _)) $$ Hs; iintro Hs
  iapply (wp_load 𝒱₀ (c : Thread nD τ) none Set.univ (m := uM) (Finset.subset_univ _)) $$ Hu; iintro Hu
  iapply (wp_load 𝒱₀ (c : Thread nD τ) none Set.univ (m := sM) (Finset.subset_univ _)) $$ Hs; iintro Hs
  iapply (wp_store 𝒱₀ (c : Thread nD τ) none Set.univ (m := sM) (r := (Rect.unit (s := S6x48x48) ![5, 0, 0] S1x48x48.size inb_S6x48x48_S1x48x48_5_0_0)) (Mk := Finset.univ) (Finset.subset_univ _)) $$ Hs; iintro Hs
  ihave Hs6 := (p9_fill m c f hf) $$ Hs
  icases Hs6 with ⟨S0, S1, S2, S3, S4, S5⟩

  iapply (p9w_wait m c K W _ _)
  iframe Hrec Hlev HO Hcr Hat
  iintro ⟨HO, -, -, Px, Py, Pzu, Pzd⟩

  ihave Px2 := (p9_pay_x (F := F) c) $$ Px
  icases Px2 with ⟨Px0, Px1⟩
  ihave Py2 := (p9_pay_y (F := F) c) $$ Py
  icases Py2 with ⟨Py0, Py1⟩
  ihave Rx2 := (p9_tok_x (F := F) c) $$ Hrx
  icases Rx2 with ⟨Rx0, Rx1⟩
  ihave Ry2 := (p9_tok_y (F := F) c) $$ Hry
  icases Ry2 with ⟨Ry0, Ry1⟩
  rw [p9_Osend c]

  iapply (send_if m 1 0 (src := sSlot 1) (dst := hSlot 0) c (fx c) (X c = 0) Iff.rfl (fun hP => by show X (fx c) = 1; rw [X_fx]; omega) (cond5_iff c) (dev5_eq c)
      (hSlot_amount 0 (recvSem 0)) (sendC m c) (fun fd => fd) rfl (fun _ => rfl) (fun fd => land m 0 c (fx c) (fx_fx c) fd) K _ _ _ _)
  iframe Hrec S1 Ht1 Px0 Rx0 HO
  iintro ⟨K1, C1, HO⟩
  iapply (send_if m 0 1 (src := sSlot 0) (dst := hSlot 1) c (fx c) (X c = 1) Iff.rfl (fun hP => by show X (fx c) = 0; rw [X_fx]; omega) (cond6_iff c) (dev6_eq c)
      (hSlot_amount 1 (recvSem 1)) (sendC m c) (fun fd => fd) rfl (fun _ => rfl) (fun fd => land m 1 c (fx c) (fx_fx c) fd) K _ _ _ _)
  iframe Hrec S0 Ht0 Px1 Rx1 HO
  iintro ⟨K0, C0, HO⟩

  iapply (send_if m 3 2 (src := sSlot 3) (dst := hSlot 2) c (fy c) (Y c = 0) Iff.rfl (fun hP => by show Y (fy c) = 1; rw [Y_fy]; omega) (cond7_iff c) (dev7_eq c)
      (hSlot_amount 2 (recvSem 2)) (sendC m c) (fun fd => fd) rfl (fun _ => rfl) (fun fd => land m 2 c (fy c) (fy_fy c) fd) K _ _ _ _)
  iframe Hrec S3 Ht3 Py0 Ry0 HO
  iintro ⟨K3, C3, HO⟩
  iapply (send_if m 2 3 (src := sSlot 2) (dst := hSlot 3) c (fy c) (Y c = 1) Iff.rfl (fun hP => by show Y (fy c) = 0; rw [Y_fy]; omega) (cond8_iff c) (dev8_eq c)
      (hSlot_amount 3 (recvSem 3)) (sendC m c) (fun fd => fd) rfl (fun _ => rfl) (fun fd => land m 3 c (fy c) (fy_fy c) fd) K _ _ _ _)
  iframe Hrec S2 Ht2 Py1 Ry1 HO
  iintro ⟨K2, C2, HO⟩

  iapply (send_if m 4 5 (src := sSlot 4) (dst := hSlot 5) c (zdn c) (0 < Z c) Iff.rfl (fun hP => by show Z (zdn c) < 3; rw [Z_zdn c hP]; have := Z_lt c; omega) (cond9_iff c) (dev9_eq c)
      (hSlot_amount 5 (recvSem 5)) (sendC m c) (fun fd => fd) rfl (fun _ => rfl) (fun fd => land m 5 c (zdn c) (zup_zdn c) fd) K _ _ _ _)
  iframe Hrec S4 Ht4 Pzd Hrz HO
  iintro ⟨K4, C4, HO⟩

  unfold WP
  rw [wp_ret]; imodintro
  iapply Hk
  unfold post9
  isplitl [HO]; · iexists _; iexact HO
  iframe Hu K0 K1 K2 K3 K4 S5 C0 C1 C2 C3 C4 Pzu

end Cert.Kernel.Halo

end
-- ==== Proof.K.BodyP10.lean ====
import proofs.«900536_g7700000000000537_dist_halo3d_v7x_xyz2x2x4_s48_bf16_1_alg».proof.Proof.K.BodyP9C

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem p10_hz3 : (![0, 0, 0] : Fin 3 → Nat) = fun _ => 0 := funext fun a => by fin_cases a <;> rfl

private theorem p10_read_u (f : (cc0_stg0_0 : Ref sig .tc).ty.Contents (Elt F)) :
    (uM : Memref sig .tc .vmem S48x48x48 .f32).view.readAt (Elt F)
      (Rect.unit (s := S48x48x48) ![0, 0, 0] S48x48x48.size inb_S48x48x48_S48x48x48_0_0_0).toLoadRect f = f :=
  Memref.readAt_unit_zero (Elt F) cc0_stg0_0 p10_hz3 _ f

theorem part10_sound (c : Dev nD) : Part10Spec (F := F) m c := by
  intro K W α k Q
  simp only [WP, wp_bind]
  simp only [k0_part10_eq_skeleton]; unfold k0_part10_skel
  unfold pre10 post10
  simp only [Prog.lift, Prog.bind_op, Prog.bind_ret, Prog.pure_eq_ret]
  rw [← zero_add (tallyAt (recvCell (zup c) 4) () (if Z c < 3 then N else 0))]
  iintro ⟨⟨#Hrec, HO, Hn, Hs5, Htok, Htr, Hu⟩, Hk⟩
  iapply (send_if m 5 4 (src := sSlot 5) (dst := hSlot 4) c (zup c) (Z c < 3) Iff.rfl (fun h => recvAct_zup c h) (cond10_iff c) (dev10_eq c)
      (hSlot_amount 4 (recvSem 4)) (sendC m c) (fun fd => fd) rfl (fun _ => rfl) (fun fd => land m 4 c (zup c) (zdn_zup c) fd) K W 0 _ _)
  iframe Hrec Hs5 Htok Hn Htr HO
  iintro ⟨Hkp, HcS, HO⟩
  iapply (wp_load 𝒱₀ (c : Thread nD τ) none Set.univ (m := uM) (Finset.subset_univ _)) $$ Hu; iintro Hu
  rw [p10_read_u, wp_ret]; imodintro
  iapply Hk
  iframe HO Hkp HcS Hu

end Cert.Kernel.Halo

end
-- ==== Proof.K.BodyP11.lean ====
import proofs.«900536_g7700000000000537_dist_halo3d_v7x_xyz2x2x4_s48_bf16_1_alg».proof.Proof.K.BodyInv

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem p11_write_whole (g w : OC (F := F)) :
    (oM.access (Rect.unit (s := S48x48x48) ![0, 0, 0] S48x48x48.size inb_S48x48x48_S48x48x48_0_0_0)).write (Elt F) g w Finset.univ = w :=
  Memref.write_access_unit_zero_univ (Elt F) cc0_stg1_0 (by funext a; fin_cases a <;> rfl) _ g w

theorem p11_records_recv (K : Dev nD × Fin 13 → ℕ) (c : Dev nD) (s : Fin 6) :
    records m K ⊢ cellInv ER (haloRd m) (K (c, ⟨7 + s.val, by have := s.isLt; omega⟩)) (recvCell c s) := by
  unfold records
  refine sep_elim_left.trans ?_
  have h := bigSep_elim (M := 𝕄) (Finset.mem_univ ((c, ⟨7 + s.val, by have := s.isLt; omega⟩) : Dev nD × Fin 13))
    (Φ := fun ck : Dev nD × Fin 13 => cellInv ER (haloRd m) (K ck) (kcell ck))
  simp only [kcell_recv] at h
  exact h

theorem p11_rest (c : Dev nD) (s : Fin 6) (h : recvAct c s) :
    bigSep ((haloRd (F := F) m).duties (recvCell c s) 0 \ ∅) (fun d => (haloRd (F := F) m).payload (recvCell c s) 0 d)
      ⊢ (((c : Thread nD τ).loc cc0_scratch0) ↦[hSet s]{fullShare} haloC m c) :=
  (rest_recv m c s h) ▸ .rfl

theorem p11_halo_row0 : hM.view.setOn ((Rect.unit (s := S6x48x48) ![0, 0, 0] S1x48x48.size inb_S6x48x48_S1x48x48_0_0_0).toLoadRect).set ⊆ hSet 0 := by
  have h : hSet 0 = (hM.view.slice (Rect.unit (s := S6x48x48) ![0, 0, 0] S1x48x48.size inb_S6x48x48_S1x48x48_0_0_0)).set :=
    View.set_reshape (v := hM.view.slice (Rect.unit (s := S6x48x48) ![0, 0, 0] S1x48x48.size inb_S6x48x48_S1x48x48_0_0_0)) squeezes_S1x48x48_S48x48.numel_eq
  rw [h, View.set_slice]
  exact Finset.Subset.refl _
theorem p11_halo_row1 : hM.view.setOn ((Rect.unit (s := S6x48x48) ![1, 0, 0] S1x48x48.size inb_S6x48x48_S1x48x48_1_0_0).toLoadRect).set ⊆ hSet 1 := by
  have h : hSet 1 = (hM.view.slice (Rect.unit (s := S6x48x48) ![1, 0, 0] S1x48x48.size inb_S6x48x48_S1x48x48_1_0_0)).set :=
    View.set_reshape (v := hM.view.slice (Rect.unit (s := S6x48x48) ![1, 0, 0] S1x48x48.size inb_S6x48x48_S1x48x48_1_0_0)) squeezes_S1x48x48_S48x48.numel_eq
  rw [h, View.set_slice]
  exact Finset.Subset.refl _
theorem p11_halo_row2 : hM.view.setOn ((Rect.unit (s := S6x48x48) ![2, 0, 0] S1x48x48.size inb_S6x48x48_S1x48x48_2_0_0).toLoadRect).set ⊆ hSet 2 := by
  have h : hSet 2 = (hM.view.slice (Rect.unit (s := S6x48x48) ![2, 0, 0] S1x48x48.size inb_S6x48x48_S1x48x48_2_0_0)).set :=
    View.set_reshape (v := hM.view.slice (Rect.unit (s := S6x48x48) ![2, 0, 0] S1x48x48.size inb_S6x48x48_S1x48x48_2_0_0)) squeezes_S1x48x48_S48x48.numel_eq
  rw [h, View.set_slice]
  exact Finset.Subset.refl _

theorem p11_part1 (c : Dev nD) (h : X c = 1) (K : Dev nD × Fin 13 → ℕ) (W : Waits sig Unit) (o : OC (F := F))
    (Φ : (Σ' (v206 : FVec F S48x48 .bf16) (v227 : IVec S48x48 1), FVec F S48x48 .bf16) → sProp 𝕄) :
    iprop(records m K ∗ owes (c : Thread nD τ) 0 W ∗ pt1 c o ∗ cred (tallyAt (recvCell c 0) () N) ∗ atPos ER (recvCell c 0) 0 ∅ 0
      ∗ ((owes (c : Thread nD τ) 0 (insert (SemLoc.dma (recvSem 0), ()) W) ∗ pt1 c o ∗ hPts c 0 (haloC m c) ∗ atPos ER (recvCell c 0) 1 ∅ 0)
          -∗ Φ ⟨k0_pay4 (oM.view.readAt (Elt F) (Rect.unit (s := S48x48x48) ![0, 0, 0] S1x48x48.size inb_S48x48x48_S1x48x48_0_0_0).toLoadRect o),
                k0_pay5 (f92 c) (f93 c) (f94 c) (f95 c), k0_pay6 (hRow0 m c)⟩))
    ⊢ WP c (k0_part1 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)) Φ := by
  unfold hRow0 hPts
  iintro ⟨#Hrec, HO, Ho, Hcr, Hat, Hk⟩
  ihave #Hci := (p11_records_recv m K c 0) $$ Hrec
  rw [k0_part1_eq_skeleton]; unfold k0_part1_skel
  dsimp only [WP]
  have e : ((SemArray.slice cc0_scratch3 (Rect.unit (s := S6) ![0] ![1] inb_S6_S1_0)).squeeze S_ squeezes_S1_S_).sem = recvSem 0 := recvSem_0
  rw [e]
  iapply (wp_wait_rest_token 𝒱₀ ER (haloRd m) (c : Thread nD τ) none (κ := K (c, ⟨7 + (0 : Fin 6).val, by decide⟩)) (sm := .dma (recvSem 0)) (k' := (hSlot 0).view.dmaCredit)
      (wpE_waitDma2_eq 𝒱₀ (c : Thread nD τ) none Set.univ (dst := hSlot 0)) (Set.mem_univ _) () (O := 0) (W := W) (R := 0) (m := 0) (T := ∅)
      (by rw [Nat.zero_add, expect_recv m c 0 h] <;> rfl)) $$ [Hcr HO Hat]
  · isplitr; · iexact Hci
    iframe Hcr HO
    isplitr; · rw [MayWait_zero]; iempintro
    iexact Hat
  iintro ⟨HO, Hat, -, Hpay⟩
  ihave Hpay := (p11_rest m c 0 h) $$ Hpay
  iapply (wp_load 𝒱₀ (c : Thread nD τ) none Set.univ (m := oM) (S := Finset.univ) (Finset.subset_univ _)) $$ Ho; iintro Ho
  iapply (wp_load 𝒱₀ (c : Thread nD τ) none Set.univ (m := hM) p11_halo_row0) $$ Hpay; iintro Hpay
  iapply (le_wp_ret _ _ _)
  iapply Hk
  iframe HO Ho Hpay Hat

theorem p11_part2 (c : Dev nD) (h : X c = 0) (K : Dev nD × Fin 13 → ℕ) (W : Waits sig Unit) (o : OC (F := F))
    (Φ : (Σ' (v206 : FVec F S48x48 .bf16) (v227 : IVec S48x48 1), FVec F S48x48 .bf16) → sProp 𝕄) :
    iprop(records m K ∗ owes (c : Thread nD τ) 0 W ∗ pt1 c o ∗ cred (tallyAt (recvCell c 1) () N) ∗ atPos ER (recvCell c 1) 0 ∅ 0
      ∗ ((owes (c : Thread nD τ) 0 (insert (SemLoc.dma (recvSem 1), ()) W) ∗ pt1 c o ∗ hPts c 1 (haloC m c) ∗ atPos ER (recvCell c 1) 1 ∅ 0)
          -∗ Φ ⟨k0_pay7 (oM.view.readAt (Elt F) (Rect.unit (s := S48x48x48) ![47, 0, 0] S1x48x48.size inb_S48x48x48_S1x48x48_47_0_0).toLoadRect o),
                k0_pay8 (f92 c) (f93 c) (f94 c) (f95 c), k0_pay9 (hRow1 m c)⟩))
    ⊢ WP c (k0_part2 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)) Φ := by
  unfold hRow1 hPts
  iintro ⟨#Hrec, HO, Ho, Hcr, Hat, Hk⟩
  ihave #Hci := (p11_records_recv m K c 1) $$ Hrec
  rw [k0_part2_eq_skeleton]; unfold k0_part2_skel
  dsimp only [WP]
  have e : ((SemArray.slice cc0_scratch3 (Rect.unit (s := S6) ![1] ![1] inb_S6_S1_1)).squeeze S_ squeezes_S1_S_).sem = recvSem 1 := recvSem_1
  rw [e]
  iapply (wp_wait_rest_token 𝒱₀ ER (haloRd m) (c : Thread nD τ) none (κ := K (c, ⟨7 + (1 : Fin 6).val, by decide⟩)) (sm := .dma (recvSem 1)) (k' := (hSlot 1).view.dmaCredit)
      (wpE_waitDma2_eq 𝒱₀ (c : Thread nD τ) none Set.univ (dst := hSlot 1)) (Set.mem_univ _) () (O := 0) (W := W) (R := 0) (m := 0) (T := ∅)
      (by rw [Nat.zero_add, expect_recv m c 1 h] <;> rfl)) $$ [Hcr HO Hat]
  · isplitr; · iexact Hci
    iframe Hcr HO
    isplitr; · rw [MayWait_zero]; iempintro
    iexact Hat
  iintro ⟨HO, Hat, -, Hpay⟩
  ihave Hpay := (p11_rest m c 1 h) $$ Hpay
  iapply (wp_load 𝒱₀ (c : Thread nD τ) none Set.univ (m := oM) (S := Finset.univ) (Finset.subset_univ _)) $$ Ho; iintro Ho
  iapply (wp_load 𝒱₀ (c : Thread nD τ) none Set.univ (m := hM) p11_halo_row1) $$ Hpay; iintro Hpay
  iapply (le_wp_ret _ _ _)
  iapply Hk
  iframe HO Ho Hpay Hat

theorem p11_part3 (c : Dev nD) (h : Y c = 1) (K : Dev nD × Fin 13 → ℕ) (W : Waits sig Unit) (o : OC (F := F))
    (Φ : (Σ' (v206 : FVec F S48x48 .bf16) (v227 : IVec S48x48 1), FVec F S48x48 .bf16) → sProp 𝕄) :
    iprop(records m K ∗ owes (c : Thread nD τ) 0 W ∗ pt1 c o ∗ cred (tallyAt (recvCell c 2) () N) ∗ atPos ER (recvCell c 2) 0 ∅ 0
      ∗ ((owes (c : Thread nD τ) 0 (insert (SemLoc.dma (recvSem 2), ()) W) ∗ pt1 c o ∗ hPts c 2 (haloC m c) ∗ atPos ER (recvCell c 2) 1 ∅ 0)
          -∗ Φ ⟨k0_pay10 (oM.view.readAt (Elt F) (Rect.unit (s := S48x48x48) ![0, 0, 0] S48x1x48.size inb_S48x48x48_S48x1x48_0_0_0).toLoadRect o),
                k0_pay11 (f90 c) (f91 c) (f94 c) (f95 c), k0_pay12 (hRow2 m c)⟩))
    ⊢ WP c (k0_part3 (F := F) uM (Memref.isWhole_whole _) oM (Memref.isWhole_whole _) hM (Memref.isWhole_whole _) sM (Memref.isWhole_whole _) cc0_scratch2 cc0_scratch3 (xw c) (yw c) (zw c) (f90 c) (f91 c) (f94 c) (f95 c)) Φ := by
  unfold hRow2 hPts
  iintro ⟨#Hrec, HO, Ho, Hcr, Hat, Hk⟩
  ihave #Hci := (p11_records_recv m K c 2) $$ Hrec
  rw [k0_part3_eq_skeleton]; unfold k0_part3_skel
  dsimp only [WP]
  have e : ((SemArray.slice cc0_scratch3 (Rect.unit (s := S6) ![2] ![1] inb_S6_S1_2)).squeeze S_ squeezes_S1_S_).sem = recvSem 2 := recvSem_2
  rw [e]
  iapply (wp_wait_rest_token 𝒱₀ ER (haloRd m) (c : Thread nD τ) none (κ := K (c, ⟨7 + (2 : Fin 6).val, by decide⟩)) (sm := .dma (recvSem 2)) (k' := (hSlot 2).view.dmaCredit)
      (wpE_waitDma2_eq 𝒱₀ (c : Thread nD τ) none Set.univ (dst := hSlot 2)) (Set.mem_univ _) () (O := 0) (W := W) (R := 0) (m := 0) (T := ∅)
      (by rw [Nat.zero_add, expect_recv m c 2 h] <;> rfl)) $$ [Hcr HO Hat]
  · isplitr; · iexact Hci
    iframe Hcr HO
    isplitr; · rw [MayWait_zero]; iempintro
    iexact Hat
  iintro ⟨HO, Hat, -, Hpay⟩
  ihave Hpay := (p11_rest m c 2 h) $$ Hpay
  iapply (wp_load 𝒱₀ (c : Thread nD τ) none Set.univ (m := oM) (S := Finset.univ) (Finset.subset_univ _)) $$ Ho; iintro Ho
  iapply (wp_load 𝒱₀ (c : Thread nD τ) none Set.univ (m := hM) p11_halo_row2) $$ Hpay; iintro Hpay
  iapply (le_wp_ret _ _ _)
  iapply Hk
  iframe HO Ho Hpay Hat

theorem p11_pt1_whole (c : Dev nD) (g w : OC (F := F)) :
    pt1 c ((oM.access (Rect.unit (s := S48x48x48) ![0, 0, 0] S48x48x48.size inb_S48x48x48_S48x48x48_0_0_0)).write (Elt F) g w Finset.univ) ⊢ pt1 c w := by
  rw [p11_write_whole]

theorem p11_store0 (c : Dev nD) (g : OC (F := F)) {α : Type} (rest : Prog (TpuEff nD τ sig (Elt F) Λ₀ .tc) α) (Q : α → sProp 𝕄) :
    iprop(pt1 c g ∗ (pt1 c (out0 m c) -∗ WP c rest Q))
      ⊢ WP c (do
          let _ ← Prog.lift (.load oM (Rect.unit (s := S48x48x48) ![0, 0, 0] S48x48x48.size inb_S48x48x48_S48x48x48_0_0_0).toLoadRect (View.loadsAt_vmem h_S48x48x48))
          Prog.lift (.store oM (Rect.unit (s := S48x48x48) ![0, 0, 0] S48x48x48.size inb_S48x48x48_S48x48x48_0_0_0) (out0 m c) Finset.univ (View.stores_vmem h_S48x48x48 ((Memref.isWhole_whole _).storeExact_slice rfl _ packedbf16_S48x48x48_S48x48x48_0_0_0) (fun _ => rfl)) (.inl rfl))
          rest) Q := by
  iintro ⟨Ho, Hk⟩
  dsimp only [WP]
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![0, 0, 0] S48x48x48.size inb_S48x48x48_S48x48x48_0_0_0) (S := Finset.univ) (Finset.subset_univ _)) $$ Ho; iintro Ho
  ihave Ho := (p11_pt1_whole c g (out0 m c)) $$ Ho
  iapply Hk; iexact Ho

theorem p11_face0 (c : Dev nD) (h : X c = 1) (K : Dev nD × Fin 13 → ℕ) (W : Waits sig Unit) (o : OC (F := F)) {α : Type}
    (rest : Prog (TpuEff nD τ sig (Elt F) Λ₀ .tc) α) (Q : α → sProp 𝕄) :
    iprop(records m K ∗ owes (c : Thread nD τ) 0 W ∗ pt1 c o ∗ cred (tallyAt (recvCell c 0) () N) ∗ atPos ER (recvCell c 0) 0 ∅ 0
      ∗ ((owes (c : Thread nD τ) 0 (insert (SemLoc.dma (recvSem 0), ()) W) ∗ pt1 c (upd0 m c o) ∗ hPts c 0 (haloC m c) ∗ atPos ER (recvCell c 0) 1 ∅ 0)
          -∗ WP c rest Q))
    ⊢ WP c (do
        let x ← k0_part1 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)
        let _ ← Prog.lift (.load oM (Rect.unit (s := S48x48x48) ![0, 0, 0] S1x48x48.size inb_S48x48x48_S1x48x48_0_0_0).toLoadRect (View.loadsAt_vmem h_S1x48x48))
        Prog.lift (.store oM (Rect.unit (s := S48x48x48) ![0, 0, 0] S1x48x48.size inb_S48x48x48_S1x48x48_0_0_0) (k0_pay31 x.1 x.2.1 x.2.2) Finset.univ (View.stores_vmem h_S1x48x48 ((Memref.isWhole_whole _).storeExact_slice rfl _ packedbf16_S48x48x48_S1x48x48_0_0_0) (fun _ => rfl)) (.inl rfl))
        rest) Q := by
  iintro ⟨#Hrec, HO, Ho, Hcr, Hat, Hk⟩
  dsimp only [WP]
  rw [wp_bind]
  iapply (p11_part1 m c h K W o _)
  iframe Hrec HO Ho Hcr Hat
  iintro ⟨HO, Ho, Hh, Hat⟩
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![0, 0, 0] S1x48x48.size inb_S48x48x48_S1x48x48_0_0_0) (S := Finset.univ) (Finset.subset_univ _)) $$ Ho; iintro Ho
  iapply Hk
  isplitl [HO]; · iexact HO
  isplitl [Ho]; · iexact Ho
  isplitl [Hh]; · iexact Hh
  iexact Hat

theorem p11_face1 (c : Dev nD) (h : X c = 0) (K : Dev nD × Fin 13 → ℕ) (W : Waits sig Unit) (o : OC (F := F)) {α : Type}
    (rest : Prog (TpuEff nD τ sig (Elt F) Λ₀ .tc) α) (Q : α → sProp 𝕄) :
    iprop(records m K ∗ owes (c : Thread nD τ) 0 W ∗ pt1 c o ∗ cred (tallyAt (recvCell c 1) () N) ∗ atPos ER (recvCell c 1) 0 ∅ 0
      ∗ ((owes (c : Thread nD τ) 0 (insert (SemLoc.dma (recvSem 1), ()) W) ∗ pt1 c (upd1 m c o) ∗ hPts c 1 (haloC m c) ∗ atPos ER (recvCell c 1) 1 ∅ 0)
          -∗ WP c rest Q))
    ⊢ WP c (do
        let x ← k0_part2 (F := F) uM (Memref.isWhole_whole _) oM (Memref.isWhole_whole _) hM (Memref.isWhole_whole _) sM (Memref.isWhole_whole _) cc0_scratch2 cc0_scratch3 (xw c) (yw c) (zw c) (f92 c) (f93 c) (f94 c) (f95 c)
        let _ ← Prog.lift (.load oM (Rect.unit (s := S48x48x48) ![47, 0, 0] S1x48x48.size inb_S48x48x48_S1x48x48_47_0_0).toLoadRect (View.loadsAt_vmem h_S1x48x48))
        Prog.lift (.store oM (Rect.unit (s := S48x48x48) ![47, 0, 0] S1x48x48.size inb_S48x48x48_S1x48x48_47_0_0) (k0_pay32 x.1 x.2.1 x.2.2) Finset.univ (View.stores_vmem h_S1x48x48 ((Memref.isWhole_whole _).storeExact_slice rfl _ packedbf16_S48x48x48_S1x48x48_47_0_0) (fun _ => rfl)) (.inl rfl))
        rest) Q := by
  iintro ⟨#Hrec, HO, Ho, Hcr, Hat, Hk⟩
  dsimp only [WP]
  rw [wp_bind]
  iapply (p11_part2 m c h K W o _)
  iframe Hrec HO Ho Hcr Hat
  iintro ⟨HO, Ho, Hh, Hat⟩
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![47, 0, 0] S1x48x48.size inb_S48x48x48_S1x48x48_47_0_0) (S := Finset.univ) (Finset.subset_univ _)) $$ Ho; iintro Ho
  iapply Hk
  isplitl [HO]; · iexact HO
  isplitl [Ho]; · iexact Ho
  isplitl [Hh]; · iexact Hh
  iexact Hat

theorem p11_face2 (c : Dev nD) (h : Y c = 1) (K : Dev nD × Fin 13 → ℕ) (W : Waits sig Unit) (o : OC (F := F)) {α : Type}
    (rest : Prog (TpuEff nD τ sig (Elt F) Λ₀ .tc) α) (Q : α → sProp 𝕄) :
    iprop(records m K ∗ owes (c : Thread nD τ) 0 W ∗ pt1 c o ∗ cred (tallyAt (recvCell c 2) () N) ∗ atPos ER (recvCell c 2) 0 ∅ 0
      ∗ ((owes (c : Thread nD τ) 0 (insert (SemLoc.dma (recvSem 2), ()) W) ∗ pt1 c (upd2 m c o) ∗ hPts c 2 (haloC m c) ∗ atPos ER (recvCell c 2) 1 ∅ 0)
          -∗ WP c rest Q))
    ⊢ WP c (do
        let x ← k0_part3 (F := F) uM (Memref.isWhole_whole _) oM (Memref.isWhole_whole _) hM (Memref.isWhole_whole _) sM (Memref.isWhole_whole _) cc0_scratch2 cc0_scratch3 (xw c) (yw c) (zw c) (f90 c) (f91 c) (f94 c) (f95 c)
        let _ ← Prog.lift (.load oM (Rect.unit (s := S48x48x48) ![0, 0, 0] S48x1x48.size inb_S48x48x48_S48x1x48_0_0_0).toLoadRect (View.loadsAt_vmem h_S48x1x48))
        storeSubelements oM (Rect.unit (s := S48x48x48) ![0, 0, 0] S48x2x48.size inb_S48x48x48_S48x2x48_0_0_0) (fun old => updateSlice old (k0_pay33 x.1 x.2.1 x.2.2) ![0, 0, 0] slices_S48x2x48_S48x1x48_0_0_0) (View.loadsAt_vmem h_S48x2x48) (View.stores_vmem h_S48x2x48 ((Memref.isWhole_whole _).storeExact_slice rfl _ packedbf16_S48x48x48_S48x2x48_0_0_0) (fun _ => rfl))
        rest) Q := by
  iintro ⟨#Hrec, HO, Ho, Hcr, Hat, Hk⟩
  dsimp only [WP]
  rw [wp_bind]
  iapply (p11_part3 m c h K W o _)
  iframe Hrec HO Ho Hcr Hat
  iintro ⟨HO, Ho, Hh, Hat⟩
  iapply (wp_load 𝒱₀ (c : Thread nD τ) none Set.univ (m := oM) (S := Finset.univ) (Finset.subset_univ _)) $$ Ho; iintro Ho
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S48x48x48) ![0, 0, 0] S48x2x48.size inb_S48x48x48_S48x2x48_0_0_0) (S := Finset.univ) (Finset.subset_univ _)) $$ Ho; iintro Ho
  iapply Hk
  isplitl [HO]; · iexact HO
  isplitl [Ho]; · iexact Ho
  isplitl [Hh]; · iexact Hh
  iexact Hat

theorem part11_sound (c : Dev nD) : Part11Spec (F := F) m c := by
  intro K W α k Q
  simp only [WP, wp_bind]
  simp only [k0_part11_eq_skeleton]
  unfold k0_part11_skel
  have hX := X_lt c
  have hY := Y_lt c
  by_cases hX1 : X c = 1 <;> by_cases hY1 : Y c = 1
  ·
    have hX0 : ¬ X c = 0 := by omega
    have h11 := (xw_eq1_iff c).mpr hX1
    have h12 : ¬ _ := (xw_eq0_iff c).not.mpr hX0
    have r0 : recvAct c 0 := hX1
    have r1 : ¬ recvAct c 1 := hX0
    have h13 := (yw_eq1_iff c).mpr hY1
    have r2 : recvAct c 2 := hY1
    have e3 : out3 m c = upd2 m c (upd0 m c (out0 m c)) := by
      unfold out3 out2 out1; rw [if_pos hY1, if_neg hX0, if_pos hX1]
    simp only [h11, h12, h13, ↓reduceDIte]
    simp only [pre11, post11, rCred, rPos0, hBack, rPos1, condP, r0, r1, r2, e3, ↓reduceIte]
    iintro ⟨⟨#Hrec, HO, ⟨%g, Ho⟩, Hc0, -, Hc2, Hp0, Hp1, Hp2⟩, Hk⟩
    iapply (p11_store0 m c g _ _)
    isplitl [Ho]; · iexact Ho
    iintro Ho
    iapply (p11_face0 m c hX1 K W _ _ _)
    iframe Hrec HO Ho Hc0 Hp0
    iintro ⟨HO, Ho, Hh0, Hp0⟩
    iapply (p11_face2 m c hY1 K _ _ _ _)
    iframe Hrec HO Ho Hc2 Hp2
    iintro ⟨HO, Ho, Hh2, Hp2⟩
    iapply (le_wp_ret _ _ _)
    iapply Hk
    isplitl [HO]; · iexists _; iexact HO
    iframe Ho Hh0
    isplitr; · iempintro
    iframe Hh2 Hp0 Hp1 Hp2
  ·
    have hX0 : ¬ X c = 0 := by omega
    have h11 := (xw_eq1_iff c).mpr hX1
    have h12 : ¬ _ := (xw_eq0_iff c).not.mpr hX0
    have r0 : recvAct c 0 := hX1
    have r1 : ¬ recvAct c 1 := hX0
    have h13 : ¬ _ := (yw_eq1_iff c).not.mpr hY1
    have r2 : ¬ recvAct c 2 := hY1
    have e3 : out3 m c = upd0 m c (out0 m c) := by
      unfold out3 out2 out1; rw [if_neg hY1, if_neg hX0, if_pos hX1]
    simp only [h11, h12, h13, ↓reduceDIte]
    simp only [pre11, post11, rCred, rPos0, hBack, rPos1, condP, r0, r1, r2, e3, ↓reduceIte]
    iintro ⟨⟨#Hrec, HO, ⟨%g, Ho⟩, Hc0, -, -, Hp0, Hp1, Hp2⟩, Hk⟩
    iapply (p11_store0 m c g _ _)
    isplitl [Ho]; · iexact Ho
    iintro Ho
    iapply (p11_face0 m c hX1 K W _ _ _)
    iframe Hrec HO Ho Hc0 Hp0
    iintro ⟨HO, Ho, Hh0, Hp0⟩
    iapply (le_wp_ret _ _ _)
    iapply Hk
    isplitl [HO]; · iexists _; iexact HO
    iframe Ho Hh0
    isplitr; · iempintro
    isplitr; · iempintro
    iframe Hp0 Hp1 Hp2
  ·
    have hX0 : X c = 0 := by omega
    have h11 : ¬ _ := (xw_eq1_iff c).not.mpr hX1
    have h12 := (xw_eq0_iff c).mpr hX0
    have r0 : ¬ recvAct c 0 := hX1
    have r1 : recvAct c 1 := hX0
    have h13 := (yw_eq1_iff c).mpr hY1
    have r2 : recvAct c 2 := hY1
    have e3 : out3 m c = upd2 m c (upd1 m c (out0 m c)) := by
      unfold out3 out2 out1; rw [if_pos hY1, if_pos hX0, if_neg hX1]
    simp only [h11, h12, h13, ↓reduceDIte]
    simp only [pre11, post11, rCred, rPos0, hBack, rPos1, condP, r0, r1, r2, e3, ↓reduceIte]
    iintro ⟨⟨#Hrec, HO, ⟨%g, Ho⟩, -, Hc1, Hc2, Hp0, Hp1, Hp2⟩, Hk⟩
    iapply (p11_store0 m c g _ _)
    isplitl [Ho]; · iexact Ho
    iintro Ho
    iapply (p11_face1 m c hX0 K W _ _ _)
    iframe Hrec HO Ho Hc1 Hp1
    iintro ⟨HO, Ho, Hh1, Hp1⟩
    iapply (p11_face2 m c hY1 K _ _ _ _)
    iframe Hrec HO Ho Hc2 Hp2
    iintro ⟨HO, Ho, Hh2, Hp2⟩
    iapply (le_wp_ret _ _ _)
    iapply Hk
    isplitl [HO]; · iexists _; iexact HO
    isplitl [Ho]; · iexact Ho
    isplitr; · iempintro
    iframe Hh1 Hh2 Hp0 Hp1 Hp2
  ·
    have hX0 : X c = 0 := by omega
    have h11 : ¬ _ := (xw_eq1_iff c).not.mpr hX1
    have h12 := (xw_eq0_iff c).mpr hX0
    have r0 : ¬ recvAct c 0 := hX1
    have r1 : recvAct c 1 := hX0
    have h13 : ¬ _ := (yw_eq1_iff c).not.mpr hY1
    have r2 : ¬ recvAct c 2 := hY1
    have e3 : out3 m c = upd1 m c (out0 m c) := by
      unfold out3 out2 out1; rw [if_neg hY1, if_pos hX0, if_neg hX1]
    simp only [h11, h12, h13, ↓reduceDIte]
    simp only [pre11, post11, rCred, rPos0, hBack, rPos1, condP, r0, r1, r2, e3, ↓reduceIte]
    iintro ⟨⟨#Hrec, HO, ⟨%g, Ho⟩, -, Hc1, -, Hp0, Hp1, Hp2⟩, Hk⟩
    iapply (p11_store0 m c g _ _)
    isplitl [Ho]; · iexact Ho
    iintro Ho
    iapply (p11_face1 m c hX0 K W _ _ _)
    iframe Hrec HO Ho Hc1 Hp1
    iintro ⟨HO, Ho, Hh1, Hp1⟩
    iapply (le_wp_ret _ _ _)
    iapply Hk
    isplitl [HO]; · iexists _; iexact HO
    isplitl [Ho]; · iexact Ho
    isplitr; · iempintro
    isplitl [Hh1]; · iexact Hh1
    isplitr; · iempintro
    iframe Hp0 Hp1 Hp2

end Cert.Kernel.Halo

end
-- ==== Proof.K.BodyRecv.lean ====
import proofs.«900536_g7700000000000537_dist_halo3d_v7x_xyz2x2x4_s48_bf16_1_alg».proof.Proof.K.BodyInv

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

private theorem inv_at (K : Dev nD × Fin 13 → ℕ) (ck : Dev nD × Fin 13) :
    (bigSep Finset.univ fun ck : Dev nD × Fin 13 => (cellInv ER (haloRd m) (K ck) (kcell ck) : sProp 𝕄))
      ⊢ cellInv ER (haloRd m) (K ck) (kcell ck) :=
  bigSep_elim (Finset.mem_univ ck)

private theorem inv_recv (K : Dev nD × Fin 13 → ℕ) (c : Dev nD) (s : Fin 6) :
    (bigSep Finset.univ fun ck : Dev nD × Fin 13 => (cellInv ER (haloRd m) (K ck) (kcell ck) : sProp 𝕄))
      ⊢ cellInv ER (haloRd m) (K (c, ⟨7 + s.val, by have := s.isLt; omega⟩)) (recvCell c s) := by
  have h := inv_at m K (c, ⟨7 + s.val, by have := s.isLt; omega⟩)
  rwa [kcell_recv] at h

private theorem inv_send (K : Dev nD × Fin 13 → ℕ) (c : Dev nD) (s : Fin 6) :
    (bigSep Finset.univ fun ck : Dev nD × Fin 13 => (cellInv ER (haloRd m) (K ck) (kcell ck) : sProp 𝕄))
      ⊢ cellInv ER (haloRd m) (K (c, ⟨1 + s.val, by have := s.isLt; omega⟩)) (sendCell c s) := by
  have h := inv_at m K (c, ⟨1 + s.val, by have := s.isLt; omega⟩)
  rwa [kcell_send] at h

theorem recv_wait (c : Dev nD) (s : Fin 6) (h : recvAct c s) (K : Dev nD × Fin 13 → ℕ) (W : Waits sig Unit) {α : Type}
    {sem : DmaSem sig} (hsem : sem = recvSem s) {src dst : Memref sig .tc .vmem S48x48 .bf16}
    {hsrc : src.view.WordExact} {hdst : dst.view.WordExact}
    (hcr : dst.view.dmaCredit = N) (k : PUnit → Prog (TpuEff nD τ sig (Elt F) Λ₀ .tc) α) (Q : α → sProp 𝕄) :
    iprop(records m K ∗ owes (c : Thread nD τ) 0 W ∗ cred (tallyAt (recvCell c s) () N) ∗ atPos ER (recvCell c s) 0 ∅ 0
        ∗ ((owes (c : Thread nD τ) 0 (insert (SemLoc.dma (recvSem s), ()) W) ∗ atPos ER (recvCell c s) 1 ∅ 0
            ∗ hPts c s (haloC m c)) -∗ WP c (k ⟨⟩) Q))
      ⊢ WP c (.op (.waitDma2 sem src dst hsrc hdst) k) Q := by
  subst hsem
  unfold records
  iintro ⟨⟨HI, -⟩, HL, Hc, Hat, Hk⟩
  ihave Hκ := (inv_recv m K c s) $$ HI
  iapply (Rounds.wp_wait_rest_token 𝒱₀ ER (haloRd m) (c : Thread nD τ) none (κ := K (c, ⟨7 + s.val, by have := s.isLt; omega⟩))
      (wpE_waitDma2_eq 𝒱₀ (c : Thread nD τ) none Set.univ) (Set.mem_univ _) () (O := 0) (W := W) (R := 0) (m := 0) (T := ∅)
      (by rw [Nat.zero_add, hcr, expect_recv m c s h])) $$ [Hκ Hc HL Hat]
  · isplitl [Hκ]; · iexact Hκ
    isplitl [Hc]; · rw [hcr]; iexact Hc
    isplitl [HL]; · iexact HL
    isplitr; · rw [MayWait_zero]; iempintro
    iexact Hat
  iintro ⟨HL, Hat, -, Hpay⟩
  ihave Hp := (Entails.of_eq ((rest_recv m c s h).trans (by unfold recvPay; rfl))) $$ Hpay
  iapply Hk
  iframe HL Hat Hp

theorem send_wait (c : Dev nD) (s : Fin 6) (h : sendAct c s) (K : Dev nD × Fin 13 → ℕ) (W : Waits sig Unit) {α : Type}
    {sem : DmaSem sig} (hsem : sem = sendSem s) {src dst : Memref sig .tc .vmem S48x48 .bf16}
    {hsrc : src.view.WordExact} {hdst : dst.view.WordExact}
    (hcr : dst.view.dmaCredit = N) (k : PUnit → Prog (TpuEff nD τ sig (Elt F) Λ₀ .tc) α) (Q : α → sProp 𝕄) :
    iprop(records m K ∗ owes (c : Thread nD τ) 0 W ∗ cred (tallyAt (sendCell c s) () N) ∗ atPos ER (sendCell c s) 0 ∅ 0
        ∗ ((owes (c : Thread nD τ) 0 (insert (SemLoc.dma (sendSem s), ()) W) ∗ atPos ER (sendCell c s) 1 ∅ 0
            ∗ sPts c s (sendC m c)) -∗ WP c (k ⟨⟩) Q))
      ⊢ WP c (.op (.waitDma2 sem src dst hsrc hdst) k) Q := by
  subst hsem
  unfold records
  iintro ⟨⟨HI, -⟩, HL, Hc, Hat, Hk⟩
  ihave Hκ := (inv_send m K c s) $$ HI
  iapply (Rounds.wp_wait_rest_token 𝒱₀ ER (haloRd m) (c : Thread nD τ) none (κ := K (c, ⟨1 + s.val, by have := s.isLt; omega⟩))
      (wpE_waitDma2_eq 𝒱₀ (c : Thread nD τ) none Set.univ) (Set.mem_univ _) () (O := 0) (W := W) (R := 0) (m := 0) (T := ∅)
      (by rw [Nat.zero_add, hcr, expect_send m c s h])) $$ [Hκ Hc HL Hat]
  · isplitl [Hκ]; · iexact Hκ
    isplitl [Hc]; · rw [hcr]; iexact Hc
    isplitl [HL]; · iexact HL
    isplitr; · rw [MayWait_zero]; iempintro
    iexact Hat
  iintro ⟨HL, Hat, -, Hpay⟩
  ihave Hp := (Entails.of_eq ((rest_send m c s h).trans (by unfold sendPay; rfl))) $$ Hpay
  iapply Hk
  iframe HL Hat Hp

theorem halo_load (c : Dev nD) (s : Fin 6) {r : LoadRect S6x48x48}
    {hl : (hM : Memref sig .tc .vmem S6x48x48 .bf16).view.LoadsAt r}
    (hr : (hM : Memref sig .tc .vmem S6x48x48 .bf16).view.setOn r.set ⊆ hSet s)
    (f : Buf (Elt F) ((c : Thread nD τ).loc cc0_scratch0)) {α : Type}
    (k : (r.shape.Idx → Elt F .bf16) → Prog (TpuEff nD τ sig (Elt F) Λ₀ .tc) α) (Q : α → sProp 𝕄) :
    iprop(hPts c s f ∗ (hPts c s f -∗ WP c (k ((hM : Memref sig .tc .vmem S6x48x48 .bf16).view.readAt (Elt F) r f)) Q))
      ⊢ WP c (.op (.load hM r hl) k) Q := by
  unfold hPts
  iintro ⟨H, Hk⟩
  iapply (wp_load 𝒱₀ (c : Thread nD τ) none Set.univ (m := (hM : Memref sig .tc .vmem S6x48x48 .bf16)) hr) $$ H
  iexact Hk

theorem hSet_3 : hSet 3 = (hM : Memref sig .tc .vmem S6x48x48 .bf16).view.setOn
    (Rect.unit (s := S6x48x48) ![3, 0, 0] S1x48x48.size inb_S6x48x48_S1x48x48_3_0_0).toLoadRect.set := by
  show (hSlot 3).view.set = _
  exact (View.set_reshape _ _).trans (View.set_slice _ _)
theorem halo_row_sub3 : (hM : Memref sig .tc .vmem S6x48x48 .bf16).view.setOn
    (Rect.unit (s := S6x48x48) ![3, 0, 0] S1x48x48.size inb_S6x48x48_S1x48x48_3_0_0).toLoadRect.set ⊆ hSet 3 := by
  rw [hSet_3]
theorem hSet_4 : hSet 4 = (hM : Memref sig .tc .vmem S6x48x48 .bf16).view.setOn
    (Rect.unit (s := S6x48x48) ![4, 0, 0] S1x48x48.size inb_S6x48x48_S1x48x48_4_0_0).toLoadRect.set := by
  show (hSlot 4).view.set = _
  exact (View.set_reshape _ _).trans (View.set_slice _ _)
theorem halo_row_sub4 : (hM : Memref sig .tc .vmem S6x48x48 .bf16).view.setOn
    (Rect.unit (s := S6x48x48) ![4, 0, 0] S1x48x48.size inb_S6x48x48_S1x48x48_4_0_0).toLoadRect.set ⊆ hSet 4 := by
  rw [hSet_4]
theorem hSet_5 : hSet 5 = (hM : Memref sig .tc .vmem S6x48x48 .bf16).view.setOn
    (Rect.unit (s := S6x48x48) ![5, 0, 0] S1x48x48.size inb_S6x48x48_S1x48x48_5_0_0).toLoadRect.set := by
  show (hSlot 5).view.set = _
  exact (View.set_reshape _ _).trans (View.set_slice _ _)
theorem halo_row_sub5 : (hM : Memref sig .tc .vmem S6x48x48 .bf16).view.setOn
    (Rect.unit (s := S6x48x48) ![5, 0, 0] S1x48x48.size inb_S6x48x48_S1x48x48_5_0_0).toLoadRect.set ⊆ hSet 5 := by
  rw [hSet_5]

end Cert.Kernel.Halo

end
-- ==== Proof.K.BodyTail.lean ====
import proofs.«900536_g7700000000000537_dist_halo3d_v7x_xyz2x2x4_s48_bf16_1_alg».proof.Proof.K.BodyRecv

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

private theorem tl_hCredit (s : Fin 6) : (hSlot s).view.dmaCredit = N := by
  fin_cases s <;> rfl
private theorem tl_sCredit (s : Fin 6) : (sSlot s).view.dmaCredit = N := by
  fin_cases s <;> rfl

private theorem tl_huM : (uM : Memref sig .tc .vmem S48x48x48 .f32).IsWhole := Memref.isWhole_whole _
private theorem tl_hoM : (oM : Memref sig .tc .vmem S48x48x48 .bf16).IsWhole := Memref.isWhole_whole _
private theorem tl_hhM : (hM : Memref sig .tc .vmem S6x48x48 .bf16).IsWhole := Memref.isWhole_whole _
private theorem tl_hsM : (sM : Memref sig .tc .vmem S6x48x48 .bf16).IsWhole := Memref.isWhole_whole _

theorem tl_send_blk (c : Dev nD) (s : Fin 6) (K : Dev nD × Fin 13 → ℕ) (W : Waits sig Unit)
    (b : BitVec 1) (hb : b = 1#1 ↔ sendAct c s)
    {sem : DmaSem sig} (hsem : sem = sendSem s) {src dst : Memref sig .tc .vmem S48x48 .bf16} {hsrc : src.view.WordExact} {hdst : dst.view.WordExact}
    (hcr : dst.view.dmaCredit = N) (rest : Prog (TpuEff nD τ sig (Elt F) Λ₀ .tc) PUnit) (Q : PUnit → sProp 𝕄) :
    iprop(records m K ∗ owes (c : Thread nD τ) 0 W ∗ sCred c s ∗ sPos0 c s
        ∗ (∀ W', (owes (c : Thread nD τ) 0 W' ∗ sBack m c s ∗ sPos1 c s) -∗ WP c rest Q))
      ⊢ WP c (if _h : b = 1#1 then (do Prog.lift (.waitDma2 sem src dst hsrc hdst); rest) else rest) Q := by
  by_cases hp : sendAct c s
  · rw [dif_pos (hb.mpr hp)]
    unfold sCred sPos0 sBack sPos1 condP
    simp only [if_pos hp]
    iintro ⟨#Hrec, HL, Hc, Hat, Hk⟩
    iapply (send_wait m c s hp K W hsem hcr _ Q) $$ [HL Hc Hat Hk]
    iframe Hrec HL Hc Hat
    iintro ⟨HL, Hat, Hpay⟩
    iapply Hk $$ %_
    iframe HL Hpay Hat
  · rw [dif_neg (fun h => hp (hb.mp h))]
    unfold sCred sPos0 sBack sPos1 condP
    simp only [if_neg hp]
    iintro ⟨-, HL, -, Hat, Hk⟩
    iapply Hk $$ %W
    isplitl [HL]; · iexact HL
    isplitr; · iempintro
    iexact Hat

theorem tl_recv_blk3 (c : Dev nD) (K : Dev nD × Fin 13 → ℕ) (W : Waits sig Unit) (o : OC (F := F))
    (rest : Prog (TpuEff nD τ sig (Elt F) Λ₀ .tc) PUnit) (Q : PUnit → sProp 𝕄) :
    iprop(records m K ∗ owes (c : Thread nD τ) 0 W ∗ pt1 c o ∗ rCred c 3 ∗ rPos0 c 3
        ∗ (∀ W', (owes (c : Thread nD τ) 0 W' ∗ pt1 c (if Y c = 0 then upd3 m c o else o) ∗ hBack m c 3 ∗ rPos1 c 3) -∗ WP c rest Q))
      ⊢ WP c (if _h : Scalar.cmpi .ne (Scalar.extui (Scalar.cmpi .eq (yw c) 0#32)) 0#32 = 1#1 then (do
        let ⟨v206, v227, v229⟩ : Σ' (v206 : FVec F S48x48 .bf16) (v227 : IVec S48x48 1), FVec F S48x48 .bf16 ← k0_part4 uM tl_huM oM tl_hoM hM tl_hhM sM tl_hsM cc0_scratch2 cc0_scratch3 (xw c) (yw c) (zw c) (f90 c) (f91 c) (f94 c) (f95 c)
        let v233 : Vec F S48x1x48 .bf16 ← Prog.lift (.load oM (Rect.unit (s := S48x48x48) ![0, 47, 0] S48x1x48.size inb_S48x48x48_S48x1x48_0_47_0).toLoadRect (View.loadsAt_vmem h_S48x1x48))
        storeSubelements oM (Rect.unit (s := S48x48x48) ![0, 46, 0] S48x2x48.size inb_S48x48x48_S48x2x48_0_46_0) (fun old => updateSlice old (k0_pay1 v206 v227 v229) ![0, 1, 0] slices_S48x2x48_S48x1x48_0_1_0) (View.loadsAt_vmem h_S48x2x48) (View.stores_vmem h_S48x2x48 (tl_hoM.storeExact_slice rfl _ packedbf16_S48x48x48_S48x2x48_0_46_0) (fun _ => rfl))
        rest) else rest) Q := by
  by_cases hp : Y c = 0
  · have hp' : recvAct c 3 := hp
    rw [dif_pos ((yw_eq0_iff c).mpr hp)]
    unfold rCred rPos0 hBack rPos1 condP
    simp only [if_pos hp', if_pos hp]
    iintro ⟨#Hrec, HL, Ho, Hc, Hat, Hk⟩
    simp only [k0_part4_eq_skeleton]
    unfold k0_part4_skel
    iapply (recv_wait m c 3 hp' K W recvSem_3 (tl_hCredit 3) _ Q) $$ [HL Hc Hat Hk Ho]
    iframe Hrec HL Hc Hat
    iintro ⟨HL, Hat, Hh⟩
    iapply (wp_load 𝒱₀ (c : Thread nD τ) none Set.univ (m := oM) (Finset.subset_univ _)) $$ Ho; iintro Ho
    iapply (halo_load c 3 halo_row_sub3 (haloC m c) _ Q) $$ [Hh HL Hat Hk Ho]
    isplitl [Hh]; · iexact Hh
    iintro Hh
    iapply (wp_load 𝒱₀ (c : Thread nD τ) none Set.univ (m := oM) (Finset.subset_univ _)) $$ Ho; iintro Ho
    iapply (wp_load 𝒱₀ (c : Thread nD τ) none Set.univ (m := oM) (Finset.subset_univ _)) $$ Ho; iintro Ho
    iapply (wp_store 𝒱₀ (c : Thread nD τ) none Set.univ (m := oM) (r := Rect.unit (s := S48x48x48) ![0, 46, 0] S48x2x48.size inb_S48x48x48_S48x2x48_0_46_0) (Finset.subset_univ _)) $$ Ho; iintro Ho
    iapply Hk $$ %_
    isplitl [HL]; · iexact HL
    isplitl [Ho]; · iexact Ho
    isplitl [Hh]; · iexact Hh
    iexact Hat
  · rw [dif_neg (fun h => hp ((yw_eq0_iff c).mp h))]
    have hp' : ¬ recvAct c 3 := hp
    unfold rCred rPos0 hBack rPos1 condP
    simp only [if_neg hp', if_neg hp]
    iintro ⟨-, HL, Ho, -, Hat, Hk⟩
    iapply Hk $$ %W
    iframe HL Ho
    isplitr; · iempintro
    iexact Hat

theorem tl_recv_blk4 (c : Dev nD) (K : Dev nD × Fin 13 → ℕ) (W : Waits sig Unit) (o : OC (F := F))
    (rest : Prog (TpuEff nD τ sig (Elt F) Λ₀ .tc) PUnit) (Q : PUnit → sProp 𝕄) :
    iprop(records m K ∗ owes (c : Thread nD τ) 0 W ∗ pt1 c o ∗ rCred c 4 ∗ rPos0 c 4
        ∗ (∀ W', (owes (c : Thread nD τ) 0 W' ∗ pt1 c (if 0 < Z c then upd4 m c o else o) ∗ hBack m c 4 ∗ rPos1 c 4) -∗ WP c rest Q))
      ⊢ WP c (if _h : Scalar.cmpi .ne (Scalar.extui (Scalar.cmpi .sgt (zw c) 0#32)) 0#32 = 1#1 then (do
        let ⟨v206, v227, v229⟩ : Σ' (v206 : FVec F S48x48 .bf16) (v227 : IVec S48x48 1), FVec F S48x48 .bf16 ← k0_part5 uM tl_huM oM tl_hoM hM tl_hhM sM tl_hsM cc0_scratch2 cc0_scratch3 (xw c) (yw c) (zw c) (f90 c) (f91 c) (f92 c) (f93 c)
        let v233 : Vec F S48x48x1 .bf16 ← Prog.lift (.load oM (Rect.unit (s := S48x48x48) ![0, 0, 0] S48x48x1.size inb_S48x48x48_S48x48x1_0_0_0).toLoadRect (View.loadsAt_vmem h_S48x48x1))
        Prog.lift (.store oM (Rect.unit (s := S48x48x48) ![0, 0, 0] S48x48x1.size inb_S48x48x48_S48x48x1_0_0_0) (k0_pay2 v206 v227 v229) Finset.univ (View.stores_vmem h_S48x48x1 (tl_hoM.storeExact_slice rfl _ packedbf16_S48x48x48_S48x48x1_0_0_0) (fun _ => rfl)) (.inl rfl))
        rest) else rest) Q := by
  by_cases hp : 0 < Z c
  · have hp' : recvAct c 4 := hp
    rw [dif_pos ((zw_sgt0_iff c).mpr hp)]
    unfold rCred rPos0 hBack rPos1 condP
    simp only [if_pos hp', if_pos hp]
    iintro ⟨#Hrec, HL, Ho, Hc, Hat, Hk⟩
    simp only [k0_part5_eq_skeleton]
    unfold k0_part5_skel
    iapply (recv_wait m c 4 hp' K W recvSem_4 (tl_hCredit 4) _ Q) $$ [HL Hc Hat Hk Ho]
    iframe Hrec HL Hc Hat
    iintro ⟨HL, Hat, Hh⟩
    iapply (wp_load 𝒱₀ (c : Thread nD τ) none Set.univ (m := oM) (Finset.subset_univ _)) $$ Ho; iintro Ho
    iapply (halo_load c 4 halo_row_sub4 (haloC m c) _ Q) $$ [Hh HL Hat Hk Ho]
    isplitl [Hh]; · iexact Hh
    iintro Hh
    iapply (wp_load 𝒱₀ (c : Thread nD τ) none Set.univ (m := oM) (Finset.subset_univ _)) $$ Ho; iintro Ho
    iapply (wp_store 𝒱₀ (c : Thread nD τ) none Set.univ (m := oM) (r := Rect.unit (s := S48x48x48) ![0, 0, 0] S48x48x1.size inb_S48x48x48_S48x48x1_0_0_0) (Finset.subset_univ _)) $$ Ho; iintro Ho
    iapply Hk $$ %_
    isplitl [HL]; · iexact HL
    isplitl [Ho]; · iexact Ho
    isplitl [Hh]; · iexact Hh
    iexact Hat
  · rw [dif_neg (fun h => hp ((zw_sgt0_iff c).mp h))]
    have hp' : ¬ recvAct c 4 := hp
    unfold rCred rPos0 hBack rPos1 condP
    simp only [if_neg hp', if_neg hp]
    iintro ⟨-, HL, Ho, -, Hat, Hk⟩
    iapply Hk $$ %W
    iframe HL Ho
    isplitr; · iempintro
    iexact Hat

theorem tl_recv_blk5 (c : Dev nD) (K : Dev nD × Fin 13 → ℕ) (W : Waits sig Unit) (o : OC (F := F))
    (rest : Prog (TpuEff nD τ sig (Elt F) Λ₀ .tc) PUnit) (Q : PUnit → sProp 𝕄) :
    iprop(records m K ∗ owes (c : Thread nD τ) 0 W ∗ pt1 c o ∗ rCred c 5 ∗ rPos0 c 5
        ∗ (∀ W', (owes (c : Thread nD τ) 0 W' ∗ pt1 c (if Z c < 3 then upd5 m c o else o) ∗ hBack m c 5 ∗ rPos1 c 5) -∗ WP c rest Q))
      ⊢ WP c (if _h : Scalar.cmpi .ne (Scalar.extui (Scalar.cmpi .slt (zw c) 3#32)) 0#32 = 1#1 then (do
        let ⟨v206, v227, v229⟩ : Σ' (v206 : FVec F S48x48 .bf16) (v227 : IVec S48x48 1), FVec F S48x48 .bf16 ← k0_part6 uM tl_huM oM tl_hoM hM tl_hhM sM tl_hsM cc0_scratch2 cc0_scratch3 (xw c) (yw c) (zw c) (f90 c) (f91 c) (f92 c) (f93 c)
        let v233 : Vec F S48x48x1 .bf16 ← Prog.lift (.load oM (Rect.unit (s := S48x48x48) ![0, 0, 47] S48x48x1.size inb_S48x48x48_S48x48x1_0_0_47).toLoadRect (View.loadsAt_vmem h_S48x48x1))
        Prog.lift (.store oM (Rect.unit (s := S48x48x48) ![0, 0, 47] S48x48x1.size inb_S48x48x48_S48x48x1_0_0_47) (k0_pay3 v206 v227 v229) Finset.univ (View.stores_vmem h_S48x48x1 (tl_hoM.storeExact_slice rfl _ packedbf16_S48x48x48_S48x48x1_0_0_47) (fun _ => rfl)) (.inl rfl))
        rest) else rest) Q := by
  by_cases hp : Z c < 3
  · have hp' : recvAct c 5 := hp
    rw [dif_pos ((zw_slt3_iff c).mpr hp)]
    unfold rCred rPos0 hBack rPos1 condP
    simp only [if_pos hp', if_pos hp]
    iintro ⟨#Hrec, HL, Ho, Hc, Hat, Hk⟩
    simp only [k0_part6_eq_skeleton]
    unfold k0_part6_skel
    iapply (recv_wait m c 5 hp' K W recvSem_5 (tl_hCredit 5) _ Q) $$ [HL Hc Hat Hk Ho]
    iframe Hrec HL Hc Hat
    iintro ⟨HL, Hat, Hh⟩
    iapply (wp_load 𝒱₀ (c : Thread nD τ) none Set.univ (m := oM) (Finset.subset_univ _)) $$ Ho; iintro Ho
    iapply (halo_load c 5 halo_row_sub5 (haloC m c) _ Q) $$ [Hh HL Hat Hk Ho]
    isplitl [Hh]; · iexact Hh
    iintro Hh
    iapply (wp_load 𝒱₀ (c : Thread nD τ) none Set.univ (m := oM) (Finset.subset_univ _)) $$ Ho; iintro Ho
    iapply (wp_store 𝒱₀ (c : Thread nD τ) none Set.univ (m := oM) (r := Rect.unit (s := S48x48x48) ![0, 0, 47] S48x48x1.size inb_S48x48x48_S48x48x1_0_0_47) (Finset.subset_univ _)) $$ Ho; iintro Ho
    iapply Hk $$ %_
    isplitl [HL]; · iexact HL
    isplitl [Ho]; · iexact Ho
    isplitl [Hh]; · iexact Hh
    iexact Hat
  · rw [dif_neg (fun h => hp ((zw_slt3_iff c).mp h))]
    have hp' : ¬ recvAct c 5 := hp
    unfold rCred rPos0 hBack rPos1 condP
    simp only [if_neg hp', if_neg hp]
    iintro ⟨-, HL, Ho, -, Hat, Hk⟩
    iapply Hk $$ %W
    iframe HL Ho
    isplitr; · iempintro
    iexact Hat

theorem tail_sound (c : Dev nD) : TailSpec (F := F) m c := by
  intro K W Q
  unfold preT postT six
  iintro ⟨⟨#Hrec, HL, Ho, Hc3, Hc4, Hc5, Hp3, Hp4, Hp5, ⟨Hs0, Hs1, Hs2, Hs3, Hs4, Hs5⟩, Hq0, Hq1, Hq2, Hq3, Hq4, Hq5⟩, Hpost⟩
  unfold tailProg

  iapply (tl_recv_blk3 m c K W (out3 m c) _ Q) $$ [HL Ho Hc3 Hc4 Hc5 Hp3 Hp4 Hp5 Hs0 Hs1 Hs2 Hs3 Hs4 Hs5 Hq0 Hq1 Hq2 Hq3 Hq4 Hq5 Hpost]
  iframe Hrec HL Ho Hc3 Hp3
  iintro %W3 ⟨HL, Ho, Hh3, Hp3⟩

  iapply (tl_recv_blk4 m c K W3 (out4 m c) _ Q) $$ [HL Ho Hc4 Hc5 Hp3 Hp4 Hp5 Hs0 Hs1 Hs2 Hs3 Hs4 Hs5 Hq0 Hq1 Hq2 Hq3 Hq4 Hq5 Hpost Hh3]
  isplitr; · iexact Hrec
  isplitl [HL]; · iexact HL
  isplitl [Ho]; · iexact Ho
  isplitl [Hc4]; · iexact Hc4
  isplitl [Hp4]; · iexact Hp4
  iintro %W4 ⟨HL, Ho, Hh4, Hp4⟩

  iapply (tl_recv_blk5 m c K W4 (out5 m c) _ Q) $$ [HL Ho Hc5 Hp3 Hp4 Hp5 Hs0 Hs1 Hs2 Hs3 Hs4 Hs5 Hq0 Hq1 Hq2 Hq3 Hq4 Hq5 Hpost Hh3 Hh4]
  isplitr; · iexact Hrec
  isplitl [HL]; · iexact HL
  isplitl [Ho]; · iexact Ho
  isplitl [Hc5]; · iexact Hc5
  isplitl [Hp5]; · iexact Hp5
  iintro %W5 ⟨HL, Ho, Hh5, Hp5⟩

  iapply (tl_send_blk m c 1 K W5 _ (xw_eq0_iff c) sendSem_1 (tl_sCredit 1) _ Q) $$ [HL Ho Hp3 Hp4 Hp5 Hs0 Hs1 Hs2 Hs3 Hs4 Hs5 Hq0 Hq1 Hq2 Hq3 Hq4 Hq5 Hpost Hh3 Hh4 Hh5]
  iframe Hrec HL Hs1 Hq1
  iintro %V1 ⟨HL, Hs1, Hq1⟩

  iapply (tl_send_blk m c 0 K V1 _ (xw_eq1_iff c) sendSem_0 (tl_sCredit 0) _ Q) $$ [HL Ho Hp3 Hp4 Hp5 Hs0 Hs1 Hs2 Hs3 Hs4 Hs5 Hq0 Hq1 Hq2 Hq3 Hq4 Hq5 Hpost Hh3 Hh4 Hh5]
  iframe Hrec HL Hs0 Hq0
  iintro %V0 ⟨HL, Hs0, Hq0⟩

  iapply (tl_send_blk m c 3 K V0 _ (yw_eq0_iff c) sendSem_3 (tl_sCredit 3) _ Q) $$ [HL Ho Hp3 Hp4 Hp5 Hs0 Hs1 Hs2 Hs3 Hs4 Hs5 Hq0 Hq1 Hq2 Hq3 Hq4 Hq5 Hpost Hh3 Hh4 Hh5]
  iframe Hrec HL Hs3 Hq3
  iintro %V3 ⟨HL, Hs3, Hq3⟩

  iapply (tl_send_blk m c 2 K V3 _ (yw_eq1_iff c) sendSem_2 (tl_sCredit 2) _ Q) $$ [HL Ho Hp3 Hp4 Hp5 Hs0 Hs1 Hs2 Hs3 Hs4 Hs5 Hq0 Hq1 Hq2 Hq3 Hq4 Hq5 Hpost Hh3 Hh4 Hh5]
  iframe Hrec HL Hs2 Hq2
  iintro %V2 ⟨HL, Hs2, Hq2⟩

  iapply (tl_send_blk m c 4 K V2 _ (zw_sgt0_iff c) sendSem_4 (tl_sCredit 4) _ Q) $$ [HL Ho Hp3 Hp4 Hp5 Hs0 Hs1 Hs2 Hs3 Hs4 Hs5 Hq0 Hq1 Hq2 Hq3 Hq4 Hq5 Hpost Hh3 Hh4 Hh5]
  iframe Hrec HL Hs4 Hq4
  iintro %V4 ⟨HL, Hs4, Hq4⟩

  iapply (tl_send_blk m c 5 K V4 _ (zw_slt3_iff c) sendSem_5 (tl_sCredit 5) _ Q) $$ [HL Ho Hp3 Hp4 Hp5 Hs0 Hs1 Hs2 Hs3 Hs4 Hs5 Hq0 Hq1 Hq2 Hq3 Hq4 Hq5 Hpost Hh3 Hh4 Hh5]
  iframe Hrec HL Hs5 Hq5
  iintro %V5 ⟨HL, Hs5, Hq5⟩
  simp only [WP, wp_pure]
  imodintro
  iapply Hpost
  isplitl [HL]; · iexists _; iexact HL
  isplitl [Ho]; · iexact Ho
  isplitl [Hh3]; · iexact Hh3
  isplitl [Hh4]; · iexact Hh4
  isplitl [Hh5]; · iexact Hh5
  isplitl [Hp3]; · iexact Hp3
  isplitl [Hp4]; · iexact Hp4
  isplitl [Hp5]; · iexact Hp5
  isplitl [Hs0 Hs1 Hs2 Hs3 Hs4 Hs5]
  · isplitl [Hs0]; · iexact Hs0
    iframe Hs1 Hs2 Hs3 Hs4 Hs5
  iframe Hq0 Hq1 Hq2 Hq3 Hq4 Hq5

end Cert.Kernel.Halo

end
-- ==== Proof.K.Body.lean ====
import proofs.«900536_g7700000000000537_dist_halo3d_v7x_xyz2x2x4_s48_bf16_1_alg».proof.Proof.K.BodyP7
import proofs.«900536_g7700000000000537_dist_halo3d_v7x_xyz2x2x4_s48_bf16_1_alg».proof.Proof.K.BodyP8
import proofs.«900536_g7700000000000537_dist_halo3d_v7x_xyz2x2x4_s48_bf16_1_alg».proof.Proof.K.BodyP9
import proofs.«900536_g7700000000000537_dist_halo3d_v7x_xyz2x2x4_s48_bf16_1_alg».proof.Proof.K.BodyP10
import proofs.«900536_g7700000000000537_dist_halo3d_v7x_xyz2x2x4_s48_bf16_1_alg».proof.Proof.K.BodyP11
import proofs.«900536_g7700000000000537_dist_halo3d_v7x_xyz2x2x4_s48_bf16_1_alg».proof.Proof.K.BodyTail

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One device's body is its parts in order. -/
theorem body_sound (c : Dev nD) : BodySound (F := F) m c :=
  body_sound_of m c (part7_sound m c) (part8_sound m c) (part9_sound m c) (part10_sound m c) (part11_sound m c) (tail_sound m c)
    (halo_split c) (halo_join c) (send_join c)

end Cert.Kernel.Halo

end
-- ==== Proof.Spec.lean ====
import Idealize.ShloMosaic.PureOps.Ideal
import Idealize.ShloMosaic.Lib.ValueIdx

noncomputable section

namespace Cert.Halo

open Idealize.ShloMosaic

abbrev SW : Shape := ⟨3, ![96, 96, 192]⟩
/-- An array read at integer coordinates, zero outside it. -/
def rd {n0 n1 n2 : Nat} (u : (⟨3, ![n0, n1, n2]⟩ : Shape).Idx → EReal) (a b c : Int) : EReal :=
  if h : (0 ≤ a ∧ a < n0) ∧ (0 ≤ b ∧ b < n1) ∧ (0 ≤ c ∧ c < n2) then
    u (ValueIdx.ix3 ⟨a.toNat, by omega⟩ ⟨b.toNat, by omega⟩ ⟨c.toNat, by omega⟩)
  else 0

/-- The seven-point stencil: the six neighbours minus six times the centre. -/
def sten {n0 n1 n2 : Nat} (u : (⟨3, ![n0, n1, n2]⟩ : Shape).Idx → EReal) (a b c : Int) : EReal :=
  rd u (a - 1) b c + rd u (a + 1) b c + rd u a (b - 1) c + rd u a (b + 1) c + rd u a b (c - 1) + rd u a b (c + 1)
    - (6 : EReal) * rd u a b c

def interior (n0 n1 n2 : Nat) (a b c : Int) : Prop :=
  (1 ≤ a ∧ a + 1 < n0) ∧ (1 ≤ b ∧ b + 1 < n1) ∧ (1 ≤ c ∧ c + 1 < n2)

instance (n0 n1 n2 : Nat) (a b c : Int) : Decidable (interior n0 n1 n2 a b c) := by unfold interior; infer_instance

/-- The reference's value: the stencil at interior points, zero on the boundary. -/
def Gref (u : SW.Idx → EReal) : SW.Idx → EReal := fun i =>
  if interior 96 96 192 (i 0).val (i 1).val (i 2).val then sten u (i 0).val (i 1).val (i 2).val else 0

end Cert.Halo

end
-- ==== Proof.PayStencil.lean ====
import proofs.«900536_g7700000000000537_dist_halo3d_v7x_xyz2x2x4_s48_bf16_1_alg».proof.Proof.Gen.KernelIdeal.Skeleton
import proofs.«900536_g7700000000000537_dist_halo3d_v7x_xyz2x2x4_s48_bf16_1_alg».proof.Proof.Spec
import Idealize.ShloMosaic.Lib.Pipeline.Value

noncomputable section

namespace Cert.KernelIdeal.Halo

open Cert.KernelIdeal Cert.KernelIdeal.Gen Idealize.ShloMosaic Idealize.ShloMosaic.ValueIdx

theorem bf16_zero : (Scalar.ofBits .bf16 0x0000#16 : Ideal .bf16) = 0 := by
  show Ideal.ofBits .bf16 0x0000#16 = 0
  simp [Ideal.ofBits, Ideal.ieee]

theorem bf16_six : (Scalar.ofBits .bf16 0x40C0#16 : Ideal .bf16) = 6 := by
  show Ideal.ofBits .bf16 0x40C0#16 = 6
  simp [Ideal.ofBits, Ideal.ieee, -EReal.coe_mul]; norm_num; rfl

theorem rd_nat {n0 n1 n2 : Nat} (u : (⟨3, ![n0, n1, n2]⟩ : Shape).Idx → EReal) (a b c : Nat)
    (ha : a < n0) (hb : b < n1) (hc : c < n2) :
    Cert.Halo.rd u (a : Int) (b : Int) (c : Int) = u (ix3 ⟨a, ha⟩ ⟨b, hb⟩ ⟨c, hc⟩) := by
  unfold Cert.Halo.rd
  rw [dif_pos (by omega)]
  simp only [Int.toNat_natCast]

theorem rd_out {n0 n1 n2 : Nat} (u : (⟨3, ![n0, n1, n2]⟩ : Shape).Idx → EReal) (a b c : Int)
    (h : ¬((0 ≤ a ∧ a < n0) ∧ (0 ≤ b ∧ b < n1) ∧ (0 ≤ c ∧ c < n2))) : Cert.Halo.rd u a b c = 0 := by
  unfold Cert.Halo.rd
  rw [dif_neg h]

section Layout
variable {α : Type}

theorem cat_lo0 (z : S1x48x48.Idx → α) (x : S48x48x48.Idx → α)
    (hs : S48x48x48.Slices ![0, 0, 0] S47x48x48) (hc : Shape.Concatenates [S1x48x48, S47x48x48] S48x48x48 0)
    (i j k : Fin 48) :
    concatenate S48x48x48 0 [⟨S1x48x48, z⟩, ⟨S47x48x48, extractStridedSlice S47x48x48 ![0, 0, 0] x hs⟩] hc (ix3 i j k)
      = if h : i.val = 0 then z (ix3 ⟨0, by omega⟩ j k) else x (ix3 ⟨i.val - 1, by omega⟩ j k) := by
  by_cases h : i.val = 0
  · rw [dif_pos h]
    exact concatenate_pair_apply_left 0 z _ hc (ix3 i j k) rfl (ix3 ⟨0, by omega⟩ j k)
      (fun b => match b with | ⟨0, _⟩ => h.symm | ⟨1, _⟩ => rfl | ⟨2, _⟩ => rfl)
  · rw [dif_neg h]
    refine (concatenate_pair_apply_right 0 z _ hc (ix3 i j k) rfl rfl (ix3 ⟨i.val - 1, by omega⟩ j k)
      (fun b hb => match b, hb with | ⟨0, _⟩, hb => absurd rfl hb | ⟨1, _⟩, _ => rfl | ⟨2, _⟩, _ => rfl) ?_).trans ?_
    · show (i.val - 1) + 1 = i.val; omega
    · exact extractStridedSlice_apply _ x hs _ _ (fun a => match a with
        | ⟨0, _⟩ => (Nat.zero_add _).symm | ⟨1, _⟩ => (Nat.zero_add _).symm | ⟨2, _⟩ => (Nat.zero_add _).symm)

theorem cat_hi0 (z : S1x48x48.Idx → α) (x : S48x48x48.Idx → α)
    (hs : S48x48x48.Slices ![1, 0, 0] S47x48x48) (hc : Shape.Concatenates [S47x48x48, S1x48x48] S48x48x48 0)
    (i j k : Fin 48) :
    concatenate S48x48x48 0 [⟨S47x48x48, extractStridedSlice S47x48x48 ![1, 0, 0] x hs⟩, ⟨S1x48x48, z⟩] hc (ix3 i j k)
      = if h : i.val = 47 then z (ix3 ⟨0, by omega⟩ j k) else x (ix3 ⟨i.val + 1, by omega⟩ j k) := by
  by_cases h : i.val = 47
  · rw [dif_pos h]
    refine concatenate_pair_apply_right 0 _ z hc (ix3 i j k) rfl rfl (ix3 ⟨0, by omega⟩ j k)
      (fun b hb => match b, hb with | ⟨0, _⟩, hb => absurd rfl hb | ⟨1, _⟩, _ => rfl | ⟨2, _⟩, _ => rfl) ?_
    show 0 + 47 = i.val; omega
  · rw [dif_neg h]
    have hi : i.val < 47 := by omega
    refine (concatenate_pair_apply_left 0 _ z hc (ix3 i j k) rfl (ix3 ⟨i.val, hi⟩ j k)
      (fun b => match b with | ⟨0, _⟩ => rfl | ⟨1, _⟩ => rfl | ⟨2, _⟩ => rfl)).trans ?_
    exact extractStridedSlice_apply _ x hs _ _ (fun a => match a with
        | ⟨0, _⟩ => Nat.add_comm _ _ | ⟨1, _⟩ => (Nat.zero_add _).symm | ⟨2, _⟩ => (Nat.zero_add _).symm)

end Layout

section Layout
variable {α : Type}

theorem cat_lo1 (z : S48x1x48.Idx → α) (x : S48x48x48.Idx → α)
    (hs : S48x48x48.Slices ![0, 0, 0] S48x47x48) (hc : Shape.Concatenates [S48x1x48, S48x47x48] S48x48x48 1)
    (i j k : Fin 48) :
    concatenate S48x48x48 1 [⟨S48x1x48, z⟩, ⟨S48x47x48, extractStridedSlice S48x47x48 ![0, 0, 0] x hs⟩] hc (ix3 i j k)
      = if h : j.val = 0 then z (ix3 i ⟨0, by omega⟩ k) else x (ix3 i ⟨j.val - 1, by omega⟩ k) := by
  by_cases h : j.val = 0
  · rw [dif_pos h]
    exact concatenate_pair_apply_left 1 z _ hc (ix3 i j k) rfl (ix3 i ⟨0, by omega⟩ k)
      (fun b => match b with | ⟨0, _⟩ => rfl | ⟨1, _⟩ => h.symm | ⟨2, _⟩ => rfl)
  · rw [dif_neg h]
    refine (concatenate_pair_apply_right 1 z _ hc (ix3 i j k) rfl rfl (ix3 i ⟨j.val - 1, by omega⟩ k)
      (fun b hb => match b, hb with | ⟨0, _⟩, _ => rfl | ⟨1, _⟩, hb => absurd rfl hb | ⟨2, _⟩, _ => rfl) ?_).trans ?_
    · show (j.val - 1) + 1 = j.val; omega
    · exact extractStridedSlice_apply _ x hs _ _ (fun a => match a with
        | ⟨0, _⟩ => (Nat.zero_add _).symm | ⟨1, _⟩ => (Nat.zero_add _).symm | ⟨2, _⟩ => (Nat.zero_add _).symm)

theorem cat_hi1 (z : S48x1x48.Idx → α) (x : S48x48x48.Idx → α)
    (hs : S48x48x48.Slices ![0, 1, 0] S48x47x48) (hc : Shape.Concatenates [S48x47x48, S48x1x48] S48x48x48 1)
    (i j k : Fin 48) :
    concatenate S48x48x48 1 [⟨S48x47x48, extractStridedSlice S48x47x48 ![0, 1, 0] x hs⟩, ⟨S48x1x48, z⟩] hc (ix3 i j k)
      = if h : j.val = 47 then z (ix3 i ⟨0, by omega⟩ k) else x (ix3 i ⟨j.val + 1, by omega⟩ k) := by
  by_cases h : j.val = 47
  · rw [dif_pos h]
    refine concatenate_pair_apply_right 1 _ z hc (ix3 i j k) rfl rfl (ix3 i ⟨0, by omega⟩ k)
      (fun b hb => match b, hb with | ⟨0, _⟩, _ => rfl | ⟨1, _⟩, hb => absurd rfl hb | ⟨2, _⟩, _ => rfl) ?_
    show 0 + 47 = j.val; omega
  · rw [dif_neg h]
    have hj : j.val < 47 := by omega
    refine (concatenate_pair_apply_left 1 _ z hc (ix3 i j k) rfl (ix3 i ⟨j.val, hj⟩ k)
      (fun b => match b with | ⟨0, _⟩ => rfl | ⟨1, _⟩ => rfl | ⟨2, _⟩ => rfl)).trans ?_
    exact extractStridedSlice_apply _ x hs _ _ (fun a => match a with
        | ⟨0, _⟩ => (Nat.zero_add _).symm | ⟨1, _⟩ => Nat.add_comm _ _ | ⟨2, _⟩ => (Nat.zero_add _).symm)

theorem cat_lo2 (z : S48x48x1.Idx → α) (x : S48x48x48.Idx → α)
    (hs : S48x48x48.Slices ![0, 0, 0] S48x48x47) (hc : Shape.Concatenates [S48x48x1, S48x48x47] S48x48x48 2)
    (i j k : Fin 48) :
    concatenate S48x48x48 2 [⟨S48x48x1, z⟩, ⟨S48x48x47, extractStridedSlice S48x48x47 ![0, 0, 0] x hs⟩] hc (ix3 i j k)
      = if h : k.val = 0 then z (ix3 i j ⟨0, by omega⟩) else x (ix3 i j ⟨k.val - 1, by omega⟩) := by
  by_cases h : k.val = 0
  · rw [dif_pos h]
    exact concatenate_pair_apply_left 2 z _ hc (ix3 i j k) rfl (ix3 i j ⟨0, by omega⟩)
      (fun b => match b with | ⟨0, _⟩ => rfl | ⟨1, _⟩ => rfl | ⟨2, _⟩ => h.symm)
  · rw [dif_neg h]
    refine (concatenate_pair_apply_right 2 z _ hc (ix3 i j k) rfl rfl (ix3 i j ⟨k.val - 1, by omega⟩)
      (fun b hb => match b, hb with | ⟨0, _⟩, _ => rfl | ⟨1, _⟩, _ => rfl | ⟨2, _⟩, hb => absurd rfl hb) ?_).trans ?_
    · show (k.val - 1) + 1 = k.val; omega
    · exact extractStridedSlice_apply _ x hs _ _ (fun a => match a with
        | ⟨0, _⟩ => (Nat.zero_add _).symm | ⟨1, _⟩ => (Nat.zero_add _).symm | ⟨2, _⟩ => (Nat.zero_add _).symm)

theorem cat_hi2 (z : S48x48x1.Idx → α) (x : S48x48x48.Idx → α)
    (hs : S48x48x48.Slices ![0, 0, 1] S48x48x47) (hc : Shape.Concatenates [S48x48x47, S48x48x1] S48x48x48 2)
    (i j k : Fin 48) :
    concatenate S48x48x48 2 [⟨S48x48x47, extractStridedSlice S48x48x47 ![0, 0, 1] x hs⟩, ⟨S48x48x1, z⟩] hc (ix3 i j k)
      = if h : k.val = 47 then z (ix3 i j ⟨0, by omega⟩) else x (ix3 i j ⟨k.val + 1, by omega⟩) := by
  by_cases h : k.val = 47
  · rw [dif_pos h]
    refine concatenate_pair_apply_right 2 _ z hc (ix3 i j k) rfl rfl (ix3 i j ⟨0, by omega⟩)
      (fun b hb => match b, hb with | ⟨0, _⟩, _ => rfl | ⟨1, _⟩, _ => rfl | ⟨2, _⟩, hb => absurd rfl hb) ?_
    show 0 + 47 = k.val; omega
  · rw [dif_neg h]
    have hk : k.val < 47 := by omega
    refine (concatenate_pair_apply_left 2 _ z hc (ix3 i j k) rfl (ix3 i j ⟨k.val, hk⟩)
      (fun b => match b with | ⟨0, _⟩ => rfl | ⟨1, _⟩ => rfl | ⟨2, _⟩ => rfl)).trans ?_
    exact extractStridedSlice_apply _ x hs _ _ (fun a => match a with
        | ⟨0, _⟩ => (Nat.zero_add _).symm | ⟨1, _⟩ => (Nat.zero_add _).symm | ⟨2, _⟩ => Nat.add_comm _ _)

end Layout

section Reads
variable (u : S48x48x48.Idx → EReal) (i j k : Fin 48)

theorem rd_pred0 :
    Cert.Halo.rd (n0 := 48) (n1 := 48) (n2 := 48) u ((i.val : Int) - 1) (j.val : Int) (k.val : Int)
      = if h : i.val = 0 then 0 else u (ix3 ⟨i.val - 1, by omega⟩ j k) := by
  by_cases h : i.val = 0
  · rw [dif_pos h, rd_out]; omega
  · rw [dif_neg h, show ((i.val : Int) - 1) = ((i.val - 1 : Nat) : Int) by omega,
      rd_nat u _ _ _ (by omega) j.isLt k.isLt]

theorem rd_succ0 :
    Cert.Halo.rd (n0 := 48) (n1 := 48) (n2 := 48) u ((i.val : Int) + 1) (j.val : Int) (k.val : Int)
      = if h : i.val = 47 then 0 else u (ix3 ⟨i.val + 1, by omega⟩ j k) := by
  by_cases h : i.val = 47
  · rw [dif_pos h, rd_out]; omega
  · rw [dif_neg h, show ((i.val : Int) + 1) = ((i.val + 1 : Nat) : Int) by omega,
      rd_nat u _ _ _ (by omega) j.isLt k.isLt]

theorem rd_pred1 :
    Cert.Halo.rd (n0 := 48) (n1 := 48) (n2 := 48) u (i.val : Int) ((j.val : Int) - 1) (k.val : Int)
      = if h : j.val = 0 then 0 else u (ix3 i ⟨j.val - 1, by omega⟩ k) := by
  by_cases h : j.val = 0
  · rw [dif_pos h, rd_out]; omega
  · rw [dif_neg h, show ((j.val : Int) - 1) = ((j.val - 1 : Nat) : Int) by omega,
      rd_nat u _ _ _ i.isLt (by omega) k.isLt]

theorem rd_succ1 :
    Cert.Halo.rd (n0 := 48) (n1 := 48) (n2 := 48) u (i.val : Int) ((j.val : Int) + 1) (k.val : Int)
      = if h : j.val = 47 then 0 else u (ix3 i ⟨j.val + 1, by omega⟩ k) := by
  by_cases h : j.val = 47
  · rw [dif_pos h, rd_out]; omega
  · rw [dif_neg h, show ((j.val : Int) + 1) = ((j.val + 1 : Nat) : Int) by omega,
      rd_nat u _ _ _ i.isLt (by omega) k.isLt]

theorem rd_pred2 :
    Cert.Halo.rd (n0 := 48) (n1 := 48) (n2 := 48) u (i.val : Int) (j.val : Int) ((k.val : Int) - 1)
      = if h : k.val = 0 then 0 else u (ix3 i j ⟨k.val - 1, by omega⟩) := by
  by_cases h : k.val = 0
  · rw [dif_pos h, rd_out]; omega
  · rw [dif_neg h, show ((k.val : Int) - 1) = ((k.val - 1 : Nat) : Int) by omega,
      rd_nat u _ _ _ i.isLt j.isLt (by omega)]

theorem rd_succ2 :
    Cert.Halo.rd (n0 := 48) (n1 := 48) (n2 := 48) u (i.val : Int) (j.val : Int) ((k.val : Int) + 1)
      = if h : k.val = 47 then 0 else u (ix3 i j ⟨k.val + 1, by omega⟩) := by
  by_cases h : k.val = 47
  · rw [dif_pos h, rd_out]; omega
  · rw [dif_neg h, show ((k.val : Int) + 1) = ((k.val + 1 : Nat) : Int) by omega,
      rd_nat u _ _ _ i.isLt j.isLt (by omega)]

theorem rd_centre :
    Cert.Halo.rd (n0 := 48) (n1 := 48) (n2 := 48) u (i.val : Int) (j.val : Int) (k.val : Int) = u (ix3 i j k) :=
  rd_nat u _ _ _ i.isLt j.isLt k.isLt

end Reads

theorem pay28_apply (u : Vec Ideal S48x48x48 .f32) (i j k : Fin 48) :
    k0_pay28 (F := Ideal) u (ix3 i j k)
      = Cert.Halo.sten (n0 := 48) (n1 := 48) (n2 := 48) u (i.val : Int) (j.val : Int) (k.val : Int) := by
  unfold k0_pay28
  rw [shapeCast_self]
  have hw : (truncf .bf16 u bitsLt_bf16_f32 : FVec Ideal S48x48x48 .bf16) = u := rfl
  rw [hw]
  rw [subf_apply, addf_apply, addf_apply, addf_apply, addf_apply, addf_apply, mulf_apply,
    cat_lo0, cat_hi0, cat_lo1, cat_hi1, cat_lo2, cat_hi2]
  simp only [broadcast_apply]
  unfold Cert.Halo.sten
  rw [rd_pred0, rd_succ0, rd_pred1, rd_succ1, rd_pred2, rd_succ2, rd_centre, bf16_zero, bf16_six]

theorem bit_cases (a : BitVec 1) : a = 0#1 ∨ a = 1#1 := by
  by_cases h : a = 1#1
  · exact Or.inr h
  · exact Or.inl (eq_zero_of_ne_one h)

theorem bit_or (a b : BitVec 1) : IntOp.ori a b = 1#1 ↔ a = 1#1 ∨ b = 1#1 := by
  rcases bit_cases a with rfl | rfl <;> rcases bit_cases b with rfl | rfl <;> decide

theorem bit_and (a b : BitVec 1) : IntOp.andi a b = 1#1 ↔ a = 1#1 ∧ b = 1#1 := by
  rcases bit_cases a with rfl | rfl <;> rcases bit_cases b with rfl | rfl <;> decide

theorem cmpi_eq_one {w : Nat} (a b : BitVec w) : IntOp.cmpi .eq a b = 1#1 ↔ a = b := by
  show BitVec.ofBool (a == b) = 1#1 ↔ a = b
  cases hb : (a == b)
  · have hne : a ≠ b := by simpa using hb
    exact ⟨fun h => absurd h (by decide), fun h => absurd h hne⟩
  · have he : a = b := by simpa using hb
    exact ⟨fun _ => he, fun _ => by decide⟩

theorem scmpi_eq_one {w : Nat} (a b : BitVec w) : Scalar.cmpi .eq a b = 1#1 ↔ a = b := by
  unfold Scalar.cmpi; exact cmpi_eq_one a b

theorem word_eq (n m : Nat) (hn : n < 48) (hm : m < 48) : BitVec.ofNat 32 n = BitVec.ofNat 32 m ↔ n = m := by
  constructor
  · intro h
    have e := congrArg BitVec.toNat h
    simp only [BitVec.toNat_ofNat] at e
    omega
  · rintro rfl; rfl

section Lanes
variable {s : Shape} {w : Nat}
theorem ori_apply (x y : IVec s w) (i : s.Idx) : ori x y i = IntOp.ori (x i) (y i) := rfl
theorem andi_apply (x y : IVec s w) (i : s.Idx) : andi x y i = IntOp.andi (x i) (y i) := rfl
theorem cmpi_apply (p : CmpIPredicate) (x y : IVec s w) (i : s.Idx) : cmpi p x y i = IntOp.cmpi p (x i) (y i) := rfl
end Lanes

theorem iota0_apply (i j k : Fin 48) :
    iota .tc S48x48x48 32 [0] iota_S48x48x48_d0_w32 (ix3 i j k) = BitVec.ofNat 32 i.val :=
  iota_single_apply _ _ _ _ _ _
theorem iota1_apply (i j k : Fin 48) :
    iota .tc S48x48x48 32 [1] iota_S48x48x48_d1_w32 (ix3 i j k) = BitVec.ofNat 32 j.val :=
  iota_single_apply _ _ _ _ _ _
theorem iota2_apply (i j k : Fin 48) :
    iota .tc S48x48x48 32 [2] iota_S48x48x48_d2_w32 (ix3 i j k) = BitVec.ofNat 32 k.val :=
  iota_single_apply _ _ _ _ _ _

/-- Before any face arrives a device holds its block's stencil with zero outside the block, zeroed where the block meets the whole array's boundary. -/
theorem out0_apply (u : Vec Ideal S48x48x48 .f32) (xw yw zw : BitVec 32) (i j k : Fin 48) :
    k0_pay30 (F := Ideal) (Scalar.cmpi .eq xw 1#32) (Scalar.cmpi .eq yw 0#32) (Scalar.cmpi .eq yw 1#32)
        (Scalar.cmpi .eq zw 0#32) (Scalar.cmpi .eq zw 3#32) (k0_pay28 u)
        (iota .tc S48x48x48 32 [0] iota_S48x48x48_d0_w32) (iota .tc S48x48x48 32 [1] iota_S48x48x48_d1_w32)
        (iota .tc S48x48x48 32 [2] iota_S48x48x48_d2_w32) (k0_pay29 xw) 47#32 (ix3 i j k)
      = if (xw = 0#32 ∧ i.val = 0) ∨ (xw = 1#32 ∧ i.val = 47) ∨ (yw = 0#32 ∧ j.val = 0) ∨ (yw = 1#32 ∧ j.val = 47)
            ∨ (zw = 0#32 ∧ k.val = 0) ∨ (zw = 3#32 ∧ k.val = 47)
        then 0 else Cert.Halo.sten (n0 := 48) (n1 := 48) (n2 := 48) u (i.val : Int) (j.val : Int) (k.val : Int) := by
  unfold k0_pay30
  rw [select_apply, pay28_apply, broadcast_apply, bf16_zero]
  unfold Scalar.select
  refine if_congr ?_ rfl rfl
  show _ = 1#1 ↔ _
  simp only [k0_pay29, ori_apply, andi_apply, cmpi_apply, broadcast_apply, bit_or, bit_and, cmpi_eq_one,
    scmpi_eq_one, or_assoc]
  rw [iota0_apply, iota1_apply, iota2_apply,
    word_eq i.val 0 i.isLt (by omega), word_eq i.val 47 i.isLt (by omega),
    word_eq j.val 0 j.isLt (by omega), word_eq j.val 47 j.isLt (by omega),
    word_eq k.val 0 k.isLt (by omega), word_eq k.val 47 k.isLt (by omega)]

end Cert.KernelIdeal.Halo

end
-- ==== Proof.PayFace.lean ====
import proofs.«900536_g7700000000000537_dist_halo3d_v7x_xyz2x2x4_s48_bf16_1_alg».proof.Proof.Gen.KernelIdeal.Skeleton
import Idealize.ShloMosaic.Lib.ValueIdx
import Idealize.ShloMosaic.Lib.ValueIdxCoords
import Idealize.ShloMosaic.Lib.Pipeline.Value
import Idealize.ShloMosaic.Lib.ValueLayout
import Idealize.ShloMosaic.Lib.Affine
import Idealize.ShloMosaic.PureOps.Ideal

namespace Cert.KernelIdeal.Halo

open Cert.KernelIdeal Cert.KernelIdeal.Gen Idealize.ShloMosaic Idealize.ShloMosaic.ValueIdx

def mk (a b c d : BitVec 1) (p q : Nat) : Prop :=
  (a = 1#1 ∧ p = 0) ∨ (b = 1#1 ∧ p = 47) ∨ (c = 1#1 ∧ q = 0) ∨ (d = 1#1 ∧ q = 47)

instance (a b c d : BitVec 1) (p q : Nat) : Decidable (mk a b c d p q) := by
  unfold mk; infer_instance

theorem word_eq_iff {x n : Nat} (hx : x < 48) (hn : n < 48) : BitVec.ofNat 32 x = BitVec.ofNat 32 n ↔ x = n := by
  constructor
  · intro h
    have h' := congrArg BitVec.toNat h
    rw [BitVec.toNat_ofNat, BitVec.toNat_ofNat] at h'
    omega
  · rintro rfl; rfl

theorem mask_iff (a b c d : BitVec 1) (p q : Fin 48) :
    k0_pay5 a b c d (ix2 p q) = 1#1 ↔ mk a b c d p.val q.val := by
  have hp := p.isLt
  have hq := q.isLt
  have e0 : iota .tc S48x48 32 [0] iota_S48x48_d0_w32 (ix2 p q) = BitVec.ofNat 32 p.val :=
    iota_single_apply _ _ _ _ _ _
  have e1 : iota .tc S48x48 32 [1] iota_S48x48_d1_w32 (ix2 p q) = BitVec.ofNat 32 q.val :=
    iota_single_apply _ _ _ _ _ _
  show IntOp.ori (IntOp.ori (IntOp.ori
        (IntOp.andi a (IntOp.cmpi .eq (iota .tc S48x48 32 [0] iota_S48x48_d0_w32 (ix2 p q)) 0#32))
        (IntOp.andi b (IntOp.cmpi .eq (iota .tc S48x48 32 [0] iota_S48x48_d0_w32 (ix2 p q)) 47#32)))
        (IntOp.andi c (IntOp.cmpi .eq (iota .tc S48x48 32 [1] iota_S48x48_d1_w32 (ix2 p q)) 0#32)))
        (IntOp.andi d (IntOp.cmpi .eq (iota .tc S48x48 32 [1] iota_S48x48_d1_w32 (ix2 p q)) 47#32)) = 1#1 ↔ _
  rw [e0, e1, IntOp.ori_eq_one, IntOp.ori_eq_one, IntOp.ori_eq_one, IntOp.andi_eq_one, IntOp.andi_eq_one,
    IntOp.andi_eq_one, IntOp.andi_eq_one, IntOp.cmpi_eq, IntOp.cmpi_eq, IntOp.cmpi_eq, IntOp.cmpi_eq,
    word_eq_iff hp (by decide : 0 < 48), word_eq_iff hp (by decide : 47 < 48),
    word_eq_iff hq (by decide : 0 < 48), word_eq_iff hq (by decide : 47 < 48), or_assoc, or_assoc]
  exact Iff.rfl

theorem zero_bf16 : (Scalar.ofBits .bf16 0x0000#16 : Ideal .bf16) = 0 := by
  show Ideal.ofBits .bf16 0x0000#16 = 0
  simp [Ideal.ofBits, Ideal.ieee]

noncomputable def faceSum (row : FVec Ideal S48x48 .bf16) (m : IVec S48x48 1) (halo : FVec Ideal S48x48 .bf16) : FVec Ideal S48x48 .bf16 :=
  addf row (select m (broadcast S48x48 (Scalar.ofBits (F := Ideal) .bf16 0x0000#16)) halo)

theorem sum_apply (row halo : FVec Ideal S48x48 .bf16) (a b c d : BitVec 1) (p q : Fin 48) :
    faceSum row (k0_pay5 a b c d) halo (ix2 p q)
      = row (ix2 p q) + (if mk a b c d p.val q.val then 0 else halo (ix2 p q)) := by
  unfold faceSum
  rw [addf_apply, select_apply, broadcast_apply, zero_bf16]
  by_cases h : mk a b c d p.val q.val
  · rw [if_pos h, (mask_iff a b c d p q).mpr h, select_one]
  · rw [if_neg h, eq_zero_of_ne_one (fun h1 => h ((mask_iff a b c d p q).mp h1)), select_zero]

section Reshape
variable {α : Type}

theorem shapeCast_a1b_ab_apply {m n : ℕ} (x : (⟨3, ![m, 1, n]⟩ : Shape).Idx → α)
    (h : (⟨3, ![m, 1, n]⟩ : Shape).ShapeCasts ⟨2, ![m, n]⟩) (i : Fin m) (j : Fin n) :
    shapeCast ⟨2, ![m, n]⟩ x h (ix2 i j) = x (ix3 i (0 : Fin 1) j) :=
  shapeCast_apply x h _ _ (by
    rw [Shape.rowMajor_val_three, Shape.rowMajor_val_two]
    show (i.val * 1 + 0) * n + j.val = i.val * n + j.val
    rw [Nat.mul_one, Nat.add_zero])

theorem shapeCast_ab_a1b_apply {m n : ℕ} (x : (⟨2, ![m, n]⟩ : Shape).Idx → α)
    (h : (⟨2, ![m, n]⟩ : Shape).ShapeCasts ⟨3, ![m, 1, n]⟩) (i : Fin m) (u : Fin 1) (j : Fin n) :
    shapeCast ⟨3, ![m, 1, n]⟩ x h (ix3 i u j) = x (ix2 i j) :=
  shapeCast_apply x h _ _ (by
    have hu : u.val = 0 := by omega
    rw [Shape.rowMajor_val_three, Shape.rowMajor_val_two]
    show i.val * n + j.val = (i.val * 1 + u.val) * n + j.val
    rw [hu, Nat.mul_one, Nat.add_zero])

theorem shapeCast_ab1_ab_apply {m n : ℕ} (x : (⟨3, ![m, n, 1]⟩ : Shape).Idx → α)
    (h : (⟨3, ![m, n, 1]⟩ : Shape).ShapeCasts ⟨2, ![m, n]⟩) (i : Fin m) (j : Fin n) :
    shapeCast ⟨2, ![m, n]⟩ x h (ix2 i j) = x (ix3 i j (0 : Fin 1)) :=
  shapeCast_apply x h _ _ (by
    rw [Shape.rowMajor_val_three, Shape.rowMajor_val_two]
    show (i.val * n + j.val) * 1 + 0 = i.val * n + j.val
    rw [Nat.mul_one, Nat.add_zero])

theorem shapeCast_ab_ab1_apply {m n : ℕ} (x : (⟨2, ![m, n]⟩ : Shape).Idx → α)
    (h : (⟨2, ![m, n]⟩ : Shape).ShapeCasts ⟨3, ![m, n, 1]⟩) (i : Fin m) (j : Fin n) (u : Fin 1) :
    shapeCast ⟨3, ![m, n, 1]⟩ x h (ix3 i j u) = x (ix2 i j) :=
  shapeCast_apply x h _ _ (by
    have hu : u.val = 0 := by omega
    rw [Shape.rowMajor_val_three, Shape.rowMajor_val_two]
    show i.val * n + j.val = (i.val * n + j.val) * 1 + u.val
    rw [hu, Nat.mul_one, Nat.add_zero])

end Reshape

theorem face31_apply (row halo : Vec Ideal S1x48x48 .bf16) (a b c d : BitVec 1) (j k : Fin 48) :
    k0_pay31 (F := Ideal) (k0_pay4 row) (k0_pay5 a b c d) (k0_pay6 halo) (ix3 0 j k)
      = row (ix3 0 j k) + (if mk a b c d j.val k.val then 0 else halo (ix3 0 j k)) := by
  show shapeCast S1x48x48 (faceSum (shapeCast S48x48 row shapeCasts_S1x48x48_S48x48) (k0_pay5 a b c d)
      (shapeCast S48x48 halo shapeCasts_S1x48x48_S48x48)) shapeCasts_S48x48_S1x48x48 (ix3 0 j k) = _
  rw [shapeCast_ab_1ab_apply, sum_apply, shapeCast_1ab_ab_apply, shapeCast_1ab_ab_apply]

theorem face32_apply (row halo : Vec Ideal S1x48x48 .bf16) (a b c d : BitVec 1) (j k : Fin 48) :
    k0_pay32 (F := Ideal) (k0_pay7 row) (k0_pay8 a b c d) (k0_pay9 halo) (ix3 0 j k)
      = row (ix3 0 j k) + (if mk a b c d j.val k.val then 0 else halo (ix3 0 j k)) := by
  show shapeCast S1x48x48 (faceSum (shapeCast S48x48 row shapeCasts_S1x48x48_S48x48) (k0_pay5 a b c d)
      (shapeCast S48x48 halo shapeCasts_S1x48x48_S48x48)) shapeCasts_S48x48_S1x48x48 (ix3 0 j k) = _
  rw [shapeCast_ab_1ab_apply, sum_apply, shapeCast_1ab_ab_apply, shapeCast_1ab_ab_apply]

theorem face33_apply (row : Vec Ideal S48x1x48 .bf16) (halo : Vec Ideal S1x48x48 .bf16) (a b c d : BitVec 1)
    (i k : Fin 48) :
    k0_pay33 (F := Ideal) (k0_pay10 row) (k0_pay11 a b c d) (k0_pay12 halo) (ix3 i 0 k)
      = row (ix3 i 0 k) + (if mk a b c d i.val k.val then 0 else halo (ix3 0 i k)) := by
  show shapeCast S48x1x48 (faceSum (shapeCast S48x48 row shapeCasts_S48x1x48_S48x48) (k0_pay5 a b c d)
      (shapeCast S48x48 halo shapeCasts_S1x48x48_S48x48)) shapeCasts_S48x48_S48x1x48 (ix3 i 0 k) = _
  rw [shapeCast_ab_a1b_apply, sum_apply, shapeCast_a1b_ab_apply, shapeCast_1ab_ab_apply]

theorem face1_apply (row : Vec Ideal S48x1x48 .bf16) (halo : Vec Ideal S1x48x48 .bf16) (a b c d : BitVec 1)
    (i k : Fin 48) :
    k0_pay1 (F := Ideal) (k0_pay13 row) (k0_pay14 a b c d) (k0_pay15 halo) (ix3 i 0 k)
      = row (ix3 i 0 k) + (if mk a b c d i.val k.val then 0 else halo (ix3 0 i k)) := by
  show shapeCast S48x1x48 (faceSum (shapeCast S48x48 row shapeCasts_S48x1x48_S48x48) (k0_pay5 a b c d)
      (shapeCast S48x48 halo shapeCasts_S1x48x48_S48x48)) shapeCasts_S48x48_S48x1x48 (ix3 i 0 k) = _
  rw [shapeCast_ab_a1b_apply, sum_apply, shapeCast_a1b_ab_apply, shapeCast_1ab_ab_apply]

theorem face2_apply (row : Vec Ideal S48x48x1 .bf16) (halo : Vec Ideal S1x48x48 .bf16) (a b c d : BitVec 1)
    (i j : Fin 48) :
    k0_pay2 (F := Ideal) (k0_pay16 row) (k0_pay17 a b c d) (k0_pay18 halo) (ix3 i j 0)
      = row (ix3 i j 0) + (if mk a b c d i.val j.val then 0 else halo (ix3 0 i j)) := by
  show shapeCast S48x48x1 (faceSum (shapeCast S48x48 row shapeCasts_S48x48x1_S48x48) (k0_pay5 a b c d)
      (shapeCast S48x48 halo shapeCasts_S1x48x48_S48x48)) shapeCasts_S48x48_S48x48x1 (ix3 i j 0) = _
  rw [shapeCast_ab_ab1_apply, sum_apply, shapeCast_ab1_ab_apply, shapeCast_1ab_ab_apply]

theorem face3_apply (row : Vec Ideal S48x48x1 .bf16) (halo : Vec Ideal S1x48x48 .bf16) (a b c d : BitVec 1)
    (i j : Fin 48) :
    k0_pay3 (F := Ideal) (k0_pay19 row) (k0_pay20 a b c d) (k0_pay21 halo) (ix3 i j 0)
      = row (ix3 i j 0) + (if mk a b c d i.val j.val then 0 else halo (ix3 0 i j)) := by
  show shapeCast S48x48x1 (faceSum (shapeCast S48x48 row shapeCasts_S48x48x1_S48x48) (k0_pay5 a b c d)
      (shapeCast S48x48 halo shapeCasts_S1x48x48_S48x48)) shapeCasts_S48x48_S48x48x1 (ix3 i j 0) = _
  rw [shapeCast_ab_ab1_apply, sum_apply, shapeCast_ab1_ab_apply, shapeCast_1ab_ab_apply]

theorem send22_apply (v : Vec Ideal S1x48x48 .f32) (j k : Fin 48) :
    k0_pay22 (F := Ideal) v (ix3 0 j k) = v (ix3 0 j k) := by
  show shapeCast S1x48x48 (truncf .bf16 (shapeCast S48x48 v shapeCasts_S1x48x48_S48x48 : FVec Ideal S48x48 .f32)
      bitsLt_bf16_f32) shapeCasts_S48x48_S1x48x48 (ix3 0 j k) = _
  rw [shapeCast_ab_1ab_apply, truncf_apply, shapeCast_1ab_ab_apply]

theorem send23_apply (v : Vec Ideal S1x48x48 .f32) (j k : Fin 48) :
    k0_pay23 (F := Ideal) v (ix3 0 j k) = v (ix3 0 j k) := by
  show shapeCast S1x48x48 (truncf .bf16 (shapeCast S48x48 v shapeCasts_S1x48x48_S48x48 : FVec Ideal S48x48 .f32)
      bitsLt_bf16_f32) shapeCasts_S48x48_S1x48x48 (ix3 0 j k) = _
  rw [shapeCast_ab_1ab_apply, truncf_apply, shapeCast_1ab_ab_apply]

theorem send24_apply (v : Vec Ideal S48x1x48 .f32) (i k : Fin 48) :
    k0_pay24 (F := Ideal) v (ix3 0 i k) = v (ix3 i 0 k) := by
  show shapeCast S1x48x48 (truncf .bf16 (shapeCast S48x48 v shapeCasts_S48x1x48_S48x48 : FVec Ideal S48x48 .f32)
      bitsLt_bf16_f32) shapeCasts_S48x48_S1x48x48 (ix3 0 i k) = _
  rw [shapeCast_ab_1ab_apply, truncf_apply, shapeCast_a1b_ab_apply]

theorem send25_apply (v : Vec Ideal S48x1x48 .f32) (i k : Fin 48) :
    k0_pay25 (F := Ideal) v (ix3 0 i k) = v (ix3 i 0 k) := by
  show shapeCast S1x48x48 (truncf .bf16 (shapeCast S48x48 v shapeCasts_S48x1x48_S48x48 : FVec Ideal S48x48 .f32)
      bitsLt_bf16_f32) shapeCasts_S48x48_S1x48x48 (ix3 0 i k) = _
  rw [shapeCast_ab_1ab_apply, truncf_apply, shapeCast_a1b_ab_apply]

theorem send26_apply (v : Vec Ideal S48x48x1 .f32) (i j : Fin 48) :
    k0_pay26 (F := Ideal) v (ix3 0 i j) = v (ix3 i j 0) := by
  show shapeCast S1x48x48 (truncf .bf16 (shapeCast S48x48 v shapeCasts_S48x48x1_S48x48 : FVec Ideal S48x48 .f32)
      bitsLt_bf16_f32) shapeCasts_S48x48_S1x48x48 (ix3 0 i j) = _
  rw [shapeCast_ab_1ab_apply, truncf_apply, shapeCast_ab1_ab_apply]

theorem send27_apply (v : Vec Ideal S48x48x1 .f32) (i j : Fin 48) :
    k0_pay27 (F := Ideal) v (ix3 0 i j) = v (ix3 i j 0) := by
  show shapeCast S1x48x48 (truncf .bf16 (shapeCast S48x48 v shapeCasts_S48x48x1_S48x48 : FVec Ideal S48x48 .f32)
      bitsLt_bf16_f32) shapeCasts_S48x48_S1x48x48 (ix3 0 i j) = _
  rw [shapeCast_ab_1ab_apply, truncf_apply, shapeCast_ab1_ab_apply]

theorem updY1_apply (old : Vec Ideal S48x2x48 .bf16) (pay : Vec Ideal S48x1x48 .bf16) (i k : Fin 48) (r : Fin 2) :
    updateSlice old pay ![0, 1, 0] slices_S48x2x48_S48x1x48_0_1_0 (ix3 i r k)
      = if r.val = 1 then pay (ix3 i 0 k) else old (ix3 i r k) := by
  unfold updateSlice
  by_cases hr : r.val = 1
  · rw [if_pos hr, dif_pos (fun ax => by
      match ax with
      | ⟨0, _⟩ => exact ⟨Nat.zero_le _, by show i.val < 0 + 48; omega⟩
      | ⟨1, _⟩ => exact ⟨by show 1 ≤ r.val; omega, by show r.val < 1 + 1; omega⟩
      | ⟨2, _⟩ => exact ⟨Nat.zero_le _, by show k.val < 0 + 48; omega⟩)]
    refine congrArg pay (funext fun ax => Fin.ext ?_)
    match ax with
    | ⟨0, _⟩ => exact Nat.sub_zero _
    | ⟨1, _⟩ => show r.val - 1 = 0; omega
    | ⟨2, _⟩ => exact Nat.sub_zero _
  · rw [if_neg hr, dif_neg (fun hin => hr (by
      have h1 := (hin ⟨1, by decide⟩).1
      have h2 : 1 ≤ r.val := h1
      omega))]

theorem updY0_apply (old : Vec Ideal S48x2x48 .bf16) (pay : Vec Ideal S48x1x48 .bf16) (i k : Fin 48) (r : Fin 2) :
    updateSlice old pay ![0, 0, 0] slices_S48x2x48_S48x1x48_0_0_0 (ix3 i r k)
      = if r.val = 0 then pay (ix3 i 0 k) else old (ix3 i r k) := by
  unfold updateSlice
  by_cases hr : r.val = 0
  · rw [if_pos hr, dif_pos (fun ax => by
      match ax with
      | ⟨0, _⟩ => exact ⟨Nat.zero_le _, by show i.val < 0 + 48; omega⟩
      | ⟨1, _⟩ => exact ⟨Nat.zero_le _, by show r.val < 0 + 1; omega⟩
      | ⟨2, _⟩ => exact ⟨Nat.zero_le _, by show k.val < 0 + 48; omega⟩)]
    refine congrArg pay (funext fun ax => Fin.ext ?_)
    match ax with
    | ⟨0, _⟩ => exact Nat.sub_zero _
    | ⟨1, _⟩ => show r.val - 0 = 0; omega
    | ⟨2, _⟩ => exact Nat.sub_zero _
  · rw [if_neg hr, dif_neg (fun hin => hr (by
      have h1 := (hin ⟨1, by decide⟩).2
      have h2 : r.val < 0 + 1 := h1
      omega))]

end Cert.KernelIdeal.Halo
-- ==== Proof.ValueBlock.lean ====
import proofs.«900536_g7700000000000537_dist_halo3d_v7x_xyz2x2x4_s48_bf16_1_alg».proof.Proof.State
import proofs.«900536_g7700000000000537_dist_halo3d_v7x_xyz2x2x4_s48_bf16_1_alg».proof.Proof.PayStencil
import proofs.«900536_g7700000000000537_dist_halo3d_v7x_xyz2x2x4_s48_bf16_1_alg».proof.Proof.PayFace
import Idealize.ShloMosaic.Lib.Layout

noncomputable section

namespace Cert.KernelIdeal.Halo

open Cert.KernelIdeal Cert.KernelIdeal.Gen

open Idealize.ShloMosaic
open Idealize.ShloMosaic.TcCoe
open Idealize.ShloMosaic.ValueIdx
open Idealize.SL.Sem

theorem tilesSW : Layout.TilesN (⟨3, ![48, 48, 48]⟩ : Shape) ⟨3, ![96, 96, 192]⟩
    (fun b => Layout.cutSize [2, 2, 4] ((![[0], [1], [2]] : Fin 3 → List Nat) b)) := by decide

theorem meshBlock_val0 (c : Dev nD) : ((Layout.meshBlock [2, 2, 4] ![[0], [1], [2]] c) 0).val = X c := by
  revert c; decide
theorem meshBlock_val1 (c : Dev nD) : ((Layout.meshBlock [2, 2, 4] ![[0], [1], [2]] c) 1).val = Y c := by
  revert c; decide
theorem meshBlock_val2 (c : Dev nD) : ((Layout.meshBlock [2, 2, 4] ![[0], [1], [2]] c) 2).val = Z c := by
  revert c; decide

theorem blockIdx_val0 (c : Dev nD) (i j k : Fin 48) :
    (tilesSW.idx (Layout.meshBlock [2, 2, 4] ![[0], [1], [2]] c) (ix3 i j k) 0).val = 48 * X c + i.val := by
  rw [Layout.TilesN.idx_val]
  show ((Layout.meshBlock [2, 2, 4] ![[0], [1], [2]] c) 0).val * 48 + i.val = _
  rw [meshBlock_val0]; omega
theorem blockIdx_val1 (c : Dev nD) (i j k : Fin 48) :
    (tilesSW.idx (Layout.meshBlock [2, 2, 4] ![[0], [1], [2]] c) (ix3 i j k) 1).val = 48 * Y c + j.val := by
  rw [Layout.TilesN.idx_val]
  show ((Layout.meshBlock [2, 2, 4] ![[0], [1], [2]] c) 1).val * 48 + j.val = _
  rw [meshBlock_val1]; omega
theorem blockIdx_val2 (c : Dev nD) (i j k : Fin 48) :
    (tilesSW.idx (Layout.meshBlock [2, 2, 4] ![[0], [1], [2]] c) (ix3 i j k) 2).val = 48 * Z c + k.val := by
  rw [Layout.TilesN.idx_val]
  show ((Layout.meshBlock [2, 2, 4] ![[0], [1], [2]] c) 2).val * 48 + k.val = _
  rw [meshBlock_val2]; omega

section Block

variable (m : (ℓ : Loc nD τ sig) → Buf (Elt Ideal) ℓ) (U : Cert.Halo.SW.Idx → EReal)

theorem ublk_eq_arg (c : Dev nD) : ublk m c = m ((c.tc : Thread nD τ).loc main_arg0) := by
  unfold ublk
  exact Memref.read_access_unit_zero (Elt Ideal) main_arg0 (by funext a; show 0 * _ = 0; exact Nat.zero_mul _) _ _

variable (hU : ∀ c : Dev nD, m ((c.tc : Thread nD τ).loc main_arg0)
    = Layout.blockN ⟨3, ![48, 48, 48]⟩ ⟨3, ![96, 96, 192]⟩ (Layout.meshBlock [2, 2, 4] ![[0], [1], [2]] c) U)
include hU

theorem ublk_apply (c : Dev nD) (i j k : Fin 48) :
    ublk m c (ix3 i j k)
      = U (ix3 ⟨48 * X c + i.val, by have := X_lt c; omega⟩ ⟨48 * Y c + j.val, by have := Y_lt c; omega⟩
          ⟨48 * Z c + k.val, by have := Z_lt c; omega⟩) := by
  rw [ublk_eq_arg, hU c]
  show U (tilesSW.idx (Layout.meshBlock [2, 2, 4] ![[0], [1], [2]] c) (ix3 i j k)) = _
  congr 1
  funext b
  match b with
  | ⟨0, _⟩ => exact Fin.ext (blockIdx_val0 c i j k)
  | ⟨1, _⟩ => exact Fin.ext (blockIdx_val1 c i j k)
  | ⟨2, _⟩ => exact Fin.ext (blockIdx_val2 c i j k)

theorem rd_block (c : Dev nD) (a b d : Int) (ha : 0 ≤ a ∧ a < 48) (hb : 0 ≤ b ∧ b < 48) (hd : 0 ≤ d ∧ d < 48) :
    Cert.Halo.rd (n0 := 48) (n1 := 48) (n2 := 48) (ublk m c) a b d
      = Cert.Halo.rd U (48 * (X c : Int) + a) (48 * (Y c : Int) + b) (48 * (Z c : Int) + d) := by
  obtain ⟨a', rfl⟩ := Int.eq_ofNat_of_zero_le ha.1
  obtain ⟨b', rfl⟩ := Int.eq_ofNat_of_zero_le hb.1
  obtain ⟨d', rfl⟩ := Int.eq_ofNat_of_zero_le hd.1
  have hx := X_lt c
  have hy := Y_lt c
  have hz := Z_lt c
  have ha' : a' < 48 := by omega
  have hb' : b' < 48 := by omega
  have hd' : d' < 48 := by omega
  rw [rd_nat _ a' b' d' ha' hb' hd',
    show (48 * (X c : Int) + (a' : Int)) = ((48 * X c + a' : Nat) : Int) by push_cast; rfl,
    show (48 * (Y c : Int) + (b' : Int)) = ((48 * Y c + b' : Nat) : Int) by push_cast; rfl,
    show (48 * (Z c : Int) + (d' : Int)) = ((48 * Z c + d' : Nat) : Int) by push_cast; rfl,
    rd_nat U _ _ _ (by omega) (by omega) (by omega)]
  exact ublk_apply m U hU c ⟨a', ha'⟩ ⟨b', hb'⟩ ⟨d', hd'⟩

end Block

theorem interior_iff (c : Dev nD) (i j k : Fin 48) :
    Cert.Halo.interior 96 96 192 (48 * (X c : Int) + (i.val : Int)) (48 * (Y c : Int) + (j.val : Int))
        (48 * (Z c : Int) + (k.val : Int))
      ↔ ¬((X c = 0 ∧ i.val = 0) ∨ (X c = 1 ∧ i.val = 47) ∨ (Y c = 0 ∧ j.val = 0) ∨ (Y c = 1 ∧ j.val = 47)
          ∨ (Z c = 0 ∧ k.val = 0) ∨ (Z c = 3 ∧ k.val = 47)) := by
  have hx := X_lt c
  have hy := Y_lt c
  have hz := Z_lt c
  have hi := i.isLt
  have hj := j.isLt
  have hk := k.isLt
  unfold Cert.Halo.interior
  omega

section Faces

variable (m : (ℓ : Loc nD τ sig) → Buf (Elt Ideal) ℓ)

theorem sendC_0 (c : Dev nD) (p q : Fin 48) :
    sendC m c (ix3 (0 : Fin 6) p q) = ublk m c (ix3 ⟨0, by omega⟩ p q) := by
  show k0_pay22 (uM.view.readAt (Elt Ideal) (Rect.unit (s := S48x48x48) ![0, 0, 0] S1x48x48.size
    inb_S48x48x48_S1x48x48_0_0_0).toLoadRect (ublk m c)) (ix3 0 p q) = _
  rw [send22_apply]
  exact congrArg (ublk m c) (funext fun a => match a with
    | ⟨0, _⟩ => Fin.ext (by show 0 + 1 * 0 = 0; omega)
    | ⟨1, _⟩ => Fin.ext (by show 0 + 1 * p.val = p.val; omega)
    | ⟨2, _⟩ => Fin.ext (by show 0 + 1 * q.val = q.val; omega))

theorem sendC_1 (c : Dev nD) (p q : Fin 48) :
    sendC m c (ix3 (1 : Fin 6) p q) = ublk m c (ix3 ⟨47, by omega⟩ p q) := by
  show k0_pay23 (uM.view.readAt (Elt Ideal) (Rect.unit (s := S48x48x48) ![47, 0, 0] S1x48x48.size
    inb_S48x48x48_S1x48x48_47_0_0).toLoadRect (ublk m c)) (ix3 0 p q) = _
  rw [send23_apply]
  exact congrArg (ublk m c) (funext fun a => match a with
    | ⟨0, _⟩ => Fin.ext (by show 47 + 1 * 0 = 47; omega)
    | ⟨1, _⟩ => Fin.ext (by show 0 + 1 * p.val = p.val; omega)
    | ⟨2, _⟩ => Fin.ext (by show 0 + 1 * q.val = q.val; omega))

theorem sendC_2 (c : Dev nD) (p q : Fin 48) :
    sendC m c (ix3 (2 : Fin 6) p q) = ublk m c (ix3 p ⟨0, by omega⟩ q) := by
  show k0_pay24 (uM.view.readAt (Elt Ideal) (Rect.unit (s := S48x48x48) ![0, 0, 0] S48x1x48.size
    inb_S48x48x48_S48x1x48_0_0_0).toLoadRect (ublk m c)) (ix3 0 p q) = _
  rw [send24_apply]
  exact congrArg (ublk m c) (funext fun a => match a with
    | ⟨0, _⟩ => Fin.ext (by show 0 + 1 * p.val = p.val; omega)
    | ⟨1, _⟩ => Fin.ext (by show 0 + 1 * 0 = 0; omega)
    | ⟨2, _⟩ => Fin.ext (by show 0 + 1 * q.val = q.val; omega))

theorem sendC_3 (c : Dev nD) (p q : Fin 48) :
    sendC m c (ix3 (3 : Fin 6) p q) = ublk m c (ix3 p ⟨47, by omega⟩ q) := by
  show k0_pay25 (uM.view.readAt (Elt Ideal) (Rect.unit (s := S48x48x48) ![0, 47, 0] S48x1x48.size
    inb_S48x48x48_S48x1x48_0_47_0).toLoadRect (ublk m c)) (ix3 0 p q) = _
  rw [send25_apply]
  exact congrArg (ublk m c) (funext fun a => match a with
    | ⟨0, _⟩ => Fin.ext (by show 0 + 1 * p.val = p.val; omega)
    | ⟨1, _⟩ => Fin.ext (by show 47 + 1 * 0 = 47; omega)
    | ⟨2, _⟩ => Fin.ext (by show 0 + 1 * q.val = q.val; omega))

theorem sendC_4 (c : Dev nD) (p q : Fin 48) :
    sendC m c (ix3 (4 : Fin 6) p q) = ublk m c (ix3 p q ⟨0, by omega⟩) := by
  show k0_pay26 (uM.view.readAt (Elt Ideal) (Rect.unit (s := S48x48x48) ![0, 0, 0] S48x48x1.size
    inb_S48x48x48_S48x48x1_0_0_0).toLoadRect (ublk m c)) (ix3 0 p q) = _
  rw [send26_apply]
  exact congrArg (ublk m c) (funext fun a => match a with
    | ⟨0, _⟩ => Fin.ext (by show 0 + 1 * p.val = p.val; omega)
    | ⟨1, _⟩ => Fin.ext (by show 0 + 1 * q.val = q.val; omega)
    | ⟨2, _⟩ => Fin.ext (by show 0 + 1 * 0 = 0; omega))

theorem sendC_5 (c : Dev nD) (p q : Fin 48) :
    sendC m c (ix3 (5 : Fin 6) p q) = ublk m c (ix3 p q ⟨47, by omega⟩) := by
  show k0_pay27 (uM.view.readAt (Elt Ideal) (Rect.unit (s := S48x48x48) ![0, 0, 47] S48x48x1.size
    inb_S48x48x48_S48x48x1_0_0_47).toLoadRect (ublk m c)) (ix3 0 p q) = _
  rw [send27_apply]
  exact congrArg (ublk m c) (funext fun a => match a with
    | ⟨0, _⟩ => Fin.ext (by show 0 + 1 * p.val = p.val; omega)
    | ⟨1, _⟩ => Fin.ext (by show 0 + 1 * q.val = q.val; omega)
    | ⟨2, _⟩ => Fin.ext (by show 47 + 1 * 0 = 47; omega))

theorem haloC_apply (c : Dev nD) (s : Fin 6) (p q : Fin 48) :
    haloC m c (ix3 s p q) = sendC m (sender c s) (ix3 (srcSlot s) p q) := rfl

/-- Row `k` of the halo buffer, loaded as a `[1,48,48]` vector, at `(0, p, q)` is the buffer's entry `(k, p, q)`. -/
theorem hRow_halo (k : Fin 6) (inb : ∀ a, (![k.val, 0, 0] : Fin 3 → ℕ) a + S1x48x48.size a ≤ S6x48x48.size a) (c : Dev nD) (p q : Fin 48) :
    hM.view.readAt (Elt Ideal) (Rect.unit (s := S6x48x48) ![k.val, 0, 0] S1x48x48.size inb).toLoadRect (haloC m c) (ix3 0 p q)
      = haloC m c (ix3 k p q) := by
  rw [View.readAt_apply]
  have hr : hM.view.read (Elt Ideal) (haloC m c) = haloC m c := rfl
  rw [hr]
  exact congrArg (haloC m c) (funext fun a => match a with
    | ⟨0, _⟩ => Fin.ext (by show k.val + 1 * 0 = k.val; omega)
    | ⟨1, _⟩ => Fin.ext (by show 0 + 1 * p.val = p.val; omega)
    | ⟨2, _⟩ => Fin.ext (by show 0 + 1 * q.val = q.val; omega))

end Faces

section Received

variable (m : (ℓ : Loc nD τ sig) → Buf (Elt Ideal) ℓ) (U : Cert.Halo.SW.Idx → EReal)
variable (hU : ∀ c : Dev nD, m ((c.tc : Thread nD τ).loc main_arg0)
    = Layout.blockN ⟨3, ![48, 48, 48]⟩ ⟨3, ![96, 96, 192]⟩ (Layout.meshBlock [2, 2, 4] ![[0], [1], [2]] c) U)
include hU

theorem ublk_rd (c : Dev nD) (i j k : Nat) (hi : i < 48) (hj : j < 48) (hk : k < 48) :
    ublk m c (ix3 ⟨i, hi⟩ ⟨j, hj⟩ ⟨k, hk⟩)
      = Cert.Halo.rd U (48 * (X c : Int) + (i : Int)) (48 * (Y c : Int) + (j : Int)) (48 * (Z c : Int) + (k : Int)) := by
  rw [← rd_block m U hU c i j k (by omega) (by omega) (by omega)]
  exact (rd_nat (n0 := 48) (n1 := 48) (n2 := 48) (ublk m c) i j k hi hj hk).symm

theorem hRow0_apply (c : Dev nD) (h : X c = 1) (p q : Fin 48) :
    hRow0 m c (ix3 0 p q) = Cert.Halo.rd U (48 * (X c : Int) - 1) (48 * (Y c : Int) + (p.val : Int)) (48 * (Z c : Int) + (q.val : Int)) := by
  rw [show hRow0 m c (ix3 0 p q) = haloC m c (ix3 (0 : Fin 6) p q) from hRow_halo m 0 _ c p q, haloC_apply]
  show sendC m (fx c) (ix3 (1 : Fin 6) p q) = _
  rw [sendC_1]
  refine (ublk_rd m U hU (fx c) 47 p.val q.val (by omega) p.isLt q.isLt).trans ?_
  have e : (48 * (X (fx c) : Int) + ((47 : Nat) : Int)) = 48 * (X c : Int) - 1 := by have := X_fx c; omega
  rw [e, Y_fx, Z_fx]

theorem hRow1_apply (c : Dev nD) (h : X c = 0) (p q : Fin 48) :
    hRow1 m c (ix3 0 p q) = Cert.Halo.rd U (48 * (X c : Int) + 48) (48 * (Y c : Int) + (p.val : Int)) (48 * (Z c : Int) + (q.val : Int)) := by
  rw [show hRow1 m c (ix3 0 p q) = haloC m c (ix3 (1 : Fin 6) p q) from hRow_halo m 1 _ c p q, haloC_apply]
  show sendC m (fx c) (ix3 (0 : Fin 6) p q) = _
  rw [sendC_0]
  refine (ublk_rd m U hU (fx c) 0 p.val q.val (by omega) p.isLt q.isLt).trans ?_
  have e : (48 * (X (fx c) : Int) + ((0 : Nat) : Int)) = 48 * (X c : Int) + 48 := by have := X_fx c; omega
  rw [e, Y_fx, Z_fx]

theorem hRow2_apply (c : Dev nD) (h : Y c = 1) (p q : Fin 48) :
    hRow2 m c (ix3 0 p q) = Cert.Halo.rd U (48 * (X c : Int) + (p.val : Int)) (48 * (Y c : Int) - 1) (48 * (Z c : Int) + (q.val : Int)) := by
  rw [show hRow2 m c (ix3 0 p q) = haloC m c (ix3 (2 : Fin 6) p q) from hRow_halo m 2 _ c p q, haloC_apply]
  show sendC m (fy c) (ix3 (3 : Fin 6) p q) = _
  rw [sendC_3]
  refine (ublk_rd m U hU (fy c) p.val 47 q.val p.isLt (by omega) q.isLt).trans ?_
  have e : (48 * (Y (fy c) : Int) + ((47 : Nat) : Int)) = 48 * (Y c : Int) - 1 := by have := Y_fy c; omega
  rw [e, X_fy, Z_fy]

theorem hRow3_apply (c : Dev nD) (h : Y c = 0) (p q : Fin 48) :
    hRow3 m c (ix3 0 p q) = Cert.Halo.rd U (48 * (X c : Int) + (p.val : Int)) (48 * (Y c : Int) + 48) (48 * (Z c : Int) + (q.val : Int)) := by
  rw [show hRow3 m c (ix3 0 p q) = haloC m c (ix3 (3 : Fin 6) p q) from hRow_halo m 3 _ c p q, haloC_apply]
  show sendC m (fy c) (ix3 (2 : Fin 6) p q) = _
  rw [sendC_2]
  refine (ublk_rd m U hU (fy c) p.val 0 q.val p.isLt (by omega) q.isLt).trans ?_
  have e : (48 * (Y (fy c) : Int) + ((0 : Nat) : Int)) = 48 * (Y c : Int) + 48 := by have := Y_fy c; omega
  rw [e, X_fy, Z_fy]

theorem hRow4_apply (c : Dev nD) (h : 0 < Z c) (p q : Fin 48) :
    hRow4 m c (ix3 0 p q) = Cert.Halo.rd U (48 * (X c : Int) + (p.val : Int)) (48 * (Y c : Int) + (q.val : Int)) (48 * (Z c : Int) - 1) := by
  rw [show hRow4 m c (ix3 0 p q) = haloC m c (ix3 (4 : Fin 6) p q) from hRow_halo m 4 _ c p q, haloC_apply]
  show sendC m (zdn c) (ix3 (5 : Fin 6) p q) = _
  rw [sendC_5]
  refine (ublk_rd m U hU (zdn c) p.val q.val 47 p.isLt q.isLt (by omega)).trans ?_
  have e : (48 * (Z (zdn c) : Int) + ((47 : Nat) : Int)) = 48 * (Z c : Int) - 1 := by have := Z_zdn c h; omega
  rw [e, X_zdn, Y_zdn]

theorem hRow5_apply (c : Dev nD) (h : Z c < 3) (p q : Fin 48) :
    hRow5 m c (ix3 0 p q) = Cert.Halo.rd U (48 * (X c : Int) + (p.val : Int)) (48 * (Y c : Int) + (q.val : Int)) (48 * (Z c : Int) + 48) := by
  rw [show hRow5 m c (ix3 0 p q) = haloC m c (ix3 (5 : Fin 6) p q) from hRow_halo m 5 _ c p q, haloC_apply]
  show sendC m (zup c) (ix3 (4 : Fin 6) p q) = _
  rw [sendC_4]
  refine (ublk_rd m U hU (zup c) p.val q.val 0 p.isLt q.isLt (by omega)).trans ?_
  have e : (48 * (Z (zup c) : Int) + ((0 : Nat) : Int)) = 48 * (Z c : Int) + 48 := by have := Z_zup c h; omega
  rw [e, X_zup, Y_zup]

end Received

end Cert.KernelIdeal.Halo

end
-- ==== Proof.ValueOut.lean ====
import proofs.«900536_g7700000000000537_dist_halo3d_v7x_xyz2x2x4_s48_bf16_1_alg».proof.Proof.ValueBlock

noncomputable section

namespace Cert.KernelIdeal.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation:65 a:65 " +ₑ " b:66 => @HAdd.hAdd EReal EReal EReal instHAdd a b

section Rect3
variable {α : Type}

theorem updateSlice_ix3_in {n0 n1 n2 m0 m1 m2 : Nat} (o0 o1 o2 : Nat) (x : (⟨3, ![n0, n1, n2]⟩ : Shape).Idx → α)
    (upd : (⟨3, ![m0, m1, m2]⟩ : Shape).Idx → α)
    (h : (⟨3, ![n0, n1, n2]⟩ : Shape).Slices ![o0, o1, o2] ⟨3, ![m0, m1, m2]⟩) (i : Fin n0) (j : Fin n1) (k : Fin n2)
    (a : Fin m0) (b : Fin m1) (c : Fin m2) (ha : i.val = o0 + a.val) (hb : j.val = o1 + b.val) (hc : k.val = o2 + c.val) :
    updateSlice x upd ![o0, o1, o2] h (ix3 i j k) = upd (ix3 a b c) := by
  unfold updateSlice
  rw [dif_pos (fun ax => by
      match ax with
      | ⟨0, _⟩ => exact ⟨by show o0 ≤ i.val; omega, by show i.val < o0 + m0; have := a.isLt; omega⟩
      | ⟨1, _⟩ => exact ⟨by show o1 ≤ j.val; omega, by show j.val < o1 + m1; have := b.isLt; omega⟩
      | ⟨2, _⟩ => exact ⟨by show o2 ≤ k.val; omega, by show k.val < o2 + m2; have := c.isLt; omega⟩)]
  refine congrArg upd (funext fun ax => Fin.ext ?_)
  match ax with
  | ⟨0, _⟩ => show i.val - o0 = a.val; omega
  | ⟨1, _⟩ => show j.val - o1 = b.val; omega
  | ⟨2, _⟩ => show k.val - o2 = c.val; omega

theorem updateSlice_ix3_out {n0 n1 n2 m0 m1 m2 : Nat} (o0 o1 o2 : Nat) (x : (⟨3, ![n0, n1, n2]⟩ : Shape).Idx → α)
    (upd : (⟨3, ![m0, m1, m2]⟩ : Shape).Idx → α)
    (h : (⟨3, ![n0, n1, n2]⟩ : Shape).Slices ![o0, o1, o2] ⟨3, ![m0, m1, m2]⟩) (i : Fin n0) (j : Fin n1) (k : Fin n2)
    (hout : ¬((o0 ≤ i.val ∧ i.val < o0 + m0) ∧ (o1 ≤ j.val ∧ j.val < o1 + m1) ∧ (o2 ≤ k.val ∧ k.val < o2 + m2))) :
    updateSlice x upd ![o0, o1, o2] h (ix3 i j k) = x (ix3 i j k) := by
  unfold updateSlice
  rw [dif_neg (fun hall => hout (by
    have p0 : 0 < (⟨3, ![n0, n1, n2]⟩ : Shape).rank := by show 0 < 3; decide
    have p1 : 1 < (⟨3, ![n0, n1, n2]⟩ : Shape).rank := by show 1 < 3; decide
    have p2 : 2 < (⟨3, ![n0, n1, n2]⟩ : Shape).rank := by show 2 < 3; decide
    have h0 : o0 ≤ i.val ∧ i.val < o0 + m0 := hall ⟨0, p0⟩
    have h1 : o1 ≤ j.val ∧ j.val < o1 + m1 := hall ⟨1, p1⟩
    have h2 : o2 ≤ k.val ∧ k.val < o2 + m2 := hall ⟨2, p2⟩
    exact ⟨h0, h1, h2⟩))]

end Rect3

theorem readAt_oM {m0 m1 m2 : Nat} (o0 o1 o2 : Nat) (o : OC (F := Ideal))
    (inb : ∀ a, (![o0, o1, o2] : Fin 3 → Nat) a + (⟨3, ![m0, m1, m2]⟩ : Shape).size a ≤ S48x48x48.size a)
    (a : Fin m0) (b : Fin m1) (c : Fin m2) (i j k : Fin 48)
    (ha : i.val = o0 + a.val) (hb : j.val = o1 + b.val) (hc : k.val = o2 + c.val) :
    (oM : Memref sig .tc .vmem S48x48x48 .bf16).view.readAt (Elt Ideal)
        (Rect.unit (s := S48x48x48) ![o0, o1, o2] (⟨3, ![m0, m1, m2]⟩ : Shape).size inb).toLoadRect o (ix3 a b c)
      = o (ix3 i j k) := by
  refine congrArg o (funext fun ax => Fin.ext ?_)
  match ax with
  | ⟨0, _⟩ => show o0 + 1 * a.val = i.val; omega
  | ⟨1, _⟩ => show o1 + 1 * b.val = j.val; omega
  | ⟨2, _⟩ => show o2 + 1 * c.val = k.val; omega

theorem write_oM {m0 m1 m2 : Nat} (o0 o1 o2 : Nat) (o : OC (F := Ideal))
    (inb : ∀ a, (![o0, o1, o2] : Fin 3 → Nat) a + (⟨3, ![m0, m1, m2]⟩ : Shape).size a ≤ S48x48x48.size a)
    (w : Vec Ideal ⟨3, ![m0, m1, m2]⟩ .bf16) :
    ((oM : Memref sig .tc .vmem S48x48x48 .bf16).access
        (Rect.unit (s := S48x48x48) ![o0, o1, o2] (⟨3, ![m0, m1, m2]⟩ : Shape).size inb)).write (Elt Ideal) o w Finset.univ
      = updateSlice (s := S48x48x48) o w ![o0, o1, o2] ⟨rfl, inb⟩ :=
  View.write_whole_slice_unit cc0_stg1_0 _ _ inb o w

section Updates
variable (m : (ℓ : Loc nD τ sig) → Buf (Elt Ideal) ℓ)

theorem upd0_apply (c : Dev nD) (o : OC (F := Ideal)) (i j k : Fin 48) :
    upd0 (F := Ideal) m c o (ix3 i j k)
      = if i.val = 0 then o (ix3 i j k) +ₑ (if mk (f92 c) (f93 c) (f94 c) (f95 c) j.val k.val then 0 else hRow0 m c (ix3 0 j k))
        else o (ix3 i j k) := by
  unfold upd0
  by_cases hi : i.val = 0
  · rw [if_pos hi]
    refine (congrFun (write_oM 0 0 0 o _ _) (ix3 i j k)).trans ?_
    refine (updateSlice_ix3_in 0 0 0 _ _ _ i j k 0 j k (by omega) (by omega) (by omega)).trans ?_
    refine (face31_apply _ _ _ _ _ _ j k).trans ?_
    rw [readAt_oM 0 0 0 o _ 0 j k i j k (by omega) (by omega) (by omega)]
  · rw [if_neg hi]
    refine (congrFun (write_oM 0 0 0 o _ _) (ix3 i j k)).trans ?_
    exact updateSlice_ix3_out 0 0 0 _ _ _ i j k (by omega)

theorem upd1_apply (c : Dev nD) (o : OC (F := Ideal)) (i j k : Fin 48) :
    upd1 (F := Ideal) m c o (ix3 i j k)
      = if i.val = 47 then o (ix3 i j k) +ₑ (if mk (f92 c) (f93 c) (f94 c) (f95 c) j.val k.val then 0 else hRow1 m c (ix3 0 j k))
        else o (ix3 i j k) := by
  unfold upd1
  by_cases hi : i.val = 47
  · rw [if_pos hi]
    refine (congrFun (write_oM 47 0 0 o _ _) (ix3 i j k)).trans ?_
    refine (updateSlice_ix3_in 47 0 0 _ _ _ i j k 0 j k (by omega) (by omega) (by omega)).trans ?_
    refine (face32_apply _ _ _ _ _ _ j k).trans ?_
    rw [readAt_oM 47 0 0 o _ 0 j k i j k (by omega) (by omega) (by omega)]
  · rw [if_neg hi]
    refine (congrFun (write_oM 47 0 0 o _ _) (ix3 i j k)).trans ?_
    exact updateSlice_ix3_out 47 0 0 _ _ _ i j k (by omega)

theorem upd2_apply (c : Dev nD) (o : OC (F := Ideal)) (i j k : Fin 48) :
    upd2 (F := Ideal) m c o (ix3 i j k)
      = if j.val = 0 then o (ix3 i j k) +ₑ (if mk (f90 c) (f91 c) (f94 c) (f95 c) i.val k.val then 0 else hRow2 m c (ix3 0 i k))
        else o (ix3 i j k) := by
  unfold upd2
  refine (congrFun (write_oM 0 0 0 o _ _) (ix3 i j k)).trans ?_
  by_cases hj : j.val < 2
  · refine (updateSlice_ix3_in 0 0 0 _ _ _ i j k i ⟨j.val, hj⟩ k (by omega) (by show j.val = 0 + j.val; omega) (by omega)).trans ?_
    refine (updY0_apply _ _ i k ⟨j.val, hj⟩).trans ?_
    by_cases h0 : j.val = 0
    · rw [if_pos h0, if_pos h0]
      refine (face33_apply _ _ _ _ _ _ i k).trans ?_
      rw [readAt_oM 0 0 0 o _ i 0 k i j k (by omega) (by omega) (by omega)]
    · rw [if_neg h0, if_neg h0]
      exact readAt_oM 0 0 0 o _ i ⟨j.val, hj⟩ k i j k (by omega) (by show j.val = 0 + j.val; omega) (by omega)
  · rw [if_neg (by omega)]
    exact updateSlice_ix3_out 0 0 0 _ _ _ i j k (by omega)

theorem upd3_apply (c : Dev nD) (o : OC (F := Ideal)) (i j k : Fin 48) :
    upd3 (F := Ideal) m c o (ix3 i j k)
      = if j.val = 47 then o (ix3 i j k) +ₑ (if mk (f90 c) (f91 c) (f94 c) (f95 c) i.val k.val then 0 else hRow3 m c (ix3 0 i k))
        else o (ix3 i j k) := by
  unfold upd3
  refine (congrFun (write_oM 0 46 0 o _ _) (ix3 i j k)).trans ?_
  by_cases hj : 46 ≤ j.val
  · have hr : j.val - 46 < 2 := by have := j.isLt; omega
    refine (updateSlice_ix3_in 0 46 0 _ _ _ i j k i ⟨j.val - 46, hr⟩ k (by omega) (by show j.val = 46 + (j.val - 46); omega) (by omega)).trans ?_
    refine (updY1_apply _ _ i k ⟨j.val - 46, hr⟩).trans ?_
    by_cases h0 : j.val = 47
    · rw [if_pos (by show j.val - 46 = 1; omega), if_pos h0]
      refine (face1_apply _ _ _ _ _ _ i k).trans ?_
      rw [readAt_oM 0 47 0 o _ i 0 k i j k (by omega) (by omega) (by omega)]
    · rw [if_neg (by show ¬ j.val - 46 = 1; omega), if_neg h0]
      exact readAt_oM 0 46 0 o _ i ⟨j.val - 46, hr⟩ k i j k (by omega) (by show j.val = 46 + (j.val - 46); omega) (by omega)
  · rw [if_neg (by omega)]
    exact updateSlice_ix3_out 0 46 0 _ _ _ i j k (by omega)

theorem upd4_apply (c : Dev nD) (o : OC (F := Ideal)) (i j k : Fin 48) :
    upd4 (F := Ideal) m c o (ix3 i j k)
      = if k.val = 0 then o (ix3 i j k) +ₑ (if mk (f90 c) (f91 c) (f92 c) (f93 c) i.val j.val then 0 else hRow4 m c (ix3 0 i j))
        else o (ix3 i j k) := by
  unfold upd4
  by_cases hk : k.val = 0
  · rw [if_pos hk]
    refine (congrFun (write_oM 0 0 0 o _ _) (ix3 i j k)).trans ?_
    refine (updateSlice_ix3_in 0 0 0 _ _ _ i j k i j 0 (by omega) (by omega) (by omega)).trans ?_
    refine (face2_apply _ _ _ _ _ _ i j).trans ?_
    rw [readAt_oM 0 0 0 o _ i j 0 i j k (by omega) (by omega) (by omega)]
  · rw [if_neg hk]
    refine (congrFun (write_oM 0 0 0 o _ _) (ix3 i j k)).trans ?_
    exact updateSlice_ix3_out 0 0 0 _ _ _ i j k (by omega)

theorem upd5_apply (c : Dev nD) (o : OC (F := Ideal)) (i j k : Fin 48) :
    upd5 (F := Ideal) m c o (ix3 i j k)
      = if k.val = 47 then o (ix3 i j k) +ₑ (if mk (f90 c) (f91 c) (f92 c) (f93 c) i.val j.val then 0 else hRow5 m c (ix3 0 i j))
        else o (ix3 i j k) := by
  unfold upd5
  by_cases hk : k.val = 47
  · rw [if_pos hk]
    refine (congrFun (write_oM 0 0 47 o _ _) (ix3 i j k)).trans ?_
    refine (updateSlice_ix3_in 0 0 47 _ _ _ i j k i j 0 (by omega) (by omega) (by omega)).trans ?_
    refine (face3_apply _ _ _ _ _ _ i j).trans ?_
    rw [readAt_oM 0 0 47 o _ i j 0 i j k (by omega) (by omega) (by omega)]
  · rw [if_neg hk]
    refine (congrFun (write_oM 0 0 47 o _ _) (ix3 i j k)).trans ?_
    exact updateSlice_ix3_out 0 0 47 _ _ _ i j k (by omega)

end Updates

def GB (c : Dev nD) (i j k : Nat) : Prop :=
  (X c = 0 ∧ i = 0) ∨ (X c = 1 ∧ i = 47) ∨ (Y c = 0 ∧ j = 0) ∨ (Y c = 1 ∧ j = 47) ∨ (Z c = 0 ∧ k = 0) ∨ (Z c = 3 ∧ k = 47)

instance (c : Dev nD) (i j k : Nat) : Decidable (GB c i j k) := by unfold GB; infer_instance

theorem mkYZ_iff (c : Dev nD) (p q : Nat) :
    mk (f92 c) (f93 c) (f94 c) (f95 c) p q ↔ (Y c = 0 ∧ p = 0) ∨ (Y c = 1 ∧ p = 47) ∨ (Z c = 0 ∧ q = 0) ∨ (Z c = 3 ∧ q = 47) := by
  unfold mk
  rw [yflag0_iff, yflag1_iff, zflag0_iff, zflag3_iff]

theorem mkXZ_iff (c : Dev nD) (p q : Nat) :
    mk (f90 c) (f91 c) (f94 c) (f95 c) p q ↔ (X c = 0 ∧ p = 0) ∨ (X c = 1 ∧ p = 47) ∨ (Z c = 0 ∧ q = 0) ∨ (Z c = 3 ∧ q = 47) := by
  unfold mk
  rw [xflag0_iff, xflag1_iff, zflag0_iff, zflag3_iff]

theorem mkXY_iff (c : Dev nD) (p q : Nat) :
    mk (f90 c) (f91 c) (f92 c) (f93 c) p q ↔ (X c = 0 ∧ p = 0) ∨ (X c = 1 ∧ p = 47) ∨ (Y c = 0 ∧ q = 0) ∨ (Y c = 1 ∧ q = 47) := by
  unfold mk
  rw [xflag0_iff, xflag1_iff, yflag0_iff, yflag1_iff]

theorem xw0_iff (c : Dev nD) : xw c = 0#32 ↔ X c = 0 := (scmpi_eq_one _ _).symm.trans (xflag0_iff c)
theorem xw1_iff (c : Dev nD) : xw c = 1#32 ↔ X c = 1 := (scmpi_eq_one _ _).symm.trans (xflag1_iff c)
theorem yw0_iff (c : Dev nD) : yw c = 0#32 ↔ Y c = 0 := (scmpi_eq_one _ _).symm.trans (yflag0_iff c)
theorem yw1_iff (c : Dev nD) : yw c = 1#32 ↔ Y c = 1 := (scmpi_eq_one _ _).symm.trans (yflag1_iff c)
theorem zw0_iff (c : Dev nD) : zw c = 0#32 ↔ Z c = 0 := (scmpi_eq_one _ _).symm.trans (zflag0_iff c)
theorem zw3_iff (c : Dev nD) : zw c = 3#32 ↔ Z c = 3 := (scmpi_eq_one _ _).symm.trans (zflag3_iff c)

theorem out0_at (m : (ℓ : Loc nD τ sig) → Buf (Elt Ideal) ℓ) (c : Dev nD) (i j k : Fin 48) :
    out0 (F := Ideal) m c (ix3 i j k)
      = if GB c i.val j.val k.val then (0 : EReal)
        else Cert.Halo.sten (n0 := 48) (n1 := 48) (n2 := 48) (ublk m c) (i.val : Int) (j.val : Int) (k.val : Int) := by
  unfold out0
  refine (out0_apply (ublk m c) (xw c) (yw c) (zw c) i j k).trans ?_
  refine if_congr ?_ rfl rfl
  unfold GB
  rw [xw0_iff, xw1_iff, yw0_iff, yw1_iff, zw0_iff, zw3_iff]

def faceTerm (app msk : Prop) [Decidable app] [Decidable msk] (h : EReal) : EReal :=
  if app then (if msk then 0 else h) else 0

theorem stage_at {app onf msk : Prop} [Decidable app] [Decidable onf] [Decidable msk] (o o' : OC (F := Ideal))
    (h : EReal) (x : S48x48x48.Idx)
    (hupd : o' x = if onf then o x +ₑ (if msk then 0 else h) else o x) :
    (if app then o' else o) x = o x +ₑ faceTerm (app ∧ onf) msk h := by
  unfold faceTerm
  by_cases ha : app
  · rw [if_pos ha, hupd]
    by_cases hf : onf
    · rw [if_pos hf, if_pos (show app ∧ onf from ⟨ha, hf⟩)]
    · rw [if_neg hf, if_neg (fun hh => hf hh.2), add_zero]
  · rw [if_neg ha, if_neg (fun hh => ha hh.1), add_zero]

section Stages
variable (m : (ℓ : Loc nD τ sig) → Buf (Elt Ideal) ℓ) (c : Dev nD) (i j k : Fin 48)

theorem out1_at : out1 (F := Ideal) m c (ix3 i j k) = out0 (F := Ideal) m c (ix3 i j k)
    +ₑ faceTerm (X c = 1 ∧ i.val = 0) (mk (f92 c) (f93 c) (f94 c) (f95 c) j.val k.val) (hRow0 m c (ix3 0 j k)) := by
  unfold out1
  exact stage_at (app := X c = 1) _ _ _ _ (upd0_apply m c (out0 m c) i j k)

theorem out2_at : out2 (F := Ideal) m c (ix3 i j k) = out1 (F := Ideal) m c (ix3 i j k)
    +ₑ faceTerm (X c = 0 ∧ i.val = 47) (mk (f92 c) (f93 c) (f94 c) (f95 c) j.val k.val) (hRow1 m c (ix3 0 j k)) := by
  unfold out2
  exact stage_at (app := X c = 0) _ _ _ _ (upd1_apply m c (out1 m c) i j k)

theorem out3_at : out3 (F := Ideal) m c (ix3 i j k) = out2 (F := Ideal) m c (ix3 i j k)
    +ₑ faceTerm (Y c = 1 ∧ j.val = 0) (mk (f90 c) (f91 c) (f94 c) (f95 c) i.val k.val) (hRow2 m c (ix3 0 i k)) := by
  unfold out3
  exact stage_at (app := Y c = 1) _ _ _ _ (upd2_apply m c (out2 m c) i j k)

theorem out4_at : out4 (F := Ideal) m c (ix3 i j k) = out3 (F := Ideal) m c (ix3 i j k)
    +ₑ faceTerm (Y c = 0 ∧ j.val = 47) (mk (f90 c) (f91 c) (f94 c) (f95 c) i.val k.val) (hRow3 m c (ix3 0 i k)) := by
  unfold out4
  exact stage_at (app := Y c = 0) _ _ _ _ (upd3_apply m c (out3 m c) i j k)

theorem out5_at : out5 (F := Ideal) m c (ix3 i j k) = out4 (F := Ideal) m c (ix3 i j k)
    +ₑ faceTerm (0 < Z c ∧ k.val = 0) (mk (f90 c) (f91 c) (f92 c) (f93 c) i.val j.val) (hRow4 m c (ix3 0 i j)) := by
  unfold out5
  exact stage_at (app := 0 < Z c) _ _ _ _ (upd4_apply m c (out4 m c) i j k)

theorem out6_at : outAt (F := Ideal) m c (ix3 i j k) = out5 (F := Ideal) m c (ix3 i j k)
    +ₑ faceTerm (Z c < 3 ∧ k.val = 47) (mk (f90 c) (f91 c) (f92 c) (f93 c) i.val j.val) (hRow5 m c (ix3 0 i j)) := by
  unfold outAt
  exact stage_at (app := Z c < 3) _ _ _ _ (upd5_apply m c (out5 m c) i j k)

theorem outAt_at : outAt (F := Ideal) m c (ix3 i j k) = out0 (F := Ideal) m c (ix3 i j k)
    +ₑ faceTerm (X c = 1 ∧ i.val = 0) (mk (f92 c) (f93 c) (f94 c) (f95 c) j.val k.val) (hRow0 m c (ix3 0 j k))
    +ₑ faceTerm (X c = 0 ∧ i.val = 47) (mk (f92 c) (f93 c) (f94 c) (f95 c) j.val k.val) (hRow1 m c (ix3 0 j k))
    +ₑ faceTerm (Y c = 1 ∧ j.val = 0) (mk (f90 c) (f91 c) (f94 c) (f95 c) i.val k.val) (hRow2 m c (ix3 0 i k))
    +ₑ faceTerm (Y c = 0 ∧ j.val = 47) (mk (f90 c) (f91 c) (f94 c) (f95 c) i.val k.val) (hRow3 m c (ix3 0 i k))
    +ₑ faceTerm (0 < Z c ∧ k.val = 0) (mk (f90 c) (f91 c) (f92 c) (f93 c) i.val j.val) (hRow4 m c (ix3 0 i j))
    +ₑ faceTerm (Z c < 3 ∧ k.val = 47) (mk (f90 c) (f91 c) (f92 c) (f93 c) i.val j.val) (hRow5 m c (ix3 0 i j)) := by
  rw [out6_at, out5_at, out4_at, out3_at, out2_at, out1_at]

end Stages

def nbrTerm (app : Prop) [Decidable app] (h : EReal) : EReal := if app then h else 0

section Neighbours
variable (m : (ℓ : Loc nD τ sig) → Buf (Elt Ideal) ℓ) (U : Cert.Halo.SW.Idx → EReal)
variable (hU : ∀ c : Dev nD, m ((c.tc : Thread nD τ).loc main_arg0)
    = Layout.blockN ⟨3, ![48, 48, 48]⟩ ⟨3, ![96, 96, 192]⟩ (Layout.meshBlock [2, 2, 4] ![[0], [1], [2]] c) U)
include hU
variable (c : Dev nD) (i j k : Fin 48)

theorem rdU_c :
    Cert.Halo.rd U (48 * (X c : Int) + (i.val : Int)) (48 * (Y c : Int) + (j.val : Int)) (48 * (Z c : Int) + (k.val : Int))
      = Cert.Halo.rd (n0 := 48) (n1 := 48) (n2 := 48) (ublk m c) (i.val : Int) (j.val : Int) (k.val : Int) :=
  (rd_block m U hU c _ _ _ (by omega) (by omega) (by omega)).symm

theorem rdU_xm :
    Cert.Halo.rd U (48 * (X c : Int) + (i.val : Int) - 1) (48 * (Y c : Int) + (j.val : Int)) (48 * (Z c : Int) + (k.val : Int))
      = Cert.Halo.rd (n0 := 48) (n1 := 48) (n2 := 48) (ublk m c) ((i.val : Int) - 1) (j.val : Int) (k.val : Int)
        + nbrTerm (X c = 1 ∧ i.val = 0) (hRow0 m c (ix3 0 j k)) := by
  unfold nbrTerm
  have hx := X_lt c
  by_cases hi : i.val = 0
  · rw [rd_out (n0 := 48) (n1 := 48) (n2 := 48) (ublk m c) ((i.val : Int) - 1) (j.val : Int) (k.val : Int) (by omega), zero_add]
    by_cases hX : X c = 1
    · rw [if_pos ⟨hX, hi⟩, hRow0_apply m U hU c hX j k,
        show (48 * (X c : Int) + (i.val : Int) - 1) = 48 * (X c : Int) - 1 by omega]
    · rw [if_neg (fun h => hX h.1)]
      exact rd_out U _ _ _ (by omega)
  · rw [if_neg (fun h => hi h.2), add_zero,
      rd_block m U hU c ((i.val : Int) - 1) (j.val : Int) (k.val : Int) (by omega) (by omega) (by omega),
      show (48 * (X c : Int) + ((i.val : Int) - 1)) = 48 * (X c : Int) + (i.val : Int) - 1 by omega]

theorem rdU_xp :
    Cert.Halo.rd U (48 * (X c : Int) + (i.val : Int) + 1) (48 * (Y c : Int) + (j.val : Int)) (48 * (Z c : Int) + (k.val : Int))
      = Cert.Halo.rd (n0 := 48) (n1 := 48) (n2 := 48) (ublk m c) ((i.val : Int) + 1) (j.val : Int) (k.val : Int)
        + nbrTerm (X c = 0 ∧ i.val = 47) (hRow1 m c (ix3 0 j k)) := by
  unfold nbrTerm
  have hx := X_lt c
  by_cases hi : i.val = 47
  · rw [rd_out (n0 := 48) (n1 := 48) (n2 := 48) (ublk m c) ((i.val : Int) + 1) (j.val : Int) (k.val : Int) (by omega), zero_add]
    by_cases hX : X c = 0
    · rw [if_pos ⟨hX, hi⟩, hRow1_apply m U hU c hX j k,
        show (48 * (X c : Int) + (i.val : Int) + 1) = 48 * (X c : Int) + 48 by omega]
    · rw [if_neg (fun h => hX h.1)]
      exact rd_out U _ _ _ (by omega)
  · rw [if_neg (fun h => hi h.2), add_zero,
      rd_block m U hU c ((i.val : Int) + 1) (j.val : Int) (k.val : Int) (by omega) (by omega) (by omega),
      show (48 * (X c : Int) + ((i.val : Int) + 1)) = 48 * (X c : Int) + (i.val : Int) + 1 by omega]

theorem rdU_ym :
    Cert.Halo.rd U (48 * (X c : Int) + (i.val : Int)) (48 * (Y c : Int) + (j.val : Int) - 1) (48 * (Z c : Int) + (k.val : Int))
      = Cert.Halo.rd (n0 := 48) (n1 := 48) (n2 := 48) (ublk m c) (i.val : Int) ((j.val : Int) - 1) (k.val : Int)
        + nbrTerm (Y c = 1 ∧ j.val = 0) (hRow2 m c (ix3 0 i k)) := by
  unfold nbrTerm
  have hy := Y_lt c
  by_cases hj : j.val = 0
  · rw [rd_out (n0 := 48) (n1 := 48) (n2 := 48) (ublk m c) (i.val : Int) ((j.val : Int) - 1) (k.val : Int) (by omega), zero_add]
    by_cases hY : Y c = 1
    · rw [if_pos ⟨hY, hj⟩, hRow2_apply m U hU c hY i k,
        show (48 * (Y c : Int) + (j.val : Int) - 1) = 48 * (Y c : Int) - 1 by omega]
    · rw [if_neg (fun h => hY h.1)]
      exact rd_out U _ _ _ (by omega)
  · rw [if_neg (fun h => hj h.2), add_zero,
      rd_block m U hU c (i.val : Int) ((j.val : Int) - 1) (k.val : Int) (by omega) (by omega) (by omega),
      show (48 * (Y c : Int) + ((j.val : Int) - 1)) = 48 * (Y c : Int) + (j.val : Int) - 1 by omega]

theorem rdU_yp :
    Cert.Halo.rd U (48 * (X c : Int) + (i.val : Int)) (48 * (Y c : Int) + (j.val : Int) + 1) (48 * (Z c : Int) + (k.val : Int))
      = Cert.Halo.rd (n0 := 48) (n1 := 48) (n2 := 48) (ublk m c) (i.val : Int) ((j.val : Int) + 1) (k.val : Int)
        + nbrTerm (Y c = 0 ∧ j.val = 47) (hRow3 m c (ix3 0 i k)) := by
  unfold nbrTerm
  have hy := Y_lt c
  by_cases hj : j.val = 47
  · rw [rd_out (n0 := 48) (n1 := 48) (n2 := 48) (ublk m c) (i.val : Int) ((j.val : Int) + 1) (k.val : Int) (by omega), zero_add]
    by_cases hY : Y c = 0
    · rw [if_pos ⟨hY, hj⟩, hRow3_apply m U hU c hY i k,
        show (48 * (Y c : Int) + (j.val : Int) + 1) = 48 * (Y c : Int) + 48 by omega]
    · rw [if_neg (fun h => hY h.1)]
      exact rd_out U _ _ _ (by omega)
  · rw [if_neg (fun h => hj h.2), add_zero,
      rd_block m U hU c (i.val : Int) ((j.val : Int) + 1) (k.val : Int) (by omega) (by omega) (by omega),
      show (48 * (Y c : Int) + ((j.val : Int) + 1)) = 48 * (Y c : Int) + (j.val : Int) + 1 by omega]

theorem rdU_zm :
    Cert.Halo.rd U (48 * (X c : Int) + (i.val : Int)) (48 * (Y c : Int) + (j.val : Int)) (48 * (Z c : Int) + (k.val : Int) - 1)
      = Cert.Halo.rd (n0 := 48) (n1 := 48) (n2 := 48) (ublk m c) (i.val : Int) (j.val : Int) ((k.val : Int) - 1)
        + nbrTerm (0 < Z c ∧ k.val = 0) (hRow4 m c (ix3 0 i j)) := by
  unfold nbrTerm
  have hz := Z_lt c
  by_cases hk : k.val = 0
  · rw [rd_out (n0 := 48) (n1 := 48) (n2 := 48) (ublk m c) (i.val : Int) (j.val : Int) ((k.val : Int) - 1) (by omega), zero_add]
    by_cases hZ : 0 < Z c
    · rw [if_pos ⟨hZ, hk⟩, hRow4_apply m U hU c hZ i j,
        show (48 * (Z c : Int) + (k.val : Int) - 1) = 48 * (Z c : Int) - 1 by omega]
    · rw [if_neg (fun h => hZ h.1)]
      exact rd_out U _ _ _ (by omega)
  · rw [if_neg (fun h => hk h.2), add_zero,
      rd_block m U hU c (i.val : Int) (j.val : Int) ((k.val : Int) - 1) (by omega) (by omega) (by omega),
      show (48 * (Z c : Int) + ((k.val : Int) - 1)) = 48 * (Z c : Int) + (k.val : Int) - 1 by omega]

theorem rdU_zp :
    Cert.Halo.rd U (48 * (X c : Int) + (i.val : Int)) (48 * (Y c : Int) + (j.val : Int)) (48 * (Z c : Int) + (k.val : Int) + 1)
      = Cert.Halo.rd (n0 := 48) (n1 := 48) (n2 := 48) (ublk m c) (i.val : Int) (j.val : Int) ((k.val : Int) + 1)
        + nbrTerm (Z c < 3 ∧ k.val = 47) (hRow5 m c (ix3 0 i j)) := by
  unfold nbrTerm
  have hz := Z_lt c
  by_cases hk : k.val = 47
  · rw [rd_out (n0 := 48) (n1 := 48) (n2 := 48) (ublk m c) (i.val : Int) (j.val : Int) ((k.val : Int) + 1) (by omega), zero_add]
    by_cases hZ : Z c < 3
    · rw [if_pos ⟨hZ, hk⟩, hRow5_apply m U hU c hZ i j,
        show (48 * (Z c : Int) + (k.val : Int) + 1) = 48 * (Z c : Int) + 48 by omega]
    · rw [if_neg (fun h => hZ h.1)]
      exact rd_out U _ _ _ (by omega)
  · rw [if_neg (fun h => hk h.2), add_zero,
      rd_block m U hU c (i.val : Int) (j.val : Int) ((k.val : Int) + 1) (by omega) (by omega) (by omega),
      show (48 * (Z c : Int) + ((k.val : Int) + 1)) = 48 * (Z c : Int) + (k.val : Int) + 1 by omega]

end Neighbours

theorem faceTerm_of_imp {app msk : Prop} [Decidable app] [Decidable msk] (h : EReal) (himp : app → msk) :
    faceTerm app msk h = 0 := by
  unfold faceTerm
  by_cases ha : app
  · rw [if_pos ha, if_pos (himp ha)]
  · rw [if_neg ha]

theorem faceTerm_of_not {app msk : Prop} [Decidable app] [Decidable msk] (h : EReal) (hn : ¬ msk) :
    faceTerm app msk h = nbrTerm app h := by
  unfold faceTerm nbrTerm
  rw [if_neg hn]

section Value
variable (m : (ℓ : Loc nD τ sig) → Buf (Elt Ideal) ℓ) (U : Cert.Halo.SW.Idx → EReal)
variable (hU : ∀ c : Dev nD, m ((c.tc : Thread nD τ).loc main_arg0)
    = Layout.blockN ⟨3, ![48, 48, 48]⟩ ⟨3, ![96, 96, 192]⟩ (Layout.meshBlock [2, 2, 4] ![[0], [1], [2]] c) U)
include hU

/-- A block's zero-padded stencil plus its neighbours' faces is the whole array's stencil; on the boundary both are zero. -/
theorem outAt_ix3 (c : Dev nD) (i j k : Fin 48) :
    outAt (F := Ideal) m c (ix3 i j k)
      = Cert.Halo.Gref U (tilesSW.idx (Layout.meshBlock [2, 2, 4] ![[0], [1], [2]] c) (ix3 i j k)) := by
  have hx := X_lt c
  have hy := Y_lt c
  have hz := Z_lt c
  unfold Cert.Halo.Gref
  rw [blockIdx_val0, blockIdx_val1, blockIdx_val2]
  push_cast
  rw [outAt_at, out0_at]
  by_cases hG : GB c i.val j.val k.val
  · have hG' := hG
    unfold GB at hG'
    have m0 : X c = 1 ∧ i.val = 0 → mk (f92 c) (f93 c) (f94 c) (f95 c) j.val k.val :=
      fun a => (mkYZ_iff c j.val k.val).mpr (by omega)
    have m1 : X c = 0 ∧ i.val = 47 → mk (f92 c) (f93 c) (f94 c) (f95 c) j.val k.val :=
      fun a => (mkYZ_iff c j.val k.val).mpr (by omega)
    have m2 : Y c = 1 ∧ j.val = 0 → mk (f90 c) (f91 c) (f94 c) (f95 c) i.val k.val :=
      fun a => (mkXZ_iff c i.val k.val).mpr (by omega)
    have m3 : Y c = 0 ∧ j.val = 47 → mk (f90 c) (f91 c) (f94 c) (f95 c) i.val k.val :=
      fun a => (mkXZ_iff c i.val k.val).mpr (by omega)
    have m4 : 0 < Z c ∧ k.val = 0 → mk (f90 c) (f91 c) (f92 c) (f93 c) i.val j.val :=
      fun a => (mkXY_iff c i.val j.val).mpr (by omega)
    have m5 : Z c < 3 ∧ k.val = 47 → mk (f90 c) (f91 c) (f92 c) (f93 c) i.val j.val :=
      fun a => (mkXY_iff c i.val j.val).mpr (by omega)
    rw [if_pos hG, if_neg (fun hI => (interior_iff c i j k).mp hI hG'), faceTerm_of_imp _ m0, faceTerm_of_imp _ m1,
      faceTerm_of_imp _ m2, faceTerm_of_imp _ m3, faceTerm_of_imp _ m4, faceTerm_of_imp _ m5]
    simp only [add_zero]
  · have n0 : ¬ mk (f92 c) (f93 c) (f94 c) (f95 c) j.val k.val := fun hm => hG (by
      have := (mkYZ_iff c j.val k.val).mp hm
      unfold GB; omega)
    have n1 : ¬ mk (f90 c) (f91 c) (f94 c) (f95 c) i.val k.val := fun hm => hG (by
      have := (mkXZ_iff c i.val k.val).mp hm
      unfold GB; omega)
    have n2 : ¬ mk (f90 c) (f91 c) (f92 c) (f93 c) i.val j.val := fun hm => hG (by
      have := (mkXY_iff c i.val j.val).mp hm
      unfold GB; omega)
    rw [if_neg hG, if_pos ((interior_iff c i j k).mpr hG), faceTerm_of_not _ n0, faceTerm_of_not _ n0,
      faceTerm_of_not _ n1, faceTerm_of_not _ n1, faceTerm_of_not _ n2, faceTerm_of_not _ n2]
    unfold Cert.Halo.sten
    rw [rdU_xm m U hU c i j k, rdU_xp m U hU c i j k, rdU_ym m U hU c i j k, rdU_yp m U hU c i j k,
      rdU_zm m U hU c i j k, rdU_zp m U hU c i j k, rdU_c m U hU c i j k]
    simp only [sub_eq_add_neg]
    ac_rfl

/-- Device `c` ends with block `c` of the whole array's stencil. -/
theorem outAt_eq_block (c : Dev nD) :
    outAt (F := Ideal) m c
      = Layout.blockN ⟨3, ![48, 48, 48]⟩ ⟨3, ![96, 96, 192]⟩ (Layout.meshBlock [2, 2, 4] ![[0], [1], [2]] c) (Cert.Halo.Gref U) := by
  funext x
  obtain ⟨i, j, k, rfl⟩ : ∃ (i j k : Fin 48), x = ix3 i j k := ⟨x 0, x 1, x 2, eq_ix3 (n0 := 48) (n1 := 48) (n2 := 48) x⟩
  exact outAt_ix3 m U hU c i j k

end Value

end Cert.KernelIdeal.Halo

end
-- ==== Proof.RefValue.lean ====
import proofs.«900536_g7700000000000537_dist_halo3d_v7x_xyz2x2x4_s48_bf16_1_alg».proof.Defs
import proofs.«900536_g7700000000000537_dist_halo3d_v7x_xyz2x2x4_s48_bf16_1_alg».proof.Proof.Gen.ReferenceIdeal
import proofs.«900536_g7700000000000537_dist_halo3d_v7x_xyz2x2x4_s48_bf16_1_alg».proof.Proof.Gen.ReferenceIdeal.Run
import proofs.«900536_g7700000000000537_dist_halo3d_v7x_xyz2x2x4_s48_bf16_1_alg».proof.Proof.Gen.ReferenceIdeal.Read
import proofs.«900536_g7700000000000537_dist_halo3d_v7x_xyz2x2x4_s48_bf16_1_alg».proof.Proof.Spec
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem
open Cert.ReferenceIdeal Cert.ReferenceIdeal.Gen Cert.ReferenceIdeal.Value
open Cert.ReferenceIdeal.Read Idealize.ShloMosaic.ValueIdx

theorem foldl_set_of_forall_ne {κ ι α : Type} [DecidableEq ι] (g : κ → ι) (v : κ → α) (i : ι) :
    ∀ (l : List κ) (x : ι → α), (∀ n ∈ l, g n ≠ i) →
      l.foldl (fun r n => fun i' => if i' = g n then v n else r i') x i = x i
  | [], _, _ => rfl
  | a :: l, x, h => by
    rw [List.foldl_cons, foldl_set_of_forall_ne g v i l _ (fun n hn => h n (List.mem_cons_of_mem _ hn))]
    exact if_neg (fun e => h a (List.mem_cons_self ..) e.symm)

theorem foldl_set_of_mem {κ ι α : Type} [DecidableEq ι] (g : κ → ι) (hg : Function.Injective g) (v : κ → α) (n : κ) :
    ∀ (l : List κ) (x : ι → α), l.Nodup → n ∈ l →
      l.foldl (fun r n => fun i' => if i' = g n then v n else r i') x (g n) = v n
  | [], _, _, h => absurd h (List.not_mem_nil)
  | a :: l, x, hnd, h => by
    rw [List.foldl_cons]
    rcases List.mem_cons.1 h with rfl | hm
    · rw [foldl_set_of_forall_ne g v (g n) l _ (fun k hk e => (List.nodup_cons.1 hnd).1 (hg e ▸ hk))]
      exact if_pos rfl
    · exact foldl_set_of_mem g hg v n l _ (List.nodup_cons.1 hnd).2 hm

section Scatter
variable {s si u : Shape} {w : Nat} {α : Type}

theorem scatter_set_eq_foldl (d : ScatterDims s si u) (x : s.Idx → α) (idx : IVec si w) (upd : u.Idx → α)
    (g : u.Idx → s.Idx) (hland : ∀ j, d.resultIdx? j idx = some (g j)) :
    Host.scatter d (fun _ b => b) x idx upd
      = (List.finRange u.numel).foldl (fun r n => fun i' =>
          if i' = g (u.rowMajor.symm n) then upd (u.rowMajor.symm n) else r i') x := by
  unfold Host.scatter
  congr 1
  funext r n
  rw [hland]

theorem scatter_set_apply_land (d : ScatterDims s si u) (x : s.Idx → α) (idx : IVec si w) (upd : u.Idx → α)
    (g : u.Idx → s.Idx) (hland : ∀ j, d.resultIdx? j idx = some (g j)) (hg : Function.Injective g) (j : u.Idx) :
    Host.scatter d (fun _ b => b) x idx upd (g j) = upd j := by
  rw [scatter_set_eq_foldl d x idx upd g hland]
  have := foldl_set_of_mem (fun n => g (u.rowMajor.symm n)) (hg.comp u.rowMajor.symm.injective)
    (fun n => upd (u.rowMajor.symm n)) (u.rowMajor j) (List.finRange u.numel) x (List.nodup_finRange _) (List.mem_finRange _)
  simpa using this

theorem scatter_set_apply_off (d : ScatterDims s si u) (x : s.Idx → α) (idx : IVec si w) (upd : u.Idx → α)
    (g : u.Idx → s.Idx) (hland : ∀ j, d.resultIdx? j idx = some (g j)) (i : s.Idx) (hi : ∀ j, g j ≠ i) :
    Host.scatter d (fun _ b => b) x idx upd i = x i := by
  rw [scatter_set_eq_foldl d x idx upd g hland]
  exact foldl_set_of_forall_ne _ _ i _ x (fun n _ => hi _)

end Scatter

theorem forall_axis3 {P : Fin 3 → Prop} (h0 : P 0) (h1 : P 1) (h2 : P 2) : ∀ a, P a
  | ⟨0, _⟩ => h0
  | ⟨1, _⟩ => h1
  | ⟨2, _⟩ => h2

abbrev dS : ScatterDims S96x96x192 S3 S94x94x190 := scatter_S96x96x192_S3_S94x94x190_012_n_012_0

theorem starts_one (k : S3.Idx) : val_main_v19 (F := Ideal) k = 1#32 := by
  obtain ⟨a, rfl⟩ : ∃ a : Fin 3, k = ix1 a := ⟨k 0, eq_ix1 k⟩
  match a with
  | ⟨0, _⟩ => rfl
  | ⟨1, _⟩ => rfl
  | ⟨2, _⟩ => rfl

def land (j : S94x94x190.Idx) : S96x96x192.Idx :=
  ix3 ⟨(j 0).val + 1, by have h : (j 0).val < 94 := (j 0).isLt; show _ < 96; omega⟩
      ⟨(j 1).val + 1, by have h : (j 1).val < 94 := (j 1).isLt; show _ < 96; omega⟩
      ⟨(j 2).val + 1, by have h : (j 2).val < 190 := (j 2).isLt; show _ < 192; omega⟩

theorem land_val (j : S94x94x190.Idx) : ∀ a : Fin S96x96x192.rank, (land j a).val = (j a).val + 1 :=
  forall_axis3 rfl rfl rfl

theorem land_lt (j : S94x94x190.Idx) : ∀ a : Fin S96x96x192.rank, (j a).val + 1 < S96x96x192.size a :=
  forall_axis3 (by have h : (j 0).val < 94 := (j 0).isLt; show _ < 96; omega)
    (by have h : (j 1).val < 94 := (j 1).isLt; show _ < 96; omega)
    (by have h : (j 2).val < 190 := (j 2).isLt; show _ < 192; omega)

theorem land_injective : Function.Injective land := by
  intro j j' h
  funext a
  apply Fin.ext
  have := congrArg (fun i : S96x96x192.Idx => (i a).val) h
  simp only [land_val] at this
  omega

theorem start_one (j : S94x94x190.Idx) (a : Fin S96x96x192.rank) :
    dS.start j (val_main_v19 (F := Ideal)) a = 1 := by
  unfold ScatterDims.start
  have ha : a ∈ dS.scatterDimsToOperandDims := by
    revert a
    exact forall_axis3 (by decide) (by decide) (by decide)
  rw [dif_pos ha, starts_one]
  rfl

theorem window_val (j : S94x94x190.Idx) : ∀ a : Fin S96x96x192.rank, dS.window j a = (j a).val :=
  forall_axis3 rfl rfl rfl

theorem resultIdx_land (j : S94x94x190.Idx) :
    dS.resultIdx? j (val_main_v19 (F := Ideal)) = some (land j) := by
  unfold ScatterDims.resultIdx?
  rw [dif_pos (fun a => by rw [start_one, window_val]; have := land_lt j a; omega)]
  congr 1
  funext a
  apply Fin.ext
  show (dS.start j (val_main_v19 (F := Ideal)) a + dS.window j a).toNat = _
  rw [start_one, window_val, land_val]
  omega

theorem v20_land (x0 : (⟨S96x96x192, .f32⟩ : BufTy).Contents (Elt Ideal)) (j : S94x94x190.Idx) :
    val_main_v20 (F := Ideal) x0 (land j) = val_main_v15 (F := Ideal) x0 j :=
  scatter_set_apply_land dS _ _ _ land resultIdx_land land_injective j

theorem v20_off (x0 : (⟨S96x96x192, .f32⟩ : BufTy).Contents (Elt Ideal)) (i : S96x96x192.Idx) (hi : ∀ j, land j ≠ i) :
    val_main_v20 (F := Ideal) x0 i = val_main_v0 (F := Ideal) i :=
  scatter_set_apply_off dS _ _ _ land resultIdx_land i hi

theorem ofBits_six : Ideal.ofBits .f32 0x40C00000#32 = (6 : EReal) := by
  have h : Ideal.ofBits .f32 0x40C00000#32 = ((6 : ℝ) : EReal) := by
    simp [Ideal.ofBits, Ideal.ieee, -EReal.coe_mul]; norm_num
  rw [h]; rfl

theorem rd_eq {n0 n1 n2 : Nat} (u : (⟨3, ![n0, n1, n2]⟩ : Shape).Idx → EReal) (k : (⟨3, ![n0, n1, n2]⟩ : Shape).Idx)
    (a b c : Int) (ha : a = (k 0).val) (hb : b = (k 1).val) (hc : c = (k 2).val) : Cert.Halo.rd u a b c = u k := by
  have h0 : (k 0).val < n0 := (k 0).isLt
  have h1 : (k 1).val < n1 := (k 1).isLt
  have h2 : (k 2).val < n2 := (k 2).isLt
  subst ha hb hc
  unfold Cert.Halo.rd
  rw [dif_pos ⟨⟨by omega, by omega⟩, ⟨by omega, by omega⟩, ⟨by omega, by omega⟩⟩]
  congr 1
  funext d
  apply Fin.ext
  revert d
  exact forall_axis3 (Int.toNat_natCast _) (Int.toNat_natCast _) (Int.toNat_natCast _)

theorem v21_eq_Gref (u : (⟨S96x96x192, .f32⟩ : BufTy).Contents (Elt Ideal)) :
    val_main_v21 (F := Ideal) u = Cert.Halo.Gref u := by
  funext i
  obtain ⟨a, b, c, rfl⟩ : ∃ (a : Fin 96) (b : Fin 96) (c : Fin 192), i = ix3 a b c := ⟨i 0, i 1, i 2, eq_ix3 i⟩
  have ha : a.val < 96 := a.isLt
  have hb : b.val < 96 := b.isLt
  have hc : c.val < 192 := c.isLt
  rw [val_main_v21_apply, Ideal.truncf_def]
  show val_main_v20 (F := Ideal) u (ix3 a b c)
    = if Cert.Halo.interior 96 96 192 (a.val : Int) (b.val : Int) (c.val : Int) then
        Cert.Halo.sten u (a.val : Int) (b.val : Int) (c.val : Int) else 0
  by_cases hI : Cert.Halo.interior 96 96 192 (a.val : Int) (b.val : Int) (c.val : Int)
  · rw [if_pos hI]
    obtain ⟨⟨h0, h0'⟩, ⟨h1, h1'⟩, ⟨h2, h2'⟩⟩ := hI

    obtain ⟨p, hp⟩ : ∃ p : Fin 94, p.val + 1 = a.val := ⟨⟨a.val - 1, by omega⟩, by show a.val - 1 + 1 = a.val; omega⟩
    obtain ⟨q, hq⟩ : ∃ q : Fin 94, q.val + 1 = b.val := ⟨⟨b.val - 1, by omega⟩, by show b.val - 1 + 1 = b.val; omega⟩
    obtain ⟨r, hr⟩ : ∃ r : Fin 190, r.val + 1 = c.val := ⟨⟨c.val - 1, by omega⟩, by show c.val - 1 + 1 = c.val; omega⟩
    have hj : ix3 a b c = land (ix3 p q r) := by
      funext d
      apply Fin.ext
      revert d
      exact forall_axis3 hp.symm hq.symm hr.symm
    rw [hj, v20_land, val_main_v15_apply, val_main_v11_apply, val_main_v9_apply, val_main_v7_apply, val_main_v5_apply,
      val_main_v3_apply, val_main_v1_apply, val_main_v2_apply, val_main_v4_apply, val_main_v6_apply, val_main_v8_apply,
      val_main_v10_apply, val_main_v14_apply, val_main_v13_apply, val_main_cst_0_apply, val_main_v12_apply]
    simp only [Ideal.subf_def, Ideal.addf_def, Ideal.mulf_def, Ideal.ofBits_def, ofBits_six]
    unfold Cert.Halo.sten

    rw [rd_eq u (idx_main_v1 (ix3 p q r)) _ _ _ (by show (a.val : Int) - 1 = ((p.val : Nat) : Int); omega)
          (by show (b.val : Int) = ((1 + q.val : Nat) : Int); omega)
          (by show (c.val : Int) = ((1 + r.val : Nat) : Int); omega),
      rd_eq u (idx_main_v2 (ix3 p q r)) _ _ _ (by show (a.val : Int) + 1 = ((2 + p.val : Nat) : Int); omega)
          (by show (b.val : Int) = ((1 + q.val : Nat) : Int); omega)
          (by show (c.val : Int) = ((1 + r.val : Nat) : Int); omega),
      rd_eq u (idx_main_v4 (ix3 p q r)) _ _ _ (by show (a.val : Int) = ((1 + p.val : Nat) : Int); omega)
          (by show (b.val : Int) - 1 = ((q.val : Nat) : Int); omega)
          (by show (c.val : Int) = ((1 + r.val : Nat) : Int); omega),
      rd_eq u (idx_main_v6 (ix3 p q r)) _ _ _ (by show (a.val : Int) = ((1 + p.val : Nat) : Int); omega)
          (by show (b.val : Int) + 1 = ((2 + q.val : Nat) : Int); omega)
          (by show (c.val : Int) = ((1 + r.val : Nat) : Int); omega),
      rd_eq u (idx_main_v8 (ix3 p q r)) _ _ _ (by show (a.val : Int) = ((1 + p.val : Nat) : Int); omega)
          (by show (b.val : Int) = ((1 + q.val : Nat) : Int); omega)
          (by show (c.val : Int) - 1 = ((r.val : Nat) : Int); omega),
      rd_eq u (idx_main_v10 (ix3 p q r)) _ _ _ (by show (a.val : Int) = ((1 + p.val : Nat) : Int); omega)
          (by show (b.val : Int) = ((1 + q.val : Nat) : Int); omega)
          (by show (c.val : Int) + 1 = ((2 + r.val : Nat) : Int); omega),
      rd_eq u (idx_main_v12 (ix3 p q r)) _ _ _ (by show (a.val : Int) = ((1 + p.val : Nat) : Int); omega)
          (by show (b.val : Int) = ((1 + q.val : Nat) : Int); omega)
          (by show (c.val : Int) = ((1 + r.val : Nat) : Int); omega)]
  · rw [if_neg hI]
    have hoff : ∀ j, land j ≠ ix3 a b c := by
      intro j e
      apply hI
      have e0 : (j 0).val + 1 = a.val := congrArg (fun i : S96x96x192.Idx => (i 0).val) e
      have e1 : (j 1).val + 1 = b.val := congrArg (fun i : S96x96x192.Idx => (i 1).val) e
      have e2 : (j 2).val + 1 = c.val := congrArg (fun i : S96x96x192.Idx => (i 2).val) e
      have l0 : (j 0).val < 94 := (j 0).isLt
      have l1 : (j 1).val < 94 := (j 1).isLt
      have l2 : (j 2).val < 190 := (j 2).isLt
      exact ⟨⟨by omega, by omega⟩, ⟨by omega, by omega⟩, ⟨by omega, by omega⟩⟩
    rw [v20_off u _ hoff, val_main_v0_apply, val_main_cst_apply, Ideal.ofBits_def, Ideal.ofBits_zero_f32]

/-- The reference's run ends at `Gref` of its input, the input unchanged. -/
theorem ref_value (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r =>
      r.2.mem (((0 : Dev nD).tc : Thread nD τ).loc main_v21) = Cert.Halo.Gref (m' (((0 : Dev nD).tc : Thread nD τ).loc main_arg0))
      ∧ r.2.mem (((0 : Dev nD).tc : Thread nD τ).loc main_arg0) = m' (((0 : Dev nD).tc : Thread nD τ).loc main_arg0)) :=
  (θ_run (Cert.ReferenceIdeal.defs (F := Ideal)) _ _).mono
    (fun _ h => ⟨(h 0).1.trans ((val_main_v21_eq _).trans (v21_eq_Gref _)), (h 0).2⟩)
    (Cert.ReferenceIdeal.Value.run (F := Ideal) m' ρ')

theorem ref_frame (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r =>
      ∀ c : Dev nD, r.2.mem ((c.tc : Thread nD τ).loc main_arg0) = m' ((c.tc : Thread nD τ).loc main_arg0)) :=
  (θ_run (Cert.ReferenceIdeal.defs (F := Ideal)) _ _).mono (fun _ h c => (h c).2)
    (Cert.ReferenceIdeal.Value.run (F := Ideal) m' ρ')

end Cert.ReferenceIdeal.RefValue

end
-- ==== Proof.lean ====
import proofs.«900536_g7700000000000537_dist_halo3d_v7x_xyz2x2x4_s48_bf16_1_alg».proof.Defs
import proofs.«900536_g7700000000000537_dist_halo3d_v7x_xyz2x2x4_s48_bf16_1_alg».proof.Proof.Gen.Kernel
import proofs.«900536_g7700000000000537_dist_halo3d_v7x_xyz2x2x4_s48_bf16_1_alg».proof.Proof.Gen.KernelIdeal
import proofs.«900536_g7700000000000537_dist_halo3d_v7x_xyz2x2x4_s48_bf16_1_alg».proof.Proof.Gen.ReferenceIdeal
import proofs.«900536_g7700000000000537_dist_halo3d_v7x_xyz2x2x4_s48_bf16_1_alg».proof.Proof.Gen.Pre_finite_inputs_Kernel
import proofs.«900536_g7700000000000537_dist_halo3d_v7x_xyz2x2x4_s48_bf16_1_alg».proof.Proof.Gen.Pre_finite_inputs_ReferenceIdeal
import proofs.«900536_g7700000000000537_dist_halo3d_v7x_xyz2x2x4_s48_bf16_1_alg».proof.Proof.Launch
import proofs.«900536_g7700000000000537_dist_halo3d_v7x_xyz2x2x4_s48_bf16_1_alg».proof.Proof.Body
import proofs.«900536_g7700000000000537_dist_halo3d_v7x_xyz2x2x4_s48_bf16_1_alg».proof.Proof.K.Launch
import proofs.«900536_g7700000000000537_dist_halo3d_v7x_xyz2x2x4_s48_bf16_1_alg».proof.Proof.K.Body
import proofs.«900536_g7700000000000537_dist_halo3d_v7x_xyz2x2x4_s48_bf16_1_alg».proof.Proof.ValueOut
import proofs.«900536_g7700000000000537_dist_halo3d_v7x_xyz2x2x4_s48_bf16_1_alg».proof.Proof.RefValue
import Idealize.ShloMosaic.Adequacy
import Idealize.ShloMosaic.Init

noncomputable section

namespace Cert.Proof

open Idealize.ShloMosaic Idealize.SL.Sem

/-- Both kernels' frames are one run with the value dropped; the values meet at `outAt_eq_block`; the idealization rewrote nothing. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  refine ⟨?_, ?_, ?_, trivial, ?_⟩
  ·
    intro m g _
    exact (θ_run _ _ _).mono (fun _ h c => (h c).2) (Cert.Kernel.Halo.run_main (F := Bits) m g (fun c => Cert.Kernel.Halo.body_sound m c))
  ·
    intro m g _
    exact (θ_run _ _ _).mono (fun _ h c => (h c).2) (Cert.KernelIdeal.Halo.run_main (F := Ideal) m g (fun c => Cert.KernelIdeal.Halo.body_sound m c))
  ·
    intro m g _
    exact Cert.ReferenceIdeal.RefValue.ref_frame m g
  ·
    intro m g m' g' _ hagree
    refine ⟨Cert.Halo.Gref (m' (((0 : Dev Cert.ReferenceIdeal.nD).tc : Thread Cert.ReferenceIdeal.nD Cert.ReferenceIdeal.τ).loc Cert.ReferenceIdeal.main_arg0)), ?_, ?_⟩
    · exact (θ_run _ _ _).mono (fun _ h c => ⟨(h c).1.trans (Cert.KernelIdeal.Halo.outAt_eq_block m _ hagree c), (h c).2⟩) (Cert.KernelIdeal.Halo.run_main (F := Ideal) m g (fun c => Cert.KernelIdeal.Halo.body_sound m c))
    · exact Cert.ReferenceIdeal.RefValue.ref_value m' g'⟩

end Cert.Proof

end
